-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S400000x16 : Shape := ⟨2, ![400000, 16]⟩
abbrev S8x1 : Shape := ⟨2, ![8, 1]⟩
abbrev S32x128 : Shape := ⟨2, ![32, 128]⟩
abbrev S128 : Shape := ⟨1, ![128]⟩
abbrev S16x128 : Shape := ⟨2, ![16, 128]⟩
abbrev S1x128 : Shape := ⟨2, ![1, 128]⟩
abbrev S3x384x128 : Shape := ⟨3, ![3, 384, 128]⟩
abbrev S3x128 : Shape := ⟨2, ![3, 128]⟩
abbrev S3x128x128 : Shape := ⟨3, ![3, 128, 128]⟩
abbrev S3x256x128 : Shape := ⟨3, ![3, 256, 128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x400000 : Shape := ⟨2, ![2, 400000]⟩
abbrev S50000 : Shape := ⟨1, ![50000]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S400000x16 : S_.BroadcastsInDim S400000x16 (![] : Fin 0 → Fin S400000x16.rank)
  reducesTo_S400000x16_S_d0_1 : S400000x16.ReducesTo [0, 1] S_
  bcast_S_S8x1 : S_.BroadcastsInDim S8x1 (![] : Fin 0 → Fin S8x1.rank)
  reducesTo_S8x1_S_d0_1 : S8x1.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S1x128 : S_.BroadcastsInDim S1x128 (![] : Fin 0 → Fin S1x128.rank)
  reducesTo_S1x128_S_d0_1 : S1x128.ReducesTo [0, 1] S_
  bcast_S_S3x384x128 : S_.BroadcastsInDim S3x384x128 (![] : Fin 0 → Fin S3x384x128.rank)
  reducesTo_S3x384x128_S_d0_1_2 : S3x384x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x256x128 : S_.BroadcastsInDim S3x256x128 (![] : Fin 0 → Fin S3x256x128.rank)
  reducesTo_S3x256x128_S_d0_1_2 : S3x256x128.ReducesTo [0, 1, 2] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x400000 : S_.BroadcastsInDim S2x400000 (![] : Fin 0 → Fin S2x400000.rank)
  reducesTo_S2x400000_S_d0_1 : S2x400000.ReducesTo [0, 1] S_

variable [Facts]

def fn_part7 {F : FTy → Type} [FloatOps F] (main_v113 : IVec S_ 1) (main_v118 : IVec S2x400000 1) (main_c_46 : IVec S_ 1) : IVec S_ 1 :=
  let main_v119 : IVec S_ 1 := (fun x v => Host.reduce IntOp.andi x v reducesTo_S2x400000_S_d0_1 h_S_) main_v118 main_c_46
  let main_v120 : IVec S_ 1 := andi main_v113 main_v119
  main_v120

def fn_part6 {F : FTy → Type} [FloatOps F] (main_arg21 : FVec F S64x1 .f32) (main_arg22 : FVec F S1 .f32) (main_arg23 : IVec S2x400000 32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x1 .f32 := Host.absf main_arg21
  let main_cst_40 : FVec F S_ .f32 := constant S_ .f32 0x7F800000#32
  let main_v105 : FVec F S64x1 .f32 := broadcastInDim S64x1 ![] bcast_S_S64x1 main_cst_40
  let main_v106 : IVec S64x1 1 := cmpf .olt main_v104 main_v105
  let main_c_41 : IVec S_ 1 := constantI S_ 1 1#1
  let main_v107 : IVec S_ 1 := (fun x v => Host.reduce IntOp.andi x v reducesTo_S64x1_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_c_44 : IVec S_ 32 := constantI S_ 32 4294917296#32
  let main_v114 : IVec S2x400000 32 := broadcastInDim S2x400000 ![] bcast_S_S2x400000 main_c_44
  let main_v115 : IVec S2x400000 1 := cmpi .sge main_arg23 main_v114
  let main_c_45 : IVec S_ 32 := constantI S_ 32 50000#32
  let main_v116 : IVec S2x400000 32 := broadcastInDim S2x400000 ![] bcast_S_S2x400000 main_c_45
  let main_v117 : IVec S2x400000 1 := cmpi .slt main_arg23 main_v116
  let main_v118 : IVec S2x400000 1 := andi main_v115 main_v117
  let main_c_46 : IVec S_ 1 := constantI S_ 1 1#1
  fn_part7 (F := F) main_v113 main_v118 main_c_46

def fn_part5 {F : FTy → Type} [FloatOps F] (main_arg18 : FVec F S128 .f32) (main_arg19 : FVec F S128x64 .f32) (main_arg20 : FVec F S64 .f32) (main_arg21 : FVec F S64x1 .f32) (main_arg22 : FVec F S1 .f32) (main_arg23 : IVec S2x400000 32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x64 .f32 := Host.absf main_arg19
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S3x128 .f32) (main_arg15 : FVec F S3x128x128 .f32) (main_arg16 : FVec F S3x128 .f32) (main_arg17 : FVec F S256x128 .f32) (main_arg18 : FVec F S128 .f32) (main_arg19 : FVec F S128x64 .f32) (main_arg20 : FVec F S64 .f32) (main_arg21 : FVec F S64x1 .f32) (main_arg22 : FVec F S1 .f32) (main_arg23 : IVec S2x400000 32) (main_v63 : IVec S_ 1) (main_v67 : IVec S_ 1) : IVec S_ 1 :=
  let main_v68 : IVec S_ 1 := andi main_v63 main_v67
  let main_v69 : FVec F S3x128 .f32 := Host.absf main_arg14
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128x128 .f32 := Host.absf main_arg15
  let main_cst_28 : FVec F S_ .f32 := constant S_ .f32 0x7F800000#32
  let main_v75 : FVec F S3x128x128 .f32 := broadcastInDim S3x128x128 ![] bcast_S_S3x128x128 main_cst_28
  let main_v76 : IVec S3x128x128 1 := cmpf .olt main_v74 main_v75
  let main_c_29 : IVec S_ 1 := constantI S_ 1 1#1
  let main_v77 : IVec S_ 1 := (fun x v => Host.reduce IntOp.andi x v reducesTo_S3x128x128_S_d0_1_2 h_S_) main_v76 main_c_29
  let main_v78 : IVec S_ 1 := andi main_v73 main_v77
  let main_v79 : FVec F S3x128 .f32 := Host.absf main_arg16
  let main_cst_30 : FVec F S_ .f32 := constant S_ .f32 0x7F800000#32
  let main_v80 : FVec F S3x128 .f32 := broadcastInDim S3x128 ![] bcast_S_S3x128 main_cst_30
  let main_v81 : IVec S3x128 1 := cmpf .olt main_v79 main_v80
  let main_c_31 : IVec S_ 1 := constantI S_ 1 1#1
  let main_v82 : IVec S_ 1 := (fun x v => Host.reduce IntOp.andi x v reducesTo_S3x128_S_d0_1 h_S_) main_v81 main_c_31
  let main_v83 : IVec S_ 1 := andi main_v78 main_v82
  let main_v84 : FVec F S256x128 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S3x128x128 .f32) (main_arg12 : FVec F S3x128 .f32) (main_arg13 : FVec F S3x256x128 .f32) (main_arg14 : FVec F S3x128 .f32) (main_arg15 : FVec F S3x128x128 .f32) (main_arg16 : FVec F S3x128 .f32) (main_arg17 : FVec F S256x128 .f32) (main_arg18 : FVec F S128 .f32) (main_arg19 : FVec F S128x64 .f32) (main_arg20 : FVec F S64 .f32) (main_arg21 : FVec F S64x1 .f32) (main_arg22 : FVec F S1 .f32) (main_arg23 : IVec S2x400000 32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128x128 .f32 := Host.absf main_arg11
  let main_cst_20 : FVec F S_ .f32 := constant S_ .f32 0x7F800000#32
  let main_v55 : FVec F S3x128x128 .f32 := broadcastInDim S3x128x128 ![] bcast_S_S3x128x128 main_cst_20
  let main_v56 : IVec S3x128x128 1 := cmpf .olt main_v54 main_v55
  let main_c_21 : IVec S_ 1 := constantI S_ 1 1#1
  let main_v57 : IVec S_ 1 := (fun x v => Host.reduce IntOp.andi x v reducesTo_S3x128x128_S_d0_1_2 h_S_) main_v56 main_c_21
  let main_v58 : IVec S_ 1 := andi main_v53 main_v57
  let main_v59 : FVec F S3x128 .f32 := Host.absf main_arg12
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S3x256x128 .f32 := Host.absf main_arg13
  let main_cst_24 : FVec F S_ .f32 := constant S_ .f32 0x7F800000#32
  let main_v65 : FVec F S3x256x128 .f32 := broadcastInDim S3x256x128 ![] bcast_S_S3x256x128 main_cst_24
  let main_v66 : IVec S3x256x128 1 := cmpf .olt main_v64 main_v65
  let main_c_25 : IVec S_ 1 := constantI S_ 1 1#1
  let main_v67 : IVec S_ 1 := (fun x v => Host.reduce IntOp.andi x v reducesTo_S3x256x128_S_d0_1_2 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S1x128 .f32) (main_arg8 : FVec F S128 .f32) (main_arg9 : FVec F S3x384x128 .f32) (main_arg10 : FVec F S3x128 .f32) (main_arg11 : FVec F S3x128x128 .f32) (main_arg12 : FVec F S3x128 .f32) (main_arg13 : FVec F S3x256x128 .f32) (main_arg14 : FVec F S3x128 .f32) (main_arg15 : FVec F S3x128x128 .f32) (main_arg16 : FVec F S3x128 .f32) (main_arg17 : FVec F S256x128 .f32) (main_arg18 : FVec F S128 .f32) (main_arg19 : FVec F S128x64 .f32) (main_arg20 : FVec F S64 .f32) (main_arg21 : FVec F S64x1 .f32) (main_arg22 : FVec F S1 .f32) (main_arg23 : IVec S2x400000 32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S3x384x128 .f32 := Host.absf main_arg9
  let main_cst_16 : FVec F S_ .f32 := constant S_ .f32 0x7F800000#32
  let main_v45 : FVec F S3x384x128 .f32 := broadcastInDim S3x384x128 ![] bcast_S_S3x384x128 main_cst_16
  let main_v46 : IVec S3x384x128 1 := cmpf .olt main_v44 main_v45
  let main_c_17 : IVec S_ 1 := constantI S_ 1 1#1
  let main_v47 : IVec S_ 1 := (fun x v => Host.reduce IntOp.andi x v reducesTo_S3x384x128_S_d0_1_2 h_S_) main_v46 main_c_17
  let main_v48 : IVec S_ 1 := andi main_v43 main_v47
  let main_v49 : FVec F S3x128 .f32 := Host.absf main_arg10
  let main_cst_18 : FVec F S_ .f32 := constant S_ .f32 0x7F800000#32
  let main_v50 : FVec F S3x128 .f32 := broadcastInDim S3x128 ![] bcast_S_S3x128 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S128 .f32) (main_arg5 : FVec F S16x128 .f32) (main_arg6 : FVec F S128 .f32) (main_arg7 : FVec F S1x128 .f32) (main_arg8 : FVec F S128 .f32) (main_arg9 : FVec F S3x384x128 .f32) (main_arg10 : FVec F S3x128 .f32) (main_arg11 : FVec F S3x128x128 .f32) (main_arg12 : FVec F S3x128 .f32) (main_arg13 : FVec F S3x256x128 .f32) (main_arg14 : FVec F S3x128 .f32) (main_arg15 : FVec F S3x128x128 .f32) (main_arg16 : FVec F S3x128 .f32) (main_arg17 : FVec F S256x128 .f32) (main_arg18 : FVec F S128 .f32) (main_arg19 : FVec F S128x64 .f32) (main_arg20 : FVec F S64 .f32) (main_arg21 : FVec F S64x1 .f32) (main_arg22 : FVec F S1 .f32) (main_arg23 : IVec S2x400000 32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S16x128 .f32 := Host.absf main_arg5
  let main_cst_8 : FVec F S_ .f32 := constant S_ .f32 0x7F800000#32
  let main_v25 : FVec F S16x128 .f32 := broadcastInDim S16x128 ![] bcast_S_S16x128 main_cst_8
  let main_v26 : IVec S16x128 1 := cmpf .olt main_v24 main_v25
  let main_c_9 : IVec S_ 1 := constantI S_ 1 1#1
  let main_v27 : IVec S_ 1 := (fun x v => Host.reduce IntOp.andi x v reducesTo_S16x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x32 .f32) (main_arg1 : FVec F S400000x16 .f32) (main_arg2 : FVec F S8x1 .f32) (main_arg3 : FVec F S32x128 .f32) (main_arg4 : FVec F S128 .f32) (main_arg5 : FVec F S16x128 .f32) (main_arg6 : FVec F S128 .f32) (main_arg7 : FVec F S1x128 .f32) (main_arg8 : FVec F S128 .f32) (main_arg9 : FVec F S3x384x128 .f32) (main_arg10 : FVec F S3x128 .f32) (main_arg11 : FVec F S3x128x128 .f32) (main_arg12 : FVec F S3x128 .f32) (main_arg13 : FVec F S3x256x128 .f32) (main_arg14 : FVec F S3x128 .f32) (main_arg15 : FVec F S3x128x128 .f32) (main_arg16 : FVec F S3x128 .f32) (main_arg17 : FVec F S256x128 .f32) (main_arg18 : FVec F S128 .f32) (main_arg19 : FVec F S128x64 .f32) (main_arg20 : FVec F S64 .f32) (main_arg21 : FVec F S64x1 .f32) (main_arg22 : FVec F S1 .f32) (main_arg23 : IVec S2x400000 32) (main_arg24 : IVec S50000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S400000x16 .f32 := Host.absf main_arg1
  let main_cst_0 : FVec F S_ .f32 := constant S_ .f32 0x7F800000#32
  let main_v5 : FVec F S400000x16 .f32 := broadcastInDim S400000x16 ![] bcast_S_S400000x16 main_cst_0
  let main_v6 : IVec S400000x16 1 := cmpf .olt main_v4 main_v5
  let main_c_1 : IVec S_ 1 := constantI S_ 1 1#1
  let main_v7 : IVec S_ 1 := (fun x v => Host.reduce IntOp.andi x v reducesTo_S400000x16_S_d0_1 h_S_) main_v6 main_c_1
  let main_v8 : IVec S_ 1 := andi main_v3 main_v7
  let main_v9 : FVec F S8x1 .f32 := Host.absf main_arg2
  let main_cst_2 : FVec F S_ .f32 := constant S_ .f32 0x7F800000#32
  let main_v10 : FVec F S8x1 .f32 := broadcastInDim S8x1 ![] bcast_S_S8x1 main_cst_2
  let main_v11 : IVec S8x1 1 := cmpf .olt main_v9 main_v10
  let main_c_3 : IVec S_ 1 := constantI S_ 1 1#1
  let main_v12 : IVec S_ 1 := (fun x v => Host.reduce IntOp.andi x v reducesTo_S8x1_S_d0_1 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x32 : Shape := ⟨2, ![50000, 32]⟩
abbrev S400000x16 : Shape := ⟨2, ![400000, 16]⟩
abbrev S8x1 : Shape := ⟨2, ![8, 1]⟩
abbrev S32x128 : Shape := ⟨2, ![32, 128]⟩
abbrev S128 : Shape := ⟨1, ![128]⟩
abbrev S16x128 : Shape := ⟨2, ![16, 128]⟩
abbrev S1x128 : Shape := ⟨2, ![1, 128]⟩
abbrev S3x384x128 : Shape := ⟨3, ![3, 384, 128]⟩
abbrev S3x128 : Shape := ⟨2, ![3, 128]⟩
abbrev S3x128x128 : Shape := ⟨3, ![3, 128, 128]⟩
abbrev S3x256x128 : Shape := ⟨3, ![3, 256, 128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x400000 : Shape := ⟨2, ![2, 400000]⟩
abbrev S50000 : Shape := ⟨1, ![50000]⟩
abbrev S50000x128 : Shape := ⟨2, ![50000, 128]⟩
abbrev S5000x32 : Shape := ⟨2, ![5000, 32]⟩
abbrev S5000x128 : Shape := ⟨2, ![5000, 128]⟩
abbrev S400000x128 : Shape := ⟨2, ![400000, 128]⟩
abbrev S4000x16 : Shape := ⟨2, ![4000, 16]⟩
abbrev S4000x128 : Shape := ⟨2, ![4000, 128]⟩
abbrev S8x128 : Shape := ⟨2, ![8, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S1x1 : Shape := ⟨2, ![1, 1]⟩
abbrev S1x128x128 : Shape := ⟨3, ![1, 128, 128]⟩
abbrev S128x128 : Shape := ⟨2, ![128, 128]⟩
abbrev S8 : Shape := ⟨1, ![8]⟩
abbrev S50000x1 : Shape := ⟨2, ![50000, 1]⟩
abbrev S8x256 : Shape := ⟨2, ![8, 256]⟩
abbrev S8x64 : Shape := ⟨2, ![8, 64]⟩
abbrev S1x64 : Shape := ⟨2, ![1, 64]⟩

abbrev nBuf : Space → Nat
  | .hbm => 333
  | .vmem => 87
  | .smem => 0
  | _ => 0

abbrev hbmTy0_0 (i : Nat) : BufTy := match i % 128 with
  | 0 => ⟨S50000x32, .f32⟩
  | 1 => ⟨S400000x16, .f32⟩
  | 2 => ⟨S8x1, .f32⟩
  | 3 => ⟨S32x128, .f32⟩
  | 4 => ⟨S128, .f32⟩
  | 5 => ⟨S16x128, .f32⟩
  | 6 => ⟨S128, .f32⟩
  | 7 => ⟨S1x128, .f32⟩
  | 8 => ⟨S128, .f32⟩
  | 9 => ⟨S3x384x128, .f32⟩
  | 10 => ⟨S3x128, .f32⟩
  | 11 => ⟨S3x128x128, .f32⟩
  | 12 => ⟨S3x128, .f32⟩
  | 13 => ⟨S3x256x128, .f32⟩
  | 14 => ⟨S3x128, .f32⟩
  | 15 => ⟨S3x128x128, .f32⟩
  | 16 => ⟨S3x128, .f32⟩
  | 17 => ⟨S256x128, .f32⟩
  | 18 => ⟨S128, .f32⟩
  | 19 => ⟨S128x64, .f32⟩
  | 20 => ⟨S64, .f32⟩
  | 21 => ⟨S64x1, .f32⟩
  | 22 => ⟨S1, .f32⟩
  | 23 => ⟨S2x400000, .i32⟩
  | 24 => ⟨S50000, .i32⟩
  | 25 => ⟨S1x128, .f32⟩
  | 26 => ⟨S50000x128, .f32⟩
  | 27 => ⟨S1x128, .f32⟩
  | 28 => ⟨S400000x128, .bf16⟩
  | 29 => ⟨S8x128, .f32⟩
  | 30 => ⟨S1x128, .f32⟩
  | 31 => ⟨S8x128, .f32⟩
  | 32 => ⟨S8x128, .f32⟩
  | 33 => ⟨S1x400000, .i32⟩
  | 34 => ⟨S400000, .i32⟩
  | 35 => ⟨S1x400000, .i32⟩
  | 36 => ⟨S400000, .i32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S1, .i32⟩
  | 46 => ⟨S_, .i32⟩
  | 47 => ⟨S400000x1, .i32⟩
  | 48 => ⟨S400000x1, .i1⟩
  | 49 => ⟨S1x1, .i32⟩
  | 50 => ⟨S400000x1, .i32⟩
  | 51 => ⟨S400000x1, .i1⟩
  | 52 => ⟨S400000x1, .i1⟩
  | 53 => ⟨S_, .i1⟩
  | 54 => ⟨S400000, .i1⟩
  | 55 => ⟨S400000x128, .f32⟩
  | 56 => ⟨S400000x128, .i1⟩
  | 57 => ⟨S_, .f32⟩
  | 58 => ⟨S400000x128, .f32⟩
  | 59 => ⟨S400000x128, .f32⟩
  | 60 => ⟨S400000x128, .bf16⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S1, .i32⟩
  | 70 => ⟨S_, .i32⟩
  | 71 => ⟨S400000x1, .i32⟩
  | 72 => ⟨S400000x1, .i1⟩
  | 73 => ⟨S1x1, .i32⟩
  | 74 => ⟨S400000x1, .i32⟩
  | 75 => ⟨S400000x1, .i1⟩
  | 76 => ⟨S400000x1, .i1⟩
  | 77 => ⟨S_, .i1⟩
  | 78 => ⟨S400000, .i1⟩
  | 79 => ⟨S400000x128, .f32⟩
  | 80 => ⟨S400000x128, .i1⟩
  | 81 => ⟨S_, .f32⟩
  | 82 => ⟨S400000x128, .f32⟩
  | 83 => ⟨S400000x128, .f32⟩
  | 84 => ⟨S400000x128, .bf16⟩
  | 85 => ⟨S1x128x128, .f32⟩
  | 86 => ⟨S128x128, .f32⟩
  | 87 => ⟨S128x128, .bf16⟩
  | 88 => ⟨S1x128x128, .f32⟩
  | 89 => ⟨S128x128, .f32⟩
  | 90 => ⟨S128x128, .bf16⟩
  | 91 => ⟨S1x128x128, .f32⟩
  | 92 => ⟨S128x128, .f32⟩
  | 93 => ⟨S128x128, .bf16⟩
  | 94 => ⟨S1x128, .f32⟩
  | 95 => ⟨S128, .f32⟩
  | 96 => ⟨S1x128x128, .f32⟩
  | 97 => ⟨S128x128, .f32⟩
  | 98 => ⟨S128x128, .bf16⟩
  | 99 => ⟨S1x128, .f32⟩
  | 100 => ⟨S128, .f32⟩
  | 101 => ⟨S1x128, .f32⟩
  | 102 => ⟨S1x128, .f32⟩
  | 103 => ⟨S400000x128, .f32⟩
  | 104 => ⟨S_, .f32⟩
  | 105 => ⟨S50000x128, .f32⟩
  | 106 => ⟨S400000x1, .i32⟩
  | 107 => ⟨S50000x128, .f32⟩
  | 108 => ⟨S1x128x128, .f32⟩
  | 109 => ⟨S128x128, .f32⟩
  | 110 => ⟨S128x128, .bf16⟩
  | 111 => ⟨S1x128x128, .f32⟩
  | 112 => ⟨S128x128, .f32⟩
  | 113 => ⟨S128x128, .bf16⟩
  | 114 => ⟨S1x128x128, .f32⟩
  | 115 => ⟨S128x128, .f32⟩
  | 116 => ⟨S128x128, .bf16⟩
  | 117 => ⟨S1x128, .f32⟩
  | 118 => ⟨S128, .f32⟩
  | 119 => ⟨S1x128, .f32⟩
  | 120 => ⟨S128, .f32⟩
  | 121 => ⟨S1x128, .f32⟩
  | 122 => ⟨S1x128, .f32⟩
  | 123 => ⟨S50000x128, .f32⟩
  | 124 => ⟨S_, .i32⟩
  | 125 => ⟨S400000, .i32⟩
  | 126 => ⟨S400000, .i1⟩
  | 127 => ⟨S_, .i32⟩
  | _ => ⟨S50000x32, .f32⟩

abbrev hbmTy0_1 (i : Nat) : BufTy := match i % 128 with
  | 0 => ⟨S400000, .i32⟩
  | 1 => ⟨S400000, .i32⟩
  | 2 => ⟨S400000, .i32⟩
  | 3 => ⟨S400000x1, .i32⟩
  | 4 => ⟨S1, .i32⟩
  | 5 => ⟨S_, .i32⟩
  | 6 => ⟨S400000x1, .i32⟩
  | 7 => ⟨S400000x1, .i1⟩
  | 8 => ⟨S1x1, .i32⟩
  | 9 => ⟨S400000x1, .i32⟩
  | 10 => ⟨S400000x1, .i1⟩
  | 11 => ⟨S400000x1, .i1⟩
  | 12 => ⟨S_, .i1⟩
  | 13 => ⟨S400000, .i1⟩
  | 14 => ⟨S400000x128, .f32⟩
  | 15 => ⟨S400000x128, .i1⟩
  | 16 => ⟨S_, .f32⟩
  | 17 => ⟨S400000x128, .f32⟩
  | 18 => ⟨S400000x128, .f32⟩
  | 19 => ⟨S400000x128, .bf16⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S1, .i32⟩
  | 29 => ⟨S_, .i32⟩
  | 30 => ⟨S400000x1, .i32⟩
  | 31 => ⟨S400000x1, .i1⟩
  | 32 => ⟨S1x1, .i32⟩
  | 33 => ⟨S400000x1, .i32⟩
  | 34 => ⟨S400000x1, .i1⟩
  | 35 => ⟨S400000x1, .i1⟩
  | 36 => ⟨S_, .i1⟩
  | 37 => ⟨S400000, .i1⟩
  | 38 => ⟨S400000x128, .f32⟩
  | 39 => ⟨S400000x128, .i1⟩
  | 40 => ⟨S_, .f32⟩
  | 41 => ⟨S400000x128, .f32⟩
  | 42 => ⟨S400000x128, .f32⟩
  | 43 => ⟨S400000x128, .bf16⟩
  | 44 => ⟨S1x128x128, .f32⟩
  | 45 => ⟨S128x128, .f32⟩
  | 46 => ⟨S128x128, .bf16⟩
  | 47 => ⟨S1x128x128, .f32⟩
  | 48 => ⟨S128x128, .f32⟩
  | 49 => ⟨S128x128, .bf16⟩
  | 50 => ⟨S1x128x128, .f32⟩
  | 51 => ⟨S128x128, .f32⟩
  | 52 => ⟨S128x128, .bf16⟩
  | 53 => ⟨S1x128, .f32⟩
  | 54 => ⟨S128, .f32⟩
  | 55 => ⟨S1x128x128, .f32⟩
  | 56 => ⟨S128x128, .f32⟩
  | 57 => ⟨S128x128, .bf16⟩
  | 58 => ⟨S1x128, .f32⟩
  | 59 => ⟨S128, .f32⟩
  | 60 => ⟨S1x128, .f32⟩
  | 61 => ⟨S1x128, .f32⟩
  | 62 => ⟨S400000x128, .f32⟩
  | 63 => ⟨S_, .f32⟩
  | 64 => ⟨S50000x128, .f32⟩
  | 65 => ⟨S400000x1, .i32⟩
  | 66 => ⟨S50000x128, .f32⟩
  | 67 => ⟨S1x128x128, .f32⟩
  | 68 => ⟨S128x128, .f32⟩
  | 69 => ⟨S128x128, .bf16⟩
  | 70 => ⟨S1x128x128, .f32⟩
  | 71 => ⟨S128x128, .f32⟩
  | 72 => ⟨S128x128, .bf16⟩
  | 73 => ⟨S1x128x128, .f32⟩
  | 74 => ⟨S128x128, .f32⟩
  | 75 => ⟨S128x128, .bf16⟩
  | 76 => ⟨S1x128, .f32⟩
  | 77 => ⟨S128, .f32⟩
  | 78 => ⟨S1x128, .f32⟩
  | 79 => ⟨S128, .f32⟩
  | 80 => ⟨S1x128, .f32⟩
  | 81 => ⟨S1x128, .f32⟩
  | 82 => ⟨S50000x128, .f32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S1, .i32⟩
  | 92 => ⟨S_, .i32⟩
  | 93 => ⟨S400000x1, .i32⟩
  | 94 => ⟨S400000x1, .i1⟩
  | 95 => ⟨S1x1, .i32⟩
  | 96 => ⟨S400000x1, .i32⟩
  | 97 => ⟨S400000x1, .i1⟩
  | 98 => ⟨S400000x1, .i1⟩
  | 99 => ⟨S_, .i1⟩
  | 100 => ⟨S400000, .i1⟩
  | 101 => ⟨S400000x128, .f32⟩
  | 102 => ⟨S400000x128, .i1⟩
  | 103 => ⟨S_, .f32⟩
  | 104 => ⟨S400000x128, .f32⟩
  | 105 => ⟨S400000x128, .f32⟩
  | 106 => ⟨S400000x128, .bf16⟩
  | 107 => ⟨S_, .i32⟩
  | 108 => ⟨S400000, .i32⟩
  | 109 => ⟨S400000, .i1⟩
  | 110 => ⟨S_, .i32⟩
  | 111 => ⟨S400000, .i32⟩
  | 112 => ⟨S400000, .i32⟩
  | 113 => ⟨S400000, .i32⟩
  | 114 => ⟨S400000x1, .i32⟩
  | 115 => ⟨S1, .i32⟩
  | 116 => ⟨S_, .i32⟩
  | 117 => ⟨S400000x1, .i32⟩
  | 118 => ⟨S400000x1, .i1⟩
  | 119 => ⟨S1x1, .i32⟩
  | 120 => ⟨S400000x1, .i32⟩
  | 121 => ⟨S400000x1, .i1⟩
  | 122 => ⟨S400000x1, .i1⟩
  | 123 => ⟨S_, .i1⟩
  | 124 => ⟨S400000, .i1⟩
  | 125 => ⟨S400000x128, .f32⟩
  | 126 => ⟨S400000x128, .i1⟩
  | 127 => ⟨S_, .f32⟩
  | _ => ⟨S50000x32, .f32⟩

abbrev hbmTy0_2 (i : Nat) : BufTy := match i % 128 with
  | 0 => ⟨S400000x128, .f32⟩
  | 1 => ⟨S400000x128, .f32⟩
  | 2 => ⟨S400000x128, .bf16⟩
  | 3 => ⟨S1x128x128, .f32⟩
  | 4 => ⟨S128x128, .f32⟩
  | 5 => ⟨S128x128, .bf16⟩
  | 6 => ⟨S1x128x128, .f32⟩
  | 7 => ⟨S128x128, .f32⟩
  | 8 => ⟨S128x128, .bf16⟩
  | 9 => ⟨S1x128x128, .f32⟩
  | 10 => ⟨S128x128, .f32⟩
  | 11 => ⟨S128x128, .bf16⟩
  | 12 => ⟨S1x128, .f32⟩
  | 13 => ⟨S128, .f32⟩
  | 14 => ⟨S1x128x128, .f32⟩
  | 15 => ⟨S128x128, .f32⟩
  | 16 => ⟨S128x128, .bf16⟩
  | 17 => ⟨S1x128, .f32⟩
  | 18 => ⟨S128, .f32⟩
  | 19 => ⟨S1x128, .f32⟩
  | 20 => ⟨S1x128, .f32⟩
  | 21 => ⟨S400000x128, .f32⟩
  | 22 => ⟨S_, .f32⟩
  | 23 => ⟨S50000x128, .f32⟩
  | 24 => ⟨S400000x1, .i32⟩
  | 25 => ⟨S50000x128, .f32⟩
  | 26 => ⟨S1x128x128, .f32⟩
  | 27 => ⟨S128x128, .f32⟩
  | 28 => ⟨S128x128, .bf16⟩
  | 29 => ⟨S1x128x128, .f32⟩
  | 30 => ⟨S128x128, .f32⟩
  | 31 => ⟨S128x128, .bf16⟩
  | 32 => ⟨S1x128x128, .f32⟩
  | 33 => ⟨S128x128, .f32⟩
  | 34 => ⟨S128x128, .bf16⟩
  | 35 => ⟨S1x128, .f32⟩
  | 36 => ⟨S128, .f32⟩
  | 37 => ⟨S1x128, .f32⟩
  | 38 => ⟨S128, .f32⟩
  | 39 => ⟨S1x128, .f32⟩
  | 40 => ⟨S1x128, .f32⟩
  | 41 => ⟨S50000x128, .f32⟩
  | 42 => ⟨S_, .f32⟩
  | 43 => ⟨S50000, .f32⟩
  | 44 => ⟨S_, .f32⟩
  | 45 => ⟨S8, .f32⟩
  | 46 => ⟨S50000x1, .i32⟩
  | 47 => ⟨S8, .f32⟩
  | 48 => ⟨S_, .f32⟩
  | 49 => ⟨S8x128, .f32⟩
  | 50 => ⟨S50000x1, .i32⟩
  | 51 => ⟨S8x128, .f32⟩
  | 52 => ⟨S_, .f32⟩
  | 53 => ⟨S8, .f32⟩
  | 54 => ⟨S8, .f32⟩
  | 55 => ⟨S8x1, .f32⟩
  | 56 => ⟨S8x128, .f32⟩
  | 57 => ⟨S8x128, .f32⟩
  | 58 => ⟨S8x256, .f32⟩
  | 59 => ⟨S8x128, .f32⟩
  | 60 => ⟨S1x128, .f32⟩
  | 61 => ⟨S8x128, .f32⟩
  | 62 => ⟨S8x128, .f32⟩
  | 63 => ⟨S_, .f32⟩
  | 64 => ⟨S8x128, .f32⟩
  | 65 => ⟨S8x128, .f32⟩
  | 66 => ⟨S8x64, .f32⟩
  | 67 => ⟨S1x64, .f32⟩
  | 68 => ⟨S8x64, .f32⟩
  | 69 => ⟨S8x64, .f32⟩
  | 70 => ⟨S_, .f32⟩
  | 71 => ⟨S8x64, .f32⟩
  | 72 => ⟨S8x64, .f32⟩
  | 73 => ⟨S8x1, .f32⟩
  | 74 => ⟨S1x1, .f32⟩
  | 75 => ⟨S8x1, .f32⟩
  | 76 => ⟨S8x1, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S4000x16, .f32⟩
  | .local _ .vmem, ⟨7, _⟩ => ⟨S4000x16, .f32⟩
  | .local _ .vmem, ⟨8, _⟩ => ⟨S16x128, .f32⟩
  | .local _ .vmem, ⟨9, _⟩ => ⟨S1x128, .f32⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .bf16⟩
  | .local _ .vmem, ⟨14, _⟩ => ⟨S4000x128, .bf16⟩
  | .local _ .vmem, ⟨15, _⟩ => ⟨S4000x128, .bf16⟩
  | .local _ .vmem, ⟨16, _⟩ => ⟨S4000x128, .bf16⟩
  | .local _ .vmem, ⟨17, _⟩ => ⟨S4000x128, .bf16⟩
  | .local _ .vmem, ⟨18, _⟩ => ⟨S128x128, .bf16⟩
  | .local _ .vmem, ⟨19, _⟩ => ⟨S128x128, .bf16⟩
  | .local _ .vmem, ⟨20, _⟩ => ⟨S128x128, .bf16⟩
  | .local _ .vmem, ⟨21, _⟩ => ⟨S1x128, .f32⟩
  | .local _ .vmem, ⟨22, _⟩ => ⟨S128x128, .bf16⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .bf16⟩
  | .local _ .vmem, ⟨31, _⟩ => ⟨S128x128, .bf16⟩
  | .local _ .vmem, ⟨32, _⟩ => ⟨S1x128, .f32⟩
  | .local _ .vmem, ⟨33, _⟩ => ⟨S128x128, .bf16⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S4000x128, .bf16⟩
  | .local _ .vmem, ⟨38, _⟩ => ⟨S4000x128, .bf16⟩
  | .local _ .vmem, ⟨39, _⟩ => ⟨S4000x128, .bf16⟩
  | .local _ .vmem, ⟨40, _⟩ => ⟨S4000x128, .bf16⟩
  | .local _ .vmem, ⟨41, _⟩ => ⟨S4000x128, .bf16⟩
  | .local _ .vmem, ⟨42, _⟩ => ⟨S4000x128, .bf16⟩
  | .local _ .vmem, ⟨43, _⟩ => ⟨S128x128, .bf16⟩
  | .local _ .vmem, ⟨44, _⟩ => ⟨S128x128, .bf16⟩
  | .local _ .vmem, ⟨45, _⟩ => ⟨S128x128, .bf16⟩
  | .local _ .vmem, ⟨46, _⟩ => ⟨S1x128, .f32⟩
  | .local _ .vmem, ⟨47, _⟩ => ⟨S128x128, .bf16⟩
  | .local _ .vmem, ⟨48, _⟩ => ⟨S1x128, .f32⟩
  | .local _ .vmem, ⟨49, _⟩ => ⟨S4000x128, .f32⟩
  | .local _ .vmem, ⟨50, _⟩ => ⟨S4000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S128x128, .bf16⟩
  | .local _ .vmem, ⟨56, _⟩ => ⟨S128x128, .bf16⟩
  | .local _ .vmem, ⟨57, _⟩ => ⟨S1x128, .f32⟩
  | .local _ .vmem, ⟨58, _⟩ => ⟨S128x128, .bf16⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S4000x128, .bf16⟩
  | .local _ .vmem, ⟨63, _⟩ => ⟨S4000x128, .bf16⟩
  | .local _ .vmem, ⟨64, _⟩ => ⟨S4000x128, .bf16⟩
  | .local _ .vmem, ⟨65, _⟩ => ⟨S4000x128, .bf16⟩
  | .local _ .vmem, ⟨66, _⟩ => ⟨S4000x128, .bf16⟩
  | .local _ .vmem, ⟨67, _⟩ => ⟨S4000x128, .bf16⟩
  | .local _ .vmem, ⟨68, _⟩ => ⟨S128x128, .bf16⟩
  | .local _ .vmem, ⟨69, _⟩ => ⟨S128x128, .bf16⟩
  | .local _ .vmem, ⟨70, _⟩ => ⟨S128x128, .bf16⟩
  | .local _ .vmem, ⟨71, _⟩ => ⟨S1x128, .f32⟩
  | .local _ .vmem, ⟨72, _⟩ => ⟨S128x128, .bf16⟩
  | .local _ .vmem, ⟨73, _⟩ => ⟨S1x128, .f32⟩
  | .local _ .vmem, ⟨74, _⟩ => ⟨S4000x128, .f32⟩
  | .local _ .vmem, ⟨75, _⟩ => ⟨S4000x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S128x128, .bf16⟩
  | .local _ .vmem, ⟨81, _⟩ => ⟨S128x128, .bf16⟩
  | .local _ .vmem, ⟨82, _⟩ => ⟨S1x128, .f32⟩
  | .local _ .vmem, ⟨83, _⟩ => ⟨S128x128, .bf16⟩
  | .local _ .vmem, ⟨84, _⟩ => ⟨S1x128, .f32⟩
  | .local _ .vmem, ⟨85, _⟩ => ⟨S5000x128, .f32⟩
  | .local _ .vmem, ⟨86, _⟩ => ⟨S5000x128, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v12 : Ref sig .tc := ⟨.hbm, 59, rfl⟩
abbrev main_v13 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_cst : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_call2_c : Ref sig .tc := ⟨.hbm, 124, rfl⟩
abbrev main_call2_v0 : Ref sig .tc := ⟨.hbm, 125, rfl⟩
abbrev main_call2_v1 : Ref sig .tc := ⟨.hbm, 126, rfl⟩
abbrev main_call2_c_0 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_c_1 : Ref sig .tc := ⟨.hbm, 132, rfl⟩
abbrev main_call2_c_2 : Ref sig .tc := ⟨.hbm, 133, rfl⟩
abbrev main_call2_v6 : Ref sig .tc := ⟨.hbm, 134, rfl⟩
abbrev main_call2_v7 : Ref sig .tc := ⟨.hbm, 135, rfl⟩
abbrev main_call2_v8 : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_c_3 : Ref sig .tc := ⟨.hbm, 140, rfl⟩
abbrev main_call2_v12 : Ref sig .tc := ⟨.hbm, 141, rfl⟩
abbrev main_call2_v13 : Ref sig .tc := ⟨.hbm, 142, rfl⟩
abbrev main_call2_v14 : Ref sig .tc := ⟨.hbm, 143, rfl⟩
abbrev main_call2_cst : Ref sig .tc := ⟨.hbm, 144, rfl⟩
abbrev main_call2_v15 : Ref sig .tc := ⟨.hbm, 145, rfl⟩
abbrev main_v54 : Ref sig .tc := ⟨.hbm, 146, rfl⟩
abbrev main_v55 : Ref sig .tc := ⟨.hbm, 147, rfl⟩
abbrev main_call3_c : Ref sig .tc := ⟨.hbm, 148, rfl⟩
abbrev main_call3_v0 : Ref sig .tc := ⟨.hbm, 149, rfl⟩
abbrev main_call3_v1 : Ref sig .tc := ⟨.hbm, 150, rfl⟩
abbrev main_call3_c_0 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_v5 : Ref sig .tc := ⟨.hbm, 155, rfl⟩
abbrev main_call3_c_1 : Ref sig .tc := ⟨.hbm, 156, rfl⟩
abbrev main_call3_c_2 : Ref sig .tc := ⟨.hbm, 157, rfl⟩
abbrev main_call3_v6 : Ref sig .tc := ⟨.hbm, 158, rfl⟩
abbrev main_call3_v7 : Ref sig .tc := ⟨.hbm, 159, rfl⟩
abbrev main_call3_v8 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_c_3 : Ref sig .tc := ⟨.hbm, 164, rfl⟩
abbrev main_call3_v12 : Ref sig .tc := ⟨.hbm, 165, rfl⟩
abbrev main_call3_v13 : Ref sig .tc := ⟨.hbm, 166, rfl⟩
abbrev main_call3_v14 : Ref sig .tc := ⟨.hbm, 167, rfl⟩
abbrev main_call3_cst : Ref sig .tc := ⟨.hbm, 168, rfl⟩
abbrev main_call3_v15 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_v60 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_v64 : Ref sig .tc := ⟨.hbm, 178, rfl⟩
abbrev main_v65 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_v72 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_cst_0 : Ref sig .tc := ⟨.hbm, 191, rfl⟩
abbrev main_v77 : Ref sig .tc := ⟨.hbm, 192, rfl⟩
abbrev main_v78 : Ref sig .tc := ⟨.hbm, 193, rfl⟩
abbrev main_v79 : Ref sig .tc := ⟨.hbm, 194, rfl⟩
abbrev main_v80 : Ref sig .tc := ⟨.hbm, 195, rfl⟩
abbrev main_v81 : Ref sig .tc := ⟨.hbm, 196, rfl⟩
abbrev main_v82 : Ref sig .tc := ⟨.hbm, 197, rfl⟩
abbrev main_v83 : Ref sig .tc := ⟨.hbm, 198, rfl⟩
abbrev main_v84 : Ref sig .tc := ⟨.hbm, 199, rfl⟩
abbrev main_v85 : Ref sig .tc := ⟨.hbm, 200, rfl⟩
abbrev main_v86 : Ref sig .tc := ⟨.hbm, 201, rfl⟩
abbrev main_v87 : Ref sig .tc := ⟨.hbm, 202, rfl⟩
abbrev main_v88 : Ref sig .tc := ⟨.hbm, 203, rfl⟩
abbrev main_v89 : Ref sig .tc := ⟨.hbm, 204, rfl⟩
abbrev main_v90 : Ref sig .tc := ⟨.hbm, 205, rfl⟩
abbrev main_v91 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_call4_c : Ref sig .tc := ⟨.hbm, 211, rfl⟩
abbrev main_call4_v0 : Ref sig .tc := ⟨.hbm, 212, rfl⟩
abbrev main_call4_v1 : Ref sig .tc := ⟨.hbm, 213, rfl⟩
abbrev main_call4_c_0 : Ref sig .tc := ⟨.hbm, 214, rfl⟩
abbrev main_call4_v2 : Ref sig .tc := ⟨.hbm, 215, rfl⟩
abbrev main_call4_v3 : Ref sig .tc := ⟨.hbm, 216, rfl⟩
abbrev main_call4_v4 : Ref sig .tc := ⟨.hbm, 217, rfl⟩
abbrev main_call4_v5 : Ref sig .tc := ⟨.hbm, 218, rfl⟩
abbrev main_call4_c_1 : Ref sig .tc := ⟨.hbm, 219, rfl⟩
abbrev main_call4_c_2 : Ref sig .tc := ⟨.hbm, 220, rfl⟩
abbrev main_call4_v6 : Ref sig .tc := ⟨.hbm, 221, rfl⟩
abbrev main_call4_v7 : Ref sig .tc := ⟨.hbm, 222, rfl⟩
abbrev main_call4_v8 : Ref sig .tc := ⟨.hbm, 223, rfl⟩
abbrev main_call4_v9 : Ref sig .tc := ⟨.hbm, 224, rfl⟩
abbrev main_call4_v10 : Ref sig .tc := ⟨.hbm, 225, rfl⟩
abbrev main_call4_v11 : Ref sig .tc := ⟨.hbm, 226, rfl⟩
abbrev main_call4_c_3 : Ref sig .tc := ⟨.hbm, 227, rfl⟩
abbrev main_call4_v12 : Ref sig .tc := ⟨.hbm, 228, rfl⟩
abbrev main_call4_v13 : Ref sig .tc := ⟨.hbm, 229, rfl⟩
abbrev main_call4_v14 : Ref sig .tc := ⟨.hbm, 230, rfl⟩
abbrev main_call4_cst : Ref sig .tc := ⟨.hbm, 231, rfl⟩
abbrev main_call4_v15 : Ref sig .tc := ⟨.hbm, 232, rfl⟩
abbrev main_v96 : Ref sig .tc := ⟨.hbm, 233, rfl⟩
abbrev main_v97 : Ref sig .tc := ⟨.hbm, 234, rfl⟩
abbrev main_call5_c : Ref sig .tc := ⟨.hbm, 235, rfl⟩
abbrev main_call5_v0 : Ref sig .tc := ⟨.hbm, 236, rfl⟩
abbrev main_call5_v1 : Ref sig .tc := ⟨.hbm, 237, rfl⟩
abbrev main_call5_c_0 : Ref sig .tc := ⟨.hbm, 238, rfl⟩
abbrev main_call5_v2 : Ref sig .tc := ⟨.hbm, 239, rfl⟩
abbrev main_call5_v3 : Ref sig .tc := ⟨.hbm, 240, rfl⟩
abbrev main_call5_v4 : Ref sig .tc := ⟨.hbm, 241, rfl⟩
abbrev main_call5_v5 : Ref sig .tc := ⟨.hbm, 242, rfl⟩
abbrev main_call5_c_1 : Ref sig .tc := ⟨.hbm, 243, rfl⟩
abbrev main_call5_c_2 : Ref sig .tc := ⟨.hbm, 244, rfl⟩
abbrev main_call5_v6 : Ref sig .tc := ⟨.hbm, 245, rfl⟩
abbrev main_call5_v7 : Ref sig .tc := ⟨.hbm, 246, rfl⟩
abbrev main_call5_v8 : Ref sig .tc := ⟨.hbm, 247, rfl⟩
abbrev main_call5_v9 : Ref sig .tc := ⟨.hbm, 248, rfl⟩
abbrev main_call5_v10 : Ref sig .tc := ⟨.hbm, 249, rfl⟩
abbrev main_call5_v11 : Ref sig .tc := ⟨.hbm, 250, rfl⟩
abbrev main_call5_c_3 : Ref sig .tc := ⟨.hbm, 251, rfl⟩
abbrev main_call5_v12 : Ref sig .tc := ⟨.hbm, 252, rfl⟩
abbrev main_call5_v13 : Ref sig .tc := ⟨.hbm, 253, rfl⟩
abbrev main_call5_v14 : Ref sig .tc := ⟨.hbm, 254, rfl⟩
abbrev main_call5_cst : Ref sig .tc := ⟨.hbm, 255, rfl⟩
abbrev main_call5_v15 : Ref sig .tc := ⟨.hbm, 256, rfl⟩
abbrev main_v98 : Ref sig .tc := ⟨.hbm, 257, rfl⟩
abbrev main_v99 : Ref sig .tc := ⟨.hbm, 258, rfl⟩
abbrev main_v100 : Ref sig .tc := ⟨.hbm, 259, rfl⟩
abbrev main_v101 : Ref sig .tc := ⟨.hbm, 260, rfl⟩
abbrev main_v102 : Ref sig .tc := ⟨.hbm, 261, rfl⟩
abbrev main_v103 : Ref sig .tc := ⟨.hbm, 262, rfl⟩
abbrev main_v104 : Ref sig .tc := ⟨.hbm, 263, rfl⟩
abbrev main_v105 : Ref sig .tc := ⟨.hbm, 264, rfl⟩
abbrev main_v106 : Ref sig .tc := ⟨.hbm, 265, rfl⟩
abbrev main_v107 : Ref sig .tc := ⟨.hbm, 266, rfl⟩
abbrev main_v108 : Ref sig .tc := ⟨.hbm, 267, rfl⟩
abbrev main_v109 : Ref sig .tc := ⟨.hbm, 268, rfl⟩
abbrev main_v110 : Ref sig .tc := ⟨.hbm, 269, rfl⟩
abbrev main_v111 : Ref sig .tc := ⟨.hbm, 270, rfl⟩
abbrev main_v112 : Ref sig .tc := ⟨.hbm, 271, rfl⟩
abbrev main_v113 : Ref sig .tc := ⟨.hbm, 272, rfl⟩
abbrev main_v114 : Ref sig .tc := ⟨.hbm, 273, rfl⟩
abbrev main_v115 : Ref sig .tc := ⟨.hbm, 274, rfl⟩
abbrev main_v116 : Ref sig .tc := ⟨.hbm, 275, rfl⟩
abbrev main_v117 : Ref sig .tc := ⟨.hbm, 276, rfl⟩
abbrev main_v118 : Ref sig .tc := ⟨.hbm, 277, rfl⟩
abbrev main_cst_1 : Ref sig .tc := ⟨.hbm, 278, rfl⟩
abbrev main_v119 : Ref sig .tc := ⟨.hbm, 279, rfl⟩
abbrev main_v120 : Ref sig .tc := ⟨.hbm, 280, rfl⟩
abbrev main_v121 : Ref sig .tc := ⟨.hbm, 281, rfl⟩
abbrev main_v122 : Ref sig .tc := ⟨.hbm, 282, rfl⟩
abbrev main_v123 : Ref sig .tc := ⟨.hbm, 283, rfl⟩
abbrev main_v124 : Ref sig .tc := ⟨.hbm, 284, rfl⟩
abbrev main_v125 : Ref sig .tc := ⟨.hbm, 285, rfl⟩
abbrev main_v126 : Ref sig .tc := ⟨.hbm, 286, rfl⟩
abbrev main_v127 : Ref sig .tc := ⟨.hbm, 287, rfl⟩
abbrev main_v128 : Ref sig .tc := ⟨.hbm, 288, rfl⟩
abbrev main_v129 : Ref sig .tc := ⟨.hbm, 289, rfl⟩
abbrev main_v130 : Ref sig .tc := ⟨.hbm, 290, rfl⟩
abbrev main_v131 : Ref sig .tc := ⟨.hbm, 291, rfl⟩
abbrev main_v132 : Ref sig .tc := ⟨.hbm, 292, rfl⟩
abbrev main_v133 : Ref sig .tc := ⟨.hbm, 293, rfl⟩
abbrev main_v134 : Ref sig .tc := ⟨.hbm, 294, rfl⟩
abbrev main_v135 : Ref sig .tc := ⟨.hbm, 295, rfl⟩
abbrev main_v136 : Ref sig .tc := ⟨.hbm, 296, rfl⟩
abbrev main_v137 : Ref sig .tc := ⟨.hbm, 297, rfl⟩
abbrev main_cst_2 : Ref sig .tc := ⟨.hbm, 298, rfl⟩
abbrev main_v138 : Ref sig .tc := ⟨.hbm, 299, rfl⟩
abbrev main_cst_3 : Ref sig .tc := ⟨.hbm, 300, rfl⟩
abbrev main_v139 : Ref sig .tc := ⟨.hbm, 301, rfl⟩
abbrev main_v140 : Ref sig .tc := ⟨.hbm, 302, rfl⟩
abbrev main_v141 : Ref sig .tc := ⟨.hbm, 303, rfl⟩
abbrev main_cst_4 : Ref sig .tc := ⟨.hbm, 304, rfl⟩
abbrev main_v142 : Ref sig .tc := ⟨.hbm, 305, rfl⟩
abbrev main_v143 : Ref sig .tc := ⟨.hbm, 306, rfl⟩
abbrev main_v144 : Ref sig .tc := ⟨.hbm, 307, rfl⟩
abbrev main_cst_5 : Ref sig .tc := ⟨.hbm, 308, rfl⟩
abbrev main_v145 : Ref sig .tc := ⟨.hbm, 309, rfl⟩
abbrev main_v146 : Ref sig .tc := ⟨.hbm, 310, rfl⟩
abbrev main_v147 : Ref sig .tc := ⟨.hbm, 311, rfl⟩
abbrev main_v148 : Ref sig .tc := ⟨.hbm, 312, rfl⟩
abbrev main_v149 : Ref sig .tc := ⟨.hbm, 313, rfl⟩
abbrev main_v150 : Ref sig .tc := ⟨.hbm, 314, rfl⟩
abbrev main_v151 : Ref sig .tc := ⟨.hbm, 315, rfl⟩
abbrev main_v152 : Ref sig .tc := ⟨.hbm, 316, rfl⟩
abbrev main_v153 : Ref sig .tc := ⟨.hbm, 317, rfl⟩
abbrev main_v154 : Ref sig .tc := ⟨.hbm, 318, rfl⟩
abbrev main_call6_cst : Ref sig .tc := ⟨.hbm, 319, rfl⟩
abbrev main_call6_v0 : Ref sig .tc := ⟨.hbm, 320, rfl⟩
abbrev main_v155 : Ref sig .tc := ⟨.hbm, 321, rfl⟩
abbrev main_v156 : Ref sig .tc := ⟨.hbm, 322, rfl⟩
abbrev main_v157 : Ref sig .tc := ⟨.hbm, 323, rfl⟩
abbrev main_v158 : Ref sig .tc := ⟨.hbm, 324, rfl⟩
abbrev main_v159 : Ref sig .tc := ⟨.hbm, 325, rfl⟩
abbrev main_call7_cst : Ref sig .tc := ⟨.hbm, 326, rfl⟩
abbrev main_call7_v0 : Ref sig .tc := ⟨.hbm, 327, rfl⟩
abbrev main_v160 : Ref sig .tc := ⟨.hbm, 328, rfl⟩
abbrev main_v161 : Ref sig .tc := ⟨.hbm, 329, rfl⟩
abbrev main_v162 : Ref sig .tc := ⟨.hbm, 330, rfl⟩
abbrev main_v163 : Ref sig .tc := ⟨.hbm, 331, rfl⟩
abbrev main_v164 : Ref sig .tc := ⟨.hbm, 332, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg9_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg8_0 : Ref sig .tc := ⟨.vmem, 48, rfl⟩
abbrev cc4_stg9_0 : Ref sig .tc := ⟨.vmem, 49, rfl⟩
abbrev cc4_stg9_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg7_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg2_1 : Ref sig .tc := ⟨.vmem, 67, rfl⟩
abbrev cc6_stg3_0 : Ref sig .tc := ⟨.vmem, 68, rfl⟩
abbrev cc6_stg4_0 : Ref sig .tc := ⟨.vmem, 69, rfl⟩
abbrev cc6_stg5_0 : Ref sig .tc := ⟨.vmem, 70, rfl⟩
abbrev cc6_stg6_0 : Ref sig .tc := ⟨.vmem, 71, rfl⟩
abbrev cc6_stg7_0 : Ref sig .tc := ⟨.vmem, 72, rfl⟩
abbrev cc6_stg8_0 : Ref sig .tc := ⟨.vmem, 73, rfl⟩
abbrev cc6_stg9_0 : Ref sig .tc := ⟨.vmem, 74, rfl⟩
abbrev cc6_stg9_1 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg1_1 : Ref sig .tc := ⟨.vmem, 79, rfl⟩
abbrev cc7_stg2_0 : Ref sig .tc := ⟨.vmem, 80, rfl⟩
abbrev cc7_stg3_0 : Ref sig .tc := ⟨.vmem, 81, rfl⟩
abbrev cc7_stg4_0 : Ref sig .tc := ⟨.vmem, 82, rfl⟩
abbrev cc7_stg5_0 : Ref sig .tc := ⟨.vmem, 83, rfl⟩
abbrev cc7_stg6_0 : Ref sig .tc := ⟨.vmem, 84, rfl⟩
abbrev cc7_stg7_0 : Ref sig .tc := ⟨.vmem, 85, rfl⟩
abbrev cc7_stg7_1 : Ref sig .tc := ⟨.vmem, 86, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem8_0 : DmaSem sig := 48
abbrev cc4_sem9_0 : DmaSem sig := 49
abbrev cc4_sem9_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem7_1 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem2_1 : DmaSem sig := 67
abbrev cc6_sem3_0 : DmaSem sig := 68
abbrev cc6_sem4_0 : DmaSem sig := 69
abbrev cc6_sem5_0 : DmaSem sig := 70
abbrev cc6_sem6_0 : DmaSem sig := 71
abbrev cc6_sem7_0 : DmaSem sig := 72
abbrev cc6_sem8_0 : DmaSem sig := 73
abbrev cc6_sem9_0 : DmaSem sig := 74
abbrev cc6_sem9_1 : DmaSem sig := 75
abbrev cc7_sem0_0 : DmaSem sig := 76
abbrev cc7_sem0_1 : DmaSem sig := 77
abbrev cc7_sem1_0 : DmaSem sig := 78
abbrev cc7_sem1_1 : DmaSem sig := 79
abbrev cc7_sem2_0 : DmaSem sig := 80
abbrev cc7_sem3_0 : DmaSem sig := 81
abbrev cc7_sem4_0 : DmaSem sig := 82
abbrev cc7_sem5_0 : DmaSem sig := 83
abbrev cc7_sem6_0 : DmaSem sig := 84
abbrev cc7_sem7_0 : DmaSem sig := 85
abbrev cc7_sem7_1 : DmaSem sig := 86

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S4000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .bf16 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S4000x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S4000x16_S4000x16_0_0 : ∀ a, (![0, 0] : Fin 2 → Nat) a + S4000x16.size a ≤ S4000x16.size a
  h_S4000x16 : 0 < S4000x16.numel
  inb_S16x128_S16x128_0_0 : ∀ a, (![0, 0] : Fin 2 → Nat) a + S16x128.size a ≤ S16x128.size a
  h_S16x128 : 0 < S16x128.numel
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S3x384x128_S1x128x128_0_0_0 : S3x384x128.Slices ![0, 0, 0] S1x128x128
  shapeCasts_S1x128x128_S128x128 : S1x128x128.ShapeCasts S128x128
  slices_S3x384x128_S1x128x128_0_128_0 : S3x384x128.Slices ![0, 128, 0] S1x128x128
  slices_S3x384x128_S1x128x128_0_256_0 : S3x384x128.Slices ![0, 256, 0] S1x128x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  slices_S3x256x128_S1x128x128_0_0_0 : S3x256x128.Slices ![0, 0, 0] S1x128x128
  slices_S3x256x128_S1x128x128_0_128_0 : S3x256x128.Slices ![0, 128, 0] S1x128x128
  shapeCasts_S5000x128_S5000x128 : S5000x128.ShapeCasts S5000x128
  slices_S3x384x128_S1x128x128_1_0_0 : S3x384x128.Slices ![1, 0, 0] S1x128x128
  slices_S3x384x128_S1x128x128_1_128_0 : S3x384x128.Slices ![1, 128, 0] S1x128x128
  slices_S3x384x128_S1x128x128_1_256_0 : S3x384x128.Slices ![1, 256, 0] S1x128x128
  slices_S3x128_S1x128_1_0 : S3x128.Slices ![1, 0] S1x128
  slices_S3x128x128_S1x128x128_1_0_0 : S3x128x128.Slices ![1, 0, 0] S1x128x128
  slices_S3x256x128_S1x128x128_1_0_0 : S3x256x128.Slices ![1, 0, 0] S1x128x128
  slices_S3x256x128_S1x128x128_1_128_0 : S3x256x128.Slices ![1, 128, 0] S1x128x128
  slices_S3x384x128_S1x128x128_2_0_0 : S3x384x128.Slices ![2, 0, 0] S1x128x128
  slices_S3x384x128_S1x128x128_2_128_0 : S3x384x128.Slices ![2, 128, 0] S1x128x128
  slices_S3x384x128_S1x128x128_2_256_0 : S3x384x128.Slices ![2, 256, 0] S1x128x128
  slices_S3x128_S1x128_2_0 : S3x128.Slices ![2, 0] S1x128
  slices_S3x128x128_S1x128x128_2_0_0 : S3x128x128.Slices ![2, 0, 0] S1x128x128
  slices_S3x256x128_S1x128x128_2_0_0 : S3x256x128.Slices ![2, 0, 0] S1x128x128
  slices_S3x256x128_S1x128x128_2_128_0 : S3x256x128.Slices ![2, 128, 0] S1x128x128
  bcast_S_S50000 : S_.BroadcastsInDim S50000 (![] : Fin 0 → Fin S50000.rank)
  bcast_S_S8 : S_.BroadcastsInDim S8 (![] : Fin 0 → Fin S8.rank)
  bcast_S50000_S50000x1_0 : S50000.BroadcastsInDim S50000x1 (![0] : Fin 1 → Fin S50000x1.rank)
  bcast_S_S8x128 : S_.BroadcastsInDim S8x128 (![] : Fin 0 → Fin S8x128.rank)
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  concatenates_S8x128_S8x128_S8x256_d1 : Shape.Concatenates [S8x128, S8x128] S8x256 1
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S1x1_S8x1_0_1 : S1x1.BroadcastsInDim S8x1 (![0, 1] : Fin 2 → Fin S8x1.rank)
  dot_S5000x32_S32x128_S5000x128_1_0_0_1_n_n_wf : DotDims.WF S5000x32 S32x128 S5000x128 [1] [0] [0] [1] [] []
  dot_S4000x16_S16x128_S4000x128_1_0_0_1_n_n_wf : DotDims.WF S4000x16 S16x128 S4000x128 [1] [0] [0] [1] [] []
  dot_S8x1_S1x128_S8x128_1_0_0_1_n_n_wf : DotDims.WF S8x1 S1x128 S8x128 [1] [0] [0] [1] [] []
  gather_S50000x128_S400000x1_S400000x128_1_0_n_n_0_1_1128_wf : GatherDims.WF S50000x128 S400000x1 S400000x128 [1] [0] [] [0] [] 1 ![1, 128]
  dot_S4000x128_S128x128_S4000x128_1_0_0_1_n_n_wf : DotDims.WF S4000x128 S128x128 S4000x128 [1] [0] [0] [1] [] []
  scatter_S50000x128_S400000x1_S400000x128_1_0_0_1_wf : ScatterDims.WF S50000x128 S400000x1 S400000x128 [1] [0] [0] 1
  dot_S5000x128_S128x128_S5000x128_1_0_0_1_n_n_wf : DotDims.WF S5000x128 S128x128 S5000x128 [1] [0] [0] [1] [] []
  scatter_S8_S50000x1_S50000_n_0_0_1_wf : ScatterDims.WF S8 S50000x1 S50000 [] [0] [0] 1
  scatter_S8x128_S50000x1_S50000x128_1_0_0_1_wf : ScatterDims.WF S8x128 S50000x1 S50000x128 [1] [0] [0] 1
  dot_S8x256_S256x128_S8x128_1_0_0_1_n_n_wf : DotDims.WF S8x256 S256x128 S8x128 [1] [0] [0] [1] [] []
  dot_S8x128_S128x64_S8x64_1_0_0_1_n_n_wf : DotDims.WF S8x128 S128x64 S8x64 [1] [0] [0] [1] [] []
  dot_S8x64_S64x1_S8x1_1_0_0_1_n_n_wf : DotDims.WF S8x64 S64x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S400000x16.size a
  hwx1_0 : ∀ i : grid1.Coords, EltTy.bits .f32 = 32 ∨ (Rect.block (s := S400000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S400000x128.size a
  hwx1_3 : ∀ i : grid1.Coords, EltTy.bits .bf16 = 32 ∨ (Rect.block (s := S400000x128) S4000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S400000x128.size a
  hwx2_0 : ∀ i : grid2.Coords, EltTy.bits .bf16 = 32 ∨ (Rect.block (s := S400000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S400000x128.size a
  hwx2_1 : ∀ i : grid2.Coords, EltTy.bits .bf16 = 32 ∨ (Rect.block (s := S400000x128) S4000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S400000x128.size a
  hwx2_2 : ∀ i : grid2.Coords, EltTy.bits .bf16 = 32 ∨ (Rect.block (s := S400000x128) S4000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .bf16 = 32 ∨ (Rect.block (s := S128x128) S128x128.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S400000x128.size a
  hwx2_9 : ∀ i : grid2.Coords, EltTy.bits .f32 = 32 ∨ (Rect.block (s := S400000x128) S4000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .bf16 = 32 ∨ (Rect.block (s := S128x128) S128x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S400000x128.size a
  hwx4_0 : ∀ i : grid4.Coords, EltTy.bits .bf16 = 32 ∨ (Rect.block (s := S400000x128) S4000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S400000x128.size a
  hwx4_1 : ∀ i : grid4.Coords, EltTy.bits .bf16 = 32 ∨ (Rect.block (s := S400000x128) S4000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S400000x128.size a
  hwx4_2 : ∀ i : grid4.Coords, EltTy.bits .bf16 = 32 ∨ (Rect.block (s := S400000x128) S4000x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .bf16 = 32 ∨ (Rect.block (s := S128x128) S128x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .bf16 = 32 ∨ (Rect.block (s := S128x128) S128x128.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S4000x128.size a ≤ S400000x128.size a
  hwx4_9 : ∀ i : grid4.Coords, EltTy.bits .f32 = 32 ∨ (Rect.block (s := S400000x128) S4000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .bf16 = 32 ∨ (Rect.block (s := S128x128) S128x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .bf16 = 32 ∨ (Rect.block (s := S128x128) S128x128.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S400000x128.size a
  hwx6_0 : ∀ i : grid6.Coords, EltTy.bits .bf16 = 32 ∨ (Rect.block (s := S400000x128) S4000x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S400000x128.size a
  hwx6_1 : ∀ i : grid6.Coords, EltTy.bits .bf16 = 32 ∨ (Rect.block (s := S400000x128) S4000x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x128.size a ≤ S400000x128.size a
  hwx6_2 : ∀ i : grid6.Coords, EltTy.bits .bf16 = 32 ∨ (Rect.block (s := S400000x128) S4000x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .bf16 = 32 ∨ (Rect.block (s := S128x128) S128x128.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .bf16 = 32 ∨ (Rect.block (s := S128x128) S128x128.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .bf16 = 32 ∨ (Rect.block (s := S128x128) S128x128.size (cc6_transform_5 i) (hinb6_5 i)).WholeWords (EltTy.packing .bf16)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .bf16 = 32 ∨ (Rect.block (s := S128x128) S128x128.size (cc6_transform_7 i) (hinb6_7 i)).WholeWords (EltTy.packing .bf16)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S4000x128.size a ≤ S400000x128.size a
  hwx6_9 : ∀ i : grid6.Coords, EltTy.bits .f32 = 32 ∨ (Rect.block (s := S400000x128) S4000x128.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .bf16 = 32 ∨ (Rect.block (s := S128x128) S128x128.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .bf16 = 32 ∨ (Rect.block (s := S128x128) S128x128.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .bf16 = 32 ∨ (Rect.block (s := S128x128) S128x128.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S50000x128.size a
  hwx7_7 : ∀ i : grid7.Coords, EltTy.bits .f32 = 32 ∨ (Rect.block (s := S50000x128) S5000x128.size (cc7_transform_7 i) (hinb7_7 i)).WholeWords (EltTy.packing .f32)

variable [Facts₀]

def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def dot_S8x1_S1x128_S8x128_1_0_0_1_n_n : DotDims S8x1 S1x128 S8x128 where
  lhsContracting := [1]
  rhsContracting := [0]
  lhsNonContracting := [0]
  rhsNonContracting := [1]
  lhsBatch := []
  rhsBatch := []
  wf := dot_S8x1_S1x128_S8x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S8_S50000x1_S50000_n_0_0_1 : ScatterDims S8 S50000x1 S50000 where
  updateWindowDims := []
  insertedWindowDims := [0]
  scatterDimsToOperandDims := [0]
  indexVectorDim := 1
  wf := scatter_S8_S50000x1_S50000_n_0_0_1_wf
def scatter_S8x128_S50000x1_S50000x128_1_0_0_1 : ScatterDims S8x128 S50000x1 S50000x128 where
  updateWindowDims := [1]
  insertedWindowDims := [0]
  scatterDimsToOperandDims := [0]
  indexVectorDim := 1
  wf := scatter_S8x128_S50000x1_S50000x128_1_0_0_1_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf
def dot_S8x64_S64x1_S8x1_1_0_0_1_n_n : DotDims S8x64 S64x1 S8x1 where
  lhsContracting := [1]
  rhsContracting := [0]
  lhsNonContracting := [0]
  rhsNonContracting := [1]
  lhsBatch := []
  rhsBatch := []
  wf := dot_S8x64_S64x1_S8x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v33) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v34) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v1) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v52) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v53) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v55) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v60) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v74) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v71) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v75) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v76) S4000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v53) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v82) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v93) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v88) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v94) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v95) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v97) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v99) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v3) S4000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v102) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v105) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v108) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v116) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v113) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v117) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v118) S4000x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v95) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v121) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v124) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v127) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v135) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v130) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v136) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v137) S5000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S50000x32 : Shape := ⟨2, ![50000, 32]⟩
abbrev S400000x16 : Shape := ⟨2, ![400000, 16]⟩
abbrev S8x1 : Shape := ⟨2, ![8, 1]⟩
abbrev S32x128 : Shape := ⟨2, ![32, 128]⟩
abbrev S128 : Shape := ⟨1, ![128]⟩
abbrev S16x128 : Shape := ⟨2, ![16, 128]⟩
abbrev S1x128 : Shape := ⟨2, ![1, 128]⟩
abbrev S3x384x128 : Shape := ⟨3, ![3, 384, 128]⟩
abbrev S3x128 : Shape := ⟨2, ![3, 128]⟩
abbrev S3x128x128 : Shape := ⟨3, ![3, 128, 128]⟩
abbrev S3x256x128 : Shape := ⟨3, ![3, 256, 128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x400000 : Shape := ⟨2, ![2, 400000]⟩
abbrev S50000 : Shape := ⟨1, ![50000]⟩
abbrev S50000x128 : Shape := ⟨2, ![50000, 128]⟩
abbrev S400000x128 : Shape := ⟨2, ![400000, 128]⟩
abbrev S8x128 : Shape := ⟨2, ![8, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x384 : Shape := ⟨2, ![400000, 384]⟩
abbrev S1x384x128 : Shape := ⟨3, ![1, 384, 128]⟩
abbrev S384x128 : Shape := ⟨2, ![384, 128]⟩
abbrev S1x128x128 : Shape := ⟨3, ![1, 128, 128]⟩
abbrev S128x128 : Shape := ⟨2, ![128, 128]⟩
abbrev S50000x256 : Shape := ⟨2, ![50000, 256]⟩
abbrev S1x256x128 : Shape := ⟨3, ![1, 256, 128]⟩
abbrev S8 : Shape := ⟨1, ![8]⟩
abbrev S50000x1 : Shape := ⟨2, ![50000, 1]⟩
abbrev S8x256 : Shape := ⟨2, ![8, 256]⟩
abbrev S8x64 : Shape := ⟨2, ![8, 64]⟩
abbrev S1x64 : Shape := ⟨2, ![1, 64]⟩
abbrev S1x1 : Shape := ⟨2, ![1, 1]⟩

abbrev nBuf : Space → Nat
  | .hbm => 265
  | .vmem => 0
  | .smem => 0
  | _ => 0

abbrev hbmTy0_0 (i : Nat) : BufTy := match i % 128 with
  | 0 => ⟨S50000x32, .f32⟩
  | 1 => ⟨S400000x16, .f32⟩
  | 2 => ⟨S8x1, .f32⟩
  | 3 => ⟨S32x128, .f32⟩
  | 4 => ⟨S128, .f32⟩
  | 5 => ⟨S16x128, .f32⟩
  | 6 => ⟨S128, .f32⟩
  | 7 => ⟨S1x128, .f32⟩
  | 8 => ⟨S128, .f32⟩
  | 9 => ⟨S3x384x128, .f32⟩
  | 10 => ⟨S3x128, .f32⟩
  | 11 => ⟨S3x128x128, .f32⟩
  | 12 => ⟨S3x128, .f32⟩
  | 13 => ⟨S3x256x128, .f32⟩
  | 14 => ⟨S3x128, .f32⟩
  | 15 => ⟨S3x128x128, .f32⟩
  | 16 => ⟨S3x128, .f32⟩
  | 17 => ⟨S256x128, .f32⟩
  | 18 => ⟨S128, .f32⟩
  | 19 => ⟨S128x64, .f32⟩
  | 20 => ⟨S64, .f32⟩
  | 21 => ⟨S64x1, .f32⟩
  | 22 => ⟨S1, .f32⟩
  | 23 => ⟨S2x400000, .i32⟩
  | 24 => ⟨S50000, .i32⟩
  | 25 => ⟨S50000x128, .f32⟩
  | 26 => ⟨S1x128, .f32⟩
  | 27 => ⟨S50000x128, .f32⟩
  | 28 => ⟨S50000x128, .f32⟩
  | 29 => ⟨S400000x128, .f32⟩
  | 30 => ⟨S1x128, .f32⟩
  | 31 => ⟨S400000x128, .f32⟩
  | 32 => ⟨S400000x128, .f32⟩
  | 33 => ⟨S8x128, .f32⟩
  | 34 => ⟨S1x128, .f32⟩
  | 35 => ⟨S8x128, .f32⟩
  | 36 => ⟨S8x128, .f32⟩
  | 37 => ⟨S1x400000, .i32⟩
  | 38 => ⟨S400000, .i32⟩
  | 39 => ⟨S1x400000, .i32⟩
  | 40 => ⟨S400000, .i32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000x128, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000x128, .f32⟩
  | 59 => ⟨S400000x384, .f32⟩
  | 60 => ⟨S1x384x128, .f32⟩
  | 61 => ⟨S384x128, .f32⟩
  | 62 => ⟨S400000x128, .f32⟩
  | 63 => ⟨S1x128, .f32⟩
  | 64 => ⟨S128, .f32⟩
  | 65 => ⟨S1x128, .f32⟩
  | 66 => ⟨S400000x128, .f32⟩
  | 67 => ⟨S400000x128, .f32⟩
  | 68 => ⟨S_, .f32⟩
  | 69 => ⟨S400000x128, .f32⟩
  | 70 => ⟨S400000x128, .f32⟩
  | 71 => ⟨S1x128x128, .f32⟩
  | 72 => ⟨S128x128, .f32⟩
  | 73 => ⟨S400000x128, .f32⟩
  | 74 => ⟨S1x128, .f32⟩
  | 75 => ⟨S128, .f32⟩
  | 76 => ⟨S1x128, .f32⟩
  | 77 => ⟨S400000x128, .f32⟩
  | 78 => ⟨S400000x128, .f32⟩
  | 79 => ⟨S_, .f32⟩
  | 80 => ⟨S50000x128, .f32⟩
  | 81 => ⟨S400000x1, .i32⟩
  | 82 => ⟨S50000x128, .f32⟩
  | 83 => ⟨S50000x256, .f32⟩
  | 84 => ⟨S1x256x128, .f32⟩
  | 85 => ⟨S256x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S50000x128, .f32⟩
  | 104 => ⟨S_, .i32⟩
  | 105 => ⟨S400000, .i32⟩
  | 106 => ⟨S400000, .i1⟩
  | 107 => ⟨S_, .i32⟩
  | 108 => ⟨S400000, .i32⟩
  | 109 => ⟨S400000, .i32⟩
  | 110 => ⟨S400000, .i32⟩
  | 111 => ⟨S400000x1, .i32⟩
  | 112 => ⟨S400000x128, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x128, .f32⟩
  | 122 => ⟨S400000x384, .f32⟩
  | 123 => ⟨S1x384x128, .f32⟩
  | 124 => ⟨S384x128, .f32⟩
  | 125 => ⟨S400000x128, .f32⟩
  | 126 => ⟨S1x128, .f32⟩
  | 127 => ⟨S128, .f32⟩
  | _ => ⟨S50000x32, .f32⟩

abbrev hbmTy0_1 (i : Nat) : BufTy := match i % 128 with
  | 0 => ⟨S1x128, .f32⟩
  | 1 => ⟨S400000x128, .f32⟩
  | 2 => ⟨S400000x128, .f32⟩
  | 3 => ⟨S_, .f32⟩
  | 4 => ⟨S400000x128, .f32⟩
  | 5 => ⟨S400000x128, .f32⟩
  | 6 => ⟨S1x128x128, .f32⟩
  | 7 => ⟨S128x128, .f32⟩
  | 8 => ⟨S400000x128, .f32⟩
  | 9 => ⟨S1x128, .f32⟩
  | 10 => ⟨S128, .f32⟩
  | 11 => ⟨S1x128, .f32⟩
  | 12 => ⟨S400000x128, .f32⟩
  | 13 => ⟨S400000x128, .f32⟩
  | 14 => ⟨S_, .f32⟩
  | 15 => ⟨S50000x128, .f32⟩
  | 16 => ⟨S400000x1, .i32⟩
  | 17 => ⟨S50000x128, .f32⟩
  | 18 => ⟨S50000x256, .f32⟩
  | 19 => ⟨S1x256x128, .f32⟩
  | 20 => ⟨S256x128, .f32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S1x128x128, .f32⟩
  | 31 => ⟨S128x128, .f32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S50000x128, .f32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000x128, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000x128, .f32⟩
  | 57 => ⟨S400000x384, .f32⟩
  | 58 => ⟨S1x384x128, .f32⟩
  | 59 => ⟨S384x128, .f32⟩
  | 60 => ⟨S400000x128, .f32⟩
  | 61 => ⟨S1x128, .f32⟩
  | 62 => ⟨S128, .f32⟩
  | 63 => ⟨S1x128, .f32⟩
  | 64 => ⟨S400000x128, .f32⟩
  | 65 => ⟨S400000x128, .f32⟩
  | 66 => ⟨S_, .f32⟩
  | 67 => ⟨S400000x128, .f32⟩
  | 68 => ⟨S400000x128, .f32⟩
  | 69 => ⟨S1x128x128, .f32⟩
  | 70 => ⟨S128x128, .f32⟩
  | 71 => ⟨S400000x128, .f32⟩
  | 72 => ⟨S1x128, .f32⟩
  | 73 => ⟨S128, .f32⟩
  | 74 => ⟨S1x128, .f32⟩
  | 75 => ⟨S400000x128, .f32⟩
  | 76 => ⟨S400000x128, .f32⟩
  | 77 => ⟨S_, .f32⟩
  | 78 => ⟨S50000x128, .f32⟩
  | 79 => ⟨S400000x1, .i32⟩
  | 80 => ⟨S50000x128, .f32⟩
  | 81 => ⟨S50000x256, .f32⟩
  | 82 => ⟨S1x256x128, .f32⟩
  | 83 => ⟨S256x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S1x128x128, .f32⟩
  | 94 => ⟨S128x128, .f32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S50000x128, .f32⟩
  | 102 => ⟨S_, .f32⟩
  | 103 => ⟨S50000, .f32⟩
  | 104 => ⟨S_, .f32⟩
  | 105 => ⟨S8, .f32⟩
  | 106 => ⟨S50000x1, .i32⟩
  | 107 => ⟨S8, .f32⟩
  | 108 => ⟨S_, .f32⟩
  | 109 => ⟨S8x128, .f32⟩
  | 110 => ⟨S50000x1, .i32⟩
  | 111 => ⟨S8x128, .f32⟩
  | 112 => ⟨S_, .f32⟩
  | 113 => ⟨S8, .f32⟩
  | 114 => ⟨S8, .f32⟩
  | 115 => ⟨S8x1, .f32⟩
  | 116 => ⟨S8x128, .f32⟩
  | 117 => ⟨S8x128, .f32⟩
  | 118 => ⟨S8x256, .f32⟩
  | 119 => ⟨S8x128, .f32⟩
  | 120 => ⟨S1x128, .f32⟩
  | 121 => ⟨S8x128, .f32⟩
  | 122 => ⟨S8x128, .f32⟩
  | 123 => ⟨S_, .f32⟩
  | 124 => ⟨S8x128, .f32⟩
  | 125 => ⟨S8x128, .f32⟩
  | 126 => ⟨S8x64, .f32⟩
  | 127 => ⟨S1x64, .f32⟩
  | _ => ⟨S50000x32, .f32⟩

abbrev hbmTy0_2 (i : Nat) : BufTy := match i % 128 with
  | 0 => ⟨S8x64, .f32⟩
  | 1 => ⟨S8x64, .f32⟩
  | 2 => ⟨S_, .f32⟩
  | 3 => ⟨S8x64, .f32⟩
  | 4 => ⟨S8x64, .f32⟩
  | 5 => ⟨S8x1, .f32⟩
  | 6 => ⟨S1x1, .f32⟩
  | 7 => ⟨S8x1, .f32⟩
  | 8 => ⟨S8x1, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_0 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_1 : Ref sig .tc := ⟨.hbm, 50, rfl⟩
abbrev main_v23 : Ref sig .tc := ⟨.hbm, 51, rfl⟩
abbrev main_v24 : Ref sig .tc := ⟨.hbm, 52, rfl⟩
abbrev main_c_2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call0_cst : Ref sig .tc := ⟨.hbm, 68, rfl⟩
abbrev main_call0_v0 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call1_cst : Ref sig .tc := ⟨.hbm, 92, rfl⟩
abbrev main_call1_v0 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_3 : Ref sig .tc := ⟨.hbm, 104, rfl⟩
abbrev main_v70 : Ref sig .tc := ⟨.hbm, 105, rfl⟩
abbrev main_v71 : Ref sig .tc := ⟨.hbm, 106, rfl⟩
abbrev main_c_4 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_5 : Ref sig .tc := ⟨.hbm, 113, rfl⟩
abbrev main_v77 : Ref sig .tc := ⟨.hbm, 114, rfl⟩
abbrev main_v78 : Ref sig .tc := ⟨.hbm, 115, rfl⟩
abbrev main_c_6 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call2_cst : Ref sig .tc := ⟨.hbm, 131, rfl⟩
abbrev main_call2_v0 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_7 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_call3_cst : Ref sig .tc := ⟨.hbm, 155, rfl⟩
abbrev main_call3_v0 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_8 : Ref sig .tc := ⟨.hbm, 167, rfl⟩
abbrev main_v124 : Ref sig .tc := ⟨.hbm, 168, rfl⟩
abbrev main_v125 : Ref sig .tc := ⟨.hbm, 169, rfl⟩
abbrev main_c_9 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_c_10 : Ref sig .tc := ⟨.hbm, 176, rfl⟩
abbrev main_v131 : Ref sig .tc := ⟨.hbm, 177, rfl⟩
abbrev main_v132 : Ref sig .tc := ⟨.hbm, 178, rfl⟩
abbrev main_c_11 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_call4_cst : Ref sig .tc := ⟨.hbm, 194, rfl⟩
abbrev main_call4_v0 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_cst_12 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_call5_cst : Ref sig .tc := ⟨.hbm, 218, rfl⟩
abbrev main_call5_v0 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_cst_13 : Ref sig .tc := ⟨.hbm, 230, rfl⟩
abbrev main_v178 : Ref sig .tc := ⟨.hbm, 231, rfl⟩
abbrev main_cst_14 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_15 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_cst_16 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_call6_cst : Ref sig .tc := ⟨.hbm, 251, rfl⟩
abbrev main_call6_v0 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_call7_cst : Ref sig .tc := ⟨.hbm, 258, rfl⟩
abbrev main_call7_v0 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S400000x128_0_1 : S1x128.BroadcastsInDim S400000x128 (![0, 1] : Fin 2 → Fin S400000x128.rank)
  bcast_S1x128_S8x128_0_1 : S1x128.BroadcastsInDim S8x128 (![0, 1] : Fin 2 → Fin S8x128.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  slices_S3x384x128_S1x384x128_0_0_0 : S3x384x128.Slices ![0, 0, 0] S1x384x128
  shapeCasts_S1x384x128_S384x128 : S1x384x128.ShapeCasts S384x128
  slices_S3x128_S1x128_0_0 : S3x128.Slices ![0, 0] S1x128
  shapeCasts_S1x128_S128 : S1x128.ShapeCasts S128
  bcast_S_S400000x128 : S_.BroadcastsInDim S400000x128 (![] : Fin 0 → Fin S400000x128.rank)
  slices_S3x128x128_S1x128x128_0_0_0 : S3x128x128.Slices ![0, 0, 0] S1x128x128
  shapeCasts_S1x128x128_S128x128 : S1x128x128.ShapeCasts S128x128
  bcast_S_S50000x128 : S_.BroadcastsInDim S50000x128 (![] : Fin 0 → Fin S50000x128.rank)
  concatenates_S50000x128_S50000x128_S50000x256_d1 : Shape.Concatenates [S50000x128, S50000x128] S50000x256 1
  slices_S3x256x128_S1x256x128_0_0_0 : S3x256x128.Slices ![0, 0, 0] S1x256x128
  shapeCasts_S1x256x128_S256x128 : S1x256x128.ShapeCasts S256x128
  slices_S3x384x128_S1x384x128_1_0_0 : S3x384x128.Slices ![1, 0, 0] S1x384x128
  slices_S3x128_S1x128_1_0 : S3x128.Slices ![1, 0] S1x128
  slices_S3x128x128_S1x128x128_1_0_0 : S3x128x128.Slices ![1, 0, 0] S1x128x128
  slices_S3x256x128_S1x256x128_1_0_0 : S3x256x128.Slices ![1, 0, 0] S1x256x128
  slices_S3x384x128_S1x384x128_2_0_0 : S3x384x128.Slices ![2, 0, 0] S1x384x128
  slices_S3x128_S1x128_2_0 : S3x128.Slices ![2, 0] S1x128
  slices_S3x128x128_S1x128x128_2_0_0 : S3x128x128.Slices ![2, 0, 0] S1x128x128
  slices_S3x256x128_S1x256x128_2_0_0 : S3x256x128.Slices ![2, 0, 0] S1x256x128
  bcast_S_S50000 : S_.BroadcastsInDim S50000 (![] : Fin 0 → Fin S50000.rank)
  bcast_S_S8 : S_.BroadcastsInDim S8 (![] : Fin 0 → Fin S8.rank)
  bcast_S50000_S50000x1_0 : S50000.BroadcastsInDim S50000x1 (![0] : Fin 1 → Fin S50000x1.rank)
  bcast_S_S8x128 : S_.BroadcastsInDim S8x128 (![] : Fin 0 → Fin S8x128.rank)
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  concatenates_S8x128_S8x128_S8x256_d1 : Shape.Concatenates [S8x128, S8x128] S8x256 1
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  dot_S50000x32_S32x128_S50000x128_1_0_0_1_n_n_wf : DotDims.WF S50000x32 S32x128 S50000x128 [1] [0] [0] [1] [] []
  dot_S400000x16_S16x128_S400000x128_1_0_0_1_n_n_wf : DotDims.WF S400000x16 S16x128 S400000x128 [1] [0] [0] [1] [] []
  dot_S8x1_S1x128_S8x128_1_0_0_1_n_n_wf : DotDims.WF S8x1 S1x128 S8x128 [1] [0] [0] [1] [] []
  gather_S50000x128_S400000x1_S400000x128_1_0_n_n_0_1_1128_wf : GatherDims.WF S50000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  scatter_S8_S50000x1_S50000_n_0_0_1_wf : ScatterDims.WF S8 S50000x1 S50000 [] [0] [0] 1
  scatter_S8x128_S50000x1_S50000x128_1_0_0_1_wf : ScatterDims.WF S8x128 S50000x1 S50000x128 [1] [0] [0] 1
  dot_S8x256_S256x128_S8x128_1_0_0_1_n_n_wf : DotDims.WF S8x256 S256x128 S8x128 [1] [0] [0] [1] [] []
  dot_S8x128_S128x64_S8x64_1_0_0_1_n_n_wf : DotDims.WF S8x128 S128x64 S8x64 [1] [0] [0] [1] [] []
  dot_S8x64_S64x1_S8x1_1_0_0_1_n_n_wf : DotDims.WF S8x64 S64x1 S8x1 [1] [0] [0] [1] [] []

variable [Facts₀]

def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf
def dot_S400000x16_S16x128_S400000x128_1_0_0_1_n_n : DotDims S400000x16 S16x128 S400000x128 where
  lhsContracting := [1]
  rhsContracting := [0]
  lhsNonContracting := [0]
  rhsNonContracting := [1]
  lhsBatch := []
  rhsBatch := []
  wf := dot_S400000x16_S16x128_S400000x128_1_0_0_1_n_n_wf
def dot_S8x1_S1x128_S8x128_1_0_0_1_n_n : DotDims S8x1 S1x128 S8x128 where
  lhsContracting := [1]
  rhsContracting := [0]
  lhsNonContracting := [0]
  rhsNonContracting := [1]
  lhsBatch := []
  rhsBatch := []
  wf := dot_S8x1_S1x128_S8x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S8_S50000x1_S50000_n_0_0_1 : ScatterDims S8 S50000x1 S50000 where
  updateWindowDims := []
  insertedWindowDims := [0]
  scatterDimsToOperandDims := [0]
  indexVectorDim := 1
  wf := scatter_S8_S50000x1_S50000_n_0_0_1_wf
def scatter_S8x128_S50000x1_S50000x128_1_0_0_1 : ScatterDims S8x128 S50000x1 S50000x128 where
  updateWindowDims := [1]
  insertedWindowDims := [0]
  scatterDimsToOperandDims := [0]
  indexVectorDim := 1
  wf := scatter_S8x128_S50000x1_S50000x128_1_0_0_1_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf
def dot_S8x64_S64x1_S8x1_1_0_0_1_n_n : DotDims S8x64 S64x1 S8x1 where
  lhsContracting := [1]
  rhsContracting := [0]
  lhsNonContracting := [0]
  rhsNonContracting := [1]
  lhsBatch := []
  rhsBatch := []
  wf := dot_S8x64_S64x1_S8x1_1_0_0_1_n_n_wf

class Facts : Prop extends Facts₀ where

variable [Facts]
-- ==== Proof.RRunLib.lean ====
import proofs.«418781_j85873576116382_1_alg».proof.Proof.RReadP

open Idealize.ShloMosaic

-- Each operation of a literal line writes one buffer, and that buffer is in the list: decided operation by operation.
macro "writes_listed" : tactic => `(tactic| (
  refine List.forall_iff_forall_mem.mpr fun _ h => ?_
  (repeat (cases h with
    | head => (simp only [StableHlo.nullary_writes, StableHlo.unary_writes, StableHlo.binary_writes, StableHlo.ternary_writes,
        StableHlo.quaternary_writes, StableHlo.reshape_writes, StableHlo.binaryIndexed_writes, StableHlo.nary_writes,
        StableHlo.unaryIndexed_writes, Finset.singleton_subset_iff, List.mem_toFinset]; exact List.mem_map_of_mem (by decide))
    | tail _ h => ?_))
  exact nomatch h))

noncomputable section
namespace Cert.RRun
open Cert.ReferenceIdeal Cert.ReferenceIdeal.Gen Cert.ReferenceIdeal.Read Idealize.ShloMosaic Idealize.ShloMosaic.TcCoe Idealize.SL.Sem Idealize.ShloMosaic.StableHlo
variable {F : FTy → Type} [FloatOps F] (V : Valuation τ sig (Elt F))
-- The value a buffer holds after its operation, as a function of the launch contents of the arguments.
abbrev valAt_v3 := val_main_v3 (F := F) (V (Proc.devRef .tc main_arg0)) (V (Proc.devRef .tc main_arg3)) (V (Proc.devRef .tc main_arg4))
abbrev valAt_v7 := val_main_v7 (F := F) (V (Proc.devRef .tc main_arg1)) (V (Proc.devRef .tc main_arg5)) (V (Proc.devRef .tc main_arg6))
abbrev valAt_v11 := val_main_v11 (F := F) (V (Proc.devRef .tc main_arg2)) (V (Proc.devRef .tc main_arg7)) (V (Proc.devRef .tc main_arg8))
abbrev valAt_v13 := val_main_v13 (F := F) (V (Proc.devRef .tc main_arg23))
abbrev valAt_v15 := val_main_v15 (F := F) (V (Proc.devRef .tc main_arg23))
abbrev valAt_v22 := val_main_v22 (F := F) (V (Proc.devRef .tc main_arg0)) (V (Proc.devRef .tc main_arg3)) (V (Proc.devRef .tc main_arg4)) (V (Proc.devRef .tc main_arg23))
abbrev valAt_v29 := val_main_v29 (F := F) (V (Proc.devRef .tc main_arg0)) (V (Proc.devRef .tc main_arg3)) (V (Proc.devRef .tc main_arg4)) (V (Proc.devRef .tc main_arg23))
abbrev valAt_v50 := val_main_v50 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg23))
abbrev valAt_v54 := val_main_v54 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg23))
abbrev valAt_v69 := val_main_v69 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg23))
abbrev valAt_v76 := val_main_v76 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg23))
abbrev valAt_v83 := val_main_v83 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg23))
abbrev valAt_v104 := val_main_v104 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg23))
abbrev valAt_v108 := val_main_v108 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg23))
abbrev valAt_v109 := val_main_v109 (F := F) (V (Proc.devRef .tc main_arg14))
abbrev valAt_v123 := val_main_v123 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg23))
abbrev valAt_v130 := val_main_v130 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg23))
abbrev valAt_v137 := val_main_v137 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg23))
abbrev valAt_v158 := val_main_v158 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg23))
abbrev valAt_v162 := val_main_v162 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg23))
abbrev valAt_v164 := val_main_v164 (F := F) (V (Proc.devRef .tc main_arg14))
abbrev valAt_v189 := val_main_v189 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg23)) (V (Proc.devRef .tc main_arg24))
abbrev valAt_v190 := val_main_v190 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg23)) (V (Proc.devRef .tc main_arg24))
abbrev valAt_v204 := val_main_v204 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24))
end Cert.RRun
end
-- ==== Proof.RRunH0.lean ====
import proofs.«418781_j85873576116382_1_alg».proof.Proof.RRunLib
noncomputable section
namespace Cert.RRun
open Cert.ReferenceIdeal Cert.ReferenceIdeal.Gen Idealize.ShloMosaic Idealize.ShloMosaic.TcCoe Idealize.SL.Sem Idealize.ShloMosaic.StableHlo
open Cert.ReferenceIdeal.Read
variable {F : FTy → Type} [FloatOps F]
set_option maxHeartbeats 1000000 in
abbrev ops0a : List (HloOp τ sig (Elt F)) :=
  [ binary main_arg0 main_arg3 main_v0 ((fun l r => Host.dotGeneral dot_S50000x32_S32x128_S50000x128_1_0_0_1_n_n none l r) : (⟨S50000x32, .f32⟩ : BufTy).Contents (Elt F) → (⟨S32x128, .f32⟩ : BufTy).Contents (Elt F) → (⟨S50000x128, .f32⟩ : BufTy).Contents (Elt F)),
    unary main_arg4 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)),
    binary main_arg1 main_arg5 main_v4 ((fun l r => Host.dotGeneral dot_S400000x16_S16x128_S400000x128_1_0_0_1_n_n none l r) : (⟨S400000x16, .f32⟩ : BufTy).Contents (Elt F) → (⟨S16x128, .f32⟩ : BufTy).Contents (Elt F) → (⟨S400000x128, .f32⟩ : BufTy).Contents (Elt F)),
    unary main_arg6 main_v5 (broadcastInDim S1x128 ![1] bcast_S128_S1x128_1 : (⟨S128, .f32⟩ : BufTy).Contents (Elt F) → (⟨S1x128, .f32⟩ : BufTy).Contents (Elt F)),
    unary main_v5 main_v6 (broadcastInDim S400000x128 ![0, 1] bcast_S1x128_S400000x128_0_1 : (⟨S1x128, .f32⟩ : BufTy).Contents (Elt F) → (⟨S400000x128, .f32⟩ : BufTy).Contents (Elt F)),
    binary main_v4 main_v6 main_v7 (addf : (⟨S400000x128, .f32⟩ : BufTy).Contents (Elt F) → (⟨S400000x128, .f32⟩ : BufTy).Contents (Elt F) → (⟨S400000x128, .f32⟩ : BufTy).Contents (Elt F)),
    binary main_arg2 main_arg7 main_v8 ((fun l r => Host.dotGeneral dot_S8x1_S1x128_S8x128_1_0_0_1_n_n none l r) : (⟨S8x1, .f32⟩ : BufTy).Contents (Elt F) → (⟨S1x128, .f32⟩ : BufTy).Contents (Elt F) → (⟨S8x128, .f32⟩ : BufTy).Contents (Elt F)),
    unary main_arg8 main_v9 (broadcastInDim S1x128 ![1] bcast_S128_S1x128_1 : (⟨S128, .f32⟩ : BufTy).Contents (Elt F) → (⟨S1x128, .f32⟩ : BufTy).Contents (Elt F)),
    unary main_v9 main_v10 (broadcastInDim S8x128 ![0, 1] bcast_S1x128_S8x128_0_1 : (⟨S1x128, .f32⟩ : BufTy).Contents (Elt F) → (⟨S8x128, .f32⟩ : BufTy).Contents (Elt F)),
    binary main_v8 main_v10 main_v11 (addf : (⟨S8x128, .f32⟩ : BufTy).Contents (Elt F) → (⟨S8x128, .f32⟩ : BufTy).Contents (Elt F) → (⟨S8x128, .f32⟩ : BufTy).Contents (Elt F)),
    unary main_arg23 main_v12 ((extractStridedSlice S1x400000 ![0, 0] · slices_S2x400000_S1x400000_0_0) : (⟨S2x400000, .i32⟩ : BufTy).Contents (Elt F) → (⟨S1x400000, .i32⟩ : BufTy).Contents (Elt F)),
    reshape main_v12 main_v13 rfl shapeCasts_S1x400000_S400000,
    unary main_arg23 main_v14 ((extractStridedSlice S1x400000 ![1, 0] · slices_S2x400000_S1x400000_1_0) : (⟨S2x400000, .i32⟩ : BufTy).Contents (Elt F) → (⟨S1x400000, .i32⟩ : BufTy).Contents (Elt F)),
    reshape main_v14 main_v15 rfl shapeCasts_S1x400000_S400000,
    nullary main_c (constantI S_ 32 0#32),
    unary main_c main_v16 (broadcastInDim S400000 ![] bcast_S_S400000 : (⟨S_, .i32⟩ : BufTy).Contents (Elt F) → (⟨S400000, .i32⟩ : BufTy).Contents (Elt F)),
    binary main_v15 main_v16 main_v17 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v18 (broadcastInDim S400000 ![] bcast_S_S400000 : (⟨S_, .i32⟩ : BufTy).Contents (Elt F) → (⟨S400000, .i32⟩ : BufTy).Contents (Elt F)),
    binary main_v15 main_v18 main_v19 (addi : (⟨S400000, .i32⟩ : BufTy).Contents (Elt F) → (⟨S400000, .i32⟩ : BufTy).Contents (Elt F) → (⟨S400000, .i32⟩ : BufTy).Contents (Elt F)),
    ternary main_v17 main_v19 main_v15 main_v20 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v20 main_v21 (broadcastInDim S400000x1 ![0] bcast_S400000_S400000x1_0 : (⟨S400000, .i32⟩ : BufTy).Contents (Elt F) → (⟨S400000x1, .i32⟩ : BufTy).Contents (Elt F)),
    binary main_v3 main_v21 main_v22 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_1 (constantI S_ 32 0#32),
    unary main_c_1 main_v23 (broadcastInDim S400000 ![] bcast_S_S400000 : (⟨S_, .i32⟩ : BufTy).Contents (Elt F) → (⟨S400000, .i32⟩ : BufTy).Contents (Elt F)),
    binary main_v13 main_v23 main_v24 (cmpi .slt : (⟨S400000, .i32⟩ : BufTy).Contents (Elt F) → (⟨S400000, .i32⟩ : BufTy).Contents (Elt F) → (⟨S400000, .i1⟩ : BufTy).Contents (Elt F)),
    nullary main_c_2 (constantI S_ 32 50000#32),
    unary main_c_2 main_v25 (broadcastInDim S400000 ![] bcast_S_S400000 : (⟨S_, .i32⟩ : BufTy).Contents (Elt F) → (⟨S400000, .i32⟩ : BufTy).Contents (Elt F)),
    binary main_v13 main_v25 main_v26 (addi : (⟨S400000, .i32⟩ : BufTy).Contents (Elt F) → (⟨S400000, .i32⟩ : BufTy).Contents (Elt F) → (⟨S400000, .i32⟩ : BufTy).Contents (Elt F)),
    ternary main_v24 main_v26 main_v13 main_v27 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v27 main_v28 (broadcastInDim S400000x1 ![0] bcast_S400000_S400000x1_0 : (⟨S400000, .i32⟩ : BufTy).Contents (Elt F) → (⟨S400000x1, .i32⟩ : BufTy).Contents (Elt F)),
    binary main_v3 main_v28 main_v29 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) ]
abbrev ops0a_W : List (Ref sig .tc) := [main_v0, main_v1, main_v2, main_v3, main_v4, main_v5, main_v6, main_v7, main_v8, main_v9, main_v10, main_v11, main_v12, main_v13, main_v14, main_v15, main_c, main_v16, main_v17, main_c_0, main_v18, main_v19, main_v20, main_v21, main_v22, main_c_1, main_v23, main_v24, main_c_2, main_v25, main_v26, main_v27, main_v28, main_v29]
set_option maxRecDepth 8192 in
set_option maxHeartbeats 4000000 in
theorem ops0a_writes : (ops0a : List (HloOp τ sig (Elt F))).Forall fun op => op.writes ⊆ (ops0a_W.map (Proc.devRef (τ := τ) .tc)).toFinset := by writes_listed
theorem ops0a_keep (Wp : Valuation τ sig (Elt F)) (r : Ref sig .tc) (h : r ∉ ops0a_W) :
    after ops0a Wp (Proc.devRef .tc r) = Wp (Proc.devRef .tc r) :=
  after_of_writes_sub ops0a _ ops0a_writes h
set_option maxHeartbeats 1000000 in
abbrev ops0b : List (HloOp τ sig (Elt F)) :=
  [ nary ![main_v22, main_v29, main_v7] main_v30 (fun u => concatenate S400000x384 1 [⟨S400000x128, u 0⟩, ⟨S400000x128, u 1⟩, ⟨S400000x128, u 2⟩] concatenates_S400000x128_S400000x128_S400000x128_S400000x384_d1),
    unary main_arg9 main_v31 ((extractStridedSlice S1x384x128 ![0, 0, 0] · slices_S3x384x128_S1x384x128_0_0_0) : (⟨S3x384x128, .f32⟩ : BufTy).Contents (Elt F) → (⟨S1x384x128, .f32⟩ : BufTy).Contents (Elt F)),
    reshape main_v31 main_v32 rfl shapeCasts_S1x384x128_S384x128,
    binary main_v30 main_v32 main_v33 ((fun l r => Host.dotGeneral dot_S400000x384_S384x128_S400000x128_1_0_0_1_n_n none l r) : (⟨S400000x384, .f32⟩ : BufTy).Contents (Elt F) → (⟨S384x128, .f32⟩ : BufTy).Contents (Elt F) → (⟨S400000x128, .f32⟩ : BufTy).Contents (Elt F)),
    unary main_arg10 main_v34 ((extractStridedSlice S1x128 ![0, 0] · slices_S3x128_S1x128_0_0) : (⟨S3x128, .f32⟩ : BufTy).Contents (Elt F) → (⟨S1x128, .f32⟩ : BufTy).Contents (Elt F)),
    reshape main_v34 main_v35 rfl shapeCasts_S1x128_S128,
    unary main_v35 main_v36 (broadcastInDim S1x128 ![1] bcast_S128_S1x128_1 : (⟨S128, .f32⟩ : BufTy).Contents (Elt F) → (⟨S1x128, .f32⟩ : BufTy).Contents (Elt F)),
    unary main_v36 main_v37 (broadcastInDim S400000x128 ![0, 1] bcast_S1x128_S400000x128_0_1 : (⟨S1x128, .f32⟩ : BufTy).Contents (Elt F) → (⟨S400000x128, .f32⟩ : BufTy).Contents (Elt F)),
    binary main_v33 main_v37 main_v38 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S400000x128, .f32⟩) main_call0_v0) (broadcastInDim S400000x128 ![] bcast_S_S400000x128),
    TRef.binary (TRef.of (T := ⟨S400000x128, .f32⟩) main_v38) (TRef.of (T := ⟨S400000x128, .f32⟩) main_call0_v0) (TRef.of (T := ⟨S400000x128, .f32⟩) main_v39) maximumf,
    unary main_arg11 main_v40 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v40 main_v41 rfl shapeCasts_S1x128x128_S128x128,
    binary main_v39 main_v41 main_v42 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg12 main_v43 ((extractStridedSlice S1x128 ![0, 0] · slices_S3x128_S1x128_0_0) : (⟨S3x128, .f32⟩ : BufTy).Contents (Elt F) → (⟨S1x128, .f32⟩ : BufTy).Contents (Elt F)),
    reshape main_v43 main_v44 rfl shapeCasts_S1x128_S128,
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S400000x128 ![0, 1] bcast_S1x128_S400000x128_0_1 : (⟨S1x128, .f32⟩ : BufTy).Contents (Elt F) → (⟨S400000x128, .f32⟩ : BufTy).Contents (Elt F)),
    binary main_v42 main_v46 main_v47 (addf : (⟨S400000x128, .f32⟩ : BufTy).Contents (Elt F) → (⟨S400000x128, .f32⟩ : BufTy).Contents (Elt F) → (⟨S400000x128, .f32⟩ : BufTy).Contents (Elt F)),
    nullary main_cst (constant S_ .f32 0x00000000#32),
    unary main_cst main_v48 (broadcastInDim S50000x128 ![] bcast_S_S50000x128 : (⟨S_, .f32⟩ : BufTy).Contents (Elt F) → (⟨S50000x128, .f32⟩ : BufTy).Contents (Elt F)),
    unary main_v15 main_v49 (broadcastInDim S400000x1 ![0] bcast_S400000_S400000x1_0 : (⟨S400000, .i32⟩ : BufTy).Contents (Elt F) → (⟨S400000x1, .i32⟩ : BufTy).Contents (Elt F)),
    ternary main_v48 main_v49 main_v47 main_v50 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) ]
abbrev ops0b_W : List (Ref sig .tc) := [main_v30, main_v31, main_v32, main_v33, main_v34, main_v35, main_v36, main_v37, main_v38, main_call0_cst, main_call0_v0, main_v39, main_v40, main_v41, main_v42, main_v43, main_v44, main_v45, main_v46, main_v47, main_cst, main_v48, main_v49, main_v50]
set_option maxRecDepth 8192 in
set_option maxHeartbeats 4000000 in
theorem ops0b_writes : (ops0b : List (HloOp τ sig (Elt F))).Forall fun op => op.writes ⊆ (ops0b_W.map (Proc.devRef (τ := τ) .tc)).toFinset := by writes_listed
theorem ops0b_keep (Wp : Valuation τ sig (Elt F)) (r : Ref sig .tc) (h : r ∉ ops0b_W) :
    after ops0b Wp (Proc.devRef .tc r) = Wp (Proc.devRef .tc r) :=
  after_of_writes_sub ops0b _ ops0b_writes h
set_option maxHeartbeats 1000000 in
abbrev ops0c : List (HloOp τ sig (Elt F)) :=
  [ binary main_v3 main_v50 main_v51 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg13 main_v52 ((extractStridedSlice S1x256x128 ![0, 0, 0] · slices_S3x256x128_S1x256x128_0_0_0) : (⟨S3x256x128, .f32⟩ : BufTy).Contents (Elt F) → (⟨S1x256x128, .f32⟩ : BufTy).Contents (Elt F)),
    reshape main_v52 main_v53 rfl shapeCasts_S1x256x128_S256x128,
    binary main_v51 main_v53 main_v54 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]
abbrev ops0c_W : List (Ref sig .tc) := [main_v51, main_v52, main_v53, main_v54]
set_option maxRecDepth 8192 in
set_option maxHeartbeats 4000000 in
theorem ops0c_writes : (ops0c : List (HloOp τ sig (Elt F))).Forall fun op => op.writes ⊆ (ops0c_W.map (Proc.devRef (τ := τ) .tc)).toFinset := by writes_listed
theorem ops0c_keep (Wp : Valuation τ sig (Elt F)) (r : Ref sig .tc) (h : r ∉ ops0c_W) :
    after ops0c Wp (Proc.devRef .tc r) = Wp (Proc.devRef .tc r) :=
  after_of_writes_sub ops0c _ ops0c_writes h
-- The window is its parts in order; what holds of every part's operations holds of the window's.
abbrev ops0 : List (HloOp τ sig (Elt F)) := ops0a ++ (ops0b ++ (ops0c))
set_option maxRecDepth 8192 in
set_option maxHeartbeats 4000000 in
theorem main_part0_eq (c : Dev nD) : main_part0 (F := F) c = seq ops0 := rfl
set_option maxRecDepth 8192 in
theorem ops0a_sub : (ops0a : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem ops0b_sub : (ops0b : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub ..⟩
set_option maxRecDepth 8192 in
theorem ops0c_sub : (ops0c : List (HloOp τ sig (Elt F))).Forall fun op => op.bufs ⊆ tcRefs τ sig :=
  ⟨binary_bufs_sub .., unary_bufs_sub .., reshape_bufs_sub .., binary_bufs_sub ..⟩
theorem ops0_sub : (ops0 : List (HloOp τ sig (Elt F))).Forall fun op => op.bufs ⊆ tcRefs τ sig :=
  List.forall_iff_forall_mem.mpr fun _ h => by
    simp only [ops0, List.mem_append] at h
    rcases h with h | h | h
    exacts [List.forall_iff_forall_mem.mp ops0a_sub _ h, List.forall_iff_forall_mem.mp ops0b_sub _ h, List.forall_iff_forall_mem.mp ops0c_sub _ h]
set_option maxRecDepth 8192 in
theorem ops0_fresh : ∀ op ∈ (ops0 : List (HloOp τ sig (Elt F))), op.fresh = ∅ := by
  intro _ h
  simp only [ops0, List.mem_append] at h
  rcases h with h | h | h <;> (repeat (cases h with | head => rfl | tail _ h => ?_)) <;> exact nomatch h
set_option maxRecDepth 8192 in
set_option maxHeartbeats 4000000 in
theorem w0a_main_v3 (V : Valuation τ sig (Elt F)) :
    after ops0a V (Proc.devRef .tc main_v3) = valAt_v3 V := by
  simp only [ops0a]
  after_results_simp
  rfl
set_option maxRecDepth 8192 in
set_option maxHeartbeats 4000000 in
theorem w0a_main_v7 (V : Valuation τ sig (Elt F)) :
    after ops0a V (Proc.devRef .tc main_v7) = valAt_v7 V := by
  simp only [ops0a]
  after_results_simp
  rfl
set_option maxRecDepth 8192 in
set_option maxHeartbeats 4000000 in
theorem w0a_main_v11 (V : Valuation τ sig (Elt F)) :
    after ops0a V (Proc.devRef .tc main_v11) = valAt_v11 V := by
  simp only [ops0a]
  after_results_simp
  rfl
set_option maxRecDepth 8192 in
set_option maxHeartbeats 4000000 in
theorem w0a_main_v13 (V : Valuation τ sig (Elt F)) :
    after ops0a V (Proc.devRef .tc main_v13) = valAt_v13 V := by
  simp only [ops0a]
  after_results_simp
  rfl
set_option maxRecDepth 8192 in
set_option maxHeartbeats 4000000 in
theorem w0a_main_v15 (V : Valuation τ sig (Elt F)) :
    after ops0a V (Proc.devRef .tc main_v15) = valAt_v15 V := by
  simp only [ops0a]
  after_results_simp
  rfl
set_option maxRecDepth 8192 in
set_option maxHeartbeats 4000000 in
theorem w0a_main_v22 (V : Valuation τ sig (Elt F)) :
    after ops0a V (Proc.devRef .tc main_v22) = valAt_v22 V := by
  simp only [ops0a]
  after_results_simp
  rfl
set_option maxRecDepth 8192 in
set_option maxHeartbeats 4000000 in
theorem w0a_main_v29 (V : Valuation τ sig (Elt F)) :
    after ops0a V (Proc.devRef .tc main_v29) = valAt_v29 V := by
  simp only [ops0a]
  after_results_simp
  rfl
set_option maxRecDepth 8192 in
set_option maxHeartbeats 4000000 in
theorem w0b_main_v50 (V Wp : Valuation τ sig (Elt F))
    (a12 : Wp (no_index (Proc.devRef .tc main_arg12)) = V (Proc.devRef .tc main_arg12))
    (a11 : Wp (no_index (Proc.devRef .tc main_arg11)) = V (Proc.devRef .tc main_arg11))
    (a10 : Wp (no_index (Proc.devRef .tc main_arg10)) = V (Proc.devRef .tc main_arg10))
    (a9 : Wp (no_index (Proc.devRef .tc main_arg9)) = V (Proc.devRef .tc main_arg9))
    (hv7 : Wp (no_index (Proc.devRef .tc main_v7)) = valAt_v7 V)
    (hv29 : Wp (no_index (Proc.devRef .tc main_v29)) = valAt_v29 V)
    (hv22 : Wp (no_index (Proc.devRef .tc main_v22)) = valAt_v22 V)
    (hv15 : Wp (no_index (Proc.devRef .tc main_v15)) = valAt_v15 V) :
    after ops0b Wp (Proc.devRef .tc main_v50) = valAt_v50 V := by
  simp only [ops0b]
  after_results_simp
  try dsimp only [Matrix.cons_val]
  try after_results_simp
  try simp only [a12, a11, a10, a9, hv7, hv29, hv22, hv15]
  try rw [a12]
  try rw [a11]
  try rw [a10]
  try rw [a9]
  try rw [hv7]
  try rw [hv29]
  try rw [hv22]
  try rw [hv15]
  rfl
set_option maxRecDepth 8192 in
set_option maxHeartbeats 4000000 in
theorem w0c_main_v54 (V Wp : Valuation τ sig (Elt F))
    (a13 : Wp (no_index (Proc.devRef .tc main_arg13)) = V (Proc.devRef .tc main_arg13))
    (hv50 : Wp (no_index (Proc.devRef .tc main_v50)) = valAt_v50 V)
    (hv3 : Wp (no_index (Proc.devRef .tc main_v3)) = valAt_v3 V) :
    after ops0c Wp (Proc.devRef .tc main_v54) = valAt_v54 V := by
  simp only [ops0c]
  after_results_simp
  try simp only [a13, hv50, hv3]
  try rw [a13]
  try rw [hv50]
  try rw [hv3]
  rfl
end Cert.RRun
end
-- ==== Proof.RRunH1.lean ====
import proofs.«418781_j85873576116382_1_alg».proof.Proof.RRunLib
noncomputable section
namespace Cert.RRun
open Cert.ReferenceIdeal Cert.ReferenceIdeal.Gen Idealize.ShloMosaic Idealize.ShloMosaic.TcCoe Idealize.SL.Sem Idealize.ShloMosaic.StableHlo
open Cert.ReferenceIdeal.Read
variable {F : FTy → Type} [FloatOps F]
set_option maxHeartbeats 1000000 in
abbrev ops1a : List (HloOp τ sig (Elt F)) :=
  [ unary main_arg14 main_v55 ((extractStridedSlice S1x128 ![0, 0] · slices_S3x128_S1x128_0_0) : (⟨S3x128, .f32⟩ : BufTy).Contents (Elt F) → (⟨S1x128, .f32⟩ : BufTy).Contents (Elt F)),
    reshape main_v55 main_v56 rfl shapeCasts_S1x128_S128,
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v54 main_v58 main_v59 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v59) (TRef.of (T := ⟨S50000x128, .f32⟩) main_call1_v0) (TRef.of (T := ⟨S50000x128, .f32⟩) main_v60) maximumf,
    unary main_arg15 main_v61 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v61 main_v62 rfl shapeCasts_S1x128x128_S128x128,
    binary main_v60 main_v62 main_v63 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v64 ((extractStridedSlice S1x128 ![0, 0] · slices_S3x128_S1x128_0_0) : (⟨S3x128, .f32⟩ : BufTy).Contents (Elt F) → (⟨S1x128, .f32⟩ : BufTy).Contents (Elt F)),
    reshape main_v64 main_v65 rfl shapeCasts_S1x128_S128,
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v63 main_v67 main_v68 (addf : (⟨S50000x128, .f32⟩ : BufTy).Contents (Elt F) → (⟨S50000x128, .f32⟩ : BufTy).Contents (Elt F) → (⟨S50000x128, .f32⟩ : BufTy).Contents (Elt F)),
    binary main_v3 main_v68 main_v69 (addf : (⟨S50000x128, .f32⟩ : BufTy).Contents (Elt F) → (⟨S50000x128, .f32⟩ : BufTy).Contents (Elt F) → (⟨S50000x128, .f32⟩ : BufTy).Contents (Elt F)),
    nullary main_c_3 (constantI S_ 32 0#32),
    unary main_c_3 main_v70 (broadcastInDim S400000 ![] bcast_S_S400000 : (⟨S_, .i32⟩ : BufTy).Contents (Elt F) → (⟨S400000, .i32⟩ : BufTy).Contents (Elt F)),
    binary main_v15 main_v70 main_v71 (cmpi .slt : (⟨S400000, .i32⟩ : BufTy).Contents (Elt F) → (⟨S400000, .i32⟩ : BufTy).Contents (Elt F) → (⟨S400000, .i1⟩ : BufTy).Contents (Elt F)),
    nullary main_c_4 (constantI S_ 32 50000#32),
    unary main_c_4 main_v72 (broadcastInDim S400000 ![] bcast_S_S400000 : (⟨S_, .i32⟩ : BufTy).Contents (Elt F) → (⟨S400000, .i32⟩ : BufTy).Contents (Elt F)),
    binary main_v15 main_v72 main_v73 (addi : (⟨S400000, .i32⟩ : BufTy).Contents (Elt F) → (⟨S400000, .i32⟩ : BufTy).Contents (Elt F) → (⟨S400000, .i32⟩ : BufTy).Contents (Elt F)),
    ternary main_v71 main_v73 main_v15 main_v74 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v74 main_v75 (broadcastInDim S400000x1 ![0] bcast_S400000_S400000x1_0 : (⟨S400000, .i32⟩ : BufTy).Contents (Elt F) → (⟨S400000x1, .i32⟩ : BufTy).Contents (Elt F)),
    binary main_v69 main_v75 main_v76 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_5 (constantI S_ 32 0#32),
    unary main_c_5 main_v77 (broadcastInDim S400000 ![] bcast_S_S400000 : (⟨S_, .i32⟩ : BufTy).Contents (Elt F) → (⟨S400000, .i32⟩ : BufTy).Contents (Elt F)),
    binary main_v13 main_v77 main_v78 (cmpi .slt : (⟨S400000, .i32⟩ : BufTy).Contents (Elt F) → (⟨S400000, .i32⟩ : BufTy).Contents (Elt F) → (⟨S400000, .i1⟩ : BufTy).Contents (Elt F)),
    nullary main_c_6 (constantI S_ 32 50000#32),
    unary main_c_6 main_v79 (broadcastInDim S400000 ![] bcast_S_S400000 : (⟨S_, .i32⟩ : BufTy).Contents (Elt F) → (⟨S400000, .i32⟩ : BufTy).Contents (Elt F)),
    binary main_v13 main_v79 main_v80 (addi : (⟨S400000, .i32⟩ : BufTy).Contents (Elt F) → (⟨S400000, .i32⟩ : BufTy).Contents (Elt F) → (⟨S400000, .i32⟩ : BufTy).Contents (Elt F)),
    ternary main_v78 main_v80 main_v13 main_v81 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v81 main_v82 (broadcastInDim S400000x1 ![0] bcast_S400000_S400000x1_0 : (⟨S400000, .i32⟩ : BufTy).Contents (Elt F) → (⟨S400000x1, .i32⟩ : BufTy).Contents (Elt F)),
    binary main_v69 main_v82 main_v83 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) ]
abbrev ops1a_W : List (Ref sig .tc) := [main_v55, main_v56, main_v57, main_v58, main_v59, main_call1_cst, main_call1_v0, main_v60, main_v61, main_v62, main_v63, main_v64, main_v65, main_v66, main_v67, main_v68, main_v69, main_c_3, main_v70, main_v71, main_c_4, main_v72, main_v73, main_v74, main_v75, main_v76, main_c_5, main_v77, main_v78, main_c_6, main_v79, main_v80, main_v81, main_v82, main_v83]
set_option maxRecDepth 8192 in
set_option maxHeartbeats 4000000 in
theorem ops1a_writes : (ops1a : List (HloOp τ sig (Elt F))).Forall fun op => op.writes ⊆ (ops1a_W.map (Proc.devRef (τ := τ) .tc)).toFinset := by writes_listed
theorem ops1a_keep (Wp : Valuation τ sig (Elt F)) (r : Ref sig .tc) (h : r ∉ ops1a_W) :
    after ops1a Wp (Proc.devRef .tc r) = Wp (Proc.devRef .tc r) :=
  after_of_writes_sub ops1a _ ops1a_writes h
set_option maxHeartbeats 1000000 in
abbrev ops1b : List (HloOp τ sig (Elt F)) :=
  [ nary ![main_v76, main_v83, main_v7] main_v84 (fun u => concatenate S400000x384 1 [⟨S400000x128, u 0⟩, ⟨S400000x128, u 1⟩, ⟨S400000x128, u 2⟩] concatenates_S400000x128_S400000x128_S400000x128_S400000x384_d1),
    unary main_arg9 main_v85 ((extractStridedSlice S1x384x128 ![1, 0, 0] · slices_S3x384x128_S1x384x128_1_0_0) : (⟨S3x384x128, .f32⟩ : BufTy).Contents (Elt F) → (⟨S1x384x128, .f32⟩ : BufTy).Contents (Elt F)),
    reshape main_v85 main_v86 rfl shapeCasts_S1x384x128_S384x128,
    binary main_v84 main_v86 main_v87 ((fun l r => Host.dotGeneral dot_S400000x384_S384x128_S400000x128_1_0_0_1_n_n none l r) : (⟨S400000x384, .f32⟩ : BufTy).Contents (Elt F) → (⟨S384x128, .f32⟩ : BufTy).Contents (Elt F) → (⟨S400000x128, .f32⟩ : BufTy).Contents (Elt F)),
    unary main_arg10 main_v88 ((extractStridedSlice S1x128 ![1, 0] · slices_S3x128_S1x128_1_0) : (⟨S3x128, .f32⟩ : BufTy).Contents (Elt F) → (⟨S1x128, .f32⟩ : BufTy).Contents (Elt F)),
    reshape main_v88 main_v89 rfl shapeCasts_S1x128_S128,
    unary main_v89 main_v90 (broadcastInDim S1x128 ![1] bcast_S128_S1x128_1 : (⟨S128, .f32⟩ : BufTy).Contents (Elt F) → (⟨S1x128, .f32⟩ : BufTy).Contents (Elt F)),
    unary main_v90 main_v91 (broadcastInDim S400000x128 ![0, 1] bcast_S1x128_S400000x128_0_1 : (⟨S1x128, .f32⟩ : BufTy).Contents (Elt F) → (⟨S400000x128, .f32⟩ : BufTy).Contents (Elt F)),
    binary main_v87 main_v91 main_v92 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S400000x128, .f32⟩) main_call2_v0) (broadcastInDim S400000x128 ![] bcast_S_S400000x128),
    TRef.binary (TRef.of (T := ⟨S400000x128, .f32⟩) main_v92) (TRef.of (T := ⟨S400000x128, .f32⟩) main_call2_v0) (TRef.of (T := ⟨S400000x128, .f32⟩) main_v93) maximumf,
    unary main_arg11 main_v94 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v94 main_v95 rfl shapeCasts_S1x128x128_S128x128,
    binary main_v93 main_v95 main_v96 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg12 main_v97 ((extractStridedSlice S1x128 ![1, 0] · slices_S3x128_S1x128_1_0) : (⟨S3x128, .f32⟩ : BufTy).Contents (Elt F) → (⟨S1x128, .f32⟩ : BufTy).Contents (Elt F)),
    reshape main_v97 main_v98 rfl shapeCasts_S1x128_S128,
    unary main_v98 main_v99 (broadcastInDim S1x128 ![1] bcast_S128_S1x128_1 : (⟨S128, .f32⟩ : BufTy).Contents (Elt F) → (⟨S1x128, .f32⟩ : BufTy).Contents (Elt F)),
    unary main_v99 main_v100 (broadcastInDim S400000x128 ![0, 1] bcast_S1x128_S400000x128_0_1 : (⟨S1x128, .f32⟩ : BufTy).Contents (Elt F) → (⟨S400000x128, .f32⟩ : BufTy).Contents (Elt F)),
    binary main_v96 main_v100 main_v101 (addf : (⟨S400000x128, .f32⟩ : BufTy).Contents (Elt F) → (⟨S400000x128, .f32⟩ : BufTy).Contents (Elt F) → (⟨S400000x128, .f32⟩ : BufTy).Contents (Elt F)),
    nullary main_cst_7 (constant S_ .f32 0x00000000#32),
    unary main_cst_7 main_v102 (broadcastInDim S50000x128 ![] bcast_S_S50000x128 : (⟨S_, .f32⟩ : BufTy).Contents (Elt F) → (⟨S50000x128, .f32⟩ : BufTy).Contents (Elt F)),
    unary main_v15 main_v103 (broadcastInDim S400000x1 ![0] bcast_S400000_S400000x1_0 : (⟨S400000, .i32⟩ : BufTy).Contents (Elt F) → (⟨S400000x1, .i32⟩ : BufTy).Contents (Elt F)),
    ternary main_v102 main_v103 main_v101 main_v104 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) ]
abbrev ops1b_W : List (Ref sig .tc) := [main_v84, main_v85, main_v86, main_v87, main_v88, main_v89, main_v90, main_v91, main_v92, main_call2_cst, main_call2_v0, main_v93, main_v94, main_v95, main_v96, main_v97, main_v98, main_v99, main_v100, main_v101, main_cst_7, main_v102, main_v103, main_v104]
set_option maxRecDepth 8192 in
set_option maxHeartbeats 4000000 in
theorem ops1b_writes : (ops1b : List (HloOp τ sig (Elt F))).Forall fun op => op.writes ⊆ (ops1b_W.map (Proc.devRef (τ := τ) .tc)).toFinset := by writes_listed
theorem ops1b_keep (Wp : Valuation τ sig (Elt F)) (r : Ref sig .tc) (h : r ∉ ops1b_W) :
    after ops1b Wp (Proc.devRef .tc r) = Wp (Proc.devRef .tc r) :=
  after_of_writes_sub ops1b _ ops1b_writes h
set_option maxHeartbeats 1000000 in
abbrev ops1c : List (HloOp τ sig (Elt F)) :=
  [ binary main_v69 main_v104 main_v105 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg13 main_v106 ((extractStridedSlice S1x256x128 ![1, 0, 0] · slices_S3x256x128_S1x256x128_1_0_0) : (⟨S3x256x128, .f32⟩ : BufTy).Contents (Elt F) → (⟨S1x256x128, .f32⟩ : BufTy).Contents (Elt F)),
    reshape main_v106 main_v107 rfl shapeCasts_S1x256x128_S256x128,
    binary main_v105 main_v107 main_v108 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg14 main_v109 ((extractStridedSlice S1x128 ![1, 0] · slices_S3x128_S1x128_1_0) : (⟨S3x128, .f32⟩ : BufTy).Contents (Elt F) → (⟨S1x128, .f32⟩ : BufTy).Contents (Elt F)) ]
abbrev ops1c_W : List (Ref sig .tc) := [main_v105, main_v106, main_v107, main_v108, main_v109]
set_option maxRecDepth 8192 in
set_option maxHeartbeats 4000000 in
theorem ops1c_writes : (ops1c : List (HloOp τ sig (Elt F))).Forall fun op => op.writes ⊆ (ops1c_W.map (Proc.devRef (τ := τ) .tc)).toFinset := by writes_listed
theorem ops1c_keep (Wp : Valuation τ sig (Elt F)) (r : Ref sig .tc) (h : r ∉ ops1c_W) :
    after ops1c Wp (Proc.devRef .tc r) = Wp (Proc.devRef .tc r) :=
  after_of_writes_sub ops1c _ ops1c_writes h
-- The window is its parts in order; what holds of every part's operations holds of the window's.
abbrev ops1 : List (HloOp τ sig (Elt F)) := ops1a ++ (ops1b ++ (ops1c))
set_option maxRecDepth 8192 in
set_option maxHeartbeats 4000000 in
theorem main_part1_eq (c : Dev nD) : main_part1 (F := F) c = seq ops1 := rfl
set_option maxRecDepth 8192 in
theorem ops1a_sub : (ops1a : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem ops1b_sub : (ops1b : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub ..⟩
set_option maxRecDepth 8192 in
theorem ops1c_sub : (ops1c : List (HloOp τ sig (Elt F))).Forall fun op => op.bufs ⊆ tcRefs τ sig :=
  ⟨binary_bufs_sub .., unary_bufs_sub .., reshape_bufs_sub .., binary_bufs_sub .., unary_bufs_sub ..⟩
theorem ops1_sub : (ops1 : List (HloOp τ sig (Elt F))).Forall fun op => op.bufs ⊆ tcRefs τ sig :=
  List.forall_iff_forall_mem.mpr fun _ h => by
    simp only [ops1, List.mem_append] at h
    rcases h with h | h | h
    exacts [List.forall_iff_forall_mem.mp ops1a_sub _ h, List.forall_iff_forall_mem.mp ops1b_sub _ h, List.forall_iff_forall_mem.mp ops1c_sub _ h]
set_option maxRecDepth 8192 in
theorem ops1_fresh : ∀ op ∈ (ops1 : List (HloOp τ sig (Elt F))), op.fresh = ∅ := by
  intro _ h
  simp only [ops1, List.mem_append] at h
  rcases h with h | h | h <;> (repeat (cases h with | head => rfl | tail _ h => ?_)) <;> exact nomatch h
set_option maxRecDepth 8192 in
set_option maxHeartbeats 4000000 in
theorem w1a_main_v69 (V Wp : Valuation τ sig (Elt F))
    (a16 : Wp (no_index (Proc.devRef .tc main_arg16)) = V (Proc.devRef .tc main_arg16))
    (a15 : Wp (no_index (Proc.devRef .tc main_arg15)) = V (Proc.devRef .tc main_arg15))
    (a14 : Wp (no_index (Proc.devRef .tc main_arg14)) = V (Proc.devRef .tc main_arg14))
    (hv54 : Wp (no_index (Proc.devRef .tc main_v54)) = valAt_v54 V)
    (hv3 : Wp (no_index (Proc.devRef .tc main_v3)) = valAt_v3 V) :
    after ops1a Wp (Proc.devRef .tc main_v69) = valAt_v69 V := by
  simp only [ops1a]
  after_results_simp
  try simp only [a16, a15, a14, hv54, hv3]
  try rw [a16]
  try rw [a15]
  try rw [a14]
  try rw [hv54]
  try rw [hv3]
  rfl
set_option maxRecDepth 8192 in
set_option maxHeartbeats 4000000 in
theorem w1a_main_v76 (V Wp : Valuation τ sig (Elt F))
    (hv15 : Wp (no_index (Proc.devRef .tc main_v15)) = valAt_v15 V)
    (a16 : Wp (no_index (Proc.devRef .tc main_arg16)) = V (Proc.devRef .tc main_arg16))
    (a15 : Wp (no_index (Proc.devRef .tc main_arg15)) = V (Proc.devRef .tc main_arg15))
    (a14 : Wp (no_index (Proc.devRef .tc main_arg14)) = V (Proc.devRef .tc main_arg14))
    (hv54 : Wp (no_index (Proc.devRef .tc main_v54)) = valAt_v54 V)
    (hv3 : Wp (no_index (Proc.devRef .tc main_v3)) = valAt_v3 V) :
    after ops1a Wp (Proc.devRef .tc main_v76) = valAt_v76 V := by
  simp only [ops1a]
  after_results_simp
  try simp only [hv15, a16, a15, a14, hv54, hv3]
  try rw [hv15]
  try rw [a16]
  try rw [a15]
  try rw [a14]
  try rw [hv54]
  try rw [hv3]
  rfl
set_option maxRecDepth 8192 in
set_option maxHeartbeats 4000000 in
theorem w1a_main_v83 (V Wp : Valuation τ sig (Elt F))
    (hv13 : Wp (no_index (Proc.devRef .tc main_v13)) = valAt_v13 V)
    (a16 : Wp (no_index (Proc.devRef .tc main_arg16)) = V (Proc.devRef .tc main_arg16))
    (a15 : Wp (no_index (Proc.devRef .tc main_arg15)) = V (Proc.devRef .tc main_arg15))
    (a14 : Wp (no_index (Proc.devRef .tc main_arg14)) = V (Proc.devRef .tc main_arg14))
    (hv54 : Wp (no_index (Proc.devRef .tc main_v54)) = valAt_v54 V)
    (hv3 : Wp (no_index (Proc.devRef .tc main_v3)) = valAt_v3 V) :
    after ops1a Wp (Proc.devRef .tc main_v83) = valAt_v83 V := by
  simp only [ops1a]
  after_results_simp
  try simp only [hv13, a16, a15, a14, hv54, hv3]
  try rw [hv13]
  try rw [a16]
  try rw [a15]
  try rw [a14]
  try rw [hv54]
  try rw [hv3]
  rfl
set_option maxRecDepth 8192 in
set_option maxHeartbeats 4000000 in
theorem w1b_main_v104 (V Wp : Valuation τ sig (Elt F))
    (a12 : Wp (no_index (Proc.devRef .tc main_arg12)) = V (Proc.devRef .tc main_arg12))
    (a11 : Wp (no_index (Proc.devRef .tc main_arg11)) = V (Proc.devRef .tc main_arg11))
    (a10 : Wp (no_index (Proc.devRef .tc main_arg10)) = V (Proc.devRef .tc main_arg10))
    (a9 : Wp (no_index (Proc.devRef .tc main_arg9)) = V (Proc.devRef .tc main_arg9))
    (hv7 : Wp (no_index (Proc.devRef .tc main_v7)) = valAt_v7 V)
    (hv83 : Wp (no_index (Proc.devRef .tc main_v83)) = valAt_v83 V)
    (hv76 : Wp (no_index (Proc.devRef .tc main_v76)) = valAt_v76 V)
    (hv15 : Wp (no_index (Proc.devRef .tc main_v15)) = valAt_v15 V) :
    after ops1b Wp (Proc.devRef .tc main_v104) = valAt_v104 V := by
  simp only [ops1b]
  after_results_simp
  try dsimp only [Matrix.cons_val]
  try after_results_simp
  try simp only [a12, a11, a10, a9, hv7, hv83, hv76, hv15]
  try rw [a12]
  try rw [a11]
  try rw [a10]
  try rw [a9]
  try rw [hv7]
  try rw [hv83]
  try rw [hv76]
  try rw [hv15]
  rfl
set_option maxRecDepth 8192 in
set_option maxHeartbeats 4000000 in
theorem w1c_main_v108 (V Wp : Valuation τ sig (Elt F))
    (a13 : Wp (no_index (Proc.devRef .tc main_arg13)) = V (Proc.devRef .tc main_arg13))
    (hv104 : Wp (no_index (Proc.devRef .tc main_v104)) = valAt_v104 V)
    (hv69 : Wp (no_index (Proc.devRef .tc main_v69)) = valAt_v69 V) :
    after ops1c Wp (Proc.devRef .tc main_v108) = valAt_v108 V := by
  simp only [ops1c]
  after_results_simp
  try simp only [a13, hv104, hv69]
  try rw [a13]
  try rw [hv104]
  try rw [hv69]
  rfl
set_option maxRecDepth 8192 in
set_option maxHeartbeats 4000000 in
theorem w1c_main_v109 (V Wp : Valuation τ sig (Elt F))
    (a14 : Wp (no_index (Proc.devRef .tc main_arg14)) = V (Proc.devRef .tc main_arg14)) :
    after ops1c Wp (Proc.devRef .tc main_v109) = valAt_v109 V := by
  simp only [ops1c]
  after_results_simp
  try simp only [a14]
  try rw [a14]
  rfl
end Cert.RRun
end
-- ==== Proof.RRunH2.lean ====
import proofs.«418781_j85873576116382_1_alg».proof.Proof.RRunLib
noncomputable section
namespace Cert.RRun
open Cert.ReferenceIdeal Cert.ReferenceIdeal.Gen Idealize.ShloMosaic Idealize.ShloMosaic.TcCoe Idealize.SL.Sem Idealize.ShloMosaic.StableHlo
open Cert.ReferenceIdeal.Read
variable {F : FTy → Type} [FloatOps F]
set_option maxHeartbeats 1000000 in
abbrev ops2a : List (HloOp τ sig (Elt F)) :=
  [ reshape main_v109 main_v110 rfl shapeCasts_S1x128_S128,
    unary main_v110 main_v111 (broadcastInDim S1x128 ![1] bcast_S128_S1x128_1 : (⟨S128, .f32⟩ : BufTy).Contents (Elt F) → (⟨S1x128, .f32⟩ : BufTy).Contents (Elt F)),
    unary main_v111 main_v112 (broadcastInDim S50000x128 ![0, 1] bcast_S1x128_S50000x128_0_1 : (⟨S1x128, .f32⟩ : BufTy).Contents (Elt F) → (⟨S50000x128, .f32⟩ : BufTy).Contents (Elt F)),
    binary main_v108 main_v112 main_v113 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v113) (TRef.of (T := ⟨S50000x128, .f32⟩) main_call3_v0) (TRef.of (T := ⟨S50000x128, .f32⟩) main_v114) maximumf,
    unary main_arg15 main_v115 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v115 main_v116 rfl shapeCasts_S1x128x128_S128x128,
    binary main_v114 main_v116 main_v117 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v118 ((extractStridedSlice S1x128 ![1, 0] · slices_S3x128_S1x128_1_0) : (⟨S3x128, .f32⟩ : BufTy).Contents (Elt F) → (⟨S1x128, .f32⟩ : BufTy).Contents (Elt F)),
    reshape main_v118 main_v119 rfl shapeCasts_S1x128_S128,
    unary main_v119 main_v120 (broadcastInDim S1x128 ![1] bcast_S128_S1x128_1 : (⟨S128, .f32⟩ : BufTy).Contents (Elt F) → (⟨S1x128, .f32⟩ : BufTy).Contents (Elt F)),
    unary main_v120 main_v121 (broadcastInDim S50000x128 ![0, 1] bcast_S1x128_S50000x128_0_1 : (⟨S1x128, .f32⟩ : BufTy).Contents (Elt F) → (⟨S50000x128, .f32⟩ : BufTy).Contents (Elt F)),
    binary main_v117 main_v121 main_v122 (addf : (⟨S50000x128, .f32⟩ : BufTy).Contents (Elt F) → (⟨S50000x128, .f32⟩ : BufTy).Contents (Elt F) → (⟨S50000x128, .f32⟩ : BufTy).Contents (Elt F)),
    binary main_v69 main_v122 main_v123 (addf : (⟨S50000x128, .f32⟩ : BufTy).Contents (Elt F) → (⟨S50000x128, .f32⟩ : BufTy).Contents (Elt F) → (⟨S50000x128, .f32⟩ : BufTy).Contents (Elt F)),
    nullary main_c_8 (constantI S_ 32 0#32),
    unary main_c_8 main_v124 (broadcastInDim S400000 ![] bcast_S_S400000 : (⟨S_, .i32⟩ : BufTy).Contents (Elt F) → (⟨S400000, .i32⟩ : BufTy).Contents (Elt F)),
    binary main_v15 main_v124 main_v125 (cmpi .slt : (⟨S400000, .i32⟩ : BufTy).Contents (Elt F) → (⟨S400000, .i32⟩ : BufTy).Contents (Elt F) → (⟨S400000, .i1⟩ : BufTy).Contents (Elt F)),
    nullary main_c_9 (constantI S_ 32 50000#32),
    unary main_c_9 main_v126 (broadcastInDim S400000 ![] bcast_S_S400000 : (⟨S_, .i32⟩ : BufTy).Contents (Elt F) → (⟨S400000, .i32⟩ : BufTy).Contents (Elt F)),
    binary main_v15 main_v126 main_v127 (addi : (⟨S400000, .i32⟩ : BufTy).Contents (Elt F) → (⟨S400000, .i32⟩ : BufTy).Contents (Elt F) → (⟨S400000, .i32⟩ : BufTy).Contents (Elt F)),
    ternary main_v125 main_v127 main_v15 main_v128 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v128 main_v129 (broadcastInDim S400000x1 ![0] bcast_S400000_S400000x1_0 : (⟨S400000, .i32⟩ : BufTy).Contents (Elt F) → (⟨S400000x1, .i32⟩ : BufTy).Contents (Elt F)),
    binary main_v123 main_v129 main_v130 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_10 (constantI S_ 32 0#32),
    unary main_c_10 main_v131 (broadcastInDim S400000 ![] bcast_S_S400000 : (⟨S_, .i32⟩ : BufTy).Contents (Elt F) → (⟨S400000, .i32⟩ : BufTy).Contents (Elt F)),
    binary main_v13 main_v131 main_v132 (cmpi .slt : (⟨S400000, .i32⟩ : BufTy).Contents (Elt F) → (⟨S400000, .i32⟩ : BufTy).Contents (Elt F) → (⟨S400000, .i1⟩ : BufTy).Contents (Elt F)),
    nullary main_c_11 (constantI S_ 32 50000#32),
    unary main_c_11 main_v133 (broadcastInDim S400000 ![] bcast_S_S400000 : (⟨S_, .i32⟩ : BufTy).Contents (Elt F) → (⟨S400000, .i32⟩ : BufTy).Contents (Elt F)),
    binary main_v13 main_v133 main_v134 (addi : (⟨S400000, .i32⟩ : BufTy).Contents (Elt F) → (⟨S400000, .i32⟩ : BufTy).Contents (Elt F) → (⟨S400000, .i32⟩ : BufTy).Contents (Elt F)),
    ternary main_v132 main_v134 main_v13 main_v135 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v135 main_v136 (broadcastInDim S400000x1 ![0] bcast_S400000_S400000x1_0 : (⟨S400000, .i32⟩ : BufTy).Contents (Elt F) → (⟨S400000x1, .i32⟩ : BufTy).Contents (Elt F)),
    binary main_v123 main_v136 main_v137 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) ]
abbrev ops2a_W : List (Ref sig .tc) := [main_v110, main_v111, main_v112, main_v113, main_call3_cst, main_call3_v0, main_v114, main_v115, main_v116, main_v117, main_v118, main_v119, main_v120, main_v121, main_v122, main_v123, main_c_8, main_v124, main_v125, main_c_9, main_v126, main_v127, main_v128, main_v129, main_v130, main_c_10, main_v131, main_v132, main_c_11, main_v133, main_v134, main_v135, main_v136, main_v137]
set_option maxRecDepth 8192 in
set_option maxHeartbeats 4000000 in
theorem ops2a_writes : (ops2a : List (HloOp τ sig (Elt F))).Forall fun op => op.writes ⊆ (ops2a_W.map (Proc.devRef (τ := τ) .tc)).toFinset := by writes_listed
theorem ops2a_keep (Wp : Valuation τ sig (Elt F)) (r : Ref sig .tc) (h : r ∉ ops2a_W) :
    after ops2a Wp (Proc.devRef .tc r) = Wp (Proc.devRef .tc r) :=
  after_of_writes_sub ops2a _ ops2a_writes h
set_option maxHeartbeats 1000000 in
abbrev ops2b : List (HloOp τ sig (Elt F)) :=
  [ nary ![main_v130, main_v137, main_v7] main_v138 (fun u => concatenate S400000x384 1 [⟨S400000x128, u 0⟩, ⟨S400000x128, u 1⟩, ⟨S400000x128, u 2⟩] concatenates_S400000x128_S400000x128_S400000x128_S400000x384_d1),
    unary main_arg9 main_v139 ((extractStridedSlice S1x384x128 ![2, 0, 0] · slices_S3x384x128_S1x384x128_2_0_0) : (⟨S3x384x128, .f32⟩ : BufTy).Contents (Elt F) → (⟨S1x384x128, .f32⟩ : BufTy).Contents (Elt F)),
    reshape main_v139 main_v140 rfl shapeCasts_S1x384x128_S384x128,
    binary main_v138 main_v140 main_v141 ((fun l r => Host.dotGeneral dot_S400000x384_S384x128_S400000x128_1_0_0_1_n_n none l r) : (⟨S400000x384, .f32⟩ : BufTy).Contents (Elt F) → (⟨S384x128, .f32⟩ : BufTy).Contents (Elt F) → (⟨S400000x128, .f32⟩ : BufTy).Contents (Elt F)),
    unary main_arg10 main_v142 ((extractStridedSlice S1x128 ![2, 0] · slices_S3x128_S1x128_2_0) : (⟨S3x128, .f32⟩ : BufTy).Contents (Elt F) → (⟨S1x128, .f32⟩ : BufTy).Contents (Elt F)),
    reshape main_v142 main_v143 rfl shapeCasts_S1x128_S128,
    unary main_v143 main_v144 (broadcastInDim S1x128 ![1] bcast_S128_S1x128_1 : (⟨S128, .f32⟩ : BufTy).Contents (Elt F) → (⟨S1x128, .f32⟩ : BufTy).Contents (Elt F)),
    unary main_v144 main_v145 (broadcastInDim S400000x128 ![0, 1] bcast_S1x128_S400000x128_0_1 : (⟨S1x128, .f32⟩ : BufTy).Contents (Elt F) → (⟨S400000x128, .f32⟩ : BufTy).Contents (Elt F)),
    binary main_v141 main_v145 main_v146 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S400000x128, .f32⟩) main_call4_v0) (broadcastInDim S400000x128 ![] bcast_S_S400000x128),
    TRef.binary (TRef.of (T := ⟨S400000x128, .f32⟩) main_v146) (TRef.of (T := ⟨S400000x128, .f32⟩) main_call4_v0) (TRef.of (T := ⟨S400000x128, .f32⟩) main_v147) maximumf,
    unary main_arg11 main_v148 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v148 main_v149 rfl shapeCasts_S1x128x128_S128x128,
    binary main_v147 main_v149 main_v150 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg12 main_v151 ((extractStridedSlice S1x128 ![2, 0] · slices_S3x128_S1x128_2_0) : (⟨S3x128, .f32⟩ : BufTy).Contents (Elt F) → (⟨S1x128, .f32⟩ : BufTy).Contents (Elt F)),
    reshape main_v151 main_v152 rfl shapeCasts_S1x128_S128,
    unary main_v152 main_v153 (broadcastInDim S1x128 ![1] bcast_S128_S1x128_1 : (⟨S128, .f32⟩ : BufTy).Contents (Elt F) → (⟨S1x128, .f32⟩ : BufTy).Contents (Elt F)),
    unary main_v153 main_v154 (broadcastInDim S400000x128 ![0, 1] bcast_S1x128_S400000x128_0_1 : (⟨S1x128, .f32⟩ : BufTy).Contents (Elt F) → (⟨S400000x128, .f32⟩ : BufTy).Contents (Elt F)),
    binary main_v150 main_v154 main_v155 (addf : (⟨S400000x128, .f32⟩ : BufTy).Contents (Elt F) → (⟨S400000x128, .f32⟩ : BufTy).Contents (Elt F) → (⟨S400000x128, .f32⟩ : BufTy).Contents (Elt F)),
    nullary main_cst_12 (constant S_ .f32 0x00000000#32),
    unary main_cst_12 main_v156 (broadcastInDim S50000x128 ![] bcast_S_S50000x128 : (⟨S_, .f32⟩ : BufTy).Contents (Elt F) → (⟨S50000x128, .f32⟩ : BufTy).Contents (Elt F)),
    unary main_v15 main_v157 (broadcastInDim S400000x1 ![0] bcast_S400000_S400000x1_0 : (⟨S400000, .i32⟩ : BufTy).Contents (Elt F) → (⟨S400000x1, .i32⟩ : BufTy).Contents (Elt F)),
    ternary main_v156 main_v157 main_v155 main_v158 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) ]
abbrev ops2b_W : List (Ref sig .tc) := [main_v138, main_v139, main_v140, main_v141, main_v142, main_v143, main_v144, main_v145, main_v146, main_call4_cst, main_call4_v0, main_v147, main_v148, main_v149, main_v150, main_v151, main_v152, main_v153, main_v154, main_v155, main_cst_12, main_v156, main_v157, main_v158]
set_option maxRecDepth 8192 in
set_option maxHeartbeats 4000000 in
theorem ops2b_writes : (ops2b : List (HloOp τ sig (Elt F))).Forall fun op => op.writes ⊆ (ops2b_W.map (Proc.devRef (τ := τ) .tc)).toFinset := by writes_listed
theorem ops2b_keep (Wp : Valuation τ sig (Elt F)) (r : Ref sig .tc) (h : r ∉ ops2b_W) :
    after ops2b Wp (Proc.devRef .tc r) = Wp (Proc.devRef .tc r) :=
  after_of_writes_sub ops2b _ ops2b_writes h
set_option maxHeartbeats 1000000 in
abbrev ops2c : List (HloOp τ sig (Elt F)) :=
  [ binary main_v123 main_v158 main_v159 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg13 main_v160 ((extractStridedSlice S1x256x128 ![2, 0, 0] · slices_S3x256x128_S1x256x128_2_0_0) : (⟨S3x256x128, .f32⟩ : BufTy).Contents (Elt F) → (⟨S1x256x128, .f32⟩ : BufTy).Contents (Elt F)),
    reshape main_v160 main_v161 rfl shapeCasts_S1x256x128_S256x128,
    binary main_v159 main_v161 main_v162 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg14 main_v163 ((extractStridedSlice S1x128 ![2, 0] · slices_S3x128_S1x128_2_0) : (⟨S3x128, .f32⟩ : BufTy).Contents (Elt F) → (⟨S1x128, .f32⟩ : BufTy).Contents (Elt F)),
    reshape main_v163 main_v164 rfl shapeCasts_S1x128_S128 ]
abbrev ops2c_W : List (Ref sig .tc) := [main_v159, main_v160, main_v161, main_v162, main_v163, main_v164]
set_option maxRecDepth 8192 in
set_option maxHeartbeats 4000000 in
theorem ops2c_writes : (ops2c : List (HloOp τ sig (Elt F))).Forall fun op => op.writes ⊆ (ops2c_W.map (Proc.devRef (τ := τ) .tc)).toFinset := by writes_listed
theorem ops2c_keep (Wp : Valuation τ sig (Elt F)) (r : Ref sig .tc) (h : r ∉ ops2c_W) :
    after ops2c Wp (Proc.devRef .tc r) = Wp (Proc.devRef .tc r) :=
  after_of_writes_sub ops2c _ ops2c_writes h
-- The window is its parts in order; what holds of every part's operations holds of the window's.
abbrev ops2 : List (HloOp τ sig (Elt F)) := ops2a ++ (ops2b ++ (ops2c))
set_option maxRecDepth 8192 in
set_option maxHeartbeats 4000000 in
theorem main_part2_eq (c : Dev nD) : main_part2 (F := F) c = seq ops2 := rfl
set_option maxRecDepth 8192 in
theorem ops2a_sub : (ops2a : List (HloOp τ sig (Elt F))).Forall fun op => op.bufs ⊆ tcRefs τ sig :=
  ⟨reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem ops2b_sub : (ops2b : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub ..⟩
set_option maxRecDepth 8192 in
theorem ops2c_sub : (ops2c : List (HloOp τ sig (Elt F))).Forall fun op => op.bufs ⊆ tcRefs τ sig :=
  ⟨binary_bufs_sub .., unary_bufs_sub .., reshape_bufs_sub .., binary_bufs_sub .., unary_bufs_sub .., reshape_bufs_sub ..⟩
theorem ops2_sub : (ops2 : List (HloOp τ sig (Elt F))).Forall fun op => op.bufs ⊆ tcRefs τ sig :=
  List.forall_iff_forall_mem.mpr fun _ h => by
    simp only [ops2, List.mem_append] at h
    rcases h with h | h | h
    exacts [List.forall_iff_forall_mem.mp ops2a_sub _ h, List.forall_iff_forall_mem.mp ops2b_sub _ h, List.forall_iff_forall_mem.mp ops2c_sub _ h]
set_option maxRecDepth 8192 in
theorem ops2_fresh : ∀ op ∈ (ops2 : List (HloOp τ sig (Elt F))), op.fresh = ∅ := by
  intro _ h
  simp only [ops2, List.mem_append] at h
  rcases h with h | h | h <;> (repeat (cases h with | head => rfl | tail _ h => ?_)) <;> exact nomatch h
set_option maxRecDepth 8192 in
set_option maxHeartbeats 4000000 in
theorem w2a_main_v123 (V Wp : Valuation τ sig (Elt F))
    (a16 : Wp (no_index (Proc.devRef .tc main_arg16)) = V (Proc.devRef .tc main_arg16))
    (a15 : Wp (no_index (Proc.devRef .tc main_arg15)) = V (Proc.devRef .tc main_arg15))
    (hv109 : Wp (no_index (Proc.devRef .tc main_v109)) = valAt_v109 V)
    (hv108 : Wp (no_index (Proc.devRef .tc main_v108)) = valAt_v108 V)
    (hv69 : Wp (no_index (Proc.devRef .tc main_v69)) = valAt_v69 V) :
    after ops2a Wp (Proc.devRef .tc main_v123) = valAt_v123 V := by
  simp only [ops2a]
  after_results_simp
  try simp only [a16, a15, hv109, hv108, hv69]
  try rw [a16]
  try rw [a15]
  try rw [hv109]
  try rw [hv108]
  try rw [hv69]
  rfl
set_option maxRecDepth 8192 in
set_option maxHeartbeats 4000000 in
theorem w2a_main_v130 (V Wp : Valuation τ sig (Elt F))
    (hv15 : Wp (no_index (Proc.devRef .tc main_v15)) = valAt_v15 V)
    (a16 : Wp (no_index (Proc.devRef .tc main_arg16)) = V (Proc.devRef .tc main_arg16))
    (a15 : Wp (no_index (Proc.devRef .tc main_arg15)) = V (Proc.devRef .tc main_arg15))
    (hv109 : Wp (no_index (Proc.devRef .tc main_v109)) = valAt_v109 V)
    (hv108 : Wp (no_index (Proc.devRef .tc main_v108)) = valAt_v108 V)
    (hv69 : Wp (no_index (Proc.devRef .tc main_v69)) = valAt_v69 V) :
    after ops2a Wp (Proc.devRef .tc main_v130) = valAt_v130 V := by
  simp only [ops2a]
  after_results_simp
  try simp only [hv15, a16, a15, hv109, hv108, hv69]
  try rw [hv15]
  try rw [a16]
  try rw [a15]
  try rw [hv109]
  try rw [hv108]
  try rw [hv69]
  rfl
set_option maxRecDepth 8192 in
set_option maxHeartbeats 4000000 in
theorem w2a_main_v137 (V Wp : Valuation τ sig (Elt F))
    (hv13 : Wp (no_index (Proc.devRef .tc main_v13)) = valAt_v13 V)
    (a16 : Wp (no_index (Proc.devRef .tc main_arg16)) = V (Proc.devRef .tc main_arg16))
    (a15 : Wp (no_index (Proc.devRef .tc main_arg15)) = V (Proc.devRef .tc main_arg15))
    (hv109 : Wp (no_index (Proc.devRef .tc main_v109)) = valAt_v109 V)
    (hv108 : Wp (no_index (Proc.devRef .tc main_v108)) = valAt_v108 V)
    (hv69 : Wp (no_index (Proc.devRef .tc main_v69)) = valAt_v69 V) :
    after ops2a Wp (Proc.devRef .tc main_v137) = valAt_v137 V := by
  simp only [ops2a]
  after_results_simp
  try simp only [hv13, a16, a15, hv109, hv108, hv69]
  try rw [hv13]
  try rw [a16]
  try rw [a15]
  try rw [hv109]
  try rw [hv108]
  try rw [hv69]
  rfl
set_option maxRecDepth 8192 in
set_option maxHeartbeats 4000000 in
theorem w2b_main_v158 (V Wp : Valuation τ sig (Elt F))
    (a12 : Wp (no_index (Proc.devRef .tc main_arg12)) = V (Proc.devRef .tc main_arg12))
    (a11 : Wp (no_index (Proc.devRef .tc main_arg11)) = V (Proc.devRef .tc main_arg11))
    (a10 : Wp (no_index (Proc.devRef .tc main_arg10)) = V (Proc.devRef .tc main_arg10))
    (a9 : Wp (no_index (Proc.devRef .tc main_arg9)) = V (Proc.devRef .tc main_arg9))
    (hv7 : Wp (no_index (Proc.devRef .tc main_v7)) = valAt_v7 V)
    (hv137 : Wp (no_index (Proc.devRef .tc main_v137)) = valAt_v137 V)
    (hv130 : Wp (no_index (Proc.devRef .tc main_v130)) = valAt_v130 V)
    (hv15 : Wp (no_index (Proc.devRef .tc main_v15)) = valAt_v15 V) :
    after ops2b Wp (Proc.devRef .tc main_v158) = valAt_v158 V := by
  simp only [ops2b]
  after_results_simp
  try dsimp only [Matrix.cons_val]
  try after_results_simp
  try simp only [a12, a11, a10, a9, hv7, hv137, hv130, hv15]
  try rw [a12]
  try rw [a11]
  try rw [a10]
  try rw [a9]
  try rw [hv7]
  try rw [hv137]
  try rw [hv130]
  try rw [hv15]
  rfl
set_option maxRecDepth 8192 in
set_option maxHeartbeats 4000000 in
theorem w2c_main_v162 (V Wp : Valuation τ sig (Elt F))
    (a13 : Wp (no_index (Proc.devRef .tc main_arg13)) = V (Proc.devRef .tc main_arg13))
    (hv158 : Wp (no_index (Proc.devRef .tc main_v158)) = valAt_v158 V)
    (hv123 : Wp (no_index (Proc.devRef .tc main_v123)) = valAt_v123 V) :
    after ops2c Wp (Proc.devRef .tc main_v162) = valAt_v162 V := by
  simp only [ops2c]
  after_results_simp
  try simp only [a13, hv158, hv123]
  try rw [a13]
  try rw [hv158]
  try rw [hv123]
  rfl
set_option maxRecDepth 8192 in
set_option maxHeartbeats 4000000 in
theorem w2c_main_v164 (V Wp : Valuation τ sig (Elt F))
    (a14 : Wp (no_index (Proc.devRef .tc main_arg14)) = V (Proc.devRef .tc main_arg14)) :
    after ops2c Wp (Proc.devRef .tc main_v164) = valAt_v164 V := by
  simp only [ops2c]
  after_results_simp
  try simp only [a14]
  try rw [a14]
  rfl
end Cert.RRun
end
-- ==== Proof.RRunH3.lean ====
import proofs.«418781_j85873576116382_1_alg».proof.Proof.RRunLib
noncomputable section
namespace Cert.RRun
open Cert.ReferenceIdeal Cert.ReferenceIdeal.Gen Idealize.ShloMosaic Idealize.ShloMosaic.TcCoe Idealize.SL.Sem Idealize.ShloMosaic.StableHlo
open Cert.ReferenceIdeal.Read
variable {F : FTy → Type} [FloatOps F]
set_option maxHeartbeats 1000000 in
abbrev ops3 : List (HloOp τ sig (Elt F)) :=
  [ unary main_v164 main_v165 (broadcastInDim S1x128 ![1] bcast_S128_S1x128_1 : (⟨S128, .f32⟩ : BufTy).Contents (Elt F) → (⟨S1x128, .f32⟩ : BufTy).Contents (Elt F)),
    unary main_v165 main_v166 (broadcastInDim S50000x128 ![0, 1] bcast_S1x128_S50000x128_0_1 : (⟨S1x128, .f32⟩ : BufTy).Contents (Elt F) → (⟨S50000x128, .f32⟩ : BufTy).Contents (Elt F)),
    binary main_v162 main_v166 main_v167 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v167) (TRef.of (T := ⟨S50000x128, .f32⟩) main_call5_v0) (TRef.of (T := ⟨S50000x128, .f32⟩) main_v168) maximumf,
    unary main_arg15 main_v169 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v169 main_v170 rfl shapeCasts_S1x128x128_S128x128,
    binary main_v168 main_v170 main_v171 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v172 ((extractStridedSlice S1x128 ![2, 0] · slices_S3x128_S1x128_2_0) : (⟨S3x128, .f32⟩ : BufTy).Contents (Elt F) → (⟨S1x128, .f32⟩ : BufTy).Contents (Elt F)),
    reshape main_v172 main_v173 rfl shapeCasts_S1x128_S128,
    unary main_v173 main_v174 (broadcastInDim S1x128 ![1] bcast_S128_S1x128_1 : (⟨S128, .f32⟩ : BufTy).Contents (Elt F) → (⟨S1x128, .f32⟩ : BufTy).Contents (Elt F)),
    unary main_v174 main_v175 (broadcastInDim S50000x128 ![0, 1] bcast_S1x128_S50000x128_0_1 : (⟨S1x128, .f32⟩ : BufTy).Contents (Elt F) → (⟨S50000x128, .f32⟩ : BufTy).Contents (Elt F)),
    binary main_v171 main_v175 main_v176 (addf : (⟨S50000x128, .f32⟩ : BufTy).Contents (Elt F) → (⟨S50000x128, .f32⟩ : BufTy).Contents (Elt F) → (⟨S50000x128, .f32⟩ : BufTy).Contents (Elt F)),
    binary main_v123 main_v176 main_v177 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3F800000#32),
    unary main_cst_13 main_v178 (broadcastInDim S50000 ![] bcast_S_S50000 : (⟨S_, .f32⟩ : BufTy).Contents (Elt F) → (⟨S50000, .f32⟩ : BufTy).Contents (Elt F)),
    nullary main_cst_14 (constant S_ .f32 0x00000000#32),
    unary main_cst_14 main_v179 (broadcastInDim S8 ![] bcast_S_S8 : (⟨S_, .f32⟩ : BufTy).Contents (Elt F) → (⟨S8, .f32⟩ : BufTy).Contents (Elt F)),
    unary main_arg24 main_v180 (broadcastInDim S50000x1 ![0] bcast_S50000_S50000x1_0 : (⟨S50000, .i32⟩ : BufTy).Contents (Elt F) → (⟨S50000x1, .i32⟩ : BufTy).Contents (Elt F)),
    ternary main_v179 main_v180 main_v178 main_v181 ((fun x i u => Host.scatterAdd scatter_S8_S50000x1_S50000_n_0_0_1 x i u) : (⟨S8, .f32⟩ : BufTy).Contents (Elt F) → (⟨S50000x1, .i32⟩ : BufTy).Contents (Elt F) → (⟨S50000, .f32⟩ : BufTy).Contents (Elt F) → (⟨S8, .f32⟩ : BufTy).Contents (Elt F)),
    nullary main_cst_15 (constant S_ .f32 0x00000000#32),
    unary main_cst_15 main_v182 (broadcastInDim S8x128 ![] bcast_S_S8x128 : (⟨S_, .f32⟩ : BufTy).Contents (Elt F) → (⟨S8x128, .f32⟩ : BufTy).Contents (Elt F)),
    unary main_arg24 main_v183 (broadcastInDim S50000x1 ![0] bcast_S50000_S50000x1_0 : (⟨S50000, .i32⟩ : BufTy).Contents (Elt F) → (⟨S50000x1, .i32⟩ : BufTy).Contents (Elt F)),
    ternary main_v182 main_v183 main_v177 main_v184 ((fun x i u => Host.scatterAdd scatter_S8x128_S50000x1_S50000x128_1_0_0_1 x i u) : (⟨S8x128, .f32⟩ : BufTy).Contents (Elt F) → (⟨S50000x1, .i32⟩ : BufTy).Contents (Elt F) → (⟨S50000x128, .f32⟩ : BufTy).Contents (Elt F) → (⟨S8x128, .f32⟩ : BufTy).Contents (Elt F)),
    nullary main_cst_16 (constant S_ .f32 0x3F800000#32),
    unary main_cst_16 main_v185 (broadcastInDim S8 ![] bcast_S_S8 : (⟨S_, .f32⟩ : BufTy).Contents (Elt F) → (⟨S8, .f32⟩ : BufTy).Contents (Elt F)),
    binary main_v181 main_v185 main_v186 (maximumf : (⟨S8, .f32⟩ : BufTy).Contents (Elt F) → (⟨S8, .f32⟩ : BufTy).Contents (Elt F) → (⟨S8, .f32⟩ : BufTy).Contents (Elt F)),
    unary main_v186 main_v187 (broadcastInDim S8x1 ![0] bcast_S8_S8x1_0 : (⟨S8, .f32⟩ : BufTy).Contents (Elt F) → (⟨S8x1, .f32⟩ : BufTy).Contents (Elt F)),
    unary main_v187 main_v188 (broadcastInDim S8x128 ![0, 1] bcast_S8x1_S8x128_0_1 : (⟨S8x1, .f32⟩ : BufTy).Contents (Elt F) → (⟨S8x128, .f32⟩ : BufTy).Contents (Elt F)),
    binary main_v184 main_v188 main_v189 (Host.divf : (⟨S8x128, .f32⟩ : BufTy).Contents (Elt F) → (⟨S8x128, .f32⟩ : BufTy).Contents (Elt F) → (⟨S8x128, .f32⟩ : BufTy).Contents (Elt F)),
    binary main_v189 main_v11 main_v190 ((fun a b => concatenate S8x256 1 [⟨S8x128, a⟩, ⟨S8x128, b⟩] concatenates_S8x128_S8x128_S8x256_d1) : (⟨S8x128, .f32⟩ : BufTy).Contents (Elt F) → (⟨S8x128, .f32⟩ : BufTy).Contents (Elt F) → (⟨S8x256, .f32⟩ : BufTy).Contents (Elt F)),
    binary main_v190 main_arg17 main_v191 ((fun l r => Host.dotGeneral dot_S8x256_S256x128_S8x128_1_0_0_1_n_n none l r) : (⟨S8x256, .f32⟩ : BufTy).Contents (Elt F) → (⟨S256x128, .f32⟩ : BufTy).Contents (Elt F) → (⟨S8x128, .f32⟩ : BufTy).Contents (Elt F)),
    unary main_arg18 main_v192 (broadcastInDim S1x128 ![1] bcast_S128_S1x128_1 : (⟨S128, .f32⟩ : BufTy).Contents (Elt F) → (⟨S1x128, .f32⟩ : BufTy).Contents (Elt F)),
    unary main_v192 main_v193 (broadcastInDim S8x128 ![0, 1] bcast_S1x128_S8x128_0_1 : (⟨S1x128, .f32⟩ : BufTy).Contents (Elt F) → (⟨S8x128, .f32⟩ : BufTy).Contents (Elt F)),
    binary main_v191 main_v193 main_v194 (addf : (⟨S8x128, .f32⟩ : BufTy).Contents (Elt F) → (⟨S8x128, .f32⟩ : BufTy).Contents (Elt F) → (⟨S8x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8x128, .f32⟩) main_call6_v0) (broadcastInDim S8x128 ![] bcast_S_S8x128),
    TRef.binary (TRef.of (T := ⟨S8x128, .f32⟩) main_v194) (TRef.of (T := ⟨S8x128, .f32⟩) main_call6_v0) (TRef.of (T := ⟨S8x128, .f32⟩) main_v195) maximumf,
    binary main_v195 main_arg19 main_v196 ((fun l r => Host.dotGeneral dot_S8x128_S128x64_S8x64_1_0_0_1_n_n none l r) : (⟨S8x128, .f32⟩ : BufTy).Contents (Elt F) → (⟨S128x64, .f32⟩ : BufTy).Contents (Elt F) → (⟨S8x64, .f32⟩ : BufTy).Contents (Elt F)),
    unary main_arg20 main_v197 (broadcastInDim S1x64 ![1] bcast_S64_S1x64_1 : (⟨S64, .f32⟩ : BufTy).Contents (Elt F) → (⟨S1x64, .f32⟩ : BufTy).Contents (Elt F)),
    unary main_v197 main_v198 (broadcastInDim S8x64 ![0, 1] bcast_S1x64_S8x64_0_1 : (⟨S1x64, .f32⟩ : BufTy).Contents (Elt F) → (⟨S8x64, .f32⟩ : BufTy).Contents (Elt F)),
    binary main_v196 main_v198 main_v199 (addf : (⟨S8x64, .f32⟩ : BufTy).Contents (Elt F) → (⟨S8x64, .f32⟩ : BufTy).Contents (Elt F) → (⟨S8x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8x64, .f32⟩) main_call7_v0) (broadcastInDim S8x64 ![] bcast_S_S8x64),
    TRef.binary (TRef.of (T := ⟨S8x64, .f32⟩) main_v199) (TRef.of (T := ⟨S8x64, .f32⟩) main_call7_v0) (TRef.of (T := ⟨S8x64, .f32⟩) main_v200) maximumf,
    binary main_v200 main_arg21 main_v201 ((fun l r => Host.dotGeneral dot_S8x64_S64x1_S8x1_1_0_0_1_n_n none l r) : (⟨S8x64, .f32⟩ : BufTy).Contents (Elt F) → (⟨S64x1, .f32⟩ : BufTy).Contents (Elt F) → (⟨S8x1, .f32⟩ : BufTy).Contents (Elt F)),
    unary main_arg22 main_v202 (broadcastInDim S1x1 ![1] bcast_S1_S1x1_1 : (⟨S1, .f32⟩ : BufTy).Contents (Elt F) → (⟨S1x1, .f32⟩ : BufTy).Contents (Elt F)),
    unary main_v202 main_v203 (broadcastInDim S8x1 ![0, 1] bcast_S1x1_S8x1_0_1 : (⟨S1x1, .f32⟩ : BufTy).Contents (Elt F) → (⟨S8x1, .f32⟩ : BufTy).Contents (Elt F)),
    binary main_v201 main_v203 main_v204 (addf : (⟨S8x1, .f32⟩ : BufTy).Contents (Elt F) → (⟨S8x1, .f32⟩ : BufTy).Contents (Elt F) → (⟨S8x1, .f32⟩ : BufTy).Contents (Elt F)) ]
set_option maxRecDepth 8192 in
set_option maxHeartbeats 4000000 in
theorem main_part3_eq (c : Dev nD) : main_part3 (F := F) c = seq ops3 := rfl
set_option maxRecDepth 8192 in
theorem ops3_sub : (ops3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem ops3_fresh : ∀ op ∈ (ops3 : List (HloOp τ sig (Elt F))), op.fresh = ∅ := by
  intro _ h; (repeat (cases h with | head => rfl | tail _ h => ?_)); exact nomatch h
abbrev ops3_W : List (Ref sig .tc) := [main_v165, main_v166, main_v167, main_call5_cst, main_call5_v0, main_v168, main_v169, main_v170, main_v171, main_v172, main_v173, main_v174, main_v175, main_v176, main_v177, main_cst_13, main_v178, main_cst_14, main_v179, main_v180, main_v181, main_cst_15, main_v182, main_v183, main_v184, main_cst_16, main_v185, main_v186, main_v187, main_v188, main_v189, main_v190, main_v191, main_v192, main_v193, main_v194, main_call6_cst, main_call6_v0, main_v195, main_v196, main_v197, main_v198, main_v199, main_call7_cst, main_call7_v0, main_v200, main_v201, main_v202, main_v203, main_v204]
set_option maxRecDepth 8192 in
set_option maxHeartbeats 4000000 in
theorem ops3_writes : (ops3 : List (HloOp τ sig (Elt F))).Forall fun op => op.writes ⊆ (ops3_W.map (Proc.devRef (τ := τ) .tc)).toFinset := by writes_listed
theorem ops3_keep (Wp : Valuation τ sig (Elt F)) (r : Ref sig .tc) (h : r ∉ ops3_W) :
    after ops3 Wp (Proc.devRef .tc r) = Wp (Proc.devRef .tc r) :=
  after_of_writes_sub ops3 _ ops3_writes h
theorem ops3_part_keep {l : List (HloOp τ sig (Elt F))} (hl : ∀ op ∈ l, op ∈ (ops3 : List (HloOp τ sig (Elt F))))
    (Wp : Valuation τ sig (Elt F)) (r : Ref sig .tc) (h : r ∉ ops3_W) :
    after l Wp (Proc.devRef .tc r) = Wp (Proc.devRef .tc r) :=
  after_of_writes_sub l _
    (List.forall_iff_forall_mem.mpr fun op hop => List.forall_iff_forall_mem.mp ops3_writes op (hl op hop)) h
set_option maxRecDepth 8192 in
set_option maxHeartbeats 4000000 in
theorem w3a_main_v189 (V Wp : Valuation τ sig (Elt F))
    (a24 : Wp (no_index (Proc.devRef .tc main_arg24)) = V (Proc.devRef .tc main_arg24))
    (a16 : Wp (no_index (Proc.devRef .tc main_arg16)) = V (Proc.devRef .tc main_arg16))
    (a15 : Wp (no_index (Proc.devRef .tc main_arg15)) = V (Proc.devRef .tc main_arg15))
    (hv164 : Wp (no_index (Proc.devRef .tc main_v164)) = valAt_v164 V)
    (hv162 : Wp (no_index (Proc.devRef .tc main_v162)) = valAt_v162 V)
    (hv123 : Wp (no_index (Proc.devRef .tc main_v123)) = valAt_v123 V) :
    after (List.take 31 ops3) Wp (Proc.devRef .tc main_v189) = valAt_v189 V := by
  simp only [ops3, List.take_succ_cons, List.take_zero]
  after_results_simp
  simp only [a24, a16, a15, hv164, hv162, hv123]
  try simp only [TRef.ofBuf, TRef.toBuf, cast_eq]
  rfl
set_option maxRecDepth 8192 in
set_option maxHeartbeats 4000000 in
theorem w3b_main_v190 (V Wp : Valuation τ sig (Elt F))
    (hv189 : Wp (no_index (Proc.devRef .tc main_v189)) = valAt_v189 V)
    (hv11 : Wp (no_index (Proc.devRef .tc main_v11)) = valAt_v11 V) :
    after (List.take 1 (List.drop 31 ops3)) Wp (Proc.devRef .tc main_v190) = valAt_v190 V := by
  simp only [ops3, List.drop_succ_cons, List.drop_zero, List.take_succ_cons, List.take_zero]
  after_results
  rw [hv189, hv11]
  rfl
set_option maxRecDepth 8192 in
set_option maxHeartbeats 4000000 in
theorem w3c_main_v204 (V Wp : Valuation τ sig (Elt F))
    (a22 : Wp (no_index (Proc.devRef .tc main_arg22)) = V (Proc.devRef .tc main_arg22))
    (a21 : Wp (no_index (Proc.devRef .tc main_arg21)) = V (Proc.devRef .tc main_arg21))
    (a20 : Wp (no_index (Proc.devRef .tc main_arg20)) = V (Proc.devRef .tc main_arg20))
    (a19 : Wp (no_index (Proc.devRef .tc main_arg19)) = V (Proc.devRef .tc main_arg19))
    (a18 : Wp (no_index (Proc.devRef .tc main_arg18)) = V (Proc.devRef .tc main_arg18))
    (a17 : Wp (no_index (Proc.devRef .tc main_arg17)) = V (Proc.devRef .tc main_arg17))
    (hv190 : Wp (no_index (Proc.devRef .tc main_v190)) = valAt_v190 V) :
    after (List.drop 1 (List.drop 31 ops3)) Wp (Proc.devRef .tc main_v204) = valAt_v204 V := by
  simp only [ops3, List.drop_succ_cons, List.drop_zero]
  after_results_simp
  simp only [a22, a21, a20, a19, a18, a17, hv190]
  try simp only [TRef.ofBuf, TRef.toBuf, cast_eq]
  rfl
set_option maxRecDepth 8192 in
set_option maxHeartbeats 4000000 in
theorem w3_main_v204 (V Wp : Valuation τ sig (Elt F))
    (a22 : Wp (no_index (Proc.devRef .tc main_arg22)) = V (Proc.devRef .tc main_arg22))
    (a21 : Wp (no_index (Proc.devRef .tc main_arg21)) = V (Proc.devRef .tc main_arg21))
    (a20 : Wp (no_index (Proc.devRef .tc main_arg20)) = V (Proc.devRef .tc main_arg20))
    (a19 : Wp (no_index (Proc.devRef .tc main_arg19)) = V (Proc.devRef .tc main_arg19))
    (a18 : Wp (no_index (Proc.devRef .tc main_arg18)) = V (Proc.devRef .tc main_arg18))
    (a17 : Wp (no_index (Proc.devRef .tc main_arg17)) = V (Proc.devRef .tc main_arg17))
    (hv11 : Wp (no_index (Proc.devRef .tc main_v11)) = valAt_v11 V)
    (a24 : Wp (no_index (Proc.devRef .tc main_arg24)) = V (Proc.devRef .tc main_arg24))
    (a16 : Wp (no_index (Proc.devRef .tc main_arg16)) = V (Proc.devRef .tc main_arg16))
    (a15 : Wp (no_index (Proc.devRef .tc main_arg15)) = V (Proc.devRef .tc main_arg15))
    (hv164 : Wp (no_index (Proc.devRef .tc main_v164)) = valAt_v164 V)
    (hv162 : Wp (no_index (Proc.devRef .tc main_v162)) = valAt_v162 V)
    (hv123 : Wp (no_index (Proc.devRef .tc main_v123)) = valAt_v123 V) :
    after ops3 Wp (Proc.devRef .tc main_v204) = valAt_v204 V := by
  have hs : (ops3 : List (HloOp τ sig (Elt F)))
      = List.take 31 ops3 ++ (List.take 1 (List.drop 31 ops3) ++ List.drop 1 (List.drop 31 ops3)) := by
    rw [List.take_append_drop 1, List.take_append_drop 31]
  have m1 : ∀ op ∈ List.take 31 (ops3 : List (HloOp τ sig (Elt F))), op ∈ (ops3 : List (HloOp τ sig (Elt F))) :=
    fun _ h => List.mem_of_mem_take h
  have m2 : ∀ op ∈ List.take 1 (List.drop 31 (ops3 : List (HloOp τ sig (Elt F)))), op ∈ (ops3 : List (HloOp τ sig (Elt F))) :=
    fun _ h => List.mem_of_mem_drop (List.mem_of_mem_take h)
  rw [hs, StableHlo.after_append, StableHlo.after_append]
  refine w3c_main_v204 V _ ?_ ?_ ?_ ?_ ?_ ?_ ?_
  · exact ((ops3_part_keep m2 _ main_arg22 (by decide)).trans (ops3_part_keep m1 _ main_arg22 (by decide))).trans a22
  · exact ((ops3_part_keep m2 _ main_arg21 (by decide)).trans (ops3_part_keep m1 _ main_arg21 (by decide))).trans a21
  · exact ((ops3_part_keep m2 _ main_arg20 (by decide)).trans (ops3_part_keep m1 _ main_arg20 (by decide))).trans a20
  · exact ((ops3_part_keep m2 _ main_arg19 (by decide)).trans (ops3_part_keep m1 _ main_arg19 (by decide))).trans a19
  · exact ((ops3_part_keep m2 _ main_arg18 (by decide)).trans (ops3_part_keep m1 _ main_arg18 (by decide))).trans a18
  · exact ((ops3_part_keep m2 _ main_arg17 (by decide)).trans (ops3_part_keep m1 _ main_arg17 (by decide))).trans a17
  · exact w3b_main_v190 V _ (w3a_main_v189 V Wp a24 a16 a15 hv164 hv162 hv123)
      ((ops3_part_keep m1 _ main_v11 (by decide)).trans hv11)
end Cert.RRun
end
-- ==== Proof.RRunH.lean ====
import proofs.«418781_j85873576116382_1_alg».proof.Proof.RRunH0
import proofs.«418781_j85873576116382_1_alg».proof.Proof.RRunH1
import proofs.«418781_j85873576116382_1_alg».proof.Proof.RRunH2
import proofs.«418781_j85873576116382_1_alg».proof.Proof.RRunH3
noncomputable section
namespace Cert.RRun
open Cert.ReferenceIdeal Cert.ReferenceIdeal.Gen Idealize.ShloMosaic Idealize.ShloMosaic.TcCoe Idealize.SL.Sem Idealize.ShloMosaic.StableHlo
open Cert.ReferenceIdeal.Read
variable {F : FTy → Type} [FloatOps F]
abbrev ops : List (HloOp τ sig (Elt F)) := ops0 ++ (ops1 ++ (ops2 ++ ops3))
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    · exact List.forall_iff_forall_mem.mp ops3_sub op h
theorem ops_fresh : ∀ op ∈ (ops : List (HloOp τ sig (Elt F))), op.fresh = ∅ := fun op h => by
  rcases List.mem_append.mp h with h | h
  · exact ops0_fresh op h
  rcases List.mem_append.mp h with h | h
  · exact ops1_fresh op h
  rcases List.mem_append.mp h with h | h
  · exact ops2_fresh op h
  · exact ops3_fresh op h
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ (fun _ => ops_fresh)
variable (V : Valuation τ sig (Elt F))
def S0a : Valuation τ sig (Elt F) := after ops0a V
def S0b : Valuation τ sig (Elt F) := after ops0b (S0a V)
def S0c : Valuation τ sig (Elt F) := after ops0c (S0b V)
def S1a : Valuation τ sig (Elt F) := after ops1a (S0c V)
def S1b : Valuation τ sig (Elt F) := after ops1b (S1a V)
def S1c : Valuation τ sig (Elt F) := after ops1c (S1b V)
def S2a : Valuation τ sig (Elt F) := after ops2a (S1c V)
def S2b : Valuation τ sig (Elt F) := after ops2b (S2a V)
def S2c : Valuation τ sig (Elt F) := after ops2c (S2b V)
def S3 : Valuation τ sig (Elt F) := after ops3 (S2c V)
theorem after_ops : after ops V = S3 V := by
  simp only [ops, StableHlo.after_append]
  rfl
-- No part of the program writes an argument buffer, so every argument holds its launch contents after every part.
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]
theorem arg_unwritten : ∀ r ∈ argRefs, r ∉ ops0a_W ∧ r ∉ ops0b_W ∧ r ∉ ops0c_W ∧ r ∉ ops1a_W ∧ r ∉ ops1b_W ∧ r ∉ ops1c_W ∧ r ∉ ops2a_W ∧ r ∉ ops2b_W ∧ r ∉ ops2c_W ∧ r ∉ ops3_W := by decide +kernel
theorem S0a_arg {r : Ref sig .tc} (h : r ∈ argRefs) : S0a V (Proc.devRef .tc r) = V (Proc.devRef .tc r) :=
  (ops0a_keep V r (arg_unwritten r h).1)
theorem S0b_arg {r : Ref sig .tc} (h : r ∈ argRefs) : S0b V (Proc.devRef .tc r) = V (Proc.devRef .tc r) :=
  (ops0b_keep _ r (arg_unwritten r h).2.1).trans (S0a_arg V h)
theorem S0c_arg {r : Ref sig .tc} (h : r ∈ argRefs) : S0c V (Proc.devRef .tc r) = V (Proc.devRef .tc r) :=
  (ops0c_keep _ r (arg_unwritten r h).2.2.1).trans (S0b_arg V h)
theorem S1a_arg {r : Ref sig .tc} (h : r ∈ argRefs) : S1a V (Proc.devRef .tc r) = V (Proc.devRef .tc r) :=
  (ops1a_keep _ r (arg_unwritten r h).2.2.2.1).trans (S0c_arg V h)
theorem S1b_arg {r : Ref sig .tc} (h : r ∈ argRefs) : S1b V (Proc.devRef .tc r) = V (Proc.devRef .tc r) :=
  (ops1b_keep _ r (arg_unwritten r h).2.2.2.2.1).trans (S1a_arg V h)
theorem S1c_arg {r : Ref sig .tc} (h : r ∈ argRefs) : S1c V (Proc.devRef .tc r) = V (Proc.devRef .tc r) :=
  (ops1c_keep _ r (arg_unwritten r h).2.2.2.2.2.1).trans (S1b_arg V h)
theorem S2a_arg {r : Ref sig .tc} (h : r ∈ argRefs) : S2a V (Proc.devRef .tc r) = V (Proc.devRef .tc r) :=
  (ops2a_keep _ r (arg_unwritten r h).2.2.2.2.2.2.1).trans (S1c_arg V h)
theorem S2b_arg {r : Ref sig .tc} (h : r ∈ argRefs) : S2b V (Proc.devRef .tc r) = V (Proc.devRef .tc r) :=
  (ops2b_keep _ r (arg_unwritten r h).2.2.2.2.2.2.2.1).trans (S2a_arg V h)
theorem S2c_arg {r : Ref sig .tc} (h : r ∈ argRefs) : S2c V (Proc.devRef .tc r) = V (Proc.devRef .tc r) :=
  (ops2c_keep _ r (arg_unwritten r h).2.2.2.2.2.2.2.2.1).trans (S2b_arg V h)
theorem S3_arg {r : Ref sig .tc} (h : r ∈ argRefs) : S3 V (Proc.devRef .tc r) = V (Proc.devRef .tc r) :=
  (ops3_keep _ r (arg_unwritten r h).2.2.2.2.2.2.2.2.2).trans (S2c_arg V h)
theorem ops_arg {r : Ref sig .tc} (h : r ∈ argRefs) : after ops V (Proc.devRef .tc r) = V (Proc.devRef .tc r) := by
  rw [after_ops]; exact S3_arg V h
theorem s0a_main_v11 : S0a V (Proc.devRef .tc main_v11) = valAt_v11 V :=
  w0a_main_v11 V
theorem s0b_main_v11 : S0b V (Proc.devRef .tc main_v11) = valAt_v11 V :=
  (ops0b_keep (S0a V) main_v11 (by decide)).trans (s0a_main_v11 V)
theorem s0c_main_v11 : S0c V (Proc.devRef .tc main_v11) = valAt_v11 V :=
  (ops0c_keep (S0b V) main_v11 (by decide)).trans (s0b_main_v11 V)
theorem s1a_main_v11 : S1a V (Proc.devRef .tc main_v11) = valAt_v11 V :=
  (ops1a_keep (S0c V) main_v11 (by decide)).trans (s0c_main_v11 V)
theorem s1b_main_v11 : S1b V (Proc.devRef .tc main_v11) = valAt_v11 V :=
  (ops1b_keep (S1a V) main_v11 (by decide)).trans (s1a_main_v11 V)
theorem s1c_main_v11 : S1c V (Proc.devRef .tc main_v11) = valAt_v11 V :=
  (ops1c_keep (S1b V) main_v11 (by decide)).trans (s1b_main_v11 V)
theorem s2a_main_v11 : S2a V (Proc.devRef .tc main_v11) = valAt_v11 V :=
  (ops2a_keep (S1c V) main_v11 (by decide)).trans (s1c_main_v11 V)
theorem s2b_main_v11 : S2b V (Proc.devRef .tc main_v11) = valAt_v11 V :=
  (ops2b_keep (S2a V) main_v11 (by decide)).trans (s2a_main_v11 V)
theorem s2c_main_v11 : S2c V (Proc.devRef .tc main_v11) = valAt_v11 V :=
  (ops2c_keep (S2b V) main_v11 (by decide)).trans (s2b_main_v11 V)
theorem s2c_main_v164 : S2c V (Proc.devRef .tc main_v164) = valAt_v164 V :=
  w2c_main_v164 V (S2b V) (S2b_arg V (by decide))
theorem s0a_main_v7 : S0a V (Proc.devRef .tc main_v7) = valAt_v7 V :=
  w0a_main_v7 V
theorem s0b_main_v7 : S0b V (Proc.devRef .tc main_v7) = valAt_v7 V :=
  (ops0b_keep (S0a V) main_v7 (by decide)).trans (s0a_main_v7 V)
theorem s0c_main_v7 : S0c V (Proc.devRef .tc main_v7) = valAt_v7 V :=
  (ops0c_keep (S0b V) main_v7 (by decide)).trans (s0b_main_v7 V)
theorem s1a_main_v7 : S1a V (Proc.devRef .tc main_v7) = valAt_v7 V :=
  (ops1a_keep (S0c V) main_v7 (by decide)).trans (s0c_main_v7 V)
theorem s1b_main_v7 : S1b V (Proc.devRef .tc main_v7) = valAt_v7 V :=
  (ops1b_keep (S1a V) main_v7 (by decide)).trans (s1a_main_v7 V)
theorem s1c_main_v7 : S1c V (Proc.devRef .tc main_v7) = valAt_v7 V :=
  (ops1c_keep (S1b V) main_v7 (by decide)).trans (s1b_main_v7 V)
theorem s2a_main_v7 : S2a V (Proc.devRef .tc main_v7) = valAt_v7 V :=
  (ops2a_keep (S1c V) main_v7 (by decide)).trans (s1c_main_v7 V)
theorem s0a_main_v13 : S0a V (Proc.devRef .tc main_v13) = valAt_v13 V :=
  w0a_main_v13 V
theorem s0b_main_v13 : S0b V (Proc.devRef .tc main_v13) = valAt_v13 V :=
  (ops0b_keep (S0a V) main_v13 (by decide)).trans (s0a_main_v13 V)
theorem s0c_main_v13 : S0c V (Proc.devRef .tc main_v13) = valAt_v13 V :=
  (ops0c_keep (S0b V) main_v13 (by decide)).trans (s0b_main_v13 V)
theorem s1a_main_v13 : S1a V (Proc.devRef .tc main_v13) = valAt_v13 V :=
  (ops1a_keep (S0c V) main_v13 (by decide)).trans (s0c_main_v13 V)
theorem s1b_main_v13 : S1b V (Proc.devRef .tc main_v13) = valAt_v13 V :=
  (ops1b_keep (S1a V) main_v13 (by decide)).trans (s1a_main_v13 V)
theorem s1c_main_v13 : S1c V (Proc.devRef .tc main_v13) = valAt_v13 V :=
  (ops1c_keep (S1b V) main_v13 (by decide)).trans (s1b_main_v13 V)
theorem s1c_main_v109 : S1c V (Proc.devRef .tc main_v109) = valAt_v109 V :=
  w1c_main_v109 V (S1b V) (S1b_arg V (by decide))
theorem s0a_main_v29 : S0a V (Proc.devRef .tc main_v29) = valAt_v29 V :=
  w0a_main_v29 V
theorem s0a_main_v22 : S0a V (Proc.devRef .tc main_v22) = valAt_v22 V :=
  w0a_main_v22 V
theorem s0a_main_v15 : S0a V (Proc.devRef .tc main_v15) = valAt_v15 V :=
  w0a_main_v15 V
theorem s0b_main_v50 : S0b V (Proc.devRef .tc main_v50) = valAt_v50 V :=
  w0b_main_v50 V (S0a V) (S0a_arg V (by decide)) (S0a_arg V (by decide)) (S0a_arg V (by decide)) (S0a_arg V (by decide)) (s0a_main_v7 V) (s0a_main_v29 V) (s0a_main_v22 V) (s0a_main_v15 V)
theorem s0a_main_v3 : S0a V (Proc.devRef .tc main_v3) = valAt_v3 V :=
  w0a_main_v3 V
theorem s0b_main_v3 : S0b V (Proc.devRef .tc main_v3) = valAt_v3 V :=
  (ops0b_keep (S0a V) main_v3 (by decide)).trans (s0a_main_v3 V)
theorem s0c_main_v54 : S0c V (Proc.devRef .tc main_v54) = valAt_v54 V :=
  w0c_main_v54 V (S0b V) (S0b_arg V (by decide)) (s0b_main_v50 V) (s0b_main_v3 V)
theorem s0c_main_v3 : S0c V (Proc.devRef .tc main_v3) = valAt_v3 V :=
  (ops0c_keep (S0b V) main_v3 (by decide)).trans (s0b_main_v3 V)
theorem s1a_main_v83 : S1a V (Proc.devRef .tc main_v83) = valAt_v83 V :=
  w1a_main_v83 V (S0c V) (s0c_main_v13 V) (S0c_arg V (by decide)) (S0c_arg V (by decide)) (S0c_arg V (by decide)) (s0c_main_v54 V) (s0c_main_v3 V)
theorem s0b_main_v15 : S0b V (Proc.devRef .tc main_v15) = valAt_v15 V :=
  (ops0b_keep (S0a V) main_v15 (by decide)).trans (s0a_main_v15 V)
theorem s0c_main_v15 : S0c V (Proc.devRef .tc main_v15) = valAt_v15 V :=
  (ops0c_keep (S0b V) main_v15 (by decide)).trans (s0b_main_v15 V)
theorem s1a_main_v76 : S1a V (Proc.devRef .tc main_v76) = valAt_v76 V :=
  w1a_main_v76 V (S0c V) (s0c_main_v15 V) (S0c_arg V (by decide)) (S0c_arg V (by decide)) (S0c_arg V (by decide)) (s0c_main_v54 V) (s0c_main_v3 V)
theorem s1a_main_v15 : S1a V (Proc.devRef .tc main_v15) = valAt_v15 V :=
  (ops1a_keep (S0c V) main_v15 (by decide)).trans (s0c_main_v15 V)
theorem s1b_main_v104 : S1b V (Proc.devRef .tc main_v104) = valAt_v104 V :=
  w1b_main_v104 V (S1a V) (S1a_arg V (by decide)) (S1a_arg V (by decide)) (S1a_arg V (by decide)) (S1a_arg V (by decide)) (s1a_main_v7 V) (s1a_main_v83 V) (s1a_main_v76 V) (s1a_main_v15 V)
theorem s1a_main_v69 : S1a V (Proc.devRef .tc main_v69) = valAt_v69 V :=
  w1a_main_v69 V (S0c V) (S0c_arg V (by decide)) (S0c_arg V (by decide)) (S0c_arg V (by decide)) (s0c_main_v54 V) (s0c_main_v3 V)
theorem s1b_main_v69 : S1b V (Proc.devRef .tc main_v69) = valAt_v69 V :=
  (ops1b_keep (S1a V) main_v69 (by decide)).trans (s1a_main_v69 V)
theorem s1c_main_v108 : S1c V (Proc.devRef .tc main_v108) = valAt_v108 V :=
  w1c_main_v108 V (S1b V) (S1b_arg V (by decide)) (s1b_main_v104 V) (s1b_main_v69 V)
theorem s1c_main_v69 : S1c V (Proc.devRef .tc main_v69) = valAt_v69 V :=
  (ops1c_keep (S1b V) main_v69 (by decide)).trans (s1b_main_v69 V)
theorem s2a_main_v137 : S2a V (Proc.devRef .tc main_v137) = valAt_v137 V :=
  w2a_main_v137 V (S1c V) (s1c_main_v13 V) (S1c_arg V (by decide)) (S1c_arg V (by decide)) (s1c_main_v109 V) (s1c_main_v108 V) (s1c_main_v69 V)
theorem s1b_main_v15 : S1b V (Proc.devRef .tc main_v15) = valAt_v15 V :=
  (ops1b_keep (S1a V) main_v15 (by decide)).trans (s1a_main_v15 V)
theorem s1c_main_v15 : S1c V (Proc.devRef .tc main_v15) = valAt_v15 V :=
  (ops1c_keep (S1b V) main_v15 (by decide)).trans (s1b_main_v15 V)
theorem s2a_main_v130 : S2a V (Proc.devRef .tc main_v130) = valAt_v130 V :=
  w2a_main_v130 V (S1c V) (s1c_main_v15 V) (S1c_arg V (by decide)) (S1c_arg V (by decide)) (s1c_main_v109 V) (s1c_main_v108 V) (s1c_main_v69 V)
theorem s2a_main_v15 : S2a V (Proc.devRef .tc main_v15) = valAt_v15 V :=
  (ops2a_keep (S1c V) main_v15 (by decide)).trans (s1c_main_v15 V)
theorem s2b_main_v158 : S2b V (Proc.devRef .tc main_v158) = valAt_v158 V :=
  w2b_main_v158 V (S2a V) (S2a_arg V (by decide)) (S2a_arg V (by decide)) (S2a_arg V (by decide)) (S2a_arg V (by decide)) (s2a_main_v7 V) (s2a_main_v137 V) (s2a_main_v130 V) (s2a_main_v15 V)
theorem s2a_main_v123 : S2a V (Proc.devRef .tc main_v123) = valAt_v123 V :=
  w2a_main_v123 V (S1c V) (S1c_arg V (by decide)) (S1c_arg V (by decide)) (s1c_main_v109 V) (s1c_main_v108 V) (s1c_main_v69 V)
theorem s2b_main_v123 : S2b V (Proc.devRef .tc main_v123) = valAt_v123 V :=
  (ops2b_keep (S2a V) main_v123 (by decide)).trans (s2a_main_v123 V)
theorem s2c_main_v162 : S2c V (Proc.devRef .tc main_v162) = valAt_v162 V :=
  w2c_main_v162 V (S2b V) (S2b_arg V (by decide)) (s2b_main_v158 V) (s2b_main_v123 V)
theorem s2c_main_v123 : S2c V (Proc.devRef .tc main_v123) = valAt_v123 V :=
  (ops2c_keep (S2b V) main_v123 (by decide)).trans (s2b_main_v123 V)
theorem s3_main_v204 : S3 V (Proc.devRef .tc main_v204) = valAt_v204 V :=
  w3_main_v204 V (S2c V) (S2c_arg V (by decide)) (S2c_arg V (by decide)) (S2c_arg V (by decide)) (S2c_arg V (by decide)) (S2c_arg V (by decide)) (S2c_arg V (by decide)) (s2c_main_v11 V) (S2c_arg V (by decide)) (S2c_arg V (by decide)) (S2c_arg V (by decide)) (s2c_main_v164 V) (s2c_main_v162 V) (s2c_main_v123 V)
theorem ops_main_v204 : after ops V (Proc.devRef .tc main_v204) = valAt_v204 V := by
  rw [after_ops]
  exact s3_main_v204 V
end Cert.RRun
end
-- ==== Proof.RRunAsm.lean ====
import proofs.«418781_j85873576116382_1_alg».proof.Proof.RRunH
import proofs.«418781_j85873576116382_1_alg».proof.Proof.RReadP
noncomputable section
namespace Cert.RRun
open Cert.ReferenceIdeal Cert.ReferenceIdeal.Read Idealize.ShloMosaic Idealize.ShloMosaic.TcCoe Idealize.SL.Sem
open Idealize.ShloMosaic.StableHlo
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v204) = val_main_v204 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v204).trans (ops_main_v204 (F := Ideal) _),
      (h c main_arg0).trans (ops_arg (F := Ideal) _ (by decide)),
      (h c main_arg1).trans (ops_arg (F := Ideal) _ (by decide)),
      (h c main_arg2).trans (ops_arg (F := Ideal) _ (by decide)),
      (h c main_arg3).trans (ops_arg (F := Ideal) _ (by decide)),
      (h c main_arg4).trans (ops_arg (F := Ideal) _ (by decide)),
      (h c main_arg5).trans (ops_arg (F := Ideal) _ (by decide)),
      (h c main_arg6).trans (ops_arg (F := Ideal) _ (by decide)),
      (h c main_arg7).trans (ops_arg (F := Ideal) _ (by decide)),
      (h c main_arg8).trans (ops_arg (F := Ideal) _ (by decide)),
      (h c main_arg9).trans (ops_arg (F := Ideal) _ (by decide)),
      (h c main_arg10).trans (ops_arg (F := Ideal) _ (by decide)),
      (h c main_arg11).trans (ops_arg (F := Ideal) _ (by decide)),
      (h c main_arg12).trans (ops_arg (F := Ideal) _ (by decide)),
      (h c main_arg13).trans (ops_arg (F := Ideal) _ (by decide)),
      (h c main_arg14).trans (ops_arg (F := Ideal) _ (by decide)),
      (h c main_arg15).trans (ops_arg (F := Ideal) _ (by decide)),
      (h c main_arg16).trans (ops_arg (F := Ideal) _ (by decide)),
      (h c main_arg17).trans (ops_arg (F := Ideal) _ (by decide)),
      (h c main_arg18).trans (ops_arg (F := Ideal) _ (by decide)),
      (h c main_arg19).trans (ops_arg (F := Ideal) _ (by decide)),
      (h c main_arg20).trans (ops_arg (F := Ideal) _ (by decide)),
      (h c main_arg21).trans (ops_arg (F := Ideal) _ (by decide)),
      (h c main_arg22).trans (ops_arg (F := Ideal) _ (by decide)),
      (h c main_arg23).trans (ops_arg (F := Ideal) _ (by decide)),
      (h c main_arg24).trans (ops_arg (F := Ideal) _ (by decide))⟩)
    (run_after (F := Ideal) m ρ)
end Cert.RRun
end
-- ==== Proof.KeepTac.lean ====
import Idealize.ShloMosaic.Lib.StableHlo.Run

open Idealize.ShloMosaic

macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

namespace Idealize.ShloMosaic.StableHlo

variable {τ : Topo} {sig : RefSig} {Val : EltTy → Type}

-- The operations leave every buffer that is not on the list `W` as they found it.
abbrev Keeps (ops : List (HloOp τ sig Val)) (W : List (Ref sig .tc)) : Prop :=
  ∀ (V : Valuation τ sig Val) {b : Ref sig .tc}, b ∉ W → after ops V (Proc.devRef .tc b) = V (Proc.devRef .tc b)

-- An operation whose one result buffer is on a list writes only buffers of that list.
theorem writes_sub_of_mem {op : HloOp τ sig Val} {y : Ref sig .tc} {W : List (Ref sig .tc)}
    (e : op.writes = {Proc.devRef .tc y}) (h : y ∈ W) :
    op.writes ⊆ (W.map (Proc.devRef (τ := τ) .tc)).toFinset := by
  rw [e, Finset.singleton_subset_iff, List.mem_toFinset]
  exact List.mem_map.mpr ⟨y, h, rfl⟩

end Idealize.ShloMosaic.StableHlo

-- A literal list of operations keeps what is off a literal list holding each operation's result, found there one by one.
macro "host_keeps" : tactic => `(tactic|
  exact fun V => Idealize.ShloMosaic.StableHlo.after_of_writes_sub _ V
    (by (repeat' apply And.intro) <;> exact Idealize.ShloMosaic.StableHlo.writes_sub_of_mem rfl (by decide)))
-- ==== Proof.KKeep.lean ====
import proofs.«418781_j85873576116382_1_alg».proof.Proof.Gen.KernelIdeal.Frame
import proofs.«418781_j85873576116382_1_alg».proof.Proof.KeepTac

set_option maxRecDepth 16384

noncomputable section

namespace Cert.KKeep

open Cert.KernelIdeal Cert.KernelIdeal.Gen Idealize.ShloMosaic Idealize.ShloMosaic.TcCoe

variable {F : FTy → Type} [FloatOps F]
variable (m : (ℓ : Loc nD τ sig) → Buf (Elt F) ℓ) (ρ : Dev nD → PrngReg)

-- What each stretch of host operations leaves alone: everything but its operations' results.
theorem keep_hostOps0 : StableHlo.Keeps (hostOps0 (F := F))
    [main_v0] := by host_keeps

theorem keep_hostOps1 : StableHlo.Keeps (hostOps1 (F := F))
    [main_v2] := by host_keeps

theorem keep_hostOps2 : StableHlo.Keeps (hostOps2 (F := F))
    [main_v4, main_v5, main_v6, main_v7, main_v8, main_v9, main_v10, main_v11] := by host_keeps

theorem keep_hostOps2_1 : StableHlo.Keeps (hostOps2_1 (F := F))
    [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v12] := by host_keeps

theorem keep_hostOps2_2 : StableHlo.Keeps (hostOps2_2 (F := F))
    [main_v13] := by host_keeps

theorem keep_hostOps2_3 : StableHlo.Keeps (hostOps2_3 (F := F))
    [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v14] := by host_keeps

theorem keep_hostOps2_4 : StableHlo.Keeps (hostOps2_4 (F := F))
    [main_v15, main_v16, main_v17, main_v18, main_v19, main_v20, main_v21, main_v22, main_v23, main_v24, main_v25, main_v26, main_v27, main_v28, main_v29, main_v30, main_v31, main_v32, main_v33] := by host_keeps

theorem keep_hostOps3 : StableHlo.Keeps (hostOps3 (F := F))
    [main_cst, main_v35, main_v36, main_v37, main_v38, main_v39, main_v40, main_v41, main_v42, main_v43, main_v44, main_v45, main_v46, main_v47, main_v48, main_v49, main_v50, main_v51, main_v52] := by host_keeps

theorem keep_hostOps4 : StableHlo.Keeps (hostOps4 (F := F))
    [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v54] := by host_keeps

theorem keep_hostOps4_1 : StableHlo.Keeps (hostOps4_1 (F := F))
    [main_v55] := by host_keeps

theorem keep_hostOps4_2 : StableHlo.Keeps (hostOps4_2 (F := F))
    [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v56] := by host_keeps

theorem keep_hostOps4_3 : StableHlo.Keeps (hostOps4_3 (F := F))
    [main_v57, main_v58, main_v59, main_v60, main_v61, main_v62, main_v63, main_v64, main_v65, main_v66, main_v67, main_v68, main_v69, main_v70, main_v71, main_v72, main_v73, main_v74, main_v75] := by host_keeps

theorem keep_hostOps5 : StableHlo.Keeps (hostOps5 (F := F))
    [main_cst_0, main_v77, main_v78, main_v79, main_v80, main_v81, main_v82, main_v83, main_v84, main_v85, main_v86, main_v87, main_v88, main_v89, main_v90, main_v91, main_v92, main_v93, main_v94] := by host_keeps

theorem keep_hostOps6 : StableHlo.Keeps (hostOps6 (F := F))
    [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v96] := by host_keeps

theorem keep_hostOps6_1 : StableHlo.Keeps (hostOps6_1 (F := F))
    [main_v97] := by host_keeps

theorem keep_hostOps6_2 : StableHlo.Keeps (hostOps6_2 (F := F))
    [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v98] := by host_keeps

theorem keep_hostOps6_3 : StableHlo.Keeps (hostOps6_3 (F := F))
    [main_v99, main_v100, main_v101, main_v102, main_v103, main_v104, main_v105, main_v106, main_v107, main_v108, main_v109, main_v110, main_v111, main_v112, main_v113, main_v114, main_v115, main_v116, main_v117] := by host_keeps

theorem keep_hostOps7 : StableHlo.Keeps (hostOps7 (F := F))
    [main_cst_1, main_v119, main_v120, main_v121, main_v122, main_v123, main_v124, main_v125, main_v126, main_v127, main_v128, main_v129, main_v130, main_v131, main_v132, main_v133, main_v134, main_v135, main_v136] := by host_keeps

-- A region leaves its input array as it found it.
theorem input10 (c : Dev nD) : W10 m ρ c (Proc.devRef .tc main_v3) = W9 m ρ c (Proc.devRef .tc main_v3) :=
  (W10_arr m ρ c 2).trans (((dat2 (V9 m ρ) c).arrAt_in 2 rfl _).trans (A_eq2 (V9 m ρ) c 2))

theorem input17 (c : Dev nD) : W17 m ρ c (Proc.devRef .tc main_v3) = W16 m ρ c (Proc.devRef .tc main_v3) :=
  (W17_arr m ρ c 2).trans (((dat4 (V16 m ρ) c).arrAt_in 2 rfl _).trans (A_eq4 (V16 m ρ) c 2))

theorem input24 (c : Dev nD) : W24 m ρ c (Proc.devRef .tc main_v3) = W23 m ρ c (Proc.devRef .tc main_v3) :=
  (W24_arr m ρ c 2).trans (((dat6 (V23 m ρ) c).arrAt_in 2 rfl _).trans (A_eq6 (V23 m ρ) c 2))

-- From the later boundary down to the earlier one, segment by segment: each either does not write the buffer or only reads it.
macro "keep_walk" : tactic => `(tactic| repeat with_reducible first
  | rfl
  | (apply Eq.trans
     first
     | exact W26_of_ne _ _ _ _ (by decide)
     | exact keep_hostOps7 _ (by decide)
     | exact W24_of_ne _ _ _ _ (by decide)
     | exact input24 _ _ _
     | exact keep_hostOps6_3 _ (by decide)
     | exact keep_hostOps6_2 _ (by decide)
     | exact keep_hostOps6_1 _ (by decide)
     | exact keep_hostOps6 _ (by decide)
     | exact W19_of_ne _ _ _ _ (by decide)
     | exact keep_hostOps5 _ (by decide)
     | exact W17_of_ne _ _ _ _ (by decide)
     | exact input17 _ _ _
     | exact keep_hostOps4_3 _ (by decide)
     | exact keep_hostOps4_2 _ (by decide)
     | exact keep_hostOps4_1 _ (by decide)
     | exact keep_hostOps4 _ (by decide)
     | exact W12_of_ne _ _ _ _ (by decide)
     | exact keep_hostOps3 _ (by decide)
     | exact W10_of_ne _ _ _ _ (by decide)
     | exact input10 _ _ _
     | exact keep_hostOps2_4 _ (by decide)
     | exact keep_hostOps2_3 _ (by decide)
     | exact keep_hostOps2_2 _ (by decide)
     | exact keep_hostOps2_1 _ (by decide)
     | exact keep_hostOps2 _ (by decide)
     | exact W4_of_ne _ _ _ _ (by decide)
     | exact keep_hostOps1 _ (by decide)
     | exact W2_of_ne _ _ _ _ (by decide)
     | exact keep_hostOps0 _ (by decide)))

theorem keep_main_arg0_0_1 (c : Dev nD) : W1 m ρ c (Proc.devRef .tc main_arg0) = W0 m ρ c (Proc.devRef .tc main_arg0) := by keep_walk
theorem keep_main_arg3_0_1 (c : Dev nD) : W1 m ρ c (Proc.devRef .tc main_arg3) = W0 m ρ c (Proc.devRef .tc main_arg3) := by keep_walk
theorem keep_main_arg6_0_2 (c : Dev nD) : W2 m ρ c (Proc.devRef .tc main_arg6) = W0 m ρ c (Proc.devRef .tc main_arg6) := by keep_walk
theorem keep_main_arg1_0_3 (c : Dev nD) : W3 m ρ c (Proc.devRef .tc main_arg1) = W0 m ρ c (Proc.devRef .tc main_arg1) := by keep_walk
theorem keep_main_arg5_0_3 (c : Dev nD) : W3 m ρ c (Proc.devRef .tc main_arg5) = W0 m ρ c (Proc.devRef .tc main_arg5) := by keep_walk
theorem keep_main_arg2_0_4 (c : Dev nD) : W4 m ρ c (Proc.devRef .tc main_arg2) = W0 m ρ c (Proc.devRef .tc main_arg2) := by keep_walk
theorem keep_main_arg7_0_4 (c : Dev nD) : W4 m ρ c (Proc.devRef .tc main_arg7) = W0 m ρ c (Proc.devRef .tc main_arg7) := by keep_walk
theorem keep_main_arg8_0_4 (c : Dev nD) : W4 m ρ c (Proc.devRef .tc main_arg8) = W0 m ρ c (Proc.devRef .tc main_arg8) := by keep_walk
theorem keep_main_arg23_0_4 (c : Dev nD) : W4 m ρ c (Proc.devRef .tc main_arg23) = W0 m ρ c (Proc.devRef .tc main_arg23) := by keep_walk
theorem keep_main_arg9_0_8 (c : Dev nD) : W8 m ρ c (Proc.devRef .tc main_arg9) = W0 m ρ c (Proc.devRef .tc main_arg9) := by keep_walk
theorem keep_main_arg9_8_15 (c : Dev nD) : W15 m ρ c (Proc.devRef .tc main_arg9) = W8 m ρ c (Proc.devRef .tc main_arg9) := by keep_walk
theorem keep_main_arg9_15_22 (c : Dev nD) : W22 m ρ c (Proc.devRef .tc main_arg9) = W15 m ρ c (Proc.devRef .tc main_arg9) := by keep_walk
theorem keep_main_arg10_0_8 (c : Dev nD) : W8 m ρ c (Proc.devRef .tc main_arg10) = W0 m ρ c (Proc.devRef .tc main_arg10) := by keep_walk
theorem keep_main_arg10_8_15 (c : Dev nD) : W15 m ρ c (Proc.devRef .tc main_arg10) = W8 m ρ c (Proc.devRef .tc main_arg10) := by keep_walk
theorem keep_main_arg10_15_22 (c : Dev nD) : W22 m ρ c (Proc.devRef .tc main_arg10) = W15 m ρ c (Proc.devRef .tc main_arg10) := by keep_walk
theorem keep_main_arg11_0_8 (c : Dev nD) : W8 m ρ c (Proc.devRef .tc main_arg11) = W0 m ρ c (Proc.devRef .tc main_arg11) := by keep_walk
theorem keep_main_arg11_8_15 (c : Dev nD) : W15 m ρ c (Proc.devRef .tc main_arg11) = W8 m ρ c (Proc.devRef .tc main_arg11) := by keep_walk
theorem keep_main_arg11_15_22 (c : Dev nD) : W22 m ρ c (Proc.devRef .tc main_arg11) = W15 m ρ c (Proc.devRef .tc main_arg11) := by keep_walk
theorem keep_main_arg12_0_8 (c : Dev nD) : W8 m ρ c (Proc.devRef .tc main_arg12) = W0 m ρ c (Proc.devRef .tc main_arg12) := by keep_walk
theorem keep_main_arg12_8_15 (c : Dev nD) : W15 m ρ c (Proc.devRef .tc main_arg12) = W8 m ρ c (Proc.devRef .tc main_arg12) := by keep_walk
theorem keep_main_arg12_15_22 (c : Dev nD) : W22 m ρ c (Proc.devRef .tc main_arg12) = W15 m ρ c (Proc.devRef .tc main_arg12) := by keep_walk
theorem keep_main_arg13_0_10 (c : Dev nD) : W10 m ρ c (Proc.devRef .tc main_arg13) = W0 m ρ c (Proc.devRef .tc main_arg13) := by keep_walk
theorem keep_main_arg13_10_17 (c : Dev nD) : W17 m ρ c (Proc.devRef .tc main_arg13) = W10 m ρ c (Proc.devRef .tc main_arg13) := by keep_walk
theorem keep_main_arg13_17_24 (c : Dev nD) : W24 m ρ c (Proc.devRef .tc main_arg13) = W17 m ρ c (Proc.devRef .tc main_arg13) := by keep_walk
theorem keep_main_arg14_0_10 (c : Dev nD) : W10 m ρ c (Proc.devRef .tc main_arg14) = W0 m ρ c (Proc.devRef .tc main_arg14) := by keep_walk
theorem keep_main_arg14_10_17 (c : Dev nD) : W17 m ρ c (Proc.devRef .tc main_arg14) = W10 m ρ c (Proc.devRef .tc main_arg14) := by keep_walk
theorem keep_main_arg14_17_24 (c : Dev nD) : W24 m ρ c (Proc.devRef .tc main_arg14) = W17 m ρ c (Proc.devRef .tc main_arg14) := by keep_walk
theorem keep_main_arg15_0_10 (c : Dev nD) : W10 m ρ c (Proc.devRef .tc main_arg15) = W0 m ρ c (Proc.devRef .tc main_arg15) := by keep_walk
theorem keep_main_arg15_10_17 (c : Dev nD) : W17 m ρ c (Proc.devRef .tc main_arg15) = W10 m ρ c (Proc.devRef .tc main_arg15) := by keep_walk
theorem keep_main_arg15_17_24 (c : Dev nD) : W24 m ρ c (Proc.devRef .tc main_arg15) = W17 m ρ c (Proc.devRef .tc main_arg15) := by keep_walk
theorem keep_main_arg16_0_10 (c : Dev nD) : W10 m ρ c (Proc.devRef .tc main_arg16) = W0 m ρ c (Proc.devRef .tc main_arg16) := by keep_walk
theorem keep_main_arg16_10_17 (c : Dev nD) : W17 m ρ c (Proc.devRef .tc main_arg16) = W10 m ρ c (Proc.devRef .tc main_arg16) := by keep_walk
theorem keep_main_arg16_17_24 (c : Dev nD) : W24 m ρ c (Proc.devRef .tc main_arg16) = W17 m ρ c (Proc.devRef .tc main_arg16) := by keep_walk
theorem keep_main_arg17_0_26 (c : Dev nD) : W26 m ρ c (Proc.devRef .tc main_arg17) = W0 m ρ c (Proc.devRef .tc main_arg17) := by keep_walk
theorem keep_main_arg18_0_26 (c : Dev nD) : W26 m ρ c (Proc.devRef .tc main_arg18) = W0 m ρ c (Proc.devRef .tc main_arg18) := by keep_walk
theorem keep_main_arg19_0_26 (c : Dev nD) : W26 m ρ c (Proc.devRef .tc main_arg19) = W0 m ρ c (Proc.devRef .tc main_arg19) := by keep_walk
theorem keep_main_arg20_0_26 (c : Dev nD) : W26 m ρ c (Proc.devRef .tc main_arg20) = W0 m ρ c (Proc.devRef .tc main_arg20) := by keep_walk
theorem keep_main_arg21_0_26 (c : Dev nD) : W26 m ρ c (Proc.devRef .tc main_arg21) = W0 m ρ c (Proc.devRef .tc main_arg21) := by keep_walk
theorem keep_main_arg22_0_26 (c : Dev nD) : W26 m ρ c (Proc.devRef .tc main_arg22) = W0 m ρ c (Proc.devRef .tc main_arg22) := by keep_walk
theorem keep_main_arg24_0_26 (c : Dev nD) : W26 m ρ c (Proc.devRef .tc main_arg24) = W0 m ρ c (Proc.devRef .tc main_arg24) := by keep_walk
theorem keep_main_v1_2_5 (c : Dev nD) : W5 m ρ c (Proc.devRef .tc main_v1) = W2 m ρ c (Proc.devRef .tc main_v1) := by keep_walk
theorem keep_main_v3_4_5 (c : Dev nD) : W5 m ρ c (Proc.devRef .tc main_v3) = W4 m ρ c (Proc.devRef .tc main_v3) := by keep_walk
theorem keep_main_v7_5_26 (c : Dev nD) : W26 m ρ c (Proc.devRef .tc main_v7) = W5 m ρ c (Proc.devRef .tc main_v7) := by keep_walk
theorem keep_main_v1_5_7 (c : Dev nD) : W7 m ρ c (Proc.devRef .tc main_v1) = W5 m ρ c (Proc.devRef .tc main_v1) := by keep_walk
theorem keep_main_v1_5_11 (c : Dev nD) : W11 m ρ c (Proc.devRef .tc main_v1) = W5 m ρ c (Proc.devRef .tc main_v1) := by keep_walk
theorem keep_main_v3_5_9 (c : Dev nD) : W9 m ρ c (Proc.devRef .tc main_v3) = W5 m ρ c (Proc.devRef .tc main_v3) := by keep_walk
theorem keep_main_v3_5_12 (c : Dev nD) : W12 m ρ c (Proc.devRef .tc main_v3) = W5 m ρ c (Proc.devRef .tc main_v3) := by keep_walk
theorem keep_main_v9_5_7 (c : Dev nD) : W7 m ρ c (Proc.devRef .tc main_v9) = W5 m ρ c (Proc.devRef .tc main_v9) := by keep_walk
theorem keep_main_v9_5_12 (c : Dev nD) : W12 m ρ c (Proc.devRef .tc main_v9) = W5 m ρ c (Proc.devRef .tc main_v9) := by keep_walk
theorem keep_main_v11_5_10 (c : Dev nD) : W10 m ρ c (Proc.devRef .tc main_v11) = W5 m ρ c (Proc.devRef .tc main_v11) := by keep_walk
theorem keep_main_v11_5_12 (c : Dev nD) : W12 m ρ c (Proc.devRef .tc main_v11) = W5 m ρ c (Proc.devRef .tc main_v11) := by keep_walk
theorem keep_main_v13_7_9 (c : Dev nD) : W9 m ρ c (Proc.devRef .tc main_v13) = W7 m ρ c (Proc.devRef .tc main_v13) := by keep_walk
theorem keep_main_v53_12_14 (c : Dev nD) : W14 m ρ c (Proc.devRef .tc main_v53) = W12 m ρ c (Proc.devRef .tc main_v53) := by keep_walk
theorem keep_main_v53_12_18 (c : Dev nD) : W18 m ρ c (Proc.devRef .tc main_v53) = W12 m ρ c (Proc.devRef .tc main_v53) := by keep_walk
theorem keep_main_v3_12_16 (c : Dev nD) : W16 m ρ c (Proc.devRef .tc main_v3) = W12 m ρ c (Proc.devRef .tc main_v3) := by keep_walk
theorem keep_main_v3_12_19 (c : Dev nD) : W19 m ρ c (Proc.devRef .tc main_v3) = W12 m ρ c (Proc.devRef .tc main_v3) := by keep_walk
theorem keep_main_v9_12_14 (c : Dev nD) : W14 m ρ c (Proc.devRef .tc main_v9) = W12 m ρ c (Proc.devRef .tc main_v9) := by keep_walk
theorem keep_main_v9_12_19 (c : Dev nD) : W19 m ρ c (Proc.devRef .tc main_v9) = W12 m ρ c (Proc.devRef .tc main_v9) := by keep_walk
theorem keep_main_v11_12_17 (c : Dev nD) : W17 m ρ c (Proc.devRef .tc main_v11) = W12 m ρ c (Proc.devRef .tc main_v11) := by keep_walk
theorem keep_main_v11_12_19 (c : Dev nD) : W19 m ρ c (Proc.devRef .tc main_v11) = W12 m ρ c (Proc.devRef .tc main_v11) := by keep_walk
theorem keep_main_v55_14_16 (c : Dev nD) : W16 m ρ c (Proc.devRef .tc main_v55) = W14 m ρ c (Proc.devRef .tc main_v55) := by keep_walk
theorem keep_main_v95_19_21 (c : Dev nD) : W21 m ρ c (Proc.devRef .tc main_v95) = W19 m ρ c (Proc.devRef .tc main_v95) := by keep_walk
theorem keep_main_v95_19_25 (c : Dev nD) : W25 m ρ c (Proc.devRef .tc main_v95) = W19 m ρ c (Proc.devRef .tc main_v95) := by keep_walk
theorem keep_main_v3_19_23 (c : Dev nD) : W23 m ρ c (Proc.devRef .tc main_v3) = W19 m ρ c (Proc.devRef .tc main_v3) := by keep_walk
theorem keep_main_v3_19_26 (c : Dev nD) : W26 m ρ c (Proc.devRef .tc main_v3) = W19 m ρ c (Proc.devRef .tc main_v3) := by keep_walk
theorem keep_main_v9_19_21 (c : Dev nD) : W21 m ρ c (Proc.devRef .tc main_v9) = W19 m ρ c (Proc.devRef .tc main_v9) := by keep_walk
theorem keep_main_v9_19_26 (c : Dev nD) : W26 m ρ c (Proc.devRef .tc main_v9) = W19 m ρ c (Proc.devRef .tc main_v9) := by keep_walk
theorem keep_main_v11_19_24 (c : Dev nD) : W24 m ρ c (Proc.devRef .tc main_v11) = W19 m ρ c (Proc.devRef .tc main_v11) := by keep_walk
theorem keep_main_v11_19_26 (c : Dev nD) : W26 m ρ c (Proc.devRef .tc main_v11) = W19 m ρ c (Proc.devRef .tc main_v11) := by keep_walk
theorem keep_main_v97_21_23 (c : Dev nD) : W23 m ρ c (Proc.devRef .tc main_v97) = W21 m ρ c (Proc.devRef .tc main_v97) := by keep_walk

end Cert.KKeep

end
-- ==== Proof.LibSageSpec.lean ====
import Idealize.ShloMosaic.PureOps.Ideal
import Idealize.ShloMosaic.PureOps.Ideal.Laws
import Idealize.ShloMosaic.Lib.ValueIdx
noncomputable section
open scoped BigOperators
namespace Idealize.ShloMosaic.SageSpec
open Idealize.ShloMosaic Idealize.ShloMosaic.ValueIdx
abbrev Mat (n m : Nat) : Type := (⟨2, ![n, m]⟩ : Shape).Idx → EReal
def rowDot {n k m : Nat} (x : Mat n k) (W : Mat k m) (p : Fin n) (q : Fin m) : EReal :=
  ∑ j : Fin k, x (ix2 p j) * W (ix2 j q)
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)
def linF {n k m : Nat} (x : Mat n k) (W : Mat k m) (b : Fin m → EReal) : Mat n m :=
  fun i => rowDot x W (i 0) (i 1) + b (i 1)
def sageF {n k m : Nat} (act : EReal → EReal) (agg h : Mat n k) (Wl Wr : Mat k m) (b : Fin m → EReal) : Mat n m :=
  fun i => act (rowDot agg Wl (i 0) (i 1) + rowDot h Wr (i 0) (i 1) + b (i 1))
theorem add_bias_comm (a b c : EReal) : a + c + b = a + b + c := add_right_comm a c b
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val
section
variable {n k m : Nat} {d : DotDims ⟨2, ![n, k]⟩ ⟨2, ![k, m]⟩ ⟨2, ![n, m]⟩}
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j
end
end Idealize.ShloMosaic.SageSpec
end
-- ==== Proof.Spec.lean ====
import proofs.«418781_j85873576116382_1_alg».proof.Proof.LibSageSpec
noncomputable section
open scoped BigOperators
namespace Cert.Spec
open Idealize.ShloMosaic Idealize.ShloMosaic.ValueIdx Idealize.ShloMosaic.SageSpec
def edgeHid {n : Nat} (hd hs e : Mat n 128) (w1a w1b w1c : Mat 128 128) (b1 : Fin 128 → EReal) : Mat n 128 :=
  fun j => max (rowDot hd w1a (j 0) (j 1) + rowDot hs w1b (j 0) (j 1) + rowDot e w1c (j 0) (j 1) + b1 (j 1)) 0
def edgeF {n : Nat} (hd hs e : Mat n 128) (w1a w1b w1c : Mat 128 128) (b1 : Fin 128 → EReal) (w2 : Mat 128 128)
    (b2 : Fin 128 → EReal) : Mat n 128 :=
  fun i => rowDot (edgeHid hd hs e w1a w1b w1c b1) w2 (i 0) (i 1) + b2 (i 1)
def nodeHid {n : Nat} (h a : Mat n 128) (w1a w1b : Mat 128 128) (b1 : Fin 128 → EReal) : Mat n 128 :=
  fun j => max (rowDot h w1a (j 0) (j 1) + rowDot a w1b (j 0) (j 1) + b1 (j 1)) 0
def nodeF {n : Nat} (h a : Mat n 128) (w1a w1b : Mat 128 128) (b1 : Fin 128 → EReal) (w2 : Mat 128 128)
    (b2 : Fin 128 → EReal) : Mat n 128 :=
  fun i => h i + (rowDot (nodeHid h a w1a w1b b1) w2 (i 0) (i 1) + b2 (i 1))
theorem rowDot_row {n n' k m : Nat} (x : Mat n k) (x' : Mat n' k) (W : Mat k m) (p : Fin n) (p' : Fin n')
    (hx : ∀ j : Fin k, x' (ix2 p' j) = x (ix2 p j)) (q : Fin m) : rowDot x' W p' q = rowDot x W p q := by
  unfold rowDot
  exact Finset.sum_congr rfl fun j _ => by rw [hx j]
theorem linF_row {n n' k m : Nat} (x : Mat n k) (x' : Mat n' k) (W : Mat k m) (b : Fin m → EReal) (p : Fin n) (p' : Fin n')
    (hx : ∀ j : Fin k, x' (ix2 p' j) = x (ix2 p j)) (q : Fin m) : linF x' W b (ix2 p' q) = linF x W b (ix2 p q) := by
  show rowDot x' W p' q + b q = rowDot x W p q + b q
  rw [rowDot_row x x' W p p' hx q]
theorem edgeF_row {n n' : Nat} (hd hs e : Mat n 128) (hd' hs' e' : Mat n' 128) (w1a w1b w1c : Mat 128 128)
    (b1 : Fin 128 → EReal) (w2 : Mat 128 128) (b2 : Fin 128 → EReal) (p : Fin n) (p' : Fin n')
    (h1 : ∀ j : Fin 128, hd' (ix2 p' j) = hd (ix2 p j)) (h2 : ∀ j : Fin 128, hs' (ix2 p' j) = hs (ix2 p j))
    (h3 : ∀ j : Fin 128, e' (ix2 p' j) = e (ix2 p j)) (q : Fin 128) :
    edgeF hd' hs' e' w1a w1b w1c b1 w2 b2 (ix2 p' q) = edgeF hd hs e w1a w1b w1c b1 w2 b2 (ix2 p q) := by
  show rowDot (edgeHid hd' hs' e' w1a w1b w1c b1) w2 p' q + b2 q = rowDot (edgeHid hd hs e w1a w1b w1c b1) w2 p q + b2 q
  rw [rowDot_row (edgeHid hd hs e w1a w1b w1c b1) (edgeHid hd' hs' e' w1a w1b w1c b1) w2 p p' (fun j => ?_) q]
  show max (rowDot hd' w1a p' j + rowDot hs' w1b p' j + rowDot e' w1c p' j + b1 j) 0
    = max (rowDot hd w1a p j + rowDot hs w1b p j + rowDot e w1c p j + b1 j) 0
  rw [rowDot_row hd hd' w1a p p' h1 j, rowDot_row hs hs' w1b p p' h2 j, rowDot_row e e' w1c p p' h3 j]
theorem nodeF_row {n n' : Nat} (h a : Mat n 128) (h' a' : Mat n' 128) (w1a w1b : Mat 128 128)
    (b1 : Fin 128 → EReal) (w2 : Mat 128 128) (b2 : Fin 128 → EReal) (p : Fin n) (p' : Fin n')
    (h1 : ∀ j : Fin 128, h' (ix2 p' j) = h (ix2 p j)) (h2 : ∀ j : Fin 128, a' (ix2 p' j) = a (ix2 p j)) (q : Fin 128) :
    nodeF h' a' w1a w1b b1 w2 b2 (ix2 p' q) = nodeF h a w1a w1b b1 w2 b2 (ix2 p q) := by
  show h' (ix2 p' q) + (rowDot (nodeHid h' a' w1a w1b b1) w2 p' q + b2 q)
    = h (ix2 p q) + (rowDot (nodeHid h a w1a w1b b1) w2 p q + b2 q)
  rw [h1 q, rowDot_row (nodeHid h a w1a w1b b1) (nodeHid h' a' w1a w1b b1) w2 p p' (fun j => ?_) q]
  show max (rowDot h' w1a p' j + rowDot a' w1b p' j + b1 j) 0 = max (rowDot h w1a p j + rowDot a w1b p j + b1 j) 0
  rw [rowDot_row h h' w1a p p' h1 j, rowDot_row a a' w1b p p' h2 j]
end Cert.Spec
end
-- ==== Proof.LibTakeFill.lean ====
import Idealize.ShloMosaic.PureOps
import Idealize.ShloMosaic.Lib.StableHlo.Predicate
noncomputable section
namespace Idealize.ShloMosaic.TakeFill
open Idealize.ShloMosaic
theorem reduce_andi_of_all_one {s t u : Shape} {axes : List (Fin s.rank)} (M : IVec s 1) (hM : ∀ i, M i = 1#1)
    (h : s.ReducesTo axes t) (hu : 0 < u.numel) :
    Host.reduce IntOp.andi M (constantI u 1 1#1) h hu = fun _ => 1#1 := by
  funext j
  unfold Host.reduce
  have key : ∀ l : List (Fin s.numel),
      l.foldl (fun r n => IntOp.andi r (M (s.rowMajor.symm n))) (1#1 : BitVec 1) = 1#1 := by
    intro l
    induction l with
    | nil => rfl
    | cons a l ih =>
      rw [List.foldl_cons, hM]
      exact ih
  exact key _
theorem select_bcast_all_one {α : Type} {s t : Shape} (dims : Fin t.rank → Fin s.rank) (hb : t.BroadcastsInDim s dims)
    (M : IVec t 1) (hM : ∀ i, M i = 1#1) (a b : s.Idx → α) :
    select (broadcastInDim s dims hb M) a b = a := by
  funext j
  unfold select Scalar.select broadcastInDim
  exact if_pos (hM _)
theorem select_range_mask {α : Type} {si t u r : Shape} {axes : List (Fin si.rank)} (dims : Fin t.rank → Fin r.rank)
    (hb : t.BroadcastsInDim r dims) (hred : si.ReducesTo axes t) (hu : 0 < u.numel)
    (idx lo hi : IVec si 32)
    (hin : ∀ i, IntOp.cmpi .sge (idx i) (lo i) = 1#1 ∧ IntOp.cmpi .sle (idx i) (hi i) = 1#1)
    (a b : r.Idx → α) :
    select (broadcastInDim r dims hb
        (Host.reduce IntOp.andi (andi (cmpi .sge idx lo) (cmpi .sle idx hi)) (constantI u 1 1#1) hred hu)) a b = a := by
  have hM : ∀ i, (andi (cmpi .sge idx lo) (cmpi .sle idx hi)) i = 1#1 := by
    intro i
    show IntOp.andi (IntOp.cmpi .sge (idx i) (lo i)) (IntOp.cmpi .sle (idx i) (hi i)) = 1#1
    rw [(hin i).1, (hin i).2]; rfl
  rw [reduce_andi_of_all_one _ hM hred hu]
  exact select_bcast_all_one dims hb _ (fun _ => rfl) a b
def wrapIdx (n w : BitVec 32) : BitVec 32 := Scalar.select (IntOp.cmpi .slt w 0#32) (IntOp.addi w n) w
theorem wrapIdx_in_range (n : Nat) (hn0 : 0 < n) (hn : n < 2 ^ 31) (w : BitVec 32)
    (hlo : -(n : Int) ≤ w.toInt) (hhi : w.toInt < (n : Int)) :
    IntOp.cmpi .sge (wrapIdx (BitVec.ofNat 32 n) w) 0#32 = 1#1
      ∧ IntOp.cmpi .sle (wrapIdx (BitVec.ofNat 32 n) w) (BitVec.ofNat 32 (n - 1)) = 1#1 := by
  have hnI : (BitVec.ofNat 32 n).toInt = (n : Int) := StableHlo.Predicate.toInt_ofNat_small n hn
  have hn1I : (BitVec.ofNat 32 (n - 1)).toInt = ((n - 1 : Nat) : Int) := StableHlo.Predicate.toInt_ofNat_small (n - 1) (by omega)
  have key : ∀ v : BitVec 32, 0 ≤ v.toInt → v.toInt ≤ (n : Int) - 1 →
      IntOp.cmpi .sge v 0#32 = 1#1 ∧ IntOp.cmpi .sle v (BitVec.ofNat 32 (n - 1)) = 1#1 := by
    intro v h0 h1
    unfold IntOp.cmpi
    simp only [StableHlo.Predicate.ofBool_eq_one_iff, BitVec.sle, decide_eq_true_eq, hn1I, BitVec.toInt_zero]
    constructor
    · exact h0
    · omega
  unfold wrapIdx Scalar.select
  by_cases hneg : w.toInt < 0
  · have hc1 : IntOp.cmpi .slt w 0#32 = 1#1 := by
      unfold IntOp.cmpi
      simp only [StableHlo.Predicate.ofBool_eq_one_iff, BitVec.slt, decide_eq_true_eq, BitVec.toInt_zero]
      exact hneg
    have hc : IntOp.cmpi .slt w 0#32 = (1 : BitVec 1) := hc1
    rw [if_pos hc]
    have hsum : (IntOp.addi w (BitVec.ofNat 32 n)).toInt = w.toInt + (n : Int) := by
      unfold IntOp.addi
      rw [BitVec.toInt_add, hnI]
      unfold Int.bmod
      have h32 : (2 : Int) ^ 32 = 4294967296 := by decide
      have h31 : (2 : Nat) ^ 31 = 2147483648 := by decide
      rw [h31] at hn
      simp only [h32, Nat.cast_ofNat]
      omega
    apply key
    · rw [hsum]; omega
    · rw [hsum]; omega
  · have hc1 : ¬ IntOp.cmpi .slt w 0#32 = 1#1 := by
      unfold IntOp.cmpi
      simp only [StableHlo.Predicate.ofBool_eq_one_iff, BitVec.slt, decide_eq_true_eq, BitVec.toInt_zero]
      exact hneg
    have hc : ¬ IntOp.cmpi .slt w 0#32 = (1 : BitVec 1) := hc1
    rw [if_neg hc]
    apply key
    · omega
    · omega
end Idealize.ShloMosaic.TakeFill
end
-- ==== Proof.Net.lean ====
import proofs.«418781_j85873576116382_1_alg».proof.Proof.Spec
import proofs.«418781_j85873576116382_1_alg».proof.Proof.LibTakeFill
noncomputable section
open scoped BigOperators
namespace Cert.Net
open Idealize.ShloMosaic Idealize.ShloMosaic.ValueIdx Idealize.ShloMosaic.SageSpec Cert.Spec
abbrev Vct (n : Nat) : Type := (⟨1, ![n]⟩ : Shape).Idx → EReal
abbrev Stk (a r c : Nat) : Type := (⟨3, ![a, r, c]⟩ : Shape).Idx → EReal
def vecAt {n : Nat} (b : Vct n) : Fin n → EReal := fun q => b (ix1 q)
def rowAt (b : Mat 3 128) (l : Fin 3) : Fin 128 → EReal := fun q => b (ix2 l q)
def slab {r : Nat} (W : Stk 3 r 128) (l : Fin 3) (o : Nat) (ho : o + 128 ≤ r) : Mat 128 128 :=
  fun i => W (ix3 l ⟨o + (i 0).val, by have := idx2_lt0 i; omega⟩ ⟨(i 1).val, idx2_lt1 i⟩)
def nodeOf (w : BitVec 32) : Fin 50000 :=
  ⟨min (TakeFill.wrapIdx 50000#32 w).toInt.toNat 49999, by omega⟩
def srcV (ei : IVec ⟨2, ![2, 400000]⟩ 32) : Fin 400000 → BitVec 32 := fun e => ei (ix2 (0 : Fin 2) e)
def dstV (ei : IVec ⟨2, ![2, 400000]⟩ 32) : Fin 400000 → BitVec 32 := fun e => ei (ix2 (1 : Fin 2) e)
def rowsAt (H : Mat 50000 128) (idx : Fin 400000 → BitVec 32) : Mat 400000 128 :=
  fun i => H (ix2 (nodeOf (idx ⟨(i 0).val, idx2_lt0 i⟩)) ⟨(i 1).val, idx2_lt1 i⟩)
def aggF (dst : Fin 400000 → BitVec 32) (M : Mat 400000 128) : Mat 50000 128 :=
  fun i => (0 : EReal) + ∑ e ∈ Finset.univ.filter (fun e : Fin 400000 => (dst e).toInt = ((i 0).val : ℤ)),
    M (ix2 e ⟨(i 1).val, idx2_lt1 i⟩)
section
variable (x : Mat 50000 32) (ea : Mat 400000 16) (Wn : Mat 32 128) (bn : Vct 128) (We : Mat 16 128) (be : Vct 128)
  (mW1 : Stk 3 384 128) (mb1 : Mat 3 128) (mW2 : Stk 3 128 128) (mb2 : Mat 3 128)
  (uW1 : Stk 3 256 128) (ub1 : Mat 3 128) (uW2 : Stk 3 128 128) (ub2 : Mat 3 128)
  (ei : IVec ⟨2, ![2, 400000]⟩ 32)
def H0 : Mat 50000 128 := linF x Wn (vecAt bn)
def E : Mat 400000 128 := linF ea We (vecAt be)
def msg (l : Fin 3) (H : Mat 50000 128) : Mat 400000 128 :=
  edgeF (rowsAt H (dstV ei)) (rowsAt H (srcV ei)) (E ea We be)
    (slab mW1 l 0 (by omega)) (slab mW1 l 128 (by omega)) (slab mW1 l 256 (by omega)) (rowAt mb1 l)
    (slab mW2 l 0 (by omega)) (rowAt mb2 l)
def layer (l : Fin 3) (H : Mat 50000 128) : Mat 50000 128 :=
  nodeF H (aggF (dstV ei) (msg ea We be mW1 mb1 mW2 mb2 ei l H))
    (slab uW1 l 0 (by omega)) (slab uW1 l 128 (by omega)) (rowAt ub1 l) (slab uW2 l 0 (by omega)) (rowAt ub2 l)
def H1 : Mat 50000 128 := layer ea We be mW1 mb1 mW2 mb2 uW1 ub1 uW2 ub2 ei 0 (H0 x Wn bn)
def H2 : Mat 50000 128 := layer ea We be mW1 mb1 mW2 mb2 uW1 ub1 uW2 ub2 ei 1 (H1 x ea Wn bn We be mW1 mb1 mW2 mb2 uW1 ub1 uW2 ub2 ei)
def H3 : Mat 50000 128 := layer ea We be mW1 mb1 mW2 mb2 uW1 ub1 uW2 ub2 ei 2 (H2 x ea Wn bn We be mW1 mb1 mW2 mb2 uW1 ub1 uW2 ub2 ei)
end
end Cert.Net
end
-- ==== Proof.KSmall.lean ====
import proofs.«418781_j85873576116382_1_alg».proof.Proof.Gen.KernelIdeal.Launch
import proofs.«418781_j85873576116382_1_alg».proof.Proof.Net
import proofs.«418781_j85873576116382_1_alg».proof.Proof.LibTakeFill
import Idealize.ShloMosaic.Lib.StableHlo.Run
import Idealize.ShloMosaic.Lib.ValueIdx
import Idealize.ShloMosaic.Lib.ValueLayout
import Idealize.ShloMosaic.Lib.Pipeline.Value
noncomputable section
namespace Cert.KHost
open Cert.KernelIdeal Cert.KernelIdeal.Gen Idealize.ShloMosaic Idealize.ShloMosaic.ValueIdx
variable (W : Valuation τ sig (Elt Ideal))
theorem hostOps0_v0_term :
    (StableHlo.after hostOps0 W (Proc.devRef .tc main_v0) : S1x128.Idx → EReal)
      = shapeCast S1x128 (W (Proc.devRef .tc main_arg4) : S128.Idx → EReal) shapeCasts_S128_S1x128 := by
  show StableHlo.after hostOps0 W _ = _
  unfold hostOps0
  after_results
  rfl
theorem hostOps0_v0 :
    (fun q : Fin 128 => (StableHlo.after hostOps0 W (Proc.devRef .tc main_v0) (ix2 (0 : Fin 1) q) : EReal))
      = Net.vecAt (fun i => W (Proc.devRef .tc main_arg4) i) := by
  funext q
  rw [hostOps0_v0_term W]
  exact shapeCast_a_1a_apply _ _ 0 q
theorem hostOps1_v2_term :
    (StableHlo.after hostOps1 W (Proc.devRef .tc main_v2) : S1x128.Idx → EReal)
      = shapeCast S1x128 (W (Proc.devRef .tc main_arg6) : S128.Idx → EReal) shapeCasts_S128_S1x128 := by
  show StableHlo.after hostOps1 W _ = _
  unfold hostOps1
  after_results
  rfl
theorem hostOps1_v2 :
    (fun q : Fin 128 => (StableHlo.after hostOps1 W (Proc.devRef .tc main_v2) (ix2 (0 : Fin 1) q) : EReal))
      = Net.vecAt (fun i => W (Proc.devRef .tc main_arg6) i) := by
  funext q
  rw [hostOps1_v2_term W]
  exact shapeCast_a_1a_apply _ _ 0 q
theorem hostOps2_v9_term :
    (StableHlo.after hostOps2 W (Proc.devRef .tc main_v9) : S400000.Idx → BitVec 32)
      = shapeCast S400000 (extractStridedSlice S1x400000 ![0, 0] (W (Proc.devRef .tc main_arg23) : S2x400000.Idx → BitVec 32)
          slices_S2x400000_S1x400000_0_0) shapeCasts_S1x400000_S400000 := by
  show StableHlo.after hostOps2 W _ = _
  unfold hostOps2
  after_results
  rfl
theorem hostOps2_v11_term :
    (StableHlo.after hostOps2 W (Proc.devRef .tc main_v11) : S400000.Idx → BitVec 32)
      = shapeCast S400000 (extractStridedSlice S1x400000 ![1, 0] (W (Proc.devRef .tc main_arg23) : S2x400000.Idx → BitVec 32)
          slices_S2x400000_S1x400000_1_0) shapeCasts_S1x400000_S400000 := by
  show StableHlo.after hostOps2 W _ = _
  unfold hostOps2
  after_results
  rfl
theorem hostOps2_v9 (e : Fin 400000) :
    (StableHlo.after hostOps2 W (Proc.devRef .tc main_v9) (ix1 e) : BitVec 32)
      = W (Proc.devRef .tc main_arg23) (ix2 (0 : Fin 2) e) := by
  rw [hostOps2_v9_term W, shapeCast_1a_a_apply]
  exact slice2_axis0_apply 0 _ _ (0 : Fin 1) e (0 : Fin 2) rfl
theorem hostOps2_v11 (e : Fin 400000) :
    (StableHlo.after hostOps2 W (Proc.devRef .tc main_v11) (ix1 e) : BitVec 32)
      = W (Proc.devRef .tc main_arg23) (ix2 (1 : Fin 2) e) := by
  rw [hostOps2_v11_term W, shapeCast_1a_a_apply]
  exact slice2_axis0_apply 1 _ _ (0 : Fin 1) e (1 : Fin 2) rfl
theorem hostOps2_v7 :
    (StableHlo.after hostOps2 W (Proc.devRef .tc main_v7) : S8x128.Idx → EReal)
      = addf (F := Ideal) (Host.dotGeneral (F := Ideal) (φ₁ := .f32) (φ₂ := .f32) dot_S8x1_S1x128_S8x128_1_0_0_1_n_n none
            (W (Proc.devRef .tc main_arg2) : FVec Ideal S8x1 .f32) (W (Proc.devRef .tc main_arg7) : FVec Ideal S1x128 .f32))
          (broadcastInDim S8x128 ![0, 1] bcast_S1x128_S8x128_0_1
            (broadcastInDim S1x128 ![1] bcast_S128_S1x128_1 (W (Proc.devRef .tc main_arg8) : FVec Ideal S128 .f32))) := by
  show StableHlo.after hostOps2 W _ = _
  unfold hostOps2
  after_results
theorem hostOps2_2_v13 (i : S400000x128.Idx) :
    (StableHlo.after hostOps2_2 W (Proc.devRef .tc main_v13) i : EReal) = W (Proc.devRef .tc main_v12) i := by
  have e : (StableHlo.after hostOps2_2 W (Proc.devRef .tc main_v13) : S400000x128.Idx → EReal)
      = truncf (F := Ideal) .bf16 (W (Proc.devRef .tc main_v12) : FVec Ideal S400000x128 .f32) bitsLt_bf16_f32 := by
    unfold hostOps2_2
    after_results
  rw [e]
  rfl
theorem hostOps4_1_v55 (i : S400000x128.Idx) :
    (StableHlo.after hostOps4_1 W (Proc.devRef .tc main_v55) i : EReal) = W (Proc.devRef .tc main_v54) i := by
  have e : (StableHlo.after hostOps4_1 W (Proc.devRef .tc main_v55) : S400000x128.Idx → EReal)
      = truncf (F := Ideal) .bf16 (W (Proc.devRef .tc main_v54) : FVec Ideal S400000x128 .f32) bitsLt_bf16_f32 := by
    unfold hostOps4_1
    after_results
  rw [e]
  rfl
theorem hostOps6_1_v97 (i : S400000x128.Idx) :
    (StableHlo.after hostOps6_1 W (Proc.devRef .tc main_v97) i : EReal) = W (Proc.devRef .tc main_v96) i := by
  have e : (StableHlo.after hostOps6_1 W (Proc.devRef .tc main_v97) : S400000x128.Idx → EReal)
      = truncf (F := Ideal) .bf16 (W (Proc.devRef .tc main_v96) : FVec Ideal S400000x128 .f32) bitsLt_bf16_f32 := by
    unfold hostOps6_1
    after_results
  rw [e]
  rfl
end Cert.KHost
end
-- ==== Proof.RegRows.lean ====
import Idealize.ShloMosaic.Lib.Pipeline.Value
import Idealize.ShloMosaic.Lib.ValueIdx

namespace Cert.KVal.Rows

open Idealize.ShloMosaic

theorem zero_off : (![0, 0] : Fin 2 → Nat) = fun _ => 0 := funext (Fin.forall_fin_two.mpr ⟨rfl, rfl⟩)

theorem zero_idx (s : Fin 2 → Nat) : (fun a => (![0, 0] : Fin 2 → Nat) a * s a) = fun _ => 0 :=
  funext (Fin.forall_fin_two.mpr ⟨Nat.zero_mul _, Nat.zero_mul _⟩)

-- row r of an array cut into blocks of rows lies in block r / (the rows of a block)
theorem mem_block {d off size : Fin 2 → Nat} {inb} (i : (⟨2, d⟩ : Shape).Idx) (hB : 0 < size 0)
    (h0 : off 0 = (i 0).val / size 0 * size 0) (h1 : off 1 = 0) (hC : d 1 ≤ size 1) :
    i ∈ (Rect.unit (s := ⟨2, d⟩) off size inb).set :=
  Rect.mem_set_unit.mpr (Fin.forall_fin_two.mpr
    ⟨by rw [h0]; exact ⟨Nat.div_mul_le_self _ _, Nat.lt_div_mul_add hB⟩,
     by rw [h1, Nat.zero_add]; exact ⟨Nat.zero_le _, lt_of_lt_of_le (i 1).isLt hC⟩⟩)

end Cert.KVal.Rows
-- ==== Proof.RegLin0.lean ====
import proofs.«418781_j85873576116382_1_alg».proof.Proof.Gen.KernelIdeal.Frame
import proofs.«418781_j85873576116382_1_alg».proof.Proof.Spec
import proofs.«418781_j85873576116382_1_alg».proof.Proof.RegRows
import Idealize.ShloMosaic.Lib.Pipeline.Value
import Idealize.ShloMosaic.Lib.ValueIdx
import Idealize.ShloMosaic.Lib.ValueLayout
import Idealize.ShloMosaic.PureOps.Ideal.Laws

noncomputable section

namespace Cert.KVal

open Cert.KernelIdeal Cert.KernelIdeal.Gen Idealize.ShloMosaic Idealize.ShloMosaic.TcCoe Idealize.SL.Sem
open Idealize.ShloMosaic.ValueIdx Idealize.ShloMosaic.SageSpec Cert.Spec
open Idealize.ShloMosaic.Pipeline (Dat)

theorem plainDot0 : PlainDot dot_S5000x32_S32x128_S5000x128_1_0_0_1_n_n :=
  ⟨rfl, fun _ => rfl, fun _ _ => rfl,
    fun i q _ => DotDims.lhsIdx_val_of_single (d := dot_S5000x32_S32x128_S5000x128_1_0_0_1_n_n) (cl := 1) rfl i q,
    fun i q _ => DotDims.rhsIdx_val_of_single (d := dot_S5000x32_S32x128_S5000x128_1_0_0_1_n_n) (cr := 0) rfl i q,
    fun _ _ => rfl⟩

-- the body's result at (p, q): row p of the left block against column q of the weights, plus the bias at q
theorem pay0_at (v0 : Vec Ideal S5000x32 .f32) (v2 : Vec Ideal S32x128 .f32) (v5 : Vec Ideal S1x128 .f32)
    (p : Fin 5000) (q : Fin 128) :
    k0_pay1 (F := Ideal) v0 v2 v5 (ix2 p q)
      = linF (fun i => v0 i) (fun i => v2 i) (fun q => v5 (ix2 (0 : Fin 1) q)) (ix2 p q) := by
  unfold k0_pay1
  rw [addf_apply, broadcastTo_1b_ab_apply, shapeCast_self]
  exact congrArg (· + v5 (ix2 (0 : Fin 1) q)) (matmul_zero_at plainDot0 none _ _ (ix2 p q))

-- what the body leaves, on a block of rows of X and the whole of W and B: the linear map of the arrays
theorem out0_at (X : Mat 50000 32) (W : Mat 32 128) (B : Mat 1 128) (x0 : Vec Ideal S5000x32 .f32)
    (x1 : Vec Ideal S32x128 .f32) (x2 : Vec Ideal S1x128 .f32) (y : S5000x128.Idx) (i : S50000x128.Idx)
    (hi : (i 1).val = (y 1).val) (hx : ∀ j : Fin 32, x0 (ix2 (y 0) j) = X (ix2 (i 0) j)) (hw : x1 = W) (hb : x2 = B) :
    out0_3 (F := Ideal) x0 x1 x2 y = linF X W (fun q => B (ix2 (0 : Fin 1) q)) i := by
  subst hw hb
  unfold out0_3
  rw [View.canon_unit_zero Rows.zero_off]
  simp only [View.ld_unit_zero (S := S5000x32) Rows.zero_off, View.ld_unit_zero (S := S32x128) Rows.zero_off,
    View.ld_unit_zero (S := S1x128) Rows.zero_off]
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hi
  exact (pay0_at x0 x1 x2 p q').trans (linF_row X (fun k => x0 k) x1 _ r p hx q')

variable (V : (c : Dev nD) → (b : Ref sig .tc) → Buf (Elt Ideal) ((c : Thread nD τ).loc b))

theorem rowIdx0 : ∀ t : Fin grid0.N, win0_3.index t 0 = t.val := by decide +kernel

-- row r lies in the block of point r / 5000
theorem cover0 (i : S50000x128.Idx) :
    ∃ t : Fin cfg0.N, (cfg0.win 3).flush t = true ∧ i ∈ ((cfg0.win 3).blk t).view.set := by
  have h : (i 0).val < 50000 := (i 0).isLt
  have ht : (i 0).val / 5000 < grid0.N := by rw [N_0]; omega
  refine ⟨⟨_, ht⟩, flush0_3 _, ?_⟩
  show i ∈ ((View.whole (Pipeline.arrRef spec0 3)).slice (win0_3.rect ⟨_, ht⟩)).set
  rw [View.set_slice_whole]
  exact Rows.mem_block i (by decide : 0 < 5000) (congrArg (· * 5000) (rowIdx0 ⟨_, ht⟩)) rfl (le_refl _)

theorem reg0_value (c : Dev nD) (i : S50000x128.Idx) :
    (Gen.dat0 (F := Ideal) V c).arrAt 3 cfg0.N i
      = linF (fun j => V c (Pipeline.arrRef spec0 0) j) (fun j => V c (Pipeline.arrRef spec0 1) j)
          (fun q => V c (Pipeline.arrRef spec0 2) (ix2 (0 : Fin 1) q)) i := by
  refine congrFun ((dat0 (F := Ideal) V c).arrAt_eq_of_cover 3 _ (fun t _ => ?_) cover0) i
  show (cfg0.win 3).cut (grid0.coords t) ((dat0 (F := Ideal) V c).after 3 t) = _
  rw [after0_3]
  funext j
  exact out0_at _ _ _ _ _ _ ((cfg0.win 3).xinj (grid0.coords t) j) (((cfg0.win 3).blk t).view.emb j)
    (win0_3.rect_emb_val_of_index_zero t (1 : Fin 2) rfl j)
    (fun k => congrArg (V c (Pipeline.arrRef spec0 0)) (Shape.idx_ext₂
      ((win0_0.rect_emb_val t _ (0 : Fin 2)).trans (win0_3.rect_emb_val t j (0 : Fin 2)).symm)
      (win0_0.rect_emb_val_of_index_zero t (1 : Fin 2) rfl _)))
    (View.ld_unit_zero (S := S32x128) (Rows.zero_idx _) _ _) (View.ld_unit_zero (S := S1x128) (Rows.zero_idx _) _ _)

end Cert.KVal

end
-- ==== Proof.RegLin1.lean ====
import proofs.«418781_j85873576116382_1_alg».proof.Proof.Gen.KernelIdeal.Frame
import proofs.«418781_j85873576116382_1_alg».proof.Proof.Spec
import proofs.«418781_j85873576116382_1_alg».proof.Proof.RegRows
import Idealize.ShloMosaic.Lib.Pipeline.Value
import Idealize.ShloMosaic.Lib.ValueIdx
import Idealize.ShloMosaic.Lib.ValueLayout
import Idealize.ShloMosaic.PureOps.Ideal.Laws

noncomputable section

namespace Cert.KVal

open Cert.KernelIdeal Cert.KernelIdeal.Gen Idealize.ShloMosaic Idealize.ShloMosaic.TcCoe Idealize.SL.Sem
open Idealize.ShloMosaic.ValueIdx Idealize.ShloMosaic.SageSpec Cert.Spec
open Idealize.ShloMosaic.Pipeline (Dat)

theorem plainDot1 : PlainDot dot_S4000x16_S16x128_S4000x128_1_0_0_1_n_n :=
  ⟨rfl, fun _ => rfl, fun _ _ => rfl,
    fun i q _ => DotDims.lhsIdx_val_of_single (d := dot_S4000x16_S16x128_S4000x128_1_0_0_1_n_n) (cl := 1) rfl i q,
    fun i q _ => DotDims.rhsIdx_val_of_single (d := dot_S4000x16_S16x128_S4000x128_1_0_0_1_n_n) (cr := 0) rfl i q,
    fun _ _ => rfl⟩

-- the body's result at (p, q): row p of the left block against column q of the weights, plus the bias at q
theorem pay1_at (v0 : Vec Ideal S4000x16 .f32) (v2 : Vec Ideal S16x128 .f32) (v5 : Vec Ideal S1x128 .f32)
    (p : Fin 4000) (q : Fin 128) :
    k1_pay1 (F := Ideal) v0 v2 v5 (ix2 p q)
      = linF (fun i => v0 i) (fun i => v2 i) (fun q => v5 (ix2 (0 : Fin 1) q)) (ix2 p q) := by
  unfold k1_pay1
  rw [truncf_apply, addf_apply, broadcastTo_1b_ab_apply, shapeCast_self]
  exact congrArg (· + v5 (ix2 (0 : Fin 1) q)) (matmul_zero_at plainDot1 none _ _ (ix2 p q))

-- what the body leaves, on a block of rows of X and the whole of W and B: the linear map of the arrays
theorem out1_at (X : Mat 400000 16) (W : Mat 16 128) (B : Mat 1 128) (x0 : Vec Ideal S4000x16 .f32)
    (x1 : Vec Ideal S16x128 .f32) (x2 : Vec Ideal S1x128 .f32) (y : S4000x128.Idx) (i : S400000x128.Idx)
    (hi : (i 1).val = (y 1).val) (hx : ∀ j : Fin 16, x0 (ix2 (y 0) j) = X (ix2 (i 0) j)) (hw : x1 = W) (hb : x2 = B) :
    out1_3 (F := Ideal) x0 x1 x2 y = linF X W (fun q => B (ix2 (0 : Fin 1) q)) i := by
  subst hw hb
  unfold out1_3
  rw [View.canon_unit_zero Rows.zero_off]
  simp only [View.ld_unit_zero (S := S4000x16) Rows.zero_off, View.ld_unit_zero (S := S16x128) Rows.zero_off,
    View.ld_unit_zero (S := S1x128) Rows.zero_off]
  obtain ⟨p, q, rfl⟩ : ∃ (p : Fin 4000) (q : Fin 128), y = ix2 p q := ⟨y 0, y 1, eq_ix2 y⟩
  obtain ⟨r, q', rfl⟩ : ∃ (r : Fin 400000) (q' : Fin 128), i = ix2 r q' := ⟨i 0, i 1, eq_ix2 i⟩
  obtain rfl : q' = q := Fin.ext hi
  exact (pay1_at x0 x1 x2 p q').trans (linF_row X (fun k => x0 k) x1 _ r p hx q')

variable (V : (c : Dev nD) → (b : Ref sig .tc) → Buf (Elt Ideal) ((c : Thread nD τ).loc b))

theorem rowIdx1 : ∀ t : Fin grid1.N, win1_3.index t 0 = t.val := by decide +kernel

-- row r lies in the block of point r / 4000
theorem cover1 (i : S400000x128.Idx) :
    ∃ t : Fin cfg1.N, (cfg1.win 3).flush t = true ∧ i ∈ ((cfg1.win 3).blk t).view.set := by
  have h : (i 0).val < 400000 := (i 0).isLt
  have ht : (i 0).val / 4000 < grid1.N := by rw [N_1]; omega
  refine ⟨⟨_, ht⟩, flush1_3 _, ?_⟩
  show i ∈ ((View.whole (Pipeline.arrRef spec1 3)).slice (win1_3.rect ⟨_, ht⟩)).set
  rw [View.set_slice_whole]
  exact Rows.mem_block i (by decide : 0 < 4000) (congrArg (· * 4000) (rowIdx1 ⟨_, ht⟩)) rfl (le_refl _)

theorem reg1_value (c : Dev nD) (i : S400000x128.Idx) :
    (Gen.dat1 (F := Ideal) V c).arrAt 3 cfg1.N i
      = linF (fun j => V c (Pipeline.arrRef spec1 0) j) (fun j => V c (Pipeline.arrRef spec1 1) j)
          (fun q => V c (Pipeline.arrRef spec1 2) (ix2 (0 : Fin 1) q)) i := by
  refine congrFun ((dat1 (F := Ideal) V c).arrAt_eq_of_cover 3 _ (fun t _ => ?_) cover1) i
  show (cfg1.win 3).cut (grid1.coords t) ((dat1 (F := Ideal) V c).after 3 t) = _
  rw [after1_3]
  funext j
  exact out1_at _ _ _ _ _ _ ((cfg1.win 3).xinj (grid1.coords t) j) (((cfg1.win 3).blk t).view.emb j)
    (win1_3.rect_emb_val_of_index_zero t (1 : Fin 2) rfl j)
    (fun k => congrArg (V c (Pipeline.arrRef spec1 0)) (Shape.idx_ext₂
      ((win1_0.rect_emb_val t _ (0 : Fin 2)).trans (win1_3.rect_emb_val t j (0 : Fin 2)).symm)
      (win1_0.rect_emb_val_of_index_zero t (1 : Fin 2) rfl _)))
    (View.ld_unit_zero (S := S16x128) (Rows.zero_idx _) _ _) (View.ld_unit_zero (S := S1x128) (Rows.zero_idx _) _ _)

end Cert.KVal

end
-- ==== Proof.KChain0.lean ====
import proofs.«418781_j85873576116382_1_alg».proof.Proof.Gen.KernelIdeal.Frame
import proofs.«418781_j85873576116382_1_alg».proof.Proof.KKeep
import proofs.«418781_j85873576116382_1_alg».proof.Proof.KSmall
import proofs.«418781_j85873576116382_1_alg».proof.Proof.RegLin0
import proofs.«418781_j85873576116382_1_alg».proof.Proof.RegLin1
import proofs.«418781_j85873576116382_1_alg».proof.Proof.Net
noncomputable section
namespace Cert.KChain
open Cert.KernelIdeal Cert.KernelIdeal.Gen Idealize.ShloMosaic Idealize.ShloMosaic.TcCoe
open Idealize.ShloMosaic.ValueIdx Idealize.ShloMosaic.SageSpec
variable (m : (ℓ : Loc nD τ sig) → Buf (Elt Ideal) ℓ) (ρ : Dev nD → PrngReg) (c : Dev nD)
abbrev A0 : Mat 50000 32 := W0 m ρ c (Proc.devRef .tc main_arg0)
abbrev A1 : Mat 400000 16 := W0 m ρ c (Proc.devRef .tc main_arg1)
abbrev A2 : FVec Ideal S8x1 .f32 := W0 m ρ c (Proc.devRef .tc main_arg2)
abbrev A3 : Mat 32 128 := W0 m ρ c (Proc.devRef .tc main_arg3)
abbrev A4 : Net.Vct 128 := W0 m ρ c (Proc.devRef .tc main_arg4)
abbrev A5 : Mat 16 128 := W0 m ρ c (Proc.devRef .tc main_arg5)
abbrev A6 : Net.Vct 128 := W0 m ρ c (Proc.devRef .tc main_arg6)
abbrev A7 : FVec Ideal S1x128 .f32 := W0 m ρ c (Proc.devRef .tc main_arg7)
abbrev A8 : FVec Ideal S128 .f32 := W0 m ρ c (Proc.devRef .tc main_arg8)
abbrev A23 : IVec ⟨2, ![2, 400000]⟩ 32 := W0 m ρ c (Proc.devRef .tc main_arg23)
theorem k_h0 : (fun i => (W2 m ρ c (Proc.devRef .tc main_v1) i : EReal)) = Net.H0 (A0 m ρ c) (A3 m ρ c) (A4 m ρ c) := by
  funext i
  have e0 : (fun j => V1 m ρ c (Pipeline.arrRef spec0 0) j) = A0 m ρ c :=
    funext fun j => congrFun (KKeep.keep_main_arg0_0_1 m ρ c) j
  have e1 : (fun j => V1 m ρ c (Pipeline.arrRef spec0 1) j) = A3 m ρ c :=
    funext fun j => congrFun (KKeep.keep_main_arg3_0_1 m ρ c) j
  have e2 : (fun q : Fin 128 => (V1 m ρ c (Pipeline.arrRef spec0 2) (ix2 (0 : Fin 1) q) : EReal)) = Net.vecAt (A4 m ρ c) :=
    KHost.hostOps0_v0 (W0 m ρ c)
  calc (W2 m ρ c (Proc.devRef .tc main_v1) i : EReal)
      = (dat0 (V1 m ρ) c).arrAt 3 cfg0.N i := congrFun (W2_arr m ρ c 3) i
    _ = linF (fun j => V1 m ρ c (Pipeline.arrRef spec0 0) j) (fun j => V1 m ρ c (Pipeline.arrRef spec0 1) j)
          (fun q => V1 m ρ c (Pipeline.arrRef spec0 2) (ix2 (0 : Fin 1) q)) i := KVal.reg0_value (V1 m ρ) c i
    _ = linF (A0 m ρ c) (A3 m ρ c) (Net.vecAt (A4 m ρ c)) i :=
        congrFun (congr (congr (congrArg (linF (n := 50000) (k := 32) (m := 128)) e0) e1) e2) i
    _ = Net.H0 (A0 m ρ c) (A3 m ρ c) (A4 m ρ c) i := rfl
theorem k_e : (fun i => (W4 m ρ c (Proc.devRef .tc main_v3) i : EReal)) = Net.E (A1 m ρ c) (A5 m ρ c) (A6 m ρ c) := by
  funext i
  have e0 : (fun j => V3 m ρ c (Pipeline.arrRef spec1 0) j) = A1 m ρ c :=
    funext fun j => congrFun (KKeep.keep_main_arg1_0_3 m ρ c) j
  have e1 : (fun j => V3 m ρ c (Pipeline.arrRef spec1 1) j) = A5 m ρ c :=
    funext fun j => congrFun (KKeep.keep_main_arg5_0_3 m ρ c) j
  have e2 : (fun q : Fin 128 => (V3 m ρ c (Pipeline.arrRef spec1 2) (ix2 (0 : Fin 1) q) : EReal)) = Net.vecAt (A6 m ρ c) :=
    (KHost.hostOps1_v2 (W2 m ρ c)).trans
      (congrArg Net.vecAt (funext fun j => congrFun (KKeep.keep_main_arg6_0_2 m ρ c) j))
  calc (W4 m ρ c (Proc.devRef .tc main_v3) i : EReal)
      = (dat1 (V3 m ρ) c).arrAt 3 cfg1.N i := congrFun (W4_arr m ρ c 3) i
    _ = linF (fun j => V3 m ρ c (Pipeline.arrRef spec1 0) j) (fun j => V3 m ρ c (Pipeline.arrRef spec1 1) j)
          (fun q => V3 m ρ c (Pipeline.arrRef spec1 2) (ix2 (0 : Fin 1) q)) i := KVal.reg1_value (V3 m ρ) c i
    _ = linF (A1 m ρ c) (A5 m ρ c) (Net.vecAt (A6 m ρ c)) i :=
        congrFun (congr (congr (congrArg (linF (n := 400000) (k := 16) (m := 128)) e0) e1) e2) i
    _ = Net.E (A1 m ρ c) (A5 m ρ c) (A6 m ρ c) i := rfl
theorem k5_h : (fun i => (W5 m ρ c (Proc.devRef .tc main_v1) i : EReal)) = Net.H0 (A0 m ρ c) (A3 m ρ c) (A4 m ρ c) :=
  funext fun i => (congrFun (KKeep.keep_main_v1_2_5 m ρ c) i).trans (congrFun (k_h0 m ρ c) i)
theorem k5_e : (fun i => (W5 m ρ c (Proc.devRef .tc main_v3) i : EReal)) = Net.E (A1 m ρ c) (A5 m ρ c) (A6 m ρ c) :=
  funext fun i => (congrFun (KKeep.keep_main_v3_4_5 m ρ c) i).trans (congrFun (k_e m ρ c) i)
theorem k5_src (e : Fin 400000) :
    (W5 m ρ c (Proc.devRef .tc main_v9) (ix1 e) : BitVec 32) = Net.srcV (A23 m ρ c) e :=
  (KHost.hostOps2_v9 (W4 m ρ c) e).trans (congrFun (KKeep.keep_main_arg23_0_4 m ρ c) (ix2 (0 : Fin 2) e))
theorem k5_dst (e : Fin 400000) :
    (W5 m ρ c (Proc.devRef .tc main_v11) (ix1 e) : BitVec 32) = Net.dstV (A23 m ρ c) e :=
  (KHost.hostOps2_v11 (W4 m ρ c) e).trans (congrFun (KKeep.keep_main_arg23_0_4 m ρ c) (ix2 (1 : Fin 2) e))
theorem k5_g :
    (W5 m ρ c (Proc.devRef .tc main_v7) : S8x128.Idx → EReal)
      = addf (F := Ideal) (Host.dotGeneral (F := Ideal) (φ₁ := .f32) (φ₂ := .f32) dot_S8x1_S1x128_S8x128_1_0_0_1_n_n none
            (A2 m ρ c) (A7 m ρ c))
          (broadcastInDim S8x128 ![0, 1] bcast_S1x128_S8x128_0_1
            (broadcastInDim S1x128 ![1] bcast_S128_S1x128_1 (A8 m ρ c))) := by
  have h := KHost.hostOps2_v7 (W4 m ρ c)
  rw [KKeep.keep_main_arg2_0_4 m ρ c, KKeep.keep_main_arg7_0_4 m ρ c, KKeep.keep_main_arg8_0_4 m ρ c] at h
  exact h
end Cert.KChain
end
-- ==== Proof.KCongr.lean ====
import proofs.«418781_j85873576116382_1_alg».proof.Proof.Net
noncomputable section
namespace Cert.KChain
open Idealize.ShloMosaic Idealize.ShloMosaic.ValueIdx Idealize.ShloMosaic.SageSpec Cert.Spec Cert.Net
theorem linF_congr {n k p : Nat} {x x' : Mat n k} {W W' : Mat k p} {b b' : Fin p → EReal}
    (e0 : x = x') (e1 : W = W') (e2 : b = b') (i : (⟨2, ![n, p]⟩ : Shape).Idx) : linF x W b i = linF x' W' b' i := by
  subst e0 e1 e2; rfl
theorem edgeF_congr {n : Nat} {hd hd' hs hs' e e' : Mat n 128} {w1a w1a' w1b w1b' w1c w1c' w2 w2' : Mat 128 128}
    {b1 b1' b2 b2' : Fin 128 → EReal} (e0 : hd = hd') (e1 : hs = hs') (e2 : e = e') (e3 : w1a = w1a') (e4 : w1b = w1b')
    (e5 : w1c = w1c') (e6 : b1 = b1') (e7 : w2 = w2') (e8 : b2 = b2') (i : (⟨2, ![n, 128]⟩ : Shape).Idx) :
    edgeF hd hs e w1a w1b w1c b1 w2 b2 i = edgeF hd' hs' e' w1a' w1b' w1c' b1' w2' b2' i := by
  subst e0 e1 e2 e3 e4 e5 e6 e7 e8; rfl
theorem nodeF_congr {n : Nat} {h h' a a' : Mat n 128} {w1a w1a' w1b w1b' w2 w2' : Mat 128 128}
    {b1 b1' b2 b2' : Fin 128 → EReal} (e0 : h = h') (e1 : a = a') (e2 : w1a = w1a') (e3 : w1b = w1b') (e4 : b1 = b1')
    (e5 : w2 = w2') (e6 : b2 = b2') (i : (⟨2, ![n, 128]⟩ : Shape).Idx) :
    nodeF h a w1a w1b b1 w2 b2 i = nodeF h' a' w1a' w1b' b1' w2' b2' i := by
  subst e0 e1 e2 e3 e4 e5 e6; rfl
theorem aggF_congr {d d' : Fin 400000 → BitVec 32} {M M' : Mat 400000 128} (e0 : d = d') (e1 : M = M') :
    aggF d M = aggF d' M' := by subst e0 e1; rfl
theorem slab_congr {r : Nat} {X X' : Stk 3 r 128} (e0 : X = X') (l : Fin 3) (o : Nat) (ho : o + 128 ≤ r) :
    slab X l o ho = slab X' l o ho := by subst e0; rfl
theorem rowAt_congr {b b' : Mat 3 128} (e0 : b = b') (l : Fin 3) : rowAt b l = rowAt b' l := by subst e0; rfl
end Cert.KChain
end
-- ==== Proof.LibRowGatherScatter.lean ====
import Idealize.ShloMosaic.Lib.ValueIdx
import Idealize.ShloMosaic.PureOps.Contract
noncomputable section
open scoped BigOperators
namespace Cert.LibRows
open Idealize.ShloMosaic Idealize.ShloMosaic.ValueIdx
section Gather
variable {α : Type}
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf
theorem rowGather_pos {N E C : Nat}
    (wf : GatherDims.WF ⟨2, ![N, C]⟩ ⟨2, ![E, 1]⟩ ⟨2, ![E, C]⟩ [1] [0] [] [0] [] 1 ![1, C]) : 0 < N :=
  (rowGather N E C wf).slice_le 0
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j)
      = x (ix2 ⟨min (idx (ix2 e (0 : Fin 1))).toInt.toNat (N - 1), by omega⟩ j) := by
  have h10 : (1 : Fin 2) ∉ ([0] : List (Fin 2)) := by decide
  have h0 : (rowGather N E C wf).start (ix2 e j) idx (0 : Fin 2) + (rowGather N E C wf).batchCoord (ix2 e j) (0 : Fin 2)
      + (rowGather N E C wf).offCoord (ix2 e j) (0 : Fin 2) = min (idx (ix2 e (0 : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowGather N E C wf).start (ix2 e j) idx (1 : Fin 2) + (rowGather N E C wf).batchCoord (ix2 e j) (1 : Fin 2)
      + (rowGather N E C wf).offCoord (ix2 e j) (1 : Fin 2) = j.val := by
    have hs : (rowGather N E C wf).start (ix2 e j) idx (1 : Fin 2) = 0 := by
      unfold GatherDims.start
      rw [dif_neg (show (1 : Fin 2) ∉ (rowGather N E C wf).startIndexMap from h10)]
    have ho : (rowGather N E C wf).offCoord (ix2 e j) (1 : Fin 2) = j.val := by
      unfold GatherDims.offCoord
      rw [dif_pos (show (1 : Fin 2) ∈ (rowGather N E C wf).sKept from
        (GatherDims.mem_sKept _ _).mpr ⟨h10, List.not_mem_nil⟩)]
      rfl
    rw [GatherDims.batchCoord_eq_zero _ _ _ List.not_mem_nil, hs, ho]; omega
  unfold Host.gather
  congr 1
  funext a
  refine Fin.ext ?_
  match a with
  | ⟨0, _⟩ => exact h0
  | ⟨1, _⟩ => exact h1
end Gather
section Scatter
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf
variable {N E C w : Nat} (wf : ScatterDims.WF ⟨2, ![N, C]⟩ ⟨2, ![E, 1]⟩ ⟨2, ![E, C]⟩ [1] [0] [0] 1)
theorem rowScatter_start0 (idx : IVec ⟨2, ![E, 1]⟩ w) (e : Fin E) (j : Fin C) :
    (rowScatter N E C wf).start (ix2 e j) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e j)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
theorem rowScatter_start1 (idx : IVec ⟨2, ![E, 1]⟩ w) (e : Fin E) (j : Fin C) :
    (rowScatter N E C wf).start (ix2 e j) idx (1 : Fin 2) = 0 := by
  unfold ScatterDims.start
  have h10 : (1 : Fin 2) ∉ ([0] : List (Fin 2)) := by decide
  rw [dif_neg (show (1 : Fin 2) ∉ (rowScatter N E C wf).scatterDimsToOperandDims from h10)]
theorem rowScatter_window0 (e : Fin E) (j : Fin C) : (rowScatter N E C wf).window (ix2 e j) (0 : Fin 2) = 0 := by
  unfold ScatterDims.window
  rw [dif_neg (show (0 : Fin 2) ∉ (rowScatter N E C wf).sKept from by
    simp [ScatterDims.sKept, Shape.kept, List.mem_filter, List.mem_finRange])]
theorem rowScatter_window1 (e : Fin E) (j : Fin C) : (rowScatter N E C wf).window (ix2 e j) (1 : Fin 2) = j.val := by
  unfold ScatterDims.window
  rw [dif_pos (show (1 : Fin 2) ∈ (rowScatter N E C wf).sKept from by
    simp [ScatterDims.sKept, Shape.kept, List.mem_filter, List.mem_finRange])]
  rfl
theorem rowScatter_resultIdx?_eq_some (idx : IVec ⟨2, ![E, 1]⟩ w) (e : Fin E) (j' : Fin C) (n : Fin N) (j : Fin C) :
    (rowScatter N E C wf).resultIdx? (ix2 e j') idx = some (ix2 n j)
      ↔ (idx (ix2 e (0 : Fin 1))).toInt = (n.val : ℤ) ∧ j' = j := by
  have hs0 := rowScatter_start0 wf idx e j'
  have hs1 := rowScatter_start1 wf idx e j'
  have hw0 := rowScatter_window0 wf e j'
  have hw1 := rowScatter_window1 wf e j'
  constructor
  · intro h
    unfold ScatterDims.resultIdx? at h
    split at h
    · rename_i hall
      have h' := Option.some.inj h
      have e0 : ((rowScatter N E C wf).start (ix2 e j') idx (0 : Fin 2)
          + ((rowScatter N E C wf).window (ix2 e j') (0 : Fin 2) : ℤ)).toNat = n.val :=
        congrArg (fun f => (f (0 : Fin 2)).val) h'
      have e1 : ((rowScatter N E C wf).start (ix2 e j') idx (1 : Fin 2)
          + ((rowScatter N E C wf).window (ix2 e j') (1 : Fin 2) : ℤ)).toNat = j.val :=
        congrArg (fun f => (f (1 : Fin 2)).val) h'
      have b0 := (hall (0 : Fin 2)).1
      rw [hs0, hw0] at e0 b0
      rw [hs1, hw1] at e1
      exact ⟨by omega, Fin.ext (by omega)⟩
    · exact absurd h (by simp)
  · rintro ⟨hn, rfl⟩
    unfold ScatterDims.resultIdx?
    have hall : ∀ a, 0 ≤ (rowScatter N E C wf).start (ix2 e j') idx a + ((rowScatter N E C wf).window (ix2 e j') a : ℤ)
        ∧ (rowScatter N E C wf).start (ix2 e j') idx a + ((rowScatter N E C wf).window (ix2 e j') a : ℤ)
          < (((⟨2, ![N, C]⟩ : Shape).size a : ℕ) : ℤ) := by
      intro a
      match a with
      | ⟨0, _⟩ =>
        show 0 ≤ (rowScatter N E C wf).start (ix2 e j') idx (0 : Fin 2)
            + ((rowScatter N E C wf).window (ix2 e j') (0 : Fin 2) : ℤ)
          ∧ (rowScatter N E C wf).start (ix2 e j') idx (0 : Fin 2)
            + ((rowScatter N E C wf).window (ix2 e j') (0 : Fin 2) : ℤ) < ((N : ℕ) : ℤ)
        rw [hs0, hw0, hn]; have := n.isLt; omega
      | ⟨1, _⟩ =>
        show 0 ≤ (rowScatter N E C wf).start (ix2 e j') idx (1 : Fin 2)
            + ((rowScatter N E C wf).window (ix2 e j') (1 : Fin 2) : ℤ)
          ∧ (rowScatter N E C wf).start (ix2 e j') idx (1 : Fin 2)
            + ((rowScatter N E C wf).window (ix2 e j') (1 : Fin 2) : ℤ) < ((C : ℕ) : ℤ)
        rw [hs1, hw1]; have := j'.isLt; omega
    rw [dif_pos hall]
    congr 1
    funext a
    refine Fin.ext ?_
    match a with
    | ⟨0, _⟩ =>
      show ((rowScatter N E C wf).start (ix2 e j') idx (0 : Fin 2)
          + ((rowScatter N E C wf).window (ix2 e j') (0 : Fin 2) : ℤ)).toNat = n.val
      rw [hs0, hw0, hn]; omega
    | ⟨1, _⟩ =>
      show ((rowScatter N E C wf).start (ix2 e j') idx (1 : Fin 2)
          + ((rowScatter N E C wf).window (ix2 e j') (1 : Fin 2) : ℤ)).toNat = j'.val
      rw [hs1, hw1]; omega
theorem scatterAdd_rows_apply (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatter N E C wf) x idx upd (ix2 n j)
      = x (ix2 n j) + ∑ e ∈ Finset.univ.filter (fun e : Fin E => (idx (ix2 e (0 : Fin 1))).toInt = (n.val : ℤ)),
          upd (ix2 e j) := by
  unfold Ideal.hostScatterAdd
  congr 1
  refine Finset.sum_nbij' (fun u : (⟨2, ![E, C]⟩ : Shape).Idx => (u 0 : Fin E)) (fun e : Fin E => ix2 e j) ?_ ?_ ?_ ?_ ?_
  · intro u hu
    obtain ⟨e, j', rfl⟩ : ∃ (e : Fin E) (j' : Fin C), u = ix2 e j' := ⟨u 0, u 1, eq_ix2 u⟩
    exact Finset.mem_filter.mpr ⟨Finset.mem_univ _,
      ((rowScatter_resultIdx?_eq_some wf idx e j' n j).mp (Finset.mem_filter.mp hu).2).1⟩
  · intro e he
    exact Finset.mem_filter.mpr ⟨Finset.mem_univ _,
      (rowScatter_resultIdx?_eq_some wf idx e j n j).mpr ⟨(Finset.mem_filter.mp he).2, rfl⟩⟩
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
  · intro e _
    rfl
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  exact scatterAdd_rows_apply wf x idx upd n j
end Scatter
section Cols
def cols {α : Type} {R C C' : Nat} (c0 : Nat) (h : c0 + C' ≤ C) (X : (⟨2, ![R, C]⟩ : Shape).Idx → α) :
    (⟨2, ![R, C']⟩ : Shape).Idx → α :=
  fun i => X (ix2 ⟨(i 0).val, idx2_lt0 i⟩ ⟨c0 + (i 1).val, by have := idx2_lt1 i; omega⟩)
theorem cols_apply {α : Type} {R C C' : Nat} (c0 : Nat) (h : c0 + C' ≤ C) (X : (⟨2, ![R, C]⟩ : Shape).Idx → α)
    (r : Fin R) (c : Fin C') : cols c0 h X (ix2 r c) = X (ix2 r ⟨c0 + c.val, by omega⟩) := rfl
theorem gather_rows_cols {α : Type} {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (c0 : Nat) (h : c0 + C' ≤ C) (x : (⟨2, ![N, C]⟩ : Shape).Idx → α) (idx : IVec ⟨2, ![E, 1]⟩ w) :
    Host.gather (rowGather N E C' wf') (cols c0 h x) idx = cols c0 h (Host.gather (rowGather N E C wf) x idx) := by
  funext i
  obtain ⟨e, c, rfl⟩ : ∃ (e : Fin E) (c : Fin C'), i = ix2 e c := ⟨i 0, i 1, eq_ix2 i⟩
  rw [gather_rows_apply hN wf', cols_apply, cols_apply, gather_rows_apply hN wf]
theorem scatterAdd_rows_cols {φ : FTy} {N E C C' w : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (c0 : Nat) (h : c0 + C' ≤ C) (x : FVec Ideal ⟨2, ![N, C]⟩ φ) (idx : IVec ⟨2, ![E, 1]⟩ w)
    (upd : FVec Ideal ⟨2, ![E, C]⟩ φ) :
    Host.scatterAdd (F := Ideal) (rowScatter N E C' wf') (cols c0 h x) idx (cols c0 h upd)
      = cols c0 h (Host.scatterAdd (F := Ideal) (rowScatter N E C wf) x idx upd) := by
  funext i
  obtain ⟨n, c, rfl⟩ : ∃ (n : Fin N) (c : Fin C'), i = ix2 n c := ⟨i 0, i 1, eq_ix2 i⟩
  rw [host_scatterAdd_rows_apply wf', cols_apply, cols_apply, host_scatterAdd_rows_apply wf]
  rfl
end Cols
end Cert.LibRows
end
-- ==== Proof.KTake.lean ====
import proofs.«418781_j85873576116382_1_alg».proof.Proof.Gen.KernelIdeal.Launch
import proofs.«418781_j85873576116382_1_alg».proof.Proof.Net
import proofs.«418781_j85873576116382_1_alg».proof.Proof.LibTakeFill
import proofs.«418781_j85873576116382_1_alg».proof.Proof.LibRowGatherScatter
import Idealize.ShloMosaic.Lib.StableHlo.Run
import Idealize.ShloMosaic.Lib.ValueIdx
import Idealize.ShloMosaic.Lib.ValueLayout
import Idealize.ShloMosaic.Lib.Pipeline.Value
set_option maxRecDepth 4096
noncomputable section
namespace Cert.KHost
open Cert.KernelIdeal Cert.KernelIdeal.Gen Idealize.ShloMosaic Idealize.ShloMosaic.ValueIdx
set_option maxHeartbeats 4000000
abbrev wrapCol (w : IVec S400000 32) : IVec S400000x1 32 :=
  broadcastInDim S400000x1 ![0] bcast_S400000_S400000x1_0
    (select (cmpi .slt w (broadcastInDim S400000 ![] bcast_S_S400000 (constantI S_ 32 0#32)))
      (addi w (broadcastInDim S400000 ![] bcast_S_S400000 (constantI S_ 32 50000#32))) w)
theorem bcastCol_apply {α : Type} (v : S400000.Idx → α) (e : Fin 400000) (q : Fin 1) :
    broadcastInDim S400000x1 ![0] bcast_S400000_S400000x1_0 v (ix2 e q) = v (ix1 e) := by
  refine broadcastInDim_apply _ _ _ _ (ix1 e) ?_
  intro a
  match a with
  | ⟨0, _⟩ =>
    show e.val = if (400000 : Nat) = 1 then 0 else e.val
    exact (if_neg (show ¬ (400000 : Nat) = 1 by decide)).symm
theorem wrapCol_apply (w : IVec S400000 32) (e : Fin 400000) (q : Fin 1) :
    wrapCol w (ix2 e q) = TakeFill.wrapIdx 50000#32 (w (ix1 e)) := by
  unfold wrapCol
  rw [bcastCol_apply]
  rfl
theorem take_apply (x : FVec Ideal S50000x128 .f32) (w : IVec S400000 32)
    (hr : ∀ e : Fin 400000, -50000 ≤ (w (ix1 e)).toInt ∧ (w (ix1 e)).toInt < 50000)
    (e : Fin 400000) (j : Fin 128) :
    select
        (broadcastInDim S400000x128 ![0] bcast_S400000_S400000x128_0
          (Host.reduce IntOp.andi
            (andi
              (cmpi .sge (wrapCol w) (broadcastInDim S400000x1 ![] bcast_S_S400000x1 (constantI S_ 32 0#32)))
              (cmpi .sle (wrapCol w)
                (broadcastInDim S400000x1 ![0, 1] bcast_S1x1_S400000x1_0_1
                  (broadcastInDim S1x1 ![1] bcast_S1_S1x1_1 (constantI S1 32 49999#32)))))
            (constantI S_ 1 1#1) reducesTo_S400000x1_S400000_d1 h_S_))
        (Host.gather gather_S50000x128_S400000x1_S400000x128_1_0_n_n_0_1_1128 x (wrapCol w))
        (broadcastInDim S400000x128 ![] bcast_S_S400000x128 (constant (F := Ideal) S_ FTy.f32 0x7FC00000#32)) (ix2 e j)
      = x (ix2 (Net.nodeOf (w (ix1 e))) j) := by
  rw [TakeFill.select_range_mask]
  ·
    show Host.gather (LibRows.rowGather 50000 400000 128 gather_S50000x128_S400000x1_S400000x128_1_0_n_n_0_1_1128_wf)
      x (wrapCol w) (ix2 e j) = _
    rw [LibRows.gather_rows_apply (N := 50000) (E := 400000) (C := 128) (by omega)
      gather_S50000x128_S400000x1_S400000x128_1_0_n_n_0_1_1128_wf x (wrapCol w) e j]
    refine congrArg x (congrArg (fun n => ix2 n j) (Fin.ext ?_))
    show min (wrapCol w (ix2 e (0 : Fin 1))).toInt.toNat 49999
      = min (TakeFill.wrapIdx 50000#32 (w (ix1 e))).toInt.toNat 49999
    rw [wrapCol_apply]
  ·
    intro i
    obtain ⟨e', q, rfl⟩ : ∃ (e' : Fin 400000) (q : Fin 1), i = ix2 e' q := ⟨i 0, i 1, eq_ix2 i⟩
    rw [wrapCol_apply]
    exact TakeFill.wrapIdx_in_range 50000 (by omega) (by omega) (w (ix1 e'))
      (by have := (hr e').1; omega) (by have := (hr e').2; omega)
theorem take0 (W : Valuation τ sig (Elt Ideal))
    (hr : ∀ e : Fin 400000, -50000 ≤ (W (Proc.devRef .tc main_v11) (ix1 e)).toInt
      ∧ (W (Proc.devRef .tc main_v11) (ix1 e)).toInt < 50000)
    (e : Fin 400000) (j : Fin 128) :
    StableHlo.after hostOps2_1 W (Proc.devRef .tc main_v12) (ix2 e j)
      = W (Proc.devRef .tc main_v1) (ix2 (Net.nodeOf (W (Proc.devRef .tc main_v11) (ix1 e))) j) := by
  unfold hostOps2_1
  after_results_simp
  simp only [StableHlo.TRef.ofBuf, StableHlo.TRef.toBuf, cast_eq]
  exact take_apply (W (Proc.devRef .tc main_v1)) (W (Proc.devRef .tc main_v11)) hr e j
theorem take1 (W : Valuation τ sig (Elt Ideal))
    (hr : ∀ e : Fin 400000, -50000 ≤ (W (Proc.devRef .tc main_v9) (ix1 e)).toInt
      ∧ (W (Proc.devRef .tc main_v9) (ix1 e)).toInt < 50000)
    (e : Fin 400000) (j : Fin 128) :
    StableHlo.after hostOps2_3 W (Proc.devRef .tc main_v14) (ix2 e j)
      = W (Proc.devRef .tc main_v1) (ix2 (Net.nodeOf (W (Proc.devRef .tc main_v9) (ix1 e))) j) := by
  unfold hostOps2_3
  after_results_simp
  simp only [StableHlo.TRef.ofBuf, StableHlo.TRef.toBuf, cast_eq]
  exact take_apply (W (Proc.devRef .tc main_v1)) (W (Proc.devRef .tc main_v9)) hr e j
theorem take2 (W : Valuation τ sig (Elt Ideal))
    (hr : ∀ e : Fin 400000, -50000 ≤ (W (Proc.devRef .tc main_v11) (ix1 e)).toInt
      ∧ (W (Proc.devRef .tc main_v11) (ix1 e)).toInt < 50000)
    (e : Fin 400000) (j : Fin 128) :
    StableHlo.after hostOps4 W (Proc.devRef .tc main_v54) (ix2 e j)
      = W (Proc.devRef .tc main_v53) (ix2 (Net.nodeOf (W (Proc.devRef .tc main_v11) (ix1 e))) j) := by
  unfold hostOps4
  after_results_simp
  simp only [StableHlo.TRef.ofBuf, StableHlo.TRef.toBuf, cast_eq]
  exact take_apply (W (Proc.devRef .tc main_v53)) (W (Proc.devRef .tc main_v11)) hr e j
theorem take3 (W : Valuation τ sig (Elt Ideal))
    (hr : ∀ e : Fin 400000, -50000 ≤ (W (Proc.devRef .tc main_v9) (ix1 e)).toInt
      ∧ (W (Proc.devRef .tc main_v9) (ix1 e)).toInt < 50000)
    (e : Fin 400000) (j : Fin 128) :
    StableHlo.after hostOps4_2 W (Proc.devRef .tc main_v56) (ix2 e j)
      = W (Proc.devRef .tc main_v53) (ix2 (Net.nodeOf (W (Proc.devRef .tc main_v9) (ix1 e))) j) := by
  unfold hostOps4_2
  after_results_simp
  simp only [StableHlo.TRef.ofBuf, StableHlo.TRef.toBuf, cast_eq]
  exact take_apply (W (Proc.devRef .tc main_v53)) (W (Proc.devRef .tc main_v9)) hr e j
theorem take4 (W : Valuation τ sig (Elt Ideal))
    (hr : ∀ e : Fin 400000, -50000 ≤ (W (Proc.devRef .tc main_v11) (ix1 e)).toInt
      ∧ (W (Proc.devRef .tc main_v11) (ix1 e)).toInt < 50000)
    (e : Fin 400000) (j : Fin 128) :
    StableHlo.after hostOps6 W (Proc.devRef .tc main_v96) (ix2 e j)
      = W (Proc.devRef .tc main_v95) (ix2 (Net.nodeOf (W (Proc.devRef .tc main_v11) (ix1 e))) j) := by
  unfold hostOps6
  after_results_simp
  simp only [StableHlo.TRef.ofBuf, StableHlo.TRef.toBuf, cast_eq]
  exact take_apply (W (Proc.devRef .tc main_v95)) (W (Proc.devRef .tc main_v11)) hr e j
theorem take5 (W : Valuation τ sig (Elt Ideal))
    (hr : ∀ e : Fin 400000, -50000 ≤ (W (Proc.devRef .tc main_v9) (ix1 e)).toInt
      ∧ (W (Proc.devRef .tc main_v9) (ix1 e)).toInt < 50000)
    (e : Fin 400000) (j : Fin 128) :
    StableHlo.after hostOps6_2 W (Proc.devRef .tc main_v98) (ix2 e j)
      = W (Proc.devRef .tc main_v95) (ix2 (Net.nodeOf (W (Proc.devRef .tc main_v9) (ix1 e))) j) := by
  unfold hostOps6_2
  after_results_simp
  simp only [StableHlo.TRef.ofBuf, StableHlo.TRef.toBuf, cast_eq]
  exact take_apply (W (Proc.devRef .tc main_v95)) (W (Proc.devRef .tc main_v9)) hr e j
end Cert.KHost
end
-- ==== Proof.KPreEdge.lean ====
import proofs.«418781_j85873576116382_1_alg».proof.Proof.Gen.KernelIdeal.Launch
import proofs.«418781_j85873576116382_1_alg».proof.Proof.Net
import proofs.«418781_j85873576116382_1_alg».proof.Proof.LibTakeFill
import Idealize.ShloMosaic.Lib.StableHlo.Run
import Idealize.ShloMosaic.Lib.ValueIdx
import Idealize.ShloMosaic.Lib.ValueLayout
import Idealize.ShloMosaic.Lib.Pipeline.Value
set_option maxRecDepth 4096
noncomputable section
namespace Cert.KHost
open Cert.KernelIdeal Cert.KernelIdeal.Gen Idealize.ShloMosaic Idealize.ShloMosaic.ValueIdx
open Idealize.ShloMosaic.SageSpec
theorem slab_read {r : Nat} (X : Net.Stk 3 r 128) (l : Fin 3) (a o : Nat) (ha : a = l.val) (ho : o + 128 ≤ r)
    (hs : (⟨3, ![3, r, 128]⟩ : Shape).Slices ![a, o, 0] ⟨3, ![1, 128, 128]⟩)
    (hc : (⟨3, ![1, 128, 128]⟩ : Shape).ShapeCasts ⟨2, ![128, 128]⟩) (hb : FTy.bits .bf16 < FTy.bits .f32) :
    (truncf (F := Ideal) .bf16 (shapeCast ⟨2, ![128, 128]⟩
        (extractStridedSlice ⟨3, ![1, 128, 128]⟩ ![a, o, 0] (X : FVec Ideal ⟨3, ![3, r, 128]⟩ .f32) hs) hc) hb : Mat 128 128)
      = Net.slab X l o ho := by
  subst ha
  funext i
  obtain ⟨k, j, rfl⟩ : ∃ k j, i = ix2 k j := ⟨i 0, i 1, eq_ix2 i⟩
  rw [truncf_apply, shapeCast_1ab_ab_apply]
  refine (extractStridedSlice_apply _ _ hs _ (ix3 l ⟨o + k.val, by have := k.isLt; omega⟩ j) (fun ax => ?_)).trans rfl
  match ax with
  | ⟨0, _⟩ => rfl
  | ⟨1, _⟩ => rfl
  | ⟨2, _⟩ => exact (Nat.zero_add _).symm
theorem row_read (X : Mat 3 128) (l : Fin 3) (a : Nat) (ha : a = l.val)
    (hs : (⟨2, ![3, 128]⟩ : Shape).Slices ![a, 0] ⟨2, ![1, 128]⟩)
    (hc1 : (⟨2, ![1, 128]⟩ : Shape).ShapeCasts ⟨1, ![128]⟩) (hc2 : (⟨1, ![128]⟩ : Shape).ShapeCasts ⟨2, ![1, 128]⟩)
    (u : Fin 1) (q : Fin 128) :
    shapeCast ⟨2, ![1, 128]⟩ (shapeCast ⟨1, ![128]⟩
        (extractStridedSlice ⟨2, ![1, 128]⟩ ![a, 0] (X : FVec Ideal ⟨2, ![3, 128]⟩ .f32) hs) hc1) hc2 (ix2 u q)
      = Net.rowAt X l q := by
  subst ha
  rw [shapeCast_a_1a_apply, shapeCast_1a_a_apply]
  refine (extractStridedSlice_apply _ _ hs _ (ix2 l q) (fun ax => ?_)).trans rfl
  match ax with
  | ⟨0, _⟩ => rfl
  | ⟨1, _⟩ => exact (Nat.zero_add _).symm
variable (W : Valuation τ sig (Elt Ideal))
theorem pre2_x : (StableHlo.after (hostOps2_4 (F := Ideal)) W (Proc.devRef .tc main_v15) : Mat 400000 128) = (W (Proc.devRef .tc main_v14) : Mat 400000 128) := by
  unfold hostOps2_4; after_results; rfl
theorem pre2_w1a : (StableHlo.after (hostOps2_4 (F := Ideal)) W (Proc.devRef .tc main_v18) : Mat 128 128)
    = Net.slab (W (Proc.devRef .tc main_arg9) : Net.Stk 3 384 128) 0 0 (by omega) := by
  unfold hostOps2_4; after_results; exact slab_read _ 0 0 0 rfl (by omega) _ _ _
theorem pre2_w1b : (StableHlo.after (hostOps2_4 (F := Ideal)) W (Proc.devRef .tc main_v21) : Mat 128 128)
    = Net.slab (W (Proc.devRef .tc main_arg9) : Net.Stk 3 384 128) 0 128 (by omega) := by
  unfold hostOps2_4; after_results; exact slab_read _ 0 0 128 rfl (by omega) _ _ _
theorem pre2_w1c : (StableHlo.after (hostOps2_4 (F := Ideal)) W (Proc.devRef .tc main_v24) : Mat 128 128)
    = Net.slab (W (Proc.devRef .tc main_arg9) : Net.Stk 3 384 128) 0 256 (by omega) := by
  unfold hostOps2_4; after_results; exact slab_read _ 0 0 256 rfl (by omega) _ _ _
theorem pre2_w2 : (StableHlo.after (hostOps2_4 (F := Ideal)) W (Proc.devRef .tc main_v29) : Mat 128 128)
    = Net.slab (W (Proc.devRef .tc main_arg11) : Net.Stk 3 128 128) 0 0 (by omega) := by
  unfold hostOps2_4; after_results; exact slab_read _ 0 0 0 rfl (by omega) _ _ _
theorem pre2_b1 (u : Fin 1) (q : Fin 128) : StableHlo.after (hostOps2_4 (F := Ideal)) W (Proc.devRef .tc main_v32) (ix2 u q)
    = Net.rowAt (W (Proc.devRef .tc main_arg10) : Mat 3 128) 0 q := by
  unfold hostOps2_4; after_results; exact row_read _ 0 0 rfl _ _ _ u q
theorem pre2_b1_fun : (fun q : Fin 128 => StableHlo.after (hostOps2_4 (F := Ideal)) W (Proc.devRef .tc main_v32) (ix2 (0 : Fin 1) q))
    = Net.rowAt (W (Proc.devRef .tc main_arg10) : Mat 3 128) 0 := funext fun q => pre2_b1 W 0 q
theorem pre2_b2 (u : Fin 1) (q : Fin 128) : StableHlo.after (hostOps2_4 (F := Ideal)) W (Proc.devRef .tc main_v33) (ix2 u q)
    = Net.rowAt (W (Proc.devRef .tc main_arg12) : Mat 3 128) 0 q := by
  unfold hostOps2_4; after_results; exact row_read _ 0 0 rfl _ _ _ u q
theorem pre2_b2_fun : (fun q : Fin 128 => StableHlo.after (hostOps2_4 (F := Ideal)) W (Proc.devRef .tc main_v33) (ix2 (0 : Fin 1) q))
    = Net.rowAt (W (Proc.devRef .tc main_arg12) : Mat 3 128) 0 := funext fun q => pre2_b2 W 0 q
theorem pre4_x : (StableHlo.after (hostOps4_3 (F := Ideal)) W (Proc.devRef .tc main_v57) : Mat 400000 128) = (W (Proc.devRef .tc main_v56) : Mat 400000 128) := by
  unfold hostOps4_3; after_results; rfl
theorem pre4_w1a : (StableHlo.after (hostOps4_3 (F := Ideal)) W (Proc.devRef .tc main_v60) : Mat 128 128)
    = Net.slab (W (Proc.devRef .tc main_arg9) : Net.Stk 3 384 128) 1 0 (by omega) := by
  unfold hostOps4_3; after_results; exact slab_read _ 1 1 0 rfl (by omega) _ _ _
theorem pre4_w1b : (StableHlo.after (hostOps4_3 (F := Ideal)) W (Proc.devRef .tc main_v63) : Mat 128 128)
    = Net.slab (W (Proc.devRef .tc main_arg9) : Net.Stk 3 384 128) 1 128 (by omega) := by
  unfold hostOps4_3; after_results; exact slab_read _ 1 1 128 rfl (by omega) _ _ _
theorem pre4_w1c : (StableHlo.after (hostOps4_3 (F := Ideal)) W (Proc.devRef .tc main_v66) : Mat 128 128)
    = Net.slab (W (Proc.devRef .tc main_arg9) : Net.Stk 3 384 128) 1 256 (by omega) := by
  unfold hostOps4_3; after_results; exact slab_read _ 1 1 256 rfl (by omega) _ _ _
theorem pre4_w2 : (StableHlo.after (hostOps4_3 (F := Ideal)) W (Proc.devRef .tc main_v71) : Mat 128 128)
    = Net.slab (W (Proc.devRef .tc main_arg11) : Net.Stk 3 128 128) 1 0 (by omega) := by
  unfold hostOps4_3; after_results; exact slab_read _ 1 1 0 rfl (by omega) _ _ _
theorem pre4_b1 (u : Fin 1) (q : Fin 128) : StableHlo.after (hostOps4_3 (F := Ideal)) W (Proc.devRef .tc main_v74) (ix2 u q)
    = Net.rowAt (W (Proc.devRef .tc main_arg10) : Mat 3 128) 1 q := by
  unfold hostOps4_3; after_results; exact row_read _ 1 1 rfl _ _ _ u q
theorem pre4_b1_fun : (fun q : Fin 128 => StableHlo.after (hostOps4_3 (F := Ideal)) W (Proc.devRef .tc main_v74) (ix2 (0 : Fin 1) q))
    = Net.rowAt (W (Proc.devRef .tc main_arg10) : Mat 3 128) 1 := funext fun q => pre4_b1 W 0 q
theorem pre4_b2 (u : Fin 1) (q : Fin 128) : StableHlo.after (hostOps4_3 (F := Ideal)) W (Proc.devRef .tc main_v75) (ix2 u q)
    = Net.rowAt (W (Proc.devRef .tc main_arg12) : Mat 3 128) 1 q := by
  unfold hostOps4_3; after_results; exact row_read _ 1 1 rfl _ _ _ u q
theorem pre4_b2_fun : (fun q : Fin 128 => StableHlo.after (hostOps4_3 (F := Ideal)) W (Proc.devRef .tc main_v75) (ix2 (0 : Fin 1) q))
    = Net.rowAt (W (Proc.devRef .tc main_arg12) : Mat 3 128) 1 := funext fun q => pre4_b2 W 0 q
theorem pre6_x : (StableHlo.after (hostOps6_3 (F := Ideal)) W (Proc.devRef .tc main_v99) : Mat 400000 128) = (W (Proc.devRef .tc main_v98) : Mat 400000 128) := by
  unfold hostOps6_3; after_results; rfl
theorem pre6_w1a : (StableHlo.after (hostOps6_3 (F := Ideal)) W (Proc.devRef .tc main_v102) : Mat 128 128)
    = Net.slab (W (Proc.devRef .tc main_arg9) : Net.Stk 3 384 128) 2 0 (by omega) := by
  unfold hostOps6_3; after_results; exact slab_read _ 2 2 0 rfl (by omega) _ _ _
theorem pre6_w1b : (StableHlo.after (hostOps6_3 (F := Ideal)) W (Proc.devRef .tc main_v105) : Mat 128 128)
    = Net.slab (W (Proc.devRef .tc main_arg9) : Net.Stk 3 384 128) 2 128 (by omega) := by
  unfold hostOps6_3; after_results; exact slab_read _ 2 2 128 rfl (by omega) _ _ _
theorem pre6_w1c : (StableHlo.after (hostOps6_3 (F := Ideal)) W (Proc.devRef .tc main_v108) : Mat 128 128)
    = Net.slab (W (Proc.devRef .tc main_arg9) : Net.Stk 3 384 128) 2 256 (by omega) := by
  unfold hostOps6_3; after_results; exact slab_read _ 2 2 256 rfl (by omega) _ _ _
theorem pre6_w2 : (StableHlo.after (hostOps6_3 (F := Ideal)) W (Proc.devRef .tc main_v113) : Mat 128 128)
    = Net.slab (W (Proc.devRef .tc main_arg11) : Net.Stk 3 128 128) 2 0 (by omega) := by
  unfold hostOps6_3; after_results; exact slab_read _ 2 2 0 rfl (by omega) _ _ _
theorem pre6_b1 (u : Fin 1) (q : Fin 128) : StableHlo.after (hostOps6_3 (F := Ideal)) W (Proc.devRef .tc main_v116) (ix2 u q)
    = Net.rowAt (W (Proc.devRef .tc main_arg10) : Mat 3 128) 2 q := by
  unfold hostOps6_3; after_results; exact row_read _ 2 2 rfl _ _ _ u q
theorem pre6_b1_fun : (fun q : Fin 128 => StableHlo.after (hostOps6_3 (F := Ideal)) W (Proc.devRef .tc main_v116) (ix2 (0 : Fin 1) q))
    = Net.rowAt (W (Proc.devRef .tc main_arg10) : Mat 3 128) 2 := funext fun q => pre6_b1 W 0 q
theorem pre6_b2 (u : Fin 1) (q : Fin 128) : StableHlo.after (hostOps6_3 (F := Ideal)) W (Proc.devRef .tc main_v117) (ix2 u q)
    = Net.rowAt (W (Proc.devRef .tc main_arg12) : Mat 3 128) 2 q := by
  unfold hostOps6_3; after_results; exact row_read _ 2 2 rfl _ _ _ u q
theorem pre6_b2_fun : (fun q : Fin 128 => StableHlo.after (hostOps6_3 (F := Ideal)) W (Proc.devRef .tc main_v117) (ix2 (0 : Fin 1) q))
    = Net.rowAt (W (Proc.devRef .tc main_arg12) : Mat 3 128) 2 := funext fun q => pre6_b2 W 0 q
end Cert.KHost
end
-- ==== Proof.KPreNode.lean ====
import proofs.«418781_j85873576116382_1_alg».proof.Proof.Gen.KernelIdeal.Launch
import proofs.«418781_j85873576116382_1_alg».proof.Proof.Net
import proofs.«418781_j85873576116382_1_alg».proof.Proof.LibTakeFill
import proofs.«418781_j85873576116382_1_alg».proof.Proof.LibRowGatherScatter
import Idealize.ShloMosaic.Lib.StableHlo.Run
import Idealize.ShloMosaic.Lib.ValueIdx
import Idealize.ShloMosaic.Lib.ValueLayout
import Idealize.ShloMosaic.Lib.Pipeline.Value
noncomputable section
open scoped BigOperators
namespace Cert.KHost
open Cert.KernelIdeal Cert.KernelIdeal.Gen Idealize.ShloMosaic Idealize.ShloMosaic.ValueIdx Idealize.ShloMosaic.SageSpec
theorem slab_cut {r : Nat} (X : Net.Stk 3 r 128) (l : Fin 3) (o : Nat) (ho : o + 128 ≤ r)
    (hs : (⟨3, ![3, r, 128]⟩ : Shape).Slices ![l.val, o, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![l.val, o, 0] X hs) hc = Net.slab X l o ho := by
  funext i
  obtain ⟨p, q, rfl⟩ : ∃ (p : Fin 128) (q : Fin 128), i = ix2 p q := ⟨i 0, i 1, eq_ix2 i⟩
  rw [shapeCast_1ab_ab_apply]
  exact extractStridedSlice_apply _ _ _ _ (ix3 l ⟨o + p.val, by omega⟩ q) (fun a => by
    match a with
    | ⟨0, _⟩ => exact (Nat.add_zero _).symm
    | ⟨1, _⟩ => rfl
    | ⟨2, _⟩ => exact (Nat.zero_add _).symm)
theorem row_cut (b : Mat 3 128) (l : Fin 3)
    (hs : (⟨2, ![3, 128]⟩ : Shape).Slices ![l.val, 0] ⟨2, ![1, 128]⟩)
    (hc : (⟨2, ![1, 128]⟩ : Shape).ShapeCasts ⟨1, ![128]⟩) (hc' : (⟨1, ![128]⟩ : Shape).ShapeCasts ⟨2, ![1, 128]⟩)
    (q : Fin 128) :
    shapeCast ⟨2, ![1, 128]⟩ (shapeCast ⟨1, ![128]⟩ (extractStridedSlice ⟨2, ![1, 128]⟩ ![l.val, 0] b hs) hc) hc'
        (ix2 (0 : Fin 1) q) = Net.rowAt b l q := by
  rw [shapeCast_a_1a_apply, shapeCast_1a_a_apply]
  exact slice2_axis0_apply l.val b hs (0 : Fin 1) q l (Nat.add_zero _).symm
theorem agg_scatter (wf : ScatterDims.WF ⟨2, ![50000, 128]⟩ ⟨2, ![400000, 1]⟩ ⟨2, ![400000, 128]⟩ [1] [0] [0] 1)
    (hb0 : (⟨0, ![]⟩ : Shape).BroadcastsInDim ⟨2, ![50000, 128]⟩ ![])
    (hb1 : (⟨1, ![400000]⟩ : Shape).BroadcastsInDim ⟨2, ![400000, 1]⟩ ![0])
    (dst : IVec ⟨1, ![400000]⟩ 32) (M : Mat 400000 128) :
    Host.scatterAdd (F := Ideal) (φ := .f32) (LibRows.rowScatter 50000 400000 128 wf)
        (broadcastInDim ⟨2, ![50000, 128]⟩ ![] hb0 (constant (F := Ideal) ⟨0, ![]⟩ .f32 0x00000000#32))
        (broadcastInDim ⟨2, ![400000, 1]⟩ ![0] hb1 dst) M
      = Net.aggF (fun e => dst (ix1 e)) M := by
  funext i
  obtain ⟨n, j, rfl⟩ : ∃ (n : Fin 50000) (j : Fin 128), i = ix2 n j := ⟨i 0, i 1, eq_ix2 i⟩
  have hzero : broadcastInDim ⟨2, ![50000, 128]⟩ ![] hb0 (constant (F := Ideal) ⟨0, ![]⟩ .f32 0x00000000#32) (ix2 n j)
      = (0 : EReal) :=
    (broadcastInDim_apply _ hb0 _ _ ix0 (fun a => a.elim0)).trans Ideal.ofBits_zero_f32
  have hidx : ∀ e : Fin 400000, broadcastInDim ⟨2, ![400000, 1]⟩ ![0] hb1 dst (ix2 e (0 : Fin 1)) = dst (ix1 e) :=
    fun e => broadcastInDim_apply _ hb1 _ _ (ix1 e) (fun a => by match a with | ⟨0, _⟩ => rfl)
  rw [LibRows.host_scatterAdd_rows_apply, hzero]
  simp only [hidx]
  rfl
section
variable (W : Valuation τ sig (Elt Ideal))
theorem pre3_agg :
    (fun i => StableHlo.after (hostOps3 (F := Ideal)) W (Proc.devRef .tc main_v37) i)
      = Net.aggF (fun e => W (Proc.devRef .tc main_v11) (ix1 e)) (fun i => W (Proc.devRef .tc main_v34) i) := by
  show StableHlo.after (hostOps3 (F := Ideal)) W (Proc.devRef .tc main_v37) = _
  unfold hostOps3
  after_results
  exact agg_scatter _ _ _ _ _
theorem pre3_w1a :
    (fun i => StableHlo.after (hostOps3 (F := Ideal)) W (Proc.devRef .tc main_v40) i)
      = Net.slab (fun i => W (Proc.devRef .tc main_arg13) i) 0 0 (by omega) := by
  show StableHlo.after (hostOps3 (F := Ideal)) W (Proc.devRef .tc main_v40) = _
  unfold hostOps3
  after_results
  exact slab_cut (fun i => W (Proc.devRef .tc main_arg13) i) 0 0 (by omega) slices_S3x256x128_S1x128x128_0_0_0
    shapeCasts_S1x128x128_S128x128
theorem pre3_w1b :
    (fun i => StableHlo.after (hostOps3 (F := Ideal)) W (Proc.devRef .tc main_v43) i)
      = Net.slab (fun i => W (Proc.devRef .tc main_arg13) i) 0 128 (by omega) := by
  show StableHlo.after (hostOps3 (F := Ideal)) W (Proc.devRef .tc main_v43) = _
  unfold hostOps3
  after_results
  exact slab_cut (fun i => W (Proc.devRef .tc main_arg13) i) 0 128 (by omega) slices_S3x256x128_S1x128x128_0_128_0
    shapeCasts_S1x128x128_S128x128
theorem pre3_w2 :
    (fun i => StableHlo.after (hostOps3 (F := Ideal)) W (Proc.devRef .tc main_v46) i)
      = Net.slab (fun i => W (Proc.devRef .tc main_arg15) i) 0 0 (by omega) := by
  show StableHlo.after (hostOps3 (F := Ideal)) W (Proc.devRef .tc main_v46) = _
  unfold hostOps3
  after_results
  exact slab_cut (fun i => W (Proc.devRef .tc main_arg15) i) 0 0 (by omega) slices_S3x128x128_S1x128x128_0_0_0
    shapeCasts_S1x128x128_S128x128
theorem pre3_b1 :
    (fun q => StableHlo.after (hostOps3 (F := Ideal)) W (Proc.devRef .tc main_v51) (ix2 (0 : Fin 1) q))
      = Net.rowAt (fun i => W (Proc.devRef .tc main_arg14) i) 0 := by
  funext q
  unfold hostOps3; after_results; exact row_cut _ 0 _ _ _ q
theorem pre3_b2 :
    (fun q => StableHlo.after (hostOps3 (F := Ideal)) W (Proc.devRef .tc main_v52) (ix2 (0 : Fin 1) q))
      = Net.rowAt (fun i => W (Proc.devRef .tc main_arg16) i) 0 := by
  funext q
  unfold hostOps3; after_results; exact row_cut _ 0 _ _ _ q
theorem pre5_agg :
    (fun i => StableHlo.after (hostOps5 (F := Ideal)) W (Proc.devRef .tc main_v79) i)
      = Net.aggF (fun e => W (Proc.devRef .tc main_v11) (ix1 e)) (fun i => W (Proc.devRef .tc main_v76) i) := by
  show StableHlo.after (hostOps5 (F := Ideal)) W (Proc.devRef .tc main_v79) = _
  unfold hostOps5
  after_results
  exact agg_scatter _ _ _ _ _
theorem pre5_w1a :
    (fun i => StableHlo.after (hostOps5 (F := Ideal)) W (Proc.devRef .tc main_v82) i)
      = Net.slab (fun i => W (Proc.devRef .tc main_arg13) i) 1 0 (by omega) := by
  show StableHlo.after (hostOps5 (F := Ideal)) W (Proc.devRef .tc main_v82) = _
  unfold hostOps5
  after_results
  exact slab_cut (fun i => W (Proc.devRef .tc main_arg13) i) 1 0 (by omega) slices_S3x256x128_S1x128x128_1_0_0
    shapeCasts_S1x128x128_S128x128
theorem pre5_w1b :
    (fun i => StableHlo.after (hostOps5 (F := Ideal)) W (Proc.devRef .tc main_v85) i)
      = Net.slab (fun i => W (Proc.devRef .tc main_arg13) i) 1 128 (by omega) := by
  show StableHlo.after (hostOps5 (F := Ideal)) W (Proc.devRef .tc main_v85) = _
  unfold hostOps5
  after_results
  exact slab_cut (fun i => W (Proc.devRef .tc main_arg13) i) 1 128 (by omega) slices_S3x256x128_S1x128x128_1_128_0
    shapeCasts_S1x128x128_S128x128
theorem pre5_w2 :
    (fun i => StableHlo.after (hostOps5 (F := Ideal)) W (Proc.devRef .tc main_v88) i)
      = Net.slab (fun i => W (Proc.devRef .tc main_arg15) i) 1 0 (by omega) := by
  show StableHlo.after (hostOps5 (F := Ideal)) W (Proc.devRef .tc main_v88) = _
  unfold hostOps5
  after_results
  exact slab_cut (fun i => W (Proc.devRef .tc main_arg15) i) 1 0 (by omega) slices_S3x128x128_S1x128x128_1_0_0
    shapeCasts_S1x128x128_S128x128
theorem pre5_b1 :
    (fun q => StableHlo.after (hostOps5 (F := Ideal)) W (Proc.devRef .tc main_v93) (ix2 (0 : Fin 1) q))
      = Net.rowAt (fun i => W (Proc.devRef .tc main_arg14) i) 1 := by
  funext q
  unfold hostOps5; after_results; exact row_cut _ 1 _ _ _ q
theorem pre5_b2 :
    (fun q => StableHlo.after (hostOps5 (F := Ideal)) W (Proc.devRef .tc main_v94) (ix2 (0 : Fin 1) q))
      = Net.rowAt (fun i => W (Proc.devRef .tc main_arg16) i) 1 := by
  funext q
  unfold hostOps5; after_results; exact row_cut _ 1 _ _ _ q
theorem pre7_agg :
    (fun i => StableHlo.after (hostOps7 (F := Ideal)) W (Proc.devRef .tc main_v121) i)
      = Net.aggF (fun e => W (Proc.devRef .tc main_v11) (ix1 e)) (fun i => W (Proc.devRef .tc main_v118) i) := by
  show StableHlo.after (hostOps7 (F := Ideal)) W (Proc.devRef .tc main_v121) = _
  unfold hostOps7
  after_results
  exact agg_scatter _ _ _ _ _
theorem pre7_w1a :
    (fun i => StableHlo.after (hostOps7 (F := Ideal)) W (Proc.devRef .tc main_v124) i)
      = Net.slab (fun i => W (Proc.devRef .tc main_arg13) i) 2 0 (by omega) := by
  show StableHlo.after (hostOps7 (F := Ideal)) W (Proc.devRef .tc main_v124) = _
  unfold hostOps7
  after_results
  exact slab_cut (fun i => W (Proc.devRef .tc main_arg13) i) 2 0 (by omega) slices_S3x256x128_S1x128x128_2_0_0
    shapeCasts_S1x128x128_S128x128
theorem pre7_w1b :
    (fun i => StableHlo.after (hostOps7 (F := Ideal)) W (Proc.devRef .tc main_v127) i)
      = Net.slab (fun i => W (Proc.devRef .tc main_arg13) i) 2 128 (by omega) := by
  show StableHlo.after (hostOps7 (F := Ideal)) W (Proc.devRef .tc main_v127) = _
  unfold hostOps7
  after_results
  exact slab_cut (fun i => W (Proc.devRef .tc main_arg13) i) 2 128 (by omega) slices_S3x256x128_S1x128x128_2_128_0
    shapeCasts_S1x128x128_S128x128
theorem pre7_w2 :
    (fun i => StableHlo.after (hostOps7 (F := Ideal)) W (Proc.devRef .tc main_v130) i)
      = Net.slab (fun i => W (Proc.devRef .tc main_arg15) i) 2 0 (by omega) := by
  show StableHlo.after (hostOps7 (F := Ideal)) W (Proc.devRef .tc main_v130) = _
  unfold hostOps7
  after_results
  exact slab_cut (fun i => W (Proc.devRef .tc main_arg15) i) 2 0 (by omega) slices_S3x128x128_S1x128x128_2_0_0
    shapeCasts_S1x128x128_S128x128
theorem pre7_b1 :
    (fun q => StableHlo.after (hostOps7 (F := Ideal)) W (Proc.devRef .tc main_v135) (ix2 (0 : Fin 1) q))
      = Net.rowAt (fun i => W (Proc.devRef .tc main_arg14) i) 2 := by
  funext q
  unfold hostOps7; after_results; exact row_cut _ 2 _ _ _ q
theorem pre7_b2 :
    (fun q => StableHlo.after (hostOps7 (F := Ideal)) W (Proc.devRef .tc main_v136) (ix2 (0 : Fin 1) q))
      = Net.rowAt (fun i => W (Proc.devRef .tc main_arg16) i) 2 := by
  funext q
  unfold hostOps7; after_results; exact row_cut _ 2 _ _ _ q
end
end Cert.KHost
end
-- ==== Proof.EdgeBody.lean ====
import proofs.«418781_j85873576116382_1_alg».proof.Proof.Gen.KernelIdeal.Frame
import proofs.«418781_j85873576116382_1_alg».proof.Proof.Spec
import Idealize.ShloMosaic.Lib.ValueLayout

noncomputable section

namespace Cert.KVal

open Cert.KernelIdeal Cert.KernelIdeal.Gen Cert.Spec
open Idealize.ShloMosaic Idealize.ShloMosaic.TcCoe Idealize.ShloMosaic.ValueIdx Idealize.ShloMosaic.SageSpec
open Idealize.SL.Sem

-- One contracted axis of extent 128: the left operand is read at (row, κ), the right at (κ, column).
theorem edge_plain : PlainDot dot_S4000x128_S128x128_S4000x128_1_0_0_1_n_n where
  rank := rfl
  size := fun _ => rfl
  l0 := fun _ _ => rfl
  l1 := fun i q _ => dot_S4000x128_S128x128_S4000x128_1_0_0_1_n_n.lhsIdx_val_of_single rfl i q
  r0 := fun i q _ => dot_S4000x128_S128x128_S4000x128_1_0_0_1_n_n.rhsIdx_val_of_single rfl i q
  r1 := fun _ _ => rfl

-- The body's value is the edge map of its nine operand blocks: at the extended reals a change of float format is the identity.
theorem edge_payload (x0 x1 x2 : FVec Ideal S4000x128 .bf16) (x3 x4 x5 : FVec Ideal S128x128 .bf16)
    (x6 : FVec Ideal S1x128 .f32) (x7 : FVec Ideal S128x128 .bf16) (x8 : FVec Ideal S1x128 .f32) :
    k2_pay1 (F := Ideal) x0 x1 x2 x3 x4 x5 x6 x7 x8
      = edgeF (fun i => x0 i) (fun i => x1 i) (fun i => x2 i) (fun i => x3 i) (fun i => x4 i) (fun i => x5 i)
          (fun q => x6 (ix2 0 q)) (fun i => x7 i) (fun q => x8 (ix2 0 q)) := by
  funext y
  obtain ⟨p, q, rfl⟩ : ∃ (p : Fin 4000) (q : Fin 128), y = ix2 p q := ⟨y 0, y 1, eq_ix2 y⟩
  unfold k2_pay1
  simp only [shapeCast_self, matmul]
  rw [addf_apply, matmul_zero_at edge_plain, broadcastTo_1b_ab_apply]
  show rowDot _ _ p q + x8 (ix2 0 q) = rowDot _ _ p q + x8 (ix2 0 q)
  refine congrArg (· + x8 (ix2 0 q)) (rowDot_row _ _ _ p p (fun j => ?_) q)
  show (truncf (F := Ideal) .bf16 _ _ : FVec Ideal S4000x128 .bf16) (ix2 p j) = max (rowDot _ _ p j + rowDot _ _ p j + rowDot _ _ p j + x6 (ix2 0 j)) 0
  rw [truncf_apply, maximumf_apply, addf_apply, addf_apply, addf_apply, matmul_zero_at edge_plain,
    matmul_zero_at edge_plain, matmul_zero_at edge_plain, broadcastTo_1b_ab_apply, broadcast_apply]
  show max _ (Ideal.ofBits .f32 0x00000000#32) = _
  rw [Ideal.ofBits_zero_f32]

-- The block index of the row-indexed windows at point t is (t, 0).
theorem edge_idx : ∀ t : Fin grid2.N, win2_9.index t (0 : Fin 2) = t.val ∧ win2_9.index t (1 : Fin 2) = 0 := by
  decide +kernel

section
variable (A0 A1 A2 : Mat 400000 128) (A3 A4 A5 A7 : Mat 128 128) (A6 A8 : Mat 1 128)

-- Block t of the edge map is the body's value on the blocks at t: block t of a row-indexed array sits 4000 t rows down it, and the map is row-local.
theorem edge_out (t : Fin grid2.N) :
    (fun y => edgeF A0 A1 A2 A3 A4 A5 (fun q => A6 (ix2 0 q)) A7 (fun q => A8 (ix2 0 q)) ((win2_9.rect t).emb y))
      = out2_9 (F := Ideal) (fun x => A0 ((win2_9.rect t).emb x)) (fun x => A1 ((win2_9.rect t).emb x))
        (fun x => A2 ((win2_9.rect t).emb x)) (fun x => A3 ((win2_3.rect t).emb x)) (fun x => A4 ((win2_3.rect t).emb x))
        (fun x => A5 ((win2_3.rect t).emb x)) (fun x => A6 ((win2_6.rect t).emb x)) (fun x => A7 ((win2_3.rect t).emb x))
        (fun x => A8 ((win2_6.rect t).emb x)) := by
  symm
  have h0 : (![0, 0] : Fin 2 → Nat) = fun _ => 0 := funext (Fin.forall_fin_two.mpr ⟨rfl, rfl⟩)
  have hz : ∀ a : Fin 2, win2_3.index t a = 0 ∧ win2_6.index t a = 0 := Fin.forall_fin_two.mpr ⟨⟨rfl, rfl⟩, rfl, rfl⟩
  have e3 : ∀ x, (win2_3.rect t).emb x = x := fun x => funext fun a => Fin.ext
    (win2_3.rect_emb_val_of_index_zero t a (hz a).1 x)
  have e6 : ∀ x, (win2_6.rect t).emb x = x := fun x => funext fun a => Fin.ext
    (win2_6.rect_emb_val_of_index_zero t a (hz a).2 x)
  unfold out2_9
  rw [View.canon_unit_zero h0]
  simp only [View.ld_unit_zero (S := S4000x128) h0, View.ld_unit_zero (S := S128x128) h0,
    View.ld_unit_zero (S := S1x128) h0, e3, e6]
  funext y
  obtain ⟨p, q, rfl⟩ : ∃ (p : Fin 4000) (q : Fin 128), y = ix2 p q := ⟨y 0, y 1, eq_ix2 y⟩
  have he : ∀ j : Fin 128, (win2_9.rect t).emb (ix2 p j) = ix2 ((win2_9.rect t).emb (ix2 p q) 0) j := fun j =>
    funext fun a => Fin.ext (by
      match a with
      | ⟨0, _⟩ => rfl
      | ⟨1, _⟩ => exact win2_9.rect_emb_val_of_index_zero t 1 (edge_idx t).2 _)
  rw [edge_payload, he q]
  exact edgeF_row A0 A1 A2 _ _ _ A3 A4 A5 _ A7 _ _ p (fun j => congrArg A0 (he j)) (fun j => congrArg A1 (he j))
    (fun j => congrArg A2 (he j)) q

end

-- Row r lies in block r / 4000.
theorem edge_cover (i : S400000x128.Idx) : ∃ t : Fin grid2.N, i ∈ (win2_9.rect t).set := by
  have h0 : (i 0).val < 400000 := (i 0).isLt
  have h1 : (i 1).val < 128 := (i 1).isLt
  refine ⟨⟨(i 0).val / 4000, by rw [N_2]; omega⟩, Rect.mem_set_unit.mpr (Fin.forall_fin_two.mpr ⟨?_, ?_⟩)⟩
  · rw [(edge_idx _).1]; show _ / 4000 * 4000 ≤ _ ∧ _ < _ / 4000 * 4000 + 4000; omega
  · rw [(edge_idx _).2]; show 0 * 128 ≤ _ ∧ _ < 0 * 128 + 128; omega

end Cert.KVal

end
-- ==== Proof.RegEdge2.lean ====
import proofs.«418781_j85873576116382_1_alg».proof.Proof.EdgeBody

noncomputable section

namespace Cert.KVal

open Cert.KernelIdeal Cert.KernelIdeal.Gen Cert.Spec
open Idealize.ShloMosaic Idealize.ShloMosaic.TcCoe Idealize.ShloMosaic.ValueIdx Idealize.ShloMosaic.SageSpec
open Idealize.SL.Sem

variable (V : (c : Dev nD) → (b : Ref sig .tc) → Buf (Elt Ideal) ((c : Thread nD τ).loc b))

-- The edge map of the region's nine input arrays.
abbrev edge2_G (c : Dev nD) : S400000x128.Idx → EReal :=
  edgeF (V c (Pipeline.arrRef spec2 0) : S400000x128.Idx → EReal) (V c (Pipeline.arrRef spec2 1) : S400000x128.Idx → EReal)
    (V c (Pipeline.arrRef spec2 2) : S400000x128.Idx → EReal) (V c (Pipeline.arrRef spec2 3) : S128x128.Idx → EReal)
    (V c (Pipeline.arrRef spec2 4) : S128x128.Idx → EReal) (V c (Pipeline.arrRef spec2 5) : S128x128.Idx → EReal)
    (fun q => (V c (Pipeline.arrRef spec2 6) : S1x128.Idx → EReal) (ix2 (0 : Fin 1) q)) (V c (Pipeline.arrRef spec2 7) : S128x128.Idx → EReal)
    (fun q => (V c (Pipeline.arrRef spec2 8) : S1x128.Idx → EReal) (ix2 (0 : Fin 1) q))

-- Point t's block of the result is block t of the edge map, and the hundred blocks cover the result.
theorem edge2_final (c : Dev nD) : (dat2 (F := Ideal) V c).arrAt 9 cfg2.N = edge2_G V c :=
  (dat2 (F := Ideal) V c).arrAt_eq_of_cover 9 _
    (fun t _ => (congrArg ((cfg2.win 9).cut (grid2.coords t)) (after2_9 V c t)).trans (edge_out _ _ _ _ _ _ _ _ _ t).symm)
    fun i => (edge_cover i).imp fun t h =>
      ⟨flush2_9 t, (Finset.ext_iff.mp (View.set_slice_whole (Pipeline.arrRef spec2 9) (win2_9.rect t)) i).mpr h⟩

theorem reg2_value (c : Dev nD) (i : S400000x128.Idx) :
    (dat2 (F := Ideal) V c).arrAt 9 cfg2.N i
      = edgeF (V c (Pipeline.arrRef spec2 0) : S400000x128.Idx → EReal) (V c (Pipeline.arrRef spec2 1) : S400000x128.Idx → EReal)
          (V c (Pipeline.arrRef spec2 2) : S400000x128.Idx → EReal) (V c (Pipeline.arrRef spec2 3) : S128x128.Idx → EReal)
          (V c (Pipeline.arrRef spec2 4) : S128x128.Idx → EReal) (V c (Pipeline.arrRef spec2 5) : S128x128.Idx → EReal)
          (fun q => (V c (Pipeline.arrRef spec2 6) : S1x128.Idx → EReal) (ix2 (0 : Fin 1) q)) (V c (Pipeline.arrRef spec2 7) : S128x128.Idx → EReal)
          (fun q => (V c (Pipeline.arrRef spec2 8) : S1x128.Idx → EReal) (ix2 (0 : Fin 1) q)) i :=
  congrFun (edge2_final V c) i

end Cert.KVal

end
-- ==== Proof.RegNodeBody.lean ====
import proofs.«418781_j85873576116382_1_alg».proof.Proof.Gen.KernelIdeal.Frame
import proofs.«418781_j85873576116382_1_alg».proof.Proof.Spec
import proofs.«418781_j85873576116382_1_alg».proof.Proof.RegRows
import Idealize.ShloMosaic.Lib.Pipeline.Value
import Idealize.ShloMosaic.Lib.ValueIdx
import Idealize.ShloMosaic.Lib.ValueLayout
import Idealize.ShloMosaic.PureOps.Ideal.Laws

noncomputable section

namespace Cert.KVal

open Cert.KernelIdeal Cert.KernelIdeal.Gen Idealize.ShloMosaic Idealize.ShloMosaic.TcCoe Idealize.SL.Sem
open Idealize.ShloMosaic.ValueIdx Idealize.ShloMosaic.SageSpec Cert.Spec
open Idealize.ShloMosaic.Pipeline (Dat)

theorem plainDotN : PlainDot dot_S5000x128_S128x128_S5000x128_1_0_0_1_n_n :=
  ⟨rfl, fun _ => rfl, fun _ _ => rfl,
    fun i q _ => DotDims.lhsIdx_val_of_single (d := dot_S5000x128_S128x128_S5000x128_1_0_0_1_n_n) (cl := 1) rfl i q,
    fun i q _ => DotDims.rhsIdx_val_of_single (d := dot_S5000x128_S128x128_S5000x128_1_0_0_1_n_n) (cr := 0) rfl i q,
    fun _ _ => rfl⟩

theorem mmN_at (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = rowDot (fun i => a i) (fun i => w i) p q :=
  matmul_zero_at plainDotN none a w (ix2 p q)

theorem hidN_at (x0 x1 : FVec Ideal S5000x128 .f32) (x2 x3 : FVec Ideal S128x128 .bf16) (x4 : FVec Ideal S1x128 .f32)
    (hlt : FTy.bits .bf16 < FTy.bits .f32) (hb : S1x128.Broadcasts S5000x128) (p : Fin 5000) (k : Fin 128) :
    maximumf (addf (addf (matmul dot_S5000x128_S128x128_S5000x128_1_0_0_1_n_n none (truncf .bf16 x0 hlt) x2 (constant (F := Ideal) S5000x128 .f32 0x00000000#32))
        (matmul dot_S5000x128_S128x128_S5000x128_1_0_0_1_n_n none (truncf .bf16 x1 hlt) x3 (constant (F := Ideal) S5000x128 .f32 0x00000000#32)))
        (broadcastTo S5000x128 x4 hb)) (broadcast S5000x128 (Scalar.ofBits (F := Ideal) .f32 0x00000000#32)) (ix2 p k)
      = nodeHid x0 x1 x2 x3 (fun q => x4 (ix2 (0 : Fin 1) q)) (ix2 p k) := by
  rw [maximumf_apply, addf_apply, addf_apply, mmN_at, mmN_at, broadcastTo_1b_ab_apply, broadcast_apply]
  show max _ (Ideal.ofBits .f32 0x00000000#32) = max _ 0
  rw [Ideal.ofBits_zero_f32]
  rfl

-- the body's result at (p, q) is the node map of its loaded blocks there
theorem payN_at (x0 x1 : FVec Ideal S5000x128 .f32) (x2 x3 : FVec Ideal S128x128 .bf16) (x4 : FVec Ideal S1x128 .f32)
    (x5 : FVec Ideal S128x128 .bf16) (x6 : FVec Ideal S1x128 .f32) (p : Fin 5000) (q : Fin 128) :
    k3_pay1 (F := Ideal) x0 x1 x2 x3 x4 x5 x6 (ix2 p q)
      = nodeF x0 x1 x2 x3 (fun q => x4 (ix2 (0 : Fin 1) q)) x5 (fun q => x6 (ix2 (0 : Fin 1) q)) (ix2 p q) := by
  unfold k3_pay1
  simp only [shapeCast_self]
  rw [addf_apply, addf_apply, mmN_at, broadcastTo_1b_ab_apply]
  exact congrArg (fun z => x0 (ix2 p q) + (z + x6 (ix2 (0 : Fin 1) q)))
    (rowDot_row _ _ _ p p (fun k => hidN_at x0 x1 x2 x3 x4 _ _ p k) q)

-- what the body leaves, on blocks that are rows of two arrays and the whole of five: the node map of the arrays
theorem outN_at (A0 A1 : Mat 50000 128) (A2 A3 : Mat 128 128) (A4 : Mat 1 128) (A5 : Mat 128 128) (A6 : Mat 1 128)
    (x0 x1 : FVec Ideal S5000x128 .f32) (x2 x3 : FVec Ideal S128x128 .bf16) (x4 : FVec Ideal S1x128 .f32)
    (x5 : FVec Ideal S128x128 .bf16) (x6 : FVec Ideal S1x128 .f32) (y : S5000x128.Idx) (i : S50000x128.Idx)
    (hq : (i 1).val = (y 1).val)
    (h0 : ∀ k : Fin 128, x0 (ix2 (y 0) k) = A0 (ix2 (i 0) k)) (h1 : ∀ k : Fin 128, x1 (ix2 (y 0) k) = A1 (ix2 (i 0) k))
    (h2 : x2 = A2) (h3 : x3 = A3) (h4 : x4 = A4) (h5 : x5 = A5) (h6 : x6 = A6) :
    out3_7 (F := Ideal) x0 x1 x2 x3 x4 x5 x6 y
      = nodeF A0 A1 A2 A3 (fun q => A4 (ix2 (0 : Fin 1) q)) A5 (fun q => A6 (ix2 (0 : Fin 1) q)) i := by
  subst h2 h3 h4 h5 h6
  unfold out3_7
  rw [View.canon_unit_zero Rows.zero_off]
  simp only [View.ld_unit_zero (S := S5000x128) Rows.zero_off, View.ld_unit_zero (S := S128x128) Rows.zero_off,
    View.ld_unit_zero (S := S1x128) Rows.zero_off]
  obtain ⟨p', q, rfl⟩ : ∃ (p' : Fin 5000) (q : Fin 128), y = ix2 p' q := ⟨y 0, y 1, eq_ix2 y⟩
  obtain ⟨p, q', rfl⟩ : ∃ (p : Fin 50000) (q' : Fin 128), i = ix2 p q' := ⟨i 0, i 1, eq_ix2 i⟩
  obtain rfl : q = q' := (Fin.ext hq).symm
  exact (payN_at x0 x1 x2 x3 x4 x5 x6 p' q).trans
    (nodeF_row A0 A1 x0 x1 x2 x3 (fun q => x4 (ix2 (0 : Fin 1) q)) x5 (fun q => x6 (ix2 (0 : Fin 1) q)) p p' h0 h1 q)

-- the row-block index at point t is t; the three node regions share this index map
theorem rowIdxN : ∀ t : Fin grid3.N, win3_0.index t 0 = t.val := by decide +kernel

end Cert.KVal

end
-- ==== Proof.RegNode3.lean ====
import proofs.«418781_j85873576116382_1_alg».proof.Proof.RegNodeBody

noncomputable section

namespace Cert.KVal

open Cert.KernelIdeal Cert.KernelIdeal.Gen Idealize.ShloMosaic Idealize.ShloMosaic.TcCoe Idealize.SL.Sem
open Idealize.ShloMosaic.ValueIdx Idealize.ShloMosaic.SageSpec Cert.Spec
open Idealize.ShloMosaic.Pipeline (Dat)

variable (V : (c : Dev nD) → (b : Ref sig .tc) → Buf (Elt Ideal) ((c : Thread nD τ).loc b))

-- row r lies in the block of point r / 5000
theorem coverR3 (i : S50000x128.Idx) :
    ∃ t : Fin cfg3.N, (cfg3.win 7).flush t = true ∧ i ∈ ((cfg3.win 7).blk t).view.set := by
  have h : (i 0).val < 50000 := (i 0).isLt
  have ht : (i 0).val / 5000 < grid3.N := by rw [N_3]; omega
  refine ⟨⟨_, ht⟩, flush3_7 _, ?_⟩
  show i ∈ ((View.whole (Pipeline.arrRef spec3 7)).slice (win3_7.rect ⟨_, ht⟩)).set
  rw [View.set_slice_whole]
  exact Rows.mem_block i (by decide : 0 < 5000) (congrArg (· * 5000) (rowIdxN ⟨_, ht⟩)) rfl (le_refl _)

-- the node map of the arrays as the region finds them
abbrev GR3 (c : Dev nD) : Mat 50000 128 :=
  nodeF (V c (Pipeline.arrRef spec3 0)) (V c (Pipeline.arrRef spec3 1)) (V c (Pipeline.arrRef spec3 2))
    (V c (Pipeline.arrRef spec3 3)) (fun q => (V c (Pipeline.arrRef spec3 4) : Mat 1 128) (ix2 (0 : Fin 1) q))
    (V c (Pipeline.arrRef spec3 5)) (fun q => (V c (Pipeline.arrRef spec3 6) : Mat 1 128) (ix2 (0 : Fin 1) q))

-- a block at index (0, 0) of the array's own size is the array
theorem wholeR3 (c : Dev nD) (t : Fin cfg3.N) :
    iblk3 (F := Ideal) V c 2 t = V c (Pipeline.arrRef spec3 2) ∧ iblk3 (F := Ideal) V c 3 t = V c (Pipeline.arrRef spec3 3)
    ∧ iblk3 (F := Ideal) V c 4 t = V c (Pipeline.arrRef spec3 4) ∧ iblk3 (F := Ideal) V c 5 t = V c (Pipeline.arrRef spec3 5)
    ∧ iblk3 (F := Ideal) V c 6 t = V c (Pipeline.arrRef spec3 6) :=
  ⟨View.ld_unit_zero (S := S128x128) (Rows.zero_idx _) _ _, View.ld_unit_zero (S := S128x128) (Rows.zero_idx _) _ _,
    View.ld_unit_zero (S := S1x128) (Rows.zero_idx _) _ _, View.ld_unit_zero (S := S128x128) (Rows.zero_idx _) _ _,
    View.ld_unit_zero (S := S1x128) (Rows.zero_idx _) _ _⟩

-- at point t the result block is block t of the node map of the arrays
theorem flushedR3 (c : Dev nD) (t : Fin cfg3.N) :
    (dat3 (F := Ideal) V c).flushed 7 t = ((cfg3.win 7).blk t).view.read (Elt Ideal) (GR3 V c) := by
  show (cfg3.win 7).cut (grid3.coords t) ((dat3 (F := Ideal) V c).after 7 t) = _
  rw [after3_7]
  funext j
  obtain ⟨h2, h3, h4, h5, h6⟩ := wholeR3 V c t
  exact outN_at _ _ _ _ _ _ _ _ _ _ _ _ _ _ ((cfg3.win 7).xinj (grid3.coords t) j) (((cfg3.win 7).blk t).view.emb j)
    (win3_7.rect_emb_val_of_index_zero t (1 : Fin 2) rfl j)
    (fun k => congrArg (V c (Pipeline.arrRef spec3 0) : Mat 50000 128) (Shape.idx_ext₂
      ((win3_0.rect_emb_val t _ (0 : Fin 2)).trans (win3_7.rect_emb_val t j (0 : Fin 2)).symm)
      (win3_0.rect_emb_val_of_index_zero t (1 : Fin 2) rfl _)))
    (fun k => congrArg (V c (Pipeline.arrRef spec3 1) : Mat 50000 128) (Shape.idx_ext₂
      ((win3_1.rect_emb_val t _ (0 : Fin 2)).trans (win3_7.rect_emb_val t j (0 : Fin 2)).symm)
      (win3_1.rect_emb_val_of_index_zero t (1 : Fin 2) rfl _)))
    h2 h3 h4 h5 h6

theorem reg3_value (c : Dev nD) (i : S50000x128.Idx) :
    (dat3 (F := Ideal) V c).arrAt 7 cfg3.N i
      = nodeF (V c (Pipeline.arrRef spec3 0) : Mat 50000 128) (V c (Pipeline.arrRef spec3 1) : Mat 50000 128)
          (V c (Pipeline.arrRef spec3 2) : Mat 128 128) (V c (Pipeline.arrRef spec3 3) : Mat 128 128)
          (fun q => (V c (Pipeline.arrRef spec3 4) : Mat 1 128) (ix2 (0 : Fin 1) q))
          (V c (Pipeline.arrRef spec3 5) : Mat 128 128)
          (fun q => (V c (Pipeline.arrRef spec3 6) : Mat 1 128) (ix2 (0 : Fin 1) q)) i :=
  congrFun ((dat3 (F := Ideal) V c).arrAt_eq_of_cover 7 (GR3 V c) (fun t _ => flushedR3 V c t) coverR3) i

end Cert.KVal

end
-- ==== Proof.KLayer0.lean ====
import proofs.«418781_j85873576116382_1_alg».proof.Proof.Gen.KernelIdeal.Frame
import proofs.«418781_j85873576116382_1_alg».proof.Proof.KKeep
import proofs.«418781_j85873576116382_1_alg».proof.Proof.KCongr
import proofs.«418781_j85873576116382_1_alg».proof.Proof.KSmall
import proofs.«418781_j85873576116382_1_alg».proof.Proof.KTake
import proofs.«418781_j85873576116382_1_alg».proof.Proof.KPreEdge
import proofs.«418781_j85873576116382_1_alg».proof.Proof.KPreNode
import proofs.«418781_j85873576116382_1_alg».proof.Proof.RegEdge2
import proofs.«418781_j85873576116382_1_alg».proof.Proof.RegNode3
set_option maxRecDepth 16384
noncomputable section
namespace Cert.KChain
open Cert.KernelIdeal Cert.KernelIdeal.Gen Idealize.ShloMosaic Idealize.ShloMosaic.TcCoe Idealize.ShloMosaic.ValueIdx
open Idealize.ShloMosaic.SageSpec Cert.Spec Cert.Net
variable (m : (ℓ : Loc nD τ sig) → Buf (Elt Ideal) ℓ) (ρ : Dev nD → PrngReg) (c : Dev nD)
section
variable (H : Mat 50000 128) (Ee : Mat 400000 128) (ei : IVec ⟨2, ![2, 400000]⟩ 32)
  (mW1 : Stk 3 384 128) (mb1 : Mat 3 128) (mW2 : Stk 3 128 128) (mb2 : Mat 3 128)
  (uW1 : Stk 3 256 128) (ub1 : Mat 3 128) (uW2 : Stk 3 128 128) (ub2 : Mat 3 128)
  (hH : (W5 m ρ c (Proc.devRef .tc main_v1) : Mat 50000 128) = H)
  (hE : (W5 m ρ c (Proc.devRef .tc main_v3) : Mat 400000 128) = Ee)
  (hs : ∀ e : Fin 400000, (W5 m ρ c (Proc.devRef .tc main_v9) (ix1 e) : BitVec 32) = srcV ei e)
  (hd : ∀ e : Fin 400000, (W5 m ρ c (Proc.devRef .tc main_v11) (ix1 e) : BitVec 32) = dstV ei e)
  (hr : ∀ i, -50000 ≤ (ei i).toInt ∧ (ei i).toInt < 50000)
  (h9 : (W8 m ρ c (Proc.devRef .tc main_arg9) : Stk 3 384 128) = mW1)
  (h10 : (W8 m ρ c (Proc.devRef .tc main_arg10) : Mat 3 128) = mb1)
  (h11 : (W8 m ρ c (Proc.devRef .tc main_arg11) : Stk 3 128 128) = mW2)
  (h12 : (W8 m ρ c (Proc.devRef .tc main_arg12) : Mat 3 128) = mb2)
  (h13 : (W10 m ρ c (Proc.devRef .tc main_arg13) : Stk 3 256 128) = uW1)
  (h14 : (W10 m ρ c (Proc.devRef .tc main_arg14) : Mat 3 128) = ub1)
  (h15 : (W10 m ρ c (Proc.devRef .tc main_arg15) : Stk 3 128 128) = uW2)
  (h16 : (W10 m ρ c (Proc.devRef .tc main_arg16) : Mat 3 128) = ub2)
include hH hd hr in
theorem layer0_hd : (W9 m ρ c (Proc.devRef .tc main_v13) : Mat 400000 128) = rowsAt H (dstV ei) := by
  funext i
  obtain ⟨e, j, rfl⟩ : ∃ (e : Fin 400000) (j : Fin 128), i = ix2 e j := ⟨i 0, i 1, eq_ix2 i⟩
  have hr' : ∀ e : Fin 400000, -50000 ≤ (W5 m ρ c (Proc.devRef .tc main_v11) (ix1 e) : BitVec 32).toInt
      ∧ (W5 m ρ c (Proc.devRef .tc main_v11) (ix1 e) : BitVec 32).toInt < 50000 := fun e => by
    rw [hd e]; exact hr _
  calc (W9 m ρ c (Proc.devRef .tc main_v13) : Mat 400000 128) (ix2 e j)
      = (W7 m ρ c (Proc.devRef .tc main_v13) : Mat 400000 128) (ix2 e j) := by rw [KKeep.keep_main_v13_7_9 m ρ c]
    _ = (W6 m ρ c (Proc.devRef .tc main_v12) : Mat 400000 128) (ix2 e j) := KHost.hostOps2_2_v13 (W6 m ρ c) (ix2 e j)
    _ = (W5 m ρ c (Proc.devRef .tc main_v1) : Mat 50000 128)
          (ix2 (nodeOf (W5 m ρ c (Proc.devRef .tc main_v11) (ix1 e))) j) := KHost.take0 (W5 m ρ c) hr' e j
    _ = H (ix2 (nodeOf (dstV ei e)) j) := by rw [hd e, hH]
    _ = rowsAt H (dstV ei) (ix2 e j) := rfl
include hH hs hr in
theorem layer0_hs : (W9 m ρ c (Proc.devRef .tc main_v15) : Mat 400000 128) = rowsAt H (srcV ei) := by
  funext i
  obtain ⟨e, j, rfl⟩ : ∃ (e : Fin 400000) (j : Fin 128), i = ix2 e j := ⟨i 0, i 1, eq_ix2 i⟩
  have hs2 : ∀ e : Fin 400000, (W7 m ρ c (Proc.devRef .tc main_v9) (ix1 e) : BitVec 32) = srcV ei e := fun e => by
    rw [KKeep.keep_main_v9_5_7 m ρ c]; exact hs e
  have hr' : ∀ e : Fin 400000, -50000 ≤ (W7 m ρ c (Proc.devRef .tc main_v9) (ix1 e) : BitVec 32).toInt
      ∧ (W7 m ρ c (Proc.devRef .tc main_v9) (ix1 e) : BitVec 32).toInt < 50000 := fun e => by
    rw [hs2 e]; exact hr _
  have hH2 : (W7 m ρ c (Proc.devRef .tc main_v1) : Mat 50000 128) = H := by
    rw [KKeep.keep_main_v1_5_7 m ρ c]; exact hH
  calc (W9 m ρ c (Proc.devRef .tc main_v15) : Mat 400000 128) (ix2 e j)
      = (W8 m ρ c (Proc.devRef .tc main_v14) : Mat 400000 128) (ix2 e j) := congrFun (KHost.pre2_x (W8 m ρ c)) (ix2 e j)
    _ = (W7 m ρ c (Proc.devRef .tc main_v1) : Mat 50000 128)
          (ix2 (nodeOf (W7 m ρ c (Proc.devRef .tc main_v9) (ix1 e))) j) := KHost.take1 (W7 m ρ c) hr' e j
    _ = H (ix2 (nodeOf (srcV ei e)) j) := by rw [hs2 e, hH2]
    _ = rowsAt H (srcV ei) (ix2 e j) := rfl
include hH hE hs hd hr h9 h10 h11 h12 in
theorem layer0_msg : (W10 m ρ c (Proc.devRef .tc main_v34) : Mat 400000 128)
    = edgeF (rowsAt H (dstV ei)) (rowsAt H (srcV ei)) Ee (slab mW1 0 0 (by omega)) (slab mW1 0 128 (by omega))
        (slab mW1 0 256 (by omega)) (rowAt mb1 0) (slab mW2 0 0 (by omega)) (rowAt mb2 0) := by
  funext i
  have harr : (W10 m ρ c (Proc.devRef .tc main_v34) : Mat 400000 128)
      = (dat2 (F := Ideal) (V9 m ρ) c).arrAt 9 cfg2.N := W10_arr m ρ c 9
  have e2 : (W9 m ρ c (Proc.devRef .tc main_v3) : Mat 400000 128) = Ee := by
    rw [KKeep.keep_main_v3_5_9 m ρ c]; exact hE
  have e3 : (W9 m ρ c (Proc.devRef .tc main_v18) : Mat 128 128) = slab mW1 0 0 (by omega) :=
    (KHost.pre2_w1a (W8 m ρ c)).trans (slab_congr h9 0 0 (by omega))
  have e4 : (W9 m ρ c (Proc.devRef .tc main_v21) : Mat 128 128) = slab mW1 0 128 (by omega) :=
    (KHost.pre2_w1b (W8 m ρ c)).trans (slab_congr h9 0 128 (by omega))
  have e5 : (W9 m ρ c (Proc.devRef .tc main_v24) : Mat 128 128) = slab mW1 0 256 (by omega) :=
    (KHost.pre2_w1c (W8 m ρ c)).trans (slab_congr h9 0 256 (by omega))
  have e6 : (fun q : Fin 128 => (W9 m ρ c (Proc.devRef .tc main_v32) : Mat 1 128) (ix2 (0 : Fin 1) q)) = rowAt mb1 0 :=
    (KHost.pre2_b1_fun (W8 m ρ c)).trans (rowAt_congr h10 0)
  have e7 : (W9 m ρ c (Proc.devRef .tc main_v29) : Mat 128 128) = slab mW2 0 0 (by omega) :=
    (KHost.pre2_w2 (W8 m ρ c)).trans (slab_congr h11 0 0 (by omega))
  have e8 : (fun q : Fin 128 => (W9 m ρ c (Proc.devRef .tc main_v33) : Mat 1 128) (ix2 (0 : Fin 1) q)) = rowAt mb2 0 :=
    (KHost.pre2_b2_fun (W8 m ρ c)).trans (rowAt_congr h12 0)
  rw [harr]
  refine (KVal.reg2_value (V9 m ρ) c i).trans ?_
  exact edgeF_congr (layer0_hd m ρ c H ei hH hd hr) (layer0_hs m ρ c H ei hH hs hr) e2 e3 e4 e5 e6 e7 e8 i
include hH hE hs hd hr h9 h10 h11 h12 h13 h14 h15 h16 in
theorem layer0_out : (W12 m ρ c (Proc.devRef .tc main_v53) : Mat 50000 128)
    = nodeF H (aggF (dstV ei) (edgeF (rowsAt H (dstV ei)) (rowsAt H (srcV ei)) Ee (slab mW1 0 0 (by omega))
          (slab mW1 0 128 (by omega)) (slab mW1 0 256 (by omega)) (rowAt mb1 0) (slab mW2 0 0 (by omega)) (rowAt mb2 0)))
        (slab uW1 0 0 (by omega)) (slab uW1 0 128 (by omega)) (rowAt ub1 0) (slab uW2 0 0 (by omega)) (rowAt ub2 0) := by
  funext i
  have harr : (W12 m ρ c (Proc.devRef .tc main_v53) : Mat 50000 128)
      = (dat3 (F := Ideal) (V11 m ρ) c).arrAt 7 cfg3.N := W12_arr m ρ c 7
  have e0 : (W11 m ρ c (Proc.devRef .tc main_v1) : Mat 50000 128) = H := by
    rw [KKeep.keep_main_v1_5_11 m ρ c]; exact hH
  have hdst : (fun e : Fin 400000 => (W10 m ρ c (Proc.devRef .tc main_v11) (ix1 e) : BitVec 32)) = dstV ei :=
    funext fun e => by rw [KKeep.keep_main_v11_5_10 m ρ c]; exact hd e
  have e1 : (W11 m ρ c (Proc.devRef .tc main_v37) : Mat 50000 128) = aggF (dstV ei) _ :=
    (KHost.pre3_agg (W10 m ρ c)).trans
      (aggF_congr hdst (layer0_msg m ρ c H Ee ei mW1 mb1 mW2 mb2 hH hE hs hd hr h9 h10 h11 h12))
  have e2 : (W11 m ρ c (Proc.devRef .tc main_v40) : Mat 128 128) = slab uW1 0 0 (by omega) :=
    (KHost.pre3_w1a (W10 m ρ c)).trans (slab_congr h13 0 0 (by omega))
  have e3 : (W11 m ρ c (Proc.devRef .tc main_v43) : Mat 128 128) = slab uW1 0 128 (by omega) :=
    (KHost.pre3_w1b (W10 m ρ c)).trans (slab_congr h13 0 128 (by omega))
  have e4 : (fun q : Fin 128 => (W11 m ρ c (Proc.devRef .tc main_v51) : Mat 1 128) (ix2 (0 : Fin 1) q)) = rowAt ub1 0 :=
    (KHost.pre3_b1 (W10 m ρ c)).trans (rowAt_congr h14 0)
  have e5 : (W11 m ρ c (Proc.devRef .tc main_v46) : Mat 128 128) = slab uW2 0 0 (by omega) :=
    (KHost.pre3_w2 (W10 m ρ c)).trans (slab_congr h15 0 0 (by omega))
  have e6 : (fun q : Fin 128 => (W11 m ρ c (Proc.devRef .tc main_v52) : Mat 1 128) (ix2 (0 : Fin 1) q)) = rowAt ub2 0 :=
    (KHost.pre3_b2 (W10 m ρ c)).trans (rowAt_congr h16 0)
  rw [harr]
  refine (KVal.reg3_value (V11 m ρ) c i).trans ?_
  exact nodeF_congr e0 e1 e2 e3 e4 e5 e6 i
end
end Cert.KChain
end
-- ==== Proof.RegEdge4.lean ====
import proofs.«418781_j85873576116382_1_alg».proof.Proof.EdgeBody

noncomputable section

namespace Cert.KVal

open Cert.KernelIdeal Cert.KernelIdeal.Gen Cert.Spec
open Idealize.ShloMosaic Idealize.ShloMosaic.TcCoe Idealize.ShloMosaic.ValueIdx Idealize.ShloMosaic.SageSpec
open Idealize.SL.Sem

variable (V : (c : Dev nD) → (b : Ref sig .tc) → Buf (Elt Ideal) ((c : Thread nD τ).loc b))

-- The edge map of the region's nine input arrays.
abbrev edge4_G (c : Dev nD) : S400000x128.Idx → EReal :=
  edgeF (V c (Pipeline.arrRef spec4 0) : S400000x128.Idx → EReal) (V c (Pipeline.arrRef spec4 1) : S400000x128.Idx → EReal)
    (V c (Pipeline.arrRef spec4 2) : S400000x128.Idx → EReal) (V c (Pipeline.arrRef spec4 3) : S128x128.Idx → EReal)
    (V c (Pipeline.arrRef spec4 4) : S128x128.Idx → EReal) (V c (Pipeline.arrRef spec4 5) : S128x128.Idx → EReal)
    (fun q => (V c (Pipeline.arrRef spec4 6) : S1x128.Idx → EReal) (ix2 (0 : Fin 1) q)) (V c (Pipeline.arrRef spec4 7) : S128x128.Idx → EReal)
    (fun q => (V c (Pipeline.arrRef spec4 8) : S1x128.Idx → EReal) (ix2 (0 : Fin 1) q))

-- Point t's block of the result is block t of the edge map, and the hundred blocks cover the result.
theorem edge4_final (c : Dev nD) : (dat4 (F := Ideal) V c).arrAt 9 cfg4.N = edge4_G V c :=
  (dat4 (F := Ideal) V c).arrAt_eq_of_cover 9 _
    (fun t _ => (congrArg ((cfg4.win 9).cut (grid4.coords t)) (after4_9 V c t)).trans (edge_out _ _ _ _ _ _ _ _ _ t).symm)
    fun i => (edge_cover i).imp fun t h =>
      ⟨flush4_9 t, (Finset.ext_iff.mp (View.set_slice_whole (Pipeline.arrRef spec4 9) (win4_9.rect t)) i).mpr h⟩

theorem reg4_value (c : Dev nD) (i : S400000x128.Idx) :
    (dat4 (F := Ideal) V c).arrAt 9 cfg4.N i
      = edgeF (V c (Pipeline.arrRef spec4 0) : S400000x128.Idx → EReal) (V c (Pipeline.arrRef spec4 1) : S400000x128.Idx → EReal)
          (V c (Pipeline.arrRef spec4 2) : S400000x128.Idx → EReal) (V c (Pipeline.arrRef spec4 3) : S128x128.Idx → EReal)
          (V c (Pipeline.arrRef spec4 4) : S128x128.Idx → EReal) (V c (Pipeline.arrRef spec4 5) : S128x128.Idx → EReal)
          (fun q => (V c (Pipeline.arrRef spec4 6) : S1x128.Idx → EReal) (ix2 (0 : Fin 1) q)) (V c (Pipeline.arrRef spec4 7) : S128x128.Idx → EReal)
          (fun q => (V c (Pipeline.arrRef spec4 8) : S1x128.Idx → EReal) (ix2 (0 : Fin 1) q)) i :=
  congrFun (edge4_final V c) i

end Cert.KVal

end
-- ==== Proof.RegNode5.lean ====
import proofs.«418781_j85873576116382_1_alg».proof.Proof.RegNodeBody

noncomputable section

namespace Cert.KVal

open Cert.KernelIdeal Cert.KernelIdeal.Gen Idealize.ShloMosaic Idealize.ShloMosaic.TcCoe Idealize.SL.Sem
open Idealize.ShloMosaic.ValueIdx Idealize.ShloMosaic.SageSpec Cert.Spec
open Idealize.ShloMosaic.Pipeline (Dat)

variable (V : (c : Dev nD) → (b : Ref sig .tc) → Buf (Elt Ideal) ((c : Thread nD τ).loc b))

-- row r lies in the block of point r / 5000
theorem coverR5 (i : S50000x128.Idx) :
    ∃ t : Fin cfg5.N, (cfg5.win 7).flush t = true ∧ i ∈ ((cfg5.win 7).blk t).view.set := by
  have h : (i 0).val < 50000 := (i 0).isLt
  have ht : (i 0).val / 5000 < grid5.N := by rw [N_5]; omega
  refine ⟨⟨_, ht⟩, flush5_7 _, ?_⟩
  show i ∈ ((View.whole (Pipeline.arrRef spec5 7)).slice (win5_7.rect ⟨_, ht⟩)).set
  rw [View.set_slice_whole]
  exact Rows.mem_block i (by decide : 0 < 5000) (congrArg (· * 5000) (rowIdxN ⟨_, ht⟩)) rfl (le_refl _)

-- the node map of the arrays as the region finds them
abbrev GR5 (c : Dev nD) : Mat 50000 128 :=
  nodeF (V c (Pipeline.arrRef spec5 0)) (V c (Pipeline.arrRef spec5 1)) (V c (Pipeline.arrRef spec5 2))
    (V c (Pipeline.arrRef spec5 3)) (fun q => (V c (Pipeline.arrRef spec5 4) : Mat 1 128) (ix2 (0 : Fin 1) q))
    (V c (Pipeline.arrRef spec5 5)) (fun q => (V c (Pipeline.arrRef spec5 6) : Mat 1 128) (ix2 (0 : Fin 1) q))

-- a block at index (0, 0) of the array's own size is the array
theorem wholeR5 (c : Dev nD) (t : Fin cfg5.N) :
    iblk5 (F := Ideal) V c 2 t = V c (Pipeline.arrRef spec5 2) ∧ iblk5 (F := Ideal) V c 3 t = V c (Pipeline.arrRef spec5 3)
    ∧ iblk5 (F := Ideal) V c 4 t = V c (Pipeline.arrRef spec5 4) ∧ iblk5 (F := Ideal) V c 5 t = V c (Pipeline.arrRef spec5 5)
    ∧ iblk5 (F := Ideal) V c 6 t = V c (Pipeline.arrRef spec5 6) :=
  ⟨View.ld_unit_zero (S := S128x128) (Rows.zero_idx _) _ _, View.ld_unit_zero (S := S128x128) (Rows.zero_idx _) _ _,
    View.ld_unit_zero (S := S1x128) (Rows.zero_idx _) _ _, View.ld_unit_zero (S := S128x128) (Rows.zero_idx _) _ _,
    View.ld_unit_zero (S := S1x128) (Rows.zero_idx _) _ _⟩

-- at point t the result block is block t of the node map of the arrays
theorem flushedR5 (c : Dev nD) (t : Fin cfg5.N) :
    (dat5 (F := Ideal) V c).flushed 7 t = ((cfg5.win 7).blk t).view.read (Elt Ideal) (GR5 V c) := by
  show (cfg5.win 7).cut (grid5.coords t) ((dat5 (F := Ideal) V c).after 7 t) = _
  rw [after5_7]
  funext j
  obtain ⟨h2, h3, h4, h5, h6⟩ := wholeR5 V c t
  exact outN_at _ _ _ _ _ _ _ _ _ _ _ _ _ _ ((cfg5.win 7).xinj (grid5.coords t) j) (((cfg5.win 7).blk t).view.emb j)
    (win5_7.rect_emb_val_of_index_zero t (1 : Fin 2) rfl j)
    (fun k => congrArg (V c (Pipeline.arrRef spec5 0) : Mat 50000 128) (Shape.idx_ext₂
      ((win5_0.rect_emb_val t _ (0 : Fin 2)).trans (win5_7.rect_emb_val t j (0 : Fin 2)).symm)
      (win5_0.rect_emb_val_of_index_zero t (1 : Fin 2) rfl _)))
    (fun k => congrArg (V c (Pipeline.arrRef spec5 1) : Mat 50000 128) (Shape.idx_ext₂
      ((win5_1.rect_emb_val t _ (0 : Fin 2)).trans (win5_7.rect_emb_val t j (0 : Fin 2)).symm)
      (win5_1.rect_emb_val_of_index_zero t (1 : Fin 2) rfl _)))
    h2 h3 h4 h5 h6

theorem reg5_value (c : Dev nD) (i : S50000x128.Idx) :
    (dat5 (F := Ideal) V c).arrAt 7 cfg5.N i
      = nodeF (V c (Pipeline.arrRef spec5 0) : Mat 50000 128) (V c (Pipeline.arrRef spec5 1) : Mat 50000 128)
          (V c (Pipeline.arrRef spec5 2) : Mat 128 128) (V c (Pipeline.arrRef spec5 3) : Mat 128 128)
          (fun q => (V c (Pipeline.arrRef spec5 4) : Mat 1 128) (ix2 (0 : Fin 1) q))
          (V c (Pipeline.arrRef spec5 5) : Mat 128 128)
          (fun q => (V c (Pipeline.arrRef spec5 6) : Mat 1 128) (ix2 (0 : Fin 1) q)) i :=
  congrFun ((dat5 (F := Ideal) V c).arrAt_eq_of_cover 7 (GR5 V c) (fun t _ => flushedR5 V c t) coverR5) i

end Cert.KVal

end
-- ==== Proof.KLayer1.lean ====
import proofs.«418781_j85873576116382_1_alg».proof.Proof.Gen.KernelIdeal.Frame
import proofs.«418781_j85873576116382_1_alg».proof.Proof.KKeep
import proofs.«418781_j85873576116382_1_alg».proof.Proof.KCongr
import proofs.«418781_j85873576116382_1_alg».proof.Proof.KSmall
import proofs.«418781_j85873576116382_1_alg».proof.Proof.KTake
import proofs.«418781_j85873576116382_1_alg».proof.Proof.KPreEdge
import proofs.«418781_j85873576116382_1_alg».proof.Proof.KPreNode
import proofs.«418781_j85873576116382_1_alg».proof.Proof.RegEdge4
import proofs.«418781_j85873576116382_1_alg».proof.Proof.RegNode5
set_option maxRecDepth 16384
noncomputable section
namespace Cert.KChain
open Cert.KernelIdeal Cert.KernelIdeal.Gen Idealize.ShloMosaic Idealize.ShloMosaic.TcCoe Idealize.ShloMosaic.ValueIdx
open Idealize.ShloMosaic.SageSpec Cert.Spec Cert.Net
variable (m : (ℓ : Loc nD τ sig) → Buf (Elt Ideal) ℓ) (ρ : Dev nD → PrngReg) (c : Dev nD)
section
variable (H : Mat 50000 128) (Ee : Mat 400000 128) (ei : IVec ⟨2, ![2, 400000]⟩ 32)
  (mW1 : Stk 3 384 128) (mb1 : Mat 3 128) (mW2 : Stk 3 128 128) (mb2 : Mat 3 128)
  (uW1 : Stk 3 256 128) (ub1 : Mat 3 128) (uW2 : Stk 3 128 128) (ub2 : Mat 3 128)
  (hH : (W12 m ρ c (Proc.devRef .tc main_v53) : Mat 50000 128) = H)
  (hE : (W12 m ρ c (Proc.devRef .tc main_v3) : Mat 400000 128) = Ee)
  (hs : ∀ e : Fin 400000, (W12 m ρ c (Proc.devRef .tc main_v9) (ix1 e) : BitVec 32) = srcV ei e)
  (hd : ∀ e : Fin 400000, (W12 m ρ c (Proc.devRef .tc main_v11) (ix1 e) : BitVec 32) = dstV ei e)
  (hr : ∀ i, -50000 ≤ (ei i).toInt ∧ (ei i).toInt < 50000)
  (h9 : (W15 m ρ c (Proc.devRef .tc main_arg9) : Stk 3 384 128) = mW1)
  (h10 : (W15 m ρ c (Proc.devRef .tc main_arg10) : Mat 3 128) = mb1)
  (h11 : (W15 m ρ c (Proc.devRef .tc main_arg11) : Stk 3 128 128) = mW2)
  (h12 : (W15 m ρ c (Proc.devRef .tc main_arg12) : Mat 3 128) = mb2)
  (h13 : (W17 m ρ c (Proc.devRef .tc main_arg13) : Stk 3 256 128) = uW1)
  (h14 : (W17 m ρ c (Proc.devRef .tc main_arg14) : Mat 3 128) = ub1)
  (h15 : (W17 m ρ c (Proc.devRef .tc main_arg15) : Stk 3 128 128) = uW2)
  (h16 : (W17 m ρ c (Proc.devRef .tc main_arg16) : Mat 3 128) = ub2)
include hH hd hr in
theorem layer1_hd : (W16 m ρ c (Proc.devRef .tc main_v55) : Mat 400000 128) = rowsAt H (dstV ei) := by
  funext i
  obtain ⟨e, j, rfl⟩ : ∃ (e : Fin 400000) (j : Fin 128), i = ix2 e j := ⟨i 0, i 1, eq_ix2 i⟩
  have hr' : ∀ e : Fin 400000, -50000 ≤ (W12 m ρ c (Proc.devRef .tc main_v11) (ix1 e) : BitVec 32).toInt
      ∧ (W12 m ρ c (Proc.devRef .tc main_v11) (ix1 e) : BitVec 32).toInt < 50000 := fun e => by
    rw [hd e]; exact hr _
  calc (W16 m ρ c (Proc.devRef .tc main_v55) : Mat 400000 128) (ix2 e j)
      = (W14 m ρ c (Proc.devRef .tc main_v55) : Mat 400000 128) (ix2 e j) := by rw [KKeep.keep_main_v55_14_16 m ρ c]
    _ = (W13 m ρ c (Proc.devRef .tc main_v54) : Mat 400000 128) (ix2 e j) := KHost.hostOps4_1_v55 (W13 m ρ c) (ix2 e j)
    _ = (W12 m ρ c (Proc.devRef .tc main_v53) : Mat 50000 128)
          (ix2 (nodeOf (W12 m ρ c (Proc.devRef .tc main_v11) (ix1 e))) j) := KHost.take2 (W12 m ρ c) hr' e j
    _ = H (ix2 (nodeOf (dstV ei e)) j) := by rw [hd e, hH]
    _ = rowsAt H (dstV ei) (ix2 e j) := rfl
include hH hs hr in
theorem layer1_hs : (W16 m ρ c (Proc.devRef .tc main_v57) : Mat 400000 128) = rowsAt H (srcV ei) := by
  funext i
  obtain ⟨e, j, rfl⟩ : ∃ (e : Fin 400000) (j : Fin 128), i = ix2 e j := ⟨i 0, i 1, eq_ix2 i⟩
  have hs2 : ∀ e : Fin 400000, (W14 m ρ c (Proc.devRef .tc main_v9) (ix1 e) : BitVec 32) = srcV ei e := fun e => by
    rw [KKeep.keep_main_v9_12_14 m ρ c]; exact hs e
  have hr' : ∀ e : Fin 400000, -50000 ≤ (W14 m ρ c (Proc.devRef .tc main_v9) (ix1 e) : BitVec 32).toInt
      ∧ (W14 m ρ c (Proc.devRef .tc main_v9) (ix1 e) : BitVec 32).toInt < 50000 := fun e => by
    rw [hs2 e]; exact hr _
  have hH2 : (W14 m ρ c (Proc.devRef .tc main_v53) : Mat 50000 128) = H := by
    rw [KKeep.keep_main_v53_12_14 m ρ c]; exact hH
  calc (W16 m ρ c (Proc.devRef .tc main_v57) : Mat 400000 128) (ix2 e j)
      = (W15 m ρ c (Proc.devRef .tc main_v56) : Mat 400000 128) (ix2 e j) := congrFun (KHost.pre4_x (W15 m ρ c)) (ix2 e j)
    _ = (W14 m ρ c (Proc.devRef .tc main_v53) : Mat 50000 128)
          (ix2 (nodeOf (W14 m ρ c (Proc.devRef .tc main_v9) (ix1 e))) j) := KHost.take3 (W14 m ρ c) hr' e j
    _ = H (ix2 (nodeOf (srcV ei e)) j) := by rw [hs2 e, hH2]
    _ = rowsAt H (srcV ei) (ix2 e j) := rfl
include hH hE hs hd hr h9 h10 h11 h12 in
theorem layer1_msg : (W17 m ρ c (Proc.devRef .tc main_v76) : Mat 400000 128)
    = edgeF (rowsAt H (dstV ei)) (rowsAt H (srcV ei)) Ee (slab mW1 1 0 (by omega)) (slab mW1 1 128 (by omega))
        (slab mW1 1 256 (by omega)) (rowAt mb1 1) (slab mW2 1 0 (by omega)) (rowAt mb2 1) := by
  funext i
  have harr : (W17 m ρ c (Proc.devRef .tc main_v76) : Mat 400000 128)
      = (dat4 (F := Ideal) (V16 m ρ) c).arrAt 9 cfg4.N := W17_arr m ρ c 9
  have e2 : (W16 m ρ c (Proc.devRef .tc main_v3) : Mat 400000 128) = Ee := by
    rw [KKeep.keep_main_v3_12_16 m ρ c]; exact hE
  have e3 : (W16 m ρ c (Proc.devRef .tc main_v60) : Mat 128 128) = slab mW1 1 0 (by omega) :=
    (KHost.pre4_w1a (W15 m ρ c)).trans (slab_congr h9 1 0 (by omega))
  have e4 : (W16 m ρ c (Proc.devRef .tc main_v63) : Mat 128 128) = slab mW1 1 128 (by omega) :=
    (KHost.pre4_w1b (W15 m ρ c)).trans (slab_congr h9 1 128 (by omega))
  have e5 : (W16 m ρ c (Proc.devRef .tc main_v66) : Mat 128 128) = slab mW1 1 256 (by omega) :=
    (KHost.pre4_w1c (W15 m ρ c)).trans (slab_congr h9 1 256 (by omega))
  have e6 : (fun q : Fin 128 => (W16 m ρ c (Proc.devRef .tc main_v74) : Mat 1 128) (ix2 (0 : Fin 1) q)) = rowAt mb1 1 :=
    (KHost.pre4_b1_fun (W15 m ρ c)).trans (rowAt_congr h10 1)
  have e7 : (W16 m ρ c (Proc.devRef .tc main_v71) : Mat 128 128) = slab mW2 1 0 (by omega) :=
    (KHost.pre4_w2 (W15 m ρ c)).trans (slab_congr h11 1 0 (by omega))
  have e8 : (fun q : Fin 128 => (W16 m ρ c (Proc.devRef .tc main_v75) : Mat 1 128) (ix2 (0 : Fin 1) q)) = rowAt mb2 1 :=
    (KHost.pre4_b2_fun (W15 m ρ c)).trans (rowAt_congr h12 1)
  rw [harr]
  refine (KVal.reg4_value (V16 m ρ) c i).trans ?_
  exact edgeF_congr (layer1_hd m ρ c H ei hH hd hr) (layer1_hs m ρ c H ei hH hs hr) e2 e3 e4 e5 e6 e7 e8 i
include hH hE hs hd hr h9 h10 h11 h12 h13 h14 h15 h16 in
theorem layer1_out : (W19 m ρ c (Proc.devRef .tc main_v95) : Mat 50000 128)
    = nodeF H (aggF (dstV ei) (edgeF (rowsAt H (dstV ei)) (rowsAt H (srcV ei)) Ee (slab mW1 1 0 (by omega))
          (slab mW1 1 128 (by omega)) (slab mW1 1 256 (by omega)) (rowAt mb1 1) (slab mW2 1 0 (by omega)) (rowAt mb2 1)))
        (slab uW1 1 0 (by omega)) (slab uW1 1 128 (by omega)) (rowAt ub1 1) (slab uW2 1 0 (by omega)) (rowAt ub2 1) := by
  funext i
  have harr : (W19 m ρ c (Proc.devRef .tc main_v95) : Mat 50000 128)
      = (dat5 (F := Ideal) (V18 m ρ) c).arrAt 7 cfg5.N := W19_arr m ρ c 7
  have e0 : (W18 m ρ c (Proc.devRef .tc main_v53) : Mat 50000 128) = H := by
    rw [KKeep.keep_main_v53_12_18 m ρ c]; exact hH
  have hdst : (fun e : Fin 400000 => (W17 m ρ c (Proc.devRef .tc main_v11) (ix1 e) : BitVec 32)) = dstV ei :=
    funext fun e => by rw [KKeep.keep_main_v11_12_17 m ρ c]; exact hd e
  have e1 : (W18 m ρ c (Proc.devRef .tc main_v79) : Mat 50000 128) = aggF (dstV ei) _ :=
    (KHost.pre5_agg (W17 m ρ c)).trans
      (aggF_congr hdst (layer1_msg m ρ c H Ee ei mW1 mb1 mW2 mb2 hH hE hs hd hr h9 h10 h11 h12))
  have e2 : (W18 m ρ c (Proc.devRef .tc main_v82) : Mat 128 128) = slab uW1 1 0 (by omega) :=
    (KHost.pre5_w1a (W17 m ρ c)).trans (slab_congr h13 1 0 (by omega))
  have e3 : (W18 m ρ c (Proc.devRef .tc main_v85) : Mat 128 128) = slab uW1 1 128 (by omega) :=
    (KHost.pre5_w1b (W17 m ρ c)).trans (slab_congr h13 1 128 (by omega))
  have e4 : (fun q : Fin 128 => (W18 m ρ c (Proc.devRef .tc main_v93) : Mat 1 128) (ix2 (0 : Fin 1) q)) = rowAt ub1 1 :=
    (KHost.pre5_b1 (W17 m ρ c)).trans (rowAt_congr h14 1)
  have e5 : (W18 m ρ c (Proc.devRef .tc main_v88) : Mat 128 128) = slab uW2 1 0 (by omega) :=
    (KHost.pre5_w2 (W17 m ρ c)).trans (slab_congr h15 1 0 (by omega))
  have e6 : (fun q : Fin 128 => (W18 m ρ c (Proc.devRef .tc main_v94) : Mat 1 128) (ix2 (0 : Fin 1) q)) = rowAt ub2 1 :=
    (KHost.pre5_b2 (W17 m ρ c)).trans (rowAt_congr h16 1)
  rw [harr]
  refine (KVal.reg5_value (V18 m ρ) c i).trans ?_
  exact nodeF_congr e0 e1 e2 e3 e4 e5 e6 i
end
end Cert.KChain
end
-- ==== Proof.RegEdge6.lean ====
import proofs.«418781_j85873576116382_1_alg».proof.Proof.EdgeBody

noncomputable section

namespace Cert.KVal

open Cert.KernelIdeal Cert.KernelIdeal.Gen Cert.Spec
open Idealize.ShloMosaic Idealize.ShloMosaic.TcCoe Idealize.ShloMosaic.ValueIdx Idealize.ShloMosaic.SageSpec
open Idealize.SL.Sem

variable (V : (c : Dev nD) → (b : Ref sig .tc) → Buf (Elt Ideal) ((c : Thread nD τ).loc b))

-- The edge map of the region's nine input arrays.
abbrev edge6_G (c : Dev nD) : S400000x128.Idx → EReal :=
  edgeF (V c (Pipeline.arrRef spec6 0) : S400000x128.Idx → EReal) (V c (Pipeline.arrRef spec6 1) : S400000x128.Idx → EReal)
    (V c (Pipeline.arrRef spec6 2) : S400000x128.Idx → EReal) (V c (Pipeline.arrRef spec6 3) : S128x128.Idx → EReal)
    (V c (Pipeline.arrRef spec6 4) : S128x128.Idx → EReal) (V c (Pipeline.arrRef spec6 5) : S128x128.Idx → EReal)
    (fun q => (V c (Pipeline.arrRef spec6 6) : S1x128.Idx → EReal) (ix2 (0 : Fin 1) q)) (V c (Pipeline.arrRef spec6 7) : S128x128.Idx → EReal)
    (fun q => (V c (Pipeline.arrRef spec6 8) : S1x128.Idx → EReal) (ix2 (0 : Fin 1) q))

-- Point t's block of the result is block t of the edge map, and the hundred blocks cover the result.
theorem edge6_final (c : Dev nD) : (dat6 (F := Ideal) V c).arrAt 9 cfg6.N = edge6_G V c :=
  (dat6 (F := Ideal) V c).arrAt_eq_of_cover 9 _
    (fun t _ => (congrArg ((cfg6.win 9).cut (grid6.coords t)) (after6_9 V c t)).trans (edge_out _ _ _ _ _ _ _ _ _ t).symm)
    fun i => (edge_cover i).imp fun t h =>
      ⟨flush6_9 t, (Finset.ext_iff.mp (View.set_slice_whole (Pipeline.arrRef spec6 9) (win6_9.rect t)) i).mpr h⟩

theorem reg6_value (c : Dev nD) (i : S400000x128.Idx) :
    (dat6 (F := Ideal) V c).arrAt 9 cfg6.N i
      = edgeF (V c (Pipeline.arrRef spec6 0) : S400000x128.Idx → EReal) (V c (Pipeline.arrRef spec6 1) : S400000x128.Idx → EReal)
          (V c (Pipeline.arrRef spec6 2) : S400000x128.Idx → EReal) (V c (Pipeline.arrRef spec6 3) : S128x128.Idx → EReal)
          (V c (Pipeline.arrRef spec6 4) : S128x128.Idx → EReal) (V c (Pipeline.arrRef spec6 5) : S128x128.Idx → EReal)
          (fun q => (V c (Pipeline.arrRef spec6 6) : S1x128.Idx → EReal) (ix2 (0 : Fin 1) q)) (V c (Pipeline.arrRef spec6 7) : S128x128.Idx → EReal)
          (fun q => (V c (Pipeline.arrRef spec6 8) : S1x128.Idx → EReal) (ix2 (0 : Fin 1) q)) i :=
  congrFun (edge6_final V c) i

end Cert.KVal

end
-- ==== Proof.RegNode7.lean ====
import proofs.«418781_j85873576116382_1_alg».proof.Proof.RegNodeBody

noncomputable section

namespace Cert.KVal

open Cert.KernelIdeal Cert.KernelIdeal.Gen Idealize.ShloMosaic Idealize.ShloMosaic.TcCoe Idealize.SL.Sem
open Idealize.ShloMosaic.ValueIdx Idealize.ShloMosaic.SageSpec Cert.Spec
open Idealize.ShloMosaic.Pipeline (Dat)

variable (V : (c : Dev nD) → (b : Ref sig .tc) → Buf (Elt Ideal) ((c : Thread nD τ).loc b))

-- row r lies in the block of point r / 5000
theorem coverR7 (i : S50000x128.Idx) :
    ∃ t : Fin cfg7.N, (cfg7.win 7).flush t = true ∧ i ∈ ((cfg7.win 7).blk t).view.set := by
  have h : (i 0).val < 50000 := (i 0).isLt
  have ht : (i 0).val / 5000 < grid7.N := by rw [N_7]; omega
  refine ⟨⟨_, ht⟩, flush7_7 _, ?_⟩
  show i ∈ ((View.whole (Pipeline.arrRef spec7 7)).slice (win7_7.rect ⟨_, ht⟩)).set
  rw [View.set_slice_whole]
  exact Rows.mem_block i (by decide : 0 < 5000) (congrArg (· * 5000) (rowIdxN ⟨_, ht⟩)) rfl (le_refl _)

-- the node map of the arrays as the region finds them
abbrev GR7 (c : Dev nD) : Mat 50000 128 :=
  nodeF (V c (Pipeline.arrRef spec7 0)) (V c (Pipeline.arrRef spec7 1)) (V c (Pipeline.arrRef spec7 2))
    (V c (Pipeline.arrRef spec7 3)) (fun q => (V c (Pipeline.arrRef spec7 4) : Mat 1 128) (ix2 (0 : Fin 1) q))
    (V c (Pipeline.arrRef spec7 5)) (fun q => (V c (Pipeline.arrRef spec7 6) : Mat 1 128) (ix2 (0 : Fin 1) q))

-- a block at index (0, 0) of the array's own size is the array
theorem wholeR7 (c : Dev nD) (t : Fin cfg7.N) :
    iblk7 (F := Ideal) V c 2 t = V c (Pipeline.arrRef spec7 2) ∧ iblk7 (F := Ideal) V c 3 t = V c (Pipeline.arrRef spec7 3)
    ∧ iblk7 (F := Ideal) V c 4 t = V c (Pipeline.arrRef spec7 4) ∧ iblk7 (F := Ideal) V c 5 t = V c (Pipeline.arrRef spec7 5)
    ∧ iblk7 (F := Ideal) V c 6 t = V c (Pipeline.arrRef spec7 6) :=
  ⟨View.ld_unit_zero (S := S128x128) (Rows.zero_idx _) _ _, View.ld_unit_zero (S := S128x128) (Rows.zero_idx _) _ _,
    View.ld_unit_zero (S := S1x128) (Rows.zero_idx _) _ _, View.ld_unit_zero (S := S128x128) (Rows.zero_idx _) _ _,
    View.ld_unit_zero (S := S1x128) (Rows.zero_idx _) _ _⟩

-- at point t the result block is block t of the node map of the arrays
theorem flushedR7 (c : Dev nD) (t : Fin cfg7.N) :
    (dat7 (F := Ideal) V c).flushed 7 t = ((cfg7.win 7).blk t).view.read (Elt Ideal) (GR7 V c) := by
  show (cfg7.win 7).cut (grid7.coords t) ((dat7 (F := Ideal) V c).after 7 t) = _
  rw [after7_7]
  funext j
  obtain ⟨h2, h3, h4, h5, h6⟩ := wholeR7 V c t
  exact outN_at _ _ _ _ _ _ _ _ _ _ _ _ _ _ ((cfg7.win 7).xinj (grid7.coords t) j) (((cfg7.win 7).blk t).view.emb j)
    (win7_7.rect_emb_val_of_index_zero t (1 : Fin 2) rfl j)
    (fun k => congrArg (V c (Pipeline.arrRef spec7 0) : Mat 50000 128) (Shape.idx_ext₂
      ((win7_0.rect_emb_val t _ (0 : Fin 2)).trans (win7_7.rect_emb_val t j (0 : Fin 2)).symm)
      (win7_0.rect_emb_val_of_index_zero t (1 : Fin 2) rfl _)))
    (fun k => congrArg (V c (Pipeline.arrRef spec7 1) : Mat 50000 128) (Shape.idx_ext₂
      ((win7_1.rect_emb_val t _ (0 : Fin 2)).trans (win7_7.rect_emb_val t j (0 : Fin 2)).symm)
      (win7_1.rect_emb_val_of_index_zero t (1 : Fin 2) rfl _)))
    h2 h3 h4 h5 h6

theorem reg7_value (c : Dev nD) (i : S50000x128.Idx) :
    (dat7 (F := Ideal) V c).arrAt 7 cfg7.N i
      = nodeF (V c (Pipeline.arrRef spec7 0) : Mat 50000 128) (V c (Pipeline.arrRef spec7 1) : Mat 50000 128)
          (V c (Pipeline.arrRef spec7 2) : Mat 128 128) (V c (Pipeline.arrRef spec7 3) : Mat 128 128)
          (fun q => (V c (Pipeline.arrRef spec7 4) : Mat 1 128) (ix2 (0 : Fin 1) q))
          (V c (Pipeline.arrRef spec7 5) : Mat 128 128)
          (fun q => (V c (Pipeline.arrRef spec7 6) : Mat 1 128) (ix2 (0 : Fin 1) q)) i :=
  congrFun ((dat7 (F := Ideal) V c).arrAt_eq_of_cover 7 (GR7 V c) (fun t _ => flushedR7 V c t) coverR7) i

end Cert.KVal

end
-- ==== Proof.KLayer2.lean ====
import proofs.«418781_j85873576116382_1_alg».proof.Proof.Gen.KernelIdeal.Frame
import proofs.«418781_j85873576116382_1_alg».proof.Proof.KKeep
import proofs.«418781_j85873576116382_1_alg».proof.Proof.KCongr
import proofs.«418781_j85873576116382_1_alg».proof.Proof.KSmall
import proofs.«418781_j85873576116382_1_alg».proof.Proof.KTake
import proofs.«418781_j85873576116382_1_alg».proof.Proof.KPreEdge
import proofs.«418781_j85873576116382_1_alg».proof.Proof.KPreNode
import proofs.«418781_j85873576116382_1_alg».proof.Proof.RegEdge6
import proofs.«418781_j85873576116382_1_alg».proof.Proof.RegNode7
set_option maxRecDepth 16384
noncomputable section
namespace Cert.KChain
open Cert.KernelIdeal Cert.KernelIdeal.Gen Idealize.ShloMosaic Idealize.ShloMosaic.TcCoe Idealize.ShloMosaic.ValueIdx
open Idealize.ShloMosaic.SageSpec Cert.Spec Cert.Net
variable (m : (ℓ : Loc nD τ sig) → Buf (Elt Ideal) ℓ) (ρ : Dev nD → PrngReg) (c : Dev nD)
section
variable (H : Mat 50000 128) (Ee : Mat 400000 128) (ei : IVec ⟨2, ![2, 400000]⟩ 32)
  (mW1 : Stk 3 384 128) (mb1 : Mat 3 128) (mW2 : Stk 3 128 128) (mb2 : Mat 3 128)
  (uW1 : Stk 3 256 128) (ub1 : Mat 3 128) (uW2 : Stk 3 128 128) (ub2 : Mat 3 128)
  (hH : (W19 m ρ c (Proc.devRef .tc main_v95) : Mat 50000 128) = H)
  (hE : (W19 m ρ c (Proc.devRef .tc main_v3) : Mat 400000 128) = Ee)
  (hs : ∀ e : Fin 400000, (W19 m ρ c (Proc.devRef .tc main_v9) (ix1 e) : BitVec 32) = srcV ei e)
  (hd : ∀ e : Fin 400000, (W19 m ρ c (Proc.devRef .tc main_v11) (ix1 e) : BitVec 32) = dstV ei e)
  (hr : ∀ i, -50000 ≤ (ei i).toInt ∧ (ei i).toInt < 50000)
  (h9 : (W22 m ρ c (Proc.devRef .tc main_arg9) : Stk 3 384 128) = mW1)
  (h10 : (W22 m ρ c (Proc.devRef .tc main_arg10) : Mat 3 128) = mb1)
  (h11 : (W22 m ρ c (Proc.devRef .tc main_arg11) : Stk 3 128 128) = mW2)
  (h12 : (W22 m ρ c (Proc.devRef .tc main_arg12) : Mat 3 128) = mb2)
  (h13 : (W24 m ρ c (Proc.devRef .tc main_arg13) : Stk 3 256 128) = uW1)
  (h14 : (W24 m ρ c (Proc.devRef .tc main_arg14) : Mat 3 128) = ub1)
  (h15 : (W24 m ρ c (Proc.devRef .tc main_arg15) : Stk 3 128 128) = uW2)
  (h16 : (W24 m ρ c (Proc.devRef .tc main_arg16) : Mat 3 128) = ub2)
include hH hd hr in
theorem layer2_hd : (W23 m ρ c (Proc.devRef .tc main_v97) : Mat 400000 128) = rowsAt H (dstV ei) := by
  funext i
  obtain ⟨e, j, rfl⟩ : ∃ (e : Fin 400000) (j : Fin 128), i = ix2 e j := ⟨i 0, i 1, eq_ix2 i⟩
  have hr' : ∀ e : Fin 400000, -50000 ≤ (W19 m ρ c (Proc.devRef .tc main_v11) (ix1 e) : BitVec 32).toInt
      ∧ (W19 m ρ c (Proc.devRef .tc main_v11) (ix1 e) : BitVec 32).toInt < 50000 := fun e => by
    rw [hd e]; exact hr _
  calc (W23 m ρ c (Proc.devRef .tc main_v97) : Mat 400000 128) (ix2 e j)
      = (W21 m ρ c (Proc.devRef .tc main_v97) : Mat 400000 128) (ix2 e j) := by rw [KKeep.keep_main_v97_21_23 m ρ c]
    _ = (W20 m ρ c (Proc.devRef .tc main_v96) : Mat 400000 128) (ix2 e j) := KHost.hostOps6_1_v97 (W20 m ρ c) (ix2 e j)
    _ = (W19 m ρ c (Proc.devRef .tc main_v95) : Mat 50000 128)
          (ix2 (nodeOf (W19 m ρ c (Proc.devRef .tc main_v11) (ix1 e))) j) := KHost.take4 (W19 m ρ c) hr' e j
    _ = H (ix2 (nodeOf (dstV ei e)) j) := by rw [hd e, hH]
    _ = rowsAt H (dstV ei) (ix2 e j) := rfl
include hH hs hr in
theorem layer2_hs : (W23 m ρ c (Proc.devRef .tc main_v99) : Mat 400000 128) = rowsAt H (srcV ei) := by
  funext i
  obtain ⟨e, j, rfl⟩ : ∃ (e : Fin 400000) (j : Fin 128), i = ix2 e j := ⟨i 0, i 1, eq_ix2 i⟩
  have hs2 : ∀ e : Fin 400000, (W21 m ρ c (Proc.devRef .tc main_v9) (ix1 e) : BitVec 32) = srcV ei e := fun e => by
    rw [KKeep.keep_main_v9_19_21 m ρ c]; exact hs e
  have hr' : ∀ e : Fin 400000, -50000 ≤ (W21 m ρ c (Proc.devRef .tc main_v9) (ix1 e) : BitVec 32).toInt
      ∧ (W21 m ρ c (Proc.devRef .tc main_v9) (ix1 e) : BitVec 32).toInt < 50000 := fun e => by
    rw [hs2 e]; exact hr _
  have hH2 : (W21 m ρ c (Proc.devRef .tc main_v95) : Mat 50000 128) = H := by
    rw [KKeep.keep_main_v95_19_21 m ρ c]; exact hH
  calc (W23 m ρ c (Proc.devRef .tc main_v99) : Mat 400000 128) (ix2 e j)
      = (W22 m ρ c (Proc.devRef .tc main_v98) : Mat 400000 128) (ix2 e j) := congrFun (KHost.pre6_x (W22 m ρ c)) (ix2 e j)
    _ = (W21 m ρ c (Proc.devRef .tc main_v95) : Mat 50000 128)
          (ix2 (nodeOf (W21 m ρ c (Proc.devRef .tc main_v9) (ix1 e))) j) := KHost.take5 (W21 m ρ c) hr' e j
    _ = H (ix2 (nodeOf (srcV ei e)) j) := by rw [hs2 e, hH2]
    _ = rowsAt H (srcV ei) (ix2 e j) := rfl
include hH hE hs hd hr h9 h10 h11 h12 in
theorem layer2_msg : (W24 m ρ c (Proc.devRef .tc main_v118) : Mat 400000 128)
    = edgeF (rowsAt H (dstV ei)) (rowsAt H (srcV ei)) Ee (slab mW1 2 0 (by omega)) (slab mW1 2 128 (by omega))
        (slab mW1 2 256 (by omega)) (rowAt mb1 2) (slab mW2 2 0 (by omega)) (rowAt mb2 2) := by
  funext i
  have harr : (W24 m ρ c (Proc.devRef .tc main_v118) : Mat 400000 128)
      = (dat6 (F := Ideal) (V23 m ρ) c).arrAt 9 cfg6.N := W24_arr m ρ c 9
  have e2 : (W23 m ρ c (Proc.devRef .tc main_v3) : Mat 400000 128) = Ee := by
    rw [KKeep.keep_main_v3_19_23 m ρ c]; exact hE
  have e3 : (W23 m ρ c (Proc.devRef .tc main_v102) : Mat 128 128) = slab mW1 2 0 (by omega) :=
    (KHost.pre6_w1a (W22 m ρ c)).trans (slab_congr h9 2 0 (by omega))
  have e4 : (W23 m ρ c (Proc.devRef .tc main_v105) : Mat 128 128) = slab mW1 2 128 (by omega) :=
    (KHost.pre6_w1b (W22 m ρ c)).trans (slab_congr h9 2 128 (by omega))
  have e5 : (W23 m ρ c (Proc.devRef .tc main_v108) : Mat 128 128) = slab mW1 2 256 (by omega) :=
    (KHost.pre6_w1c (W22 m ρ c)).trans (slab_congr h9 2 256 (by omega))
  have e6 : (fun q : Fin 128 => (W23 m ρ c (Proc.devRef .tc main_v116) : Mat 1 128) (ix2 (0 : Fin 1) q)) = rowAt mb1 2 :=
    (KHost.pre6_b1_fun (W22 m ρ c)).trans (rowAt_congr h10 2)
  have e7 : (W23 m ρ c (Proc.devRef .tc main_v113) : Mat 128 128) = slab mW2 2 0 (by omega) :=
    (KHost.pre6_w2 (W22 m ρ c)).trans (slab_congr h11 2 0 (by omega))
  have e8 : (fun q : Fin 128 => (W23 m ρ c (Proc.devRef .tc main_v117) : Mat 1 128) (ix2 (0 : Fin 1) q)) = rowAt mb2 2 :=
    (KHost.pre6_b2_fun (W22 m ρ c)).trans (rowAt_congr h12 2)
  rw [harr]
  refine (KVal.reg6_value (V23 m ρ) c i).trans ?_
  exact edgeF_congr (layer2_hd m ρ c H ei hH hd hr) (layer2_hs m ρ c H ei hH hs hr) e2 e3 e4 e5 e6 e7 e8 i
include hH hE hs hd hr h9 h10 h11 h12 h13 h14 h15 h16 in
theorem layer2_out : (W26 m ρ c (Proc.devRef .tc main_v137) : Mat 50000 128)
    = nodeF H (aggF (dstV ei) (edgeF (rowsAt H (dstV ei)) (rowsAt H (srcV ei)) Ee (slab mW1 2 0 (by omega))
          (slab mW1 2 128 (by omega)) (slab mW1 2 256 (by omega)) (rowAt mb1 2) (slab mW2 2 0 (by omega)) (rowAt mb2 2)))
        (slab uW1 2 0 (by omega)) (slab uW1 2 128 (by omega)) (rowAt ub1 2) (slab uW2 2 0 (by omega)) (rowAt ub2 2) := by
  funext i
  have harr : (W26 m ρ c (Proc.devRef .tc main_v137) : Mat 50000 128)
      = (dat7 (F := Ideal) (V25 m ρ) c).arrAt 7 cfg7.N := W26_arr m ρ c 7
  have e0 : (W25 m ρ c (Proc.devRef .tc main_v95) : Mat 50000 128) = H := by
    rw [KKeep.keep_main_v95_19_25 m ρ c]; exact hH
  have hdst : (fun e : Fin 400000 => (W24 m ρ c (Proc.devRef .tc main_v11) (ix1 e) : BitVec 32)) = dstV ei :=
    funext fun e => by rw [KKeep.keep_main_v11_19_24 m ρ c]; exact hd e
  have e1 : (W25 m ρ c (Proc.devRef .tc main_v121) : Mat 50000 128) = aggF (dstV ei) _ :=
    (KHost.pre7_agg (W24 m ρ c)).trans
      (aggF_congr hdst (layer2_msg m ρ c H Ee ei mW1 mb1 mW2 mb2 hH hE hs hd hr h9 h10 h11 h12))
  have e2 : (W25 m ρ c (Proc.devRef .tc main_v124) : Mat 128 128) = slab uW1 2 0 (by omega) :=
    (KHost.pre7_w1a (W24 m ρ c)).trans (slab_congr h13 2 0 (by omega))
  have e3 : (W25 m ρ c (Proc.devRef .tc main_v127) : Mat 128 128) = slab uW1 2 128 (by omega) :=
    (KHost.pre7_w1b (W24 m ρ c)).trans (slab_congr h13 2 128 (by omega))
  have e4 : (fun q : Fin 128 => (W25 m ρ c (Proc.devRef .tc main_v135) : Mat 1 128) (ix2 (0 : Fin 1) q)) = rowAt ub1 2 :=
    (KHost.pre7_b1 (W24 m ρ c)).trans (rowAt_congr h14 2)
  have e5 : (W25 m ρ c (Proc.devRef .tc main_v130) : Mat 128 128) = slab uW2 2 0 (by omega) :=
    (KHost.pre7_w2 (W24 m ρ c)).trans (slab_congr h15 2 0 (by omega))
  have e6 : (fun q : Fin 128 => (W25 m ρ c (Proc.devRef .tc main_v136) : Mat 1 128) (ix2 (0 : Fin 1) q)) = rowAt ub2 2 :=
    (KHost.pre7_b2 (W24 m ρ c)).trans (rowAt_congr h16 2)
  rw [harr]
  refine (KVal.reg7_value (V25 m ρ) c i).trans ?_
  exact nodeF_congr e0 e1 e2 e3 e4 e5 e6 i
end
end Cert.KChain
end
-- ==== Proof.Tail.lean ====
import proofs.«418781_j85873576116382_1_alg».proof.Proof.Gen.KernelIdeal.Launch
import proofs.«418781_j85873576116382_1_alg».proof.Proof.RReadP
import proofs.«418781_j85873576116382_1_alg».proof.Proof.KeepTac
import Idealize.ShloMosaic.Lib.StableHlo.Run
import Idealize.ShloMosaic.PureOps.Ideal
noncomputable section
namespace Cert.Tail
open Idealize.ShloMosaic
section Def
open Cert.KernelIdeal Cert.KernelIdeal.Gen
variable {F : FTy → Type} [FloatOps F]
def counts (batch : IVec S50000 32) : FVec F S8 .f32 :=
  maximumf
    (Host.scatterAdd scatter_S8_S50000x1_S50000_n_0_0_1
      (broadcastInDim S8 ![] bcast_S_S8 (constant S_ .f32 0x00000000#32 : FVec F S_ .f32))
      (broadcastInDim S50000x1 ![0] bcast_S50000_S50000x1_0 batch)
      (broadcastInDim S50000 ![] bcast_S_S50000 (constant S_ .f32 0x3F800000#32 : FVec F S_ .f32)))
    (broadcastInDim S8 ![] bcast_S_S8 (constant S_ .f32 0x3F800000#32 : FVec F S_ .f32))
def pooled (h3 : FVec F S50000x128 .f32) (batch : IVec S50000 32) : FVec F S8x128 .f32 :=
  Host.divf
    (Host.scatterAdd scatter_S8x128_S50000x1_S50000x128_1_0_0_1
      (broadcastInDim S8x128 ![] bcast_S_S8x128 (constant S_ .f32 0x00000000#32 : FVec F S_ .f32))
      (broadcastInDim S50000x1 ![0] bcast_S50000_S50000x1_0 batch)
      h3)
    (broadcastInDim S8x128 ![0, 1] bcast_S8x1_S8x128_0_1
      (broadcastInDim S8x1 ![0] bcast_S8_S8x1_0 (counts (F := F) batch)))
def lin1 (p g : FVec F S8x128 .f32) (rW1 : FVec F S256x128 .f32) (rb1 : FVec F S128 .f32) : FVec F S8x128 .f32 :=
  addf
    (Host.dotGeneral dot_S8x256_S256x128_S8x128_1_0_0_1_n_n none
      (concatenate S8x256 1 [⟨S8x128, p⟩, ⟨S8x128, g⟩] concatenates_S8x128_S8x128_S8x256_d1 : FVec F S8x256 .f32) rW1)
    (broadcastInDim S8x128 ![0, 1] bcast_S1x128_S8x128_0_1 (broadcastInDim S1x128 ![1] bcast_S128_S1x128_1 rb1))
def relu128 (a : FVec F S8x128 .f32) : FVec F S8x128 .f32 :=
  maximumf a (broadcastInDim S8x128 ![] bcast_S_S8x128 (constant S_ .f32 0x00000000#32 : FVec F S_ .f32))
def lin2 (a : FVec F S8x128 .f32) (rW2 : FVec F S128x64 .f32) (rb2 : FVec F S64 .f32) : FVec F S8x64 .f32 :=
  addf
    (Host.dotGeneral dot_S8x128_S128x64_S8x64_1_0_0_1_n_n none a rW2)
    (broadcastInDim S8x64 ![0, 1] bcast_S1x64_S8x64_0_1 (broadcastInDim S1x64 ![1] bcast_S64_S1x64_1 rb2))
def relu64 (a : FVec F S8x64 .f32) : FVec F S8x64 .f32 :=
  maximumf a (broadcastInDim S8x64 ![] bcast_S_S8x64 (constant S_ .f32 0x00000000#32 : FVec F S_ .f32))
def lin3 (a : FVec F S8x64 .f32) (rW3 : FVec F S64x1 .f32) (rb3 : FVec F S1 .f32) : FVec F S8x1 .f32 :=
  addf
    (Host.dotGeneral dot_S8x64_S64x1_S8x1_1_0_0_1_n_n none a rW3)
    (broadcastInDim S8x1 ![0, 1] bcast_S1x1_S8x1_0_1 (broadcastInDim S1x1 ![1] bcast_S1_S1x1_1 rb3))
def tailG (h3 : FVec F S50000x128 .f32) (g : FVec F S8x128 .f32) (batch : IVec S50000 32)
    (rW1 : FVec F S256x128 .f32) (rb1 : FVec F S128 .f32) (rW2 : FVec F S128x64 .f32) (rb2 : FVec F S64 .f32)
    (rW3 : FVec F S64x1 .f32) (rb3 : FVec F S1 .f32) : FVec F S8x1 .f32 :=
  lin3 (relu64 (lin2 (relu128 (lin1 (pooled h3 batch) g rW1 rb1)) rW2 rb2)) rW3 rb3
end Def
def tailF (h3 : FVec Ideal Cert.KernelIdeal.S50000x128 .f32) (g : FVec Ideal Cert.KernelIdeal.S8x128 .f32)
    (batch : IVec Cert.KernelIdeal.S50000 32)
    (rW1 : FVec Ideal Cert.KernelIdeal.S256x128 .f32) (rb1 : FVec Ideal Cert.KernelIdeal.S128 .f32)
    (rW2 : FVec Ideal Cert.KernelIdeal.S128x64 .f32) (rb2 : FVec Ideal Cert.KernelIdeal.S64 .f32)
    (rW3 : FVec Ideal Cert.KernelIdeal.S64x1 .f32) (rb3 : FVec Ideal Cert.KernelIdeal.S1 .f32) :
    FVec Ideal Cert.KernelIdeal.S8x1 .f32 :=
  tailG (F := Ideal) h3 g batch rW1 rb1 rW2 rb2 rW3 rb3
section Kernel
open Cert.KernelIdeal Cert.KernelIdeal.Gen
variable {F : FTy → Type} [FloatOps F] (V : Valuation τ sig (Elt F))
theorem stretch1a :
    StableHlo.after (List.take 16 hostOps8) V (Proc.devRef .tc main_v149)
      = pooled (F := F) (V (Proc.devRef .tc main_v137)) (V (Proc.devRef .tc main_arg24)) := by
  unfold hostOps8
  simp only [List.take_succ_cons, List.take_zero]
  after_results_simp
  rfl
theorem keep1a_v7 :
    StableHlo.after (List.take 16 hostOps8) V (Proc.devRef .tc main_v7) = V (Proc.devRef .tc main_v7) := by
  unfold hostOps8
  simp only [List.take_succ_cons, List.take_zero]
  after_results_simp
theorem keep1a_arg17 :
    StableHlo.after (List.take 16 hostOps8) V (Proc.devRef .tc main_arg17) = V (Proc.devRef .tc main_arg17) := by
  unfold hostOps8
  simp only [List.take_succ_cons, List.take_zero]
  after_results_simp
theorem keep1a_arg18 :
    StableHlo.after (List.take 16 hostOps8) V (Proc.devRef .tc main_arg18) = V (Proc.devRef .tc main_arg18) := by
  unfold hostOps8
  simp only [List.take_succ_cons, List.take_zero]
  after_results_simp
theorem stretch1b :
    StableHlo.after (List.drop 16 hostOps8) V (Proc.devRef .tc main_v154)
      = lin1 (F := F) (V (Proc.devRef .tc main_v149)) (V (Proc.devRef .tc main_v7))
          (V (Proc.devRef .tc main_arg17)) (V (Proc.devRef .tc main_arg18)) := by
  unfold hostOps8
  simp only [List.drop_succ_cons, List.drop_zero]
  after_results
  rfl
theorem stretch1 :
    StableHlo.after hostOps8 V (Proc.devRef .tc main_v154)
      = lin1 (F := F) (pooled (V (Proc.devRef .tc main_v137)) (V (Proc.devRef .tc main_arg24))) (V (Proc.devRef .tc main_v7))
          (V (Proc.devRef .tc main_arg17)) (V (Proc.devRef .tc main_arg18)) := by
  have hs : (hostOps8 : List (HloOp τ sig (Elt F))) = List.take 16 hostOps8 ++ List.drop 16 hostOps8 :=
    (List.take_append_drop 16 _).symm
  rw [hs, StableHlo.after_append, stretch1b, stretch1a, keep1a_v7, keep1a_arg17, keep1a_arg18]
theorem stretch2 :
    StableHlo.after hostOps8_1 V (Proc.devRef .tc main_v155) = relu128 (F := F) (V (Proc.devRef .tc main_v154)) := by
  unfold hostOps8_1
  after_results
  rfl
theorem stretch3 :
    StableHlo.after hostOps8_2 V (Proc.devRef .tc main_v159)
      = lin2 (F := F) (V (Proc.devRef .tc main_v155)) (V (Proc.devRef .tc main_arg19)) (V (Proc.devRef .tc main_arg20)) := by
  unfold hostOps8_2
  after_results
  rfl
theorem stretch4 :
    StableHlo.after hostOps8_3 V (Proc.devRef .tc main_v160) = relu64 (F := F) (V (Proc.devRef .tc main_v159)) := by
  unfold hostOps8_3
  after_results
  rfl
theorem stretch5 :
    StableHlo.after hostOps8_4 V (Proc.devRef .tc main_v164)
      = lin3 (F := F) (V (Proc.devRef .tc main_v160)) (V (Proc.devRef .tc main_arg21)) (V (Proc.devRef .tc main_arg22)) := by
  unfold hostOps8_4
  after_results
  rfl
theorem keep4_arg21 : StableHlo.after hostOps8_3 V (Proc.devRef .tc main_arg21) = V (Proc.devRef .tc main_arg21) := by
  keep_host hostOps8_3
theorem keep4_arg22 : StableHlo.after hostOps8_3 V (Proc.devRef .tc main_arg22) = V (Proc.devRef .tc main_arg22) := by
  keep_host hostOps8_3
theorem keep3_arg21 : StableHlo.after hostOps8_2 V (Proc.devRef .tc main_arg21) = V (Proc.devRef .tc main_arg21) := by
  keep_host hostOps8_2
theorem keep3_arg22 : StableHlo.after hostOps8_2 V (Proc.devRef .tc main_arg22) = V (Proc.devRef .tc main_arg22) := by
  keep_host hostOps8_2
theorem keep2_arg19 : StableHlo.after hostOps8_1 V (Proc.devRef .tc main_arg19) = V (Proc.devRef .tc main_arg19) := by
  keep_host hostOps8_1
theorem keep2_arg20 : StableHlo.after hostOps8_1 V (Proc.devRef .tc main_arg20) = V (Proc.devRef .tc main_arg20) := by
  keep_host hostOps8_1
theorem keep2_arg21 : StableHlo.after hostOps8_1 V (Proc.devRef .tc main_arg21) = V (Proc.devRef .tc main_arg21) := by
  keep_host hostOps8_1
theorem keep2_arg22 : StableHlo.after hostOps8_1 V (Proc.devRef .tc main_arg22) = V (Proc.devRef .tc main_arg22) := by
  keep_host hostOps8_1
theorem keep1_arg19 : StableHlo.after hostOps8 V (Proc.devRef .tc main_arg19) = V (Proc.devRef .tc main_arg19) := by
  keep_host hostOps8
theorem keep1_arg20 : StableHlo.after hostOps8 V (Proc.devRef .tc main_arg20) = V (Proc.devRef .tc main_arg20) := by
  keep_host hostOps8
theorem keep1_arg21 : StableHlo.after hostOps8 V (Proc.devRef .tc main_arg21) = V (Proc.devRef .tc main_arg21) := by
  keep_host hostOps8
theorem keep1_arg22 : StableHlo.after hostOps8 V (Proc.devRef .tc main_arg22) = V (Proc.devRef .tc main_arg22) := by
  keep_host hostOps8
theorem ktailG (W : Valuation τ sig (Elt F)) :
    StableHlo.after hostOps8_4 (StableHlo.after hostOps8_3 (StableHlo.after hostOps8_2
        (StableHlo.after hostOps8_1 (StableHlo.after hostOps8 W)))) (Proc.devRef .tc main_v164)
      = tailG (F := F) (W (Proc.devRef .tc main_v137)) (W (Proc.devRef .tc main_v7)) (W (Proc.devRef .tc main_arg24))
          (W (Proc.devRef .tc main_arg17)) (W (Proc.devRef .tc main_arg18)) (W (Proc.devRef .tc main_arg19))
          (W (Proc.devRef .tc main_arg20)) (W (Proc.devRef .tc main_arg21)) (W (Proc.devRef .tc main_arg22)) := by
  rw [stretch5, stretch4, stretch3, stretch2, stretch1,
    keep4_arg21, keep3_arg21, keep2_arg21, keep1_arg21, keep4_arg22, keep3_arg22, keep2_arg22, keep1_arg22,
    keep2_arg19, keep1_arg19, keep2_arg20, keep1_arg20]
  rfl
theorem ktail (W : Valuation τ sig (Elt Ideal)) :
    StableHlo.after hostOps8_4 (StableHlo.after hostOps8_3 (StableHlo.after hostOps8_2
        (StableHlo.after hostOps8_1 (StableHlo.after hostOps8 W)))) (Proc.devRef .tc main_v164)
      = tailF (W (Proc.devRef .tc main_v137)) (W (Proc.devRef .tc main_v7)) (W (Proc.devRef .tc main_arg24))
          (W (Proc.devRef .tc main_arg17)) (W (Proc.devRef .tc main_arg18)) (W (Proc.devRef .tc main_arg19))
          (W (Proc.devRef .tc main_arg20)) (W (Proc.devRef .tc main_arg21)) (W (Proc.devRef .tc main_arg22)) :=
  ktailG (F := Ideal) W
end Kernel
section Reference
open Cert.ReferenceIdeal Cert.ReferenceIdeal.Gen Cert.ReferenceIdeal.Read
theorem rtailG {F : FTy → Type} [FloatOps F]
    (x0 : (⟨S50000x32, .f32⟩ : BufTy).Contents (Elt F)) (x1 : (⟨S400000x16, .f32⟩ : BufTy).Contents (Elt F))
    (x2 : (⟨S8x1, .f32⟩ : BufTy).Contents (Elt F)) (x3 : (⟨S32x128, .f32⟩ : BufTy).Contents (Elt F))
    (x4 : (⟨S128, .f32⟩ : BufTy).Contents (Elt F)) (x5 : (⟨S16x128, .f32⟩ : BufTy).Contents (Elt F))
    (x6 : (⟨S128, .f32⟩ : BufTy).Contents (Elt F)) (x7 : (⟨S1x128, .f32⟩ : BufTy).Contents (Elt F))
    (x8 : (⟨S128, .f32⟩ : BufTy).Contents (Elt F)) (x9 : (⟨S3x384x128, .f32⟩ : BufTy).Contents (Elt F))
    (x10 : (⟨S3x128, .f32⟩ : BufTy).Contents (Elt F)) (x11 : (⟨S3x128x128, .f32⟩ : BufTy).Contents (Elt F))
    (x12 : (⟨S3x128, .f32⟩ : BufTy).Contents (Elt F)) (x13 : (⟨S3x256x128, .f32⟩ : BufTy).Contents (Elt F))
    (x14 : (⟨S3x128, .f32⟩ : BufTy).Contents (Elt F)) (x15 : (⟨S3x128x128, .f32⟩ : BufTy).Contents (Elt F))
    (x16 : (⟨S3x128, .f32⟩ : BufTy).Contents (Elt F)) (x17 : (⟨S256x128, .f32⟩ : BufTy).Contents (Elt F))
    (x18 : (⟨S128, .f32⟩ : BufTy).Contents (Elt F)) (x19 : (⟨S128x64, .f32⟩ : BufTy).Contents (Elt F))
    (x20 : (⟨S64, .f32⟩ : BufTy).Contents (Elt F)) (x21 : (⟨S64x1, .f32⟩ : BufTy).Contents (Elt F))
    (x22 : (⟨S1, .f32⟩ : BufTy).Contents (Elt F)) (x23 : (⟨S2x400000, .i32⟩ : BufTy).Contents (Elt F))
    (x24 : (⟨S50000, .i32⟩ : BufTy).Contents (Elt F)) :
    val_main_v204 (F := F) x0 x1 x2 x3 x4 x5 x6 x7 x8 x9 x10 x11 x12 x13 x14 x15 x16 x17 x18 x19 x20 x21 x22 x23 x24
      = tailG (F := F) (val_main_v177 (F := F) x0 x1 x3 x4 x5 x6 x9 x10 x11 x12 x13 x14 x15 x16 x23) (val_main_v11 (F := F) x2 x7 x8)
          x24 x17 x18 x19 x20 x21 x22 := by
  unfold val_main_v204 val_main_v203 val_main_v202 val_main_v201 val_main_v200 val_main_call7_v0 val_main_call7_cst
    val_main_v199 val_main_v198 val_main_v197 val_main_v196 val_main_v195 val_main_call6_v0 val_main_call6_cst
    val_main_v194 val_main_v193 val_main_v192 val_main_v191 val_main_v190 val_main_v189 val_main_v188 val_main_v187
    val_main_v186 val_main_v185 val_main_cst_16 val_main_v184 val_main_v183 val_main_v182 val_main_cst_15
    val_main_v181 val_main_v180 val_main_v179 val_main_cst_14 val_main_v178 val_main_cst_13
  generalize val_main_v177 (F := F) x0 x1 x3 x4 x5 x6 x9 x10 x11 x12 x13 x14 x15 x16 x23 = H
  generalize val_main_v11 (F := F) x2 x7 x8 = G
  rfl
theorem rtail
    (x0 : (⟨S50000x32, .f32⟩ : BufTy).Contents (Elt Ideal)) (x1 : (⟨S400000x16, .f32⟩ : BufTy).Contents (Elt Ideal))
    (x2 : (⟨S8x1, .f32⟩ : BufTy).Contents (Elt Ideal)) (x3 : (⟨S32x128, .f32⟩ : BufTy).Contents (Elt Ideal))
    (x4 : (⟨S128, .f32⟩ : BufTy).Contents (Elt Ideal)) (x5 : (⟨S16x128, .f32⟩ : BufTy).Contents (Elt Ideal))
    (x6 : (⟨S128, .f32⟩ : BufTy).Contents (Elt Ideal)) (x7 : (⟨S1x128, .f32⟩ : BufTy).Contents (Elt Ideal))
    (x8 : (⟨S128, .f32⟩ : BufTy).Contents (Elt Ideal)) (x9 : (⟨S3x384x128, .f32⟩ : BufTy).Contents (Elt Ideal))
    (x10 : (⟨S3x128, .f32⟩ : BufTy).Contents (Elt Ideal)) (x11 : (⟨S3x128x128, .f32⟩ : BufTy).Contents (Elt Ideal))
    (x12 : (⟨S3x128, .f32⟩ : BufTy).Contents (Elt Ideal)) (x13 : (⟨S3x256x128, .f32⟩ : BufTy).Contents (Elt Ideal))
    (x14 : (⟨S3x128, .f32⟩ : BufTy).Contents (Elt Ideal)) (x15 : (⟨S3x128x128, .f32⟩ : BufTy).Contents (Elt Ideal))
    (x16 : (⟨S3x128, .f32⟩ : BufTy).Contents (Elt Ideal)) (x17 : (⟨S256x128, .f32⟩ : BufTy).Contents (Elt Ideal))
    (x18 : (⟨S128, .f32⟩ : BufTy).Contents (Elt Ideal)) (x19 : (⟨S128x64, .f32⟩ : BufTy).Contents (Elt Ideal))
    (x20 : (⟨S64, .f32⟩ : BufTy).Contents (Elt Ideal)) (x21 : (⟨S64x1, .f32⟩ : BufTy).Contents (Elt Ideal))
    (x22 : (⟨S1, .f32⟩ : BufTy).Contents (Elt Ideal)) (x23 : (⟨S2x400000, .i32⟩ : BufTy).Contents (Elt Ideal))
    (x24 : (⟨S50000, .i32⟩ : BufTy).Contents (Elt Ideal)) :
    val_main_v204 (F := Ideal) x0 x1 x2 x3 x4 x5 x6 x7 x8 x9 x10 x11 x12 x13 x14 x15 x16 x17 x18 x19 x20 x21 x22 x23 x24
      = tailF (val_main_v177 (F := Ideal) x0 x1 x3 x4 x5 x6 x9 x10 x11 x12 x13 x14 x15 x16 x23) (val_main_v11 (F := Ideal) x2 x7 x8)
          x24 x17 x18 x19 x20 x21 x22 :=
  rtailG (F := Ideal) x0 x1 x2 x3 x4 x5 x6 x7 x8 x9 x10 x11 x12 x13 x14 x15 x16 x17 x18 x19 x20 x21 x22 x23 x24
theorem rg (x2 : (⟨S8x1, .f32⟩ : BufTy).Contents (Elt Ideal)) (x7 : (⟨S1x128, .f32⟩ : BufTy).Contents (Elt Ideal))
    (x8 : (⟨S128, .f32⟩ : BufTy).Contents (Elt Ideal)) :
    val_main_v11 (F := Ideal) x2 x7 x8
      = addf (F := Ideal) (Host.dotGeneral (F := Ideal) (φ₁ := .f32) (φ₂ := .f32)
            Cert.KernelIdeal.dot_S8x1_S1x128_S8x128_1_0_0_1_n_n none x2 x7)
          (broadcastInDim Cert.KernelIdeal.S8x128 ![0, 1] Cert.KernelIdeal.Gen.bcast_S1x128_S8x128_0_1
            (broadcastInDim Cert.KernelIdeal.S1x128 ![1] Cert.KernelIdeal.Gen.bcast_S128_S1x128_1 x8)) := by
  unfold val_main_v11 val_main_v10 val_main_v9 val_main_v8
  rfl
end Reference
end Cert.Tail
end
-- ==== Proof.KFinal.lean ====
import proofs.«418781_j85873576116382_1_alg».proof.Proof.KChain0
import proofs.«418781_j85873576116382_1_alg».proof.Proof.KLayer0
import proofs.«418781_j85873576116382_1_alg».proof.Proof.KLayer1
import proofs.«418781_j85873576116382_1_alg».proof.Proof.KLayer2
import proofs.«418781_j85873576116382_1_alg».proof.Proof.KKeep
import proofs.«418781_j85873576116382_1_alg».proof.Proof.Tail
import proofs.«418781_j85873576116382_1_alg».proof.Proof.Net
set_option maxRecDepth 16384
noncomputable section
namespace Cert.KChain
open Cert.KernelIdeal Cert.KernelIdeal.Gen Idealize.ShloMosaic Idealize.ShloMosaic.TcCoe Idealize.ShloMosaic.ValueIdx
open Idealize.ShloMosaic.SageSpec Cert.Spec
variable (m : (ℓ : Loc nD τ sig) → Buf (Elt Ideal) ℓ) (ρ : Dev nD → PrngReg) (c : Dev nD)
abbrev A9 : Net.Stk 3 384 128 := W0 m ρ c (Proc.devRef .tc main_arg9)
abbrev A10 : Mat 3 128 := W0 m ρ c (Proc.devRef .tc main_arg10)
abbrev A11 : Net.Stk 3 128 128 := W0 m ρ c (Proc.devRef .tc main_arg11)
abbrev A12 : Mat 3 128 := W0 m ρ c (Proc.devRef .tc main_arg12)
abbrev A13 : Net.Stk 3 256 128 := W0 m ρ c (Proc.devRef .tc main_arg13)
abbrev A14 : Mat 3 128 := W0 m ρ c (Proc.devRef .tc main_arg14)
abbrev A15 : Net.Stk 3 128 128 := W0 m ρ c (Proc.devRef .tc main_arg15)
abbrev A16 : Mat 3 128 := W0 m ρ c (Proc.devRef .tc main_arg16)
abbrev A17 : FVec Ideal S256x128 .f32 := W0 m ρ c (Proc.devRef .tc main_arg17)
abbrev A18 : FVec Ideal S128 .f32 := W0 m ρ c (Proc.devRef .tc main_arg18)
abbrev A19 : FVec Ideal S128x64 .f32 := W0 m ρ c (Proc.devRef .tc main_arg19)
abbrev A20 : FVec Ideal S64 .f32 := W0 m ρ c (Proc.devRef .tc main_arg20)
abbrev A21 : FVec Ideal S64x1 .f32 := W0 m ρ c (Proc.devRef .tc main_arg21)
abbrev A22 : FVec Ideal S1 .f32 := W0 m ρ c (Proc.devRef .tc main_arg22)
abbrev A24 : IVec S50000 32 := W0 m ρ c (Proc.devRef .tc main_arg24)
abbrev Gf : FVec Ideal S8x128 .f32 :=
  addf (F := Ideal) (Host.dotGeneral (F := Ideal) (φ₁ := .f32) (φ₂ := .f32) dot_S8x1_S1x128_S8x128_1_0_0_1_n_n none
        (A2 m ρ c) (A7 m ρ c))
    (broadcastInDim S8x128 ![0, 1] bcast_S1x128_S8x128_0_1
      (broadcastInDim S1x128 ![1] bcast_S128_S1x128_1 (A8 m ρ c)))
theorem a9_8 : (W8 m ρ c (Proc.devRef .tc main_arg9) : Net.Stk 3 384 128) = A9 m ρ c := KKeep.keep_main_arg9_0_8 m ρ c
theorem a9_15 : (W15 m ρ c (Proc.devRef .tc main_arg9) : Net.Stk 3 384 128) = A9 m ρ c :=
  (KKeep.keep_main_arg9_8_15 m ρ c).trans (a9_8 m ρ c)
theorem a9_22 : (W22 m ρ c (Proc.devRef .tc main_arg9) : Net.Stk 3 384 128) = A9 m ρ c :=
  (KKeep.keep_main_arg9_15_22 m ρ c).trans (a9_15 m ρ c)
theorem a10_8 : (W8 m ρ c (Proc.devRef .tc main_arg10) : Mat 3 128) = A10 m ρ c := KKeep.keep_main_arg10_0_8 m ρ c
theorem a10_15 : (W15 m ρ c (Proc.devRef .tc main_arg10) : Mat 3 128) = A10 m ρ c :=
  (KKeep.keep_main_arg10_8_15 m ρ c).trans (a10_8 m ρ c)
theorem a10_22 : (W22 m ρ c (Proc.devRef .tc main_arg10) : Mat 3 128) = A10 m ρ c :=
  (KKeep.keep_main_arg10_15_22 m ρ c).trans (a10_15 m ρ c)
theorem a11_8 : (W8 m ρ c (Proc.devRef .tc main_arg11) : Net.Stk 3 128 128) = A11 m ρ c := KKeep.keep_main_arg11_0_8 m ρ c
theorem a11_15 : (W15 m ρ c (Proc.devRef .tc main_arg11) : Net.Stk 3 128 128) = A11 m ρ c :=
  (KKeep.keep_main_arg11_8_15 m ρ c).trans (a11_8 m ρ c)
theorem a11_22 : (W22 m ρ c (Proc.devRef .tc main_arg11) : Net.Stk 3 128 128) = A11 m ρ c :=
  (KKeep.keep_main_arg11_15_22 m ρ c).trans (a11_15 m ρ c)
theorem a12_8 : (W8 m ρ c (Proc.devRef .tc main_arg12) : Mat 3 128) = A12 m ρ c := KKeep.keep_main_arg12_0_8 m ρ c
theorem a12_15 : (W15 m ρ c (Proc.devRef .tc main_arg12) : Mat 3 128) = A12 m ρ c :=
  (KKeep.keep_main_arg12_8_15 m ρ c).trans (a12_8 m ρ c)
theorem a12_22 : (W22 m ρ c (Proc.devRef .tc main_arg12) : Mat 3 128) = A12 m ρ c :=
  (KKeep.keep_main_arg12_15_22 m ρ c).trans (a12_15 m ρ c)
theorem a13_10 : (W10 m ρ c (Proc.devRef .tc main_arg13) : Net.Stk 3 256 128) = A13 m ρ c := KKeep.keep_main_arg13_0_10 m ρ c
theorem a13_17 : (W17 m ρ c (Proc.devRef .tc main_arg13) : Net.Stk 3 256 128) = A13 m ρ c :=
  (KKeep.keep_main_arg13_10_17 m ρ c).trans (a13_10 m ρ c)
theorem a13_24 : (W24 m ρ c (Proc.devRef .tc main_arg13) : Net.Stk 3 256 128) = A13 m ρ c :=
  (KKeep.keep_main_arg13_17_24 m ρ c).trans (a13_17 m ρ c)
theorem a14_10 : (W10 m ρ c (Proc.devRef .tc main_arg14) : Mat 3 128) = A14 m ρ c := KKeep.keep_main_arg14_0_10 m ρ c
theorem a14_17 : (W17 m ρ c (Proc.devRef .tc main_arg14) : Mat 3 128) = A14 m ρ c :=
  (KKeep.keep_main_arg14_10_17 m ρ c).trans (a14_10 m ρ c)
theorem a14_24 : (W24 m ρ c (Proc.devRef .tc main_arg14) : Mat 3 128) = A14 m ρ c :=
  (KKeep.keep_main_arg14_17_24 m ρ c).trans (a14_17 m ρ c)
theorem a15_10 : (W10 m ρ c (Proc.devRef .tc main_arg15) : Net.Stk 3 128 128) = A15 m ρ c := KKeep.keep_main_arg15_0_10 m ρ c
theorem a15_17 : (W17 m ρ c (Proc.devRef .tc main_arg15) : Net.Stk 3 128 128) = A15 m ρ c :=
  (KKeep.keep_main_arg15_10_17 m ρ c).trans (a15_10 m ρ c)
theorem a15_24 : (W24 m ρ c (Proc.devRef .tc main_arg15) : Net.Stk 3 128 128) = A15 m ρ c :=
  (KKeep.keep_main_arg15_17_24 m ρ c).trans (a15_17 m ρ c)
theorem a16_10 : (W10 m ρ c (Proc.devRef .tc main_arg16) : Mat 3 128) = A16 m ρ c := KKeep.keep_main_arg16_0_10 m ρ c
theorem a16_17 : (W17 m ρ c (Proc.devRef .tc main_arg16) : Mat 3 128) = A16 m ρ c :=
  (KKeep.keep_main_arg16_10_17 m ρ c).trans (a16_10 m ρ c)
theorem a16_24 : (W24 m ρ c (Proc.devRef .tc main_arg16) : Mat 3 128) = A16 m ρ c :=
  (KKeep.keep_main_arg16_17_24 m ρ c).trans (a16_17 m ρ c)
theorem e_12 : (W12 m ρ c (Proc.devRef .tc main_v3) : Mat 400000 128) = Net.E (A1 m ρ c) (A5 m ρ c) (A6 m ρ c) :=
  (KKeep.keep_main_v3_5_12 m ρ c).trans (k5_e m ρ c)
theorem e_19 : (W19 m ρ c (Proc.devRef .tc main_v3) : Mat 400000 128) = Net.E (A1 m ρ c) (A5 m ρ c) (A6 m ρ c) :=
  (KKeep.keep_main_v3_12_19 m ρ c).trans (e_12 m ρ c)
theorem src_12 (e : Fin 400000) : (W12 m ρ c (Proc.devRef .tc main_v9) (ix1 e) : BitVec 32) = Net.srcV (A23 m ρ c) e :=
  (congrFun (KKeep.keep_main_v9_5_12 m ρ c) (ix1 e)).trans (k5_src m ρ c e)
theorem src_19 (e : Fin 400000) : (W19 m ρ c (Proc.devRef .tc main_v9) (ix1 e) : BitVec 32) = Net.srcV (A23 m ρ c) e :=
  (congrFun (KKeep.keep_main_v9_12_19 m ρ c) (ix1 e)).trans (src_12 m ρ c e)
theorem dst_12 (e : Fin 400000) : (W12 m ρ c (Proc.devRef .tc main_v11) (ix1 e) : BitVec 32) = Net.dstV (A23 m ρ c) e :=
  (congrFun (KKeep.keep_main_v11_5_12 m ρ c) (ix1 e)).trans (k5_dst m ρ c e)
theorem dst_19 (e : Fin 400000) : (W19 m ρ c (Proc.devRef .tc main_v11) (ix1 e) : BitVec 32) = Net.dstV (A23 m ρ c) e :=
  (congrFun (KKeep.keep_main_v11_12_19 m ρ c) (ix1 e)).trans (dst_12 m ρ c e)
section
variable (hr : ∀ i, -50000 ≤ (A23 m ρ c i).toInt ∧ (A23 m ρ c i).toInt < 50000)
include hr
theorem k_h1 : (W12 m ρ c (Proc.devRef .tc main_v53) : Mat 50000 128)
    = Net.H1 (A0 m ρ c) (A1 m ρ c) (A3 m ρ c) (A4 m ρ c) (A5 m ρ c) (A6 m ρ c) (A9 m ρ c) (A10 m ρ c) (A11 m ρ c) (A12 m ρ c)
        (A13 m ρ c) (A14 m ρ c) (A15 m ρ c) (A16 m ρ c) (A23 m ρ c) := by
  unfold Net.H1 Net.layer Net.msg
  exact layer0_out m ρ c (Net.H0 (A0 m ρ c) (A3 m ρ c) (A4 m ρ c)) (Net.E (A1 m ρ c) (A5 m ρ c) (A6 m ρ c)) (A23 m ρ c)
    (A9 m ρ c) (A10 m ρ c) (A11 m ρ c) (A12 m ρ c) (A13 m ρ c) (A14 m ρ c) (A15 m ρ c) (A16 m ρ c)
    (k5_h m ρ c) (k5_e m ρ c) (k5_src m ρ c) (k5_dst m ρ c) hr
    (a9_8 m ρ c) (a10_8 m ρ c) (a11_8 m ρ c) (a12_8 m ρ c) (a13_10 m ρ c) (a14_10 m ρ c) (a15_10 m ρ c) (a16_10 m ρ c)
theorem k_h2 : (W19 m ρ c (Proc.devRef .tc main_v95) : Mat 50000 128)
    = Net.H2 (A0 m ρ c) (A1 m ρ c) (A3 m ρ c) (A4 m ρ c) (A5 m ρ c) (A6 m ρ c) (A9 m ρ c) (A10 m ρ c) (A11 m ρ c) (A12 m ρ c)
        (A13 m ρ c) (A14 m ρ c) (A15 m ρ c) (A16 m ρ c) (A23 m ρ c) := by
  unfold Net.H2 Net.layer Net.msg
  exact layer1_out m ρ c (Net.H1 (A0 m ρ c) (A1 m ρ c) (A3 m ρ c) (A4 m ρ c) (A5 m ρ c) (A6 m ρ c) (A9 m ρ c) (A10 m ρ c) (A11 m ρ c) (A12 m ρ c)
        (A13 m ρ c) (A14 m ρ c) (A15 m ρ c) (A16 m ρ c) (A23 m ρ c)) (Net.E (A1 m ρ c) (A5 m ρ c) (A6 m ρ c)) (A23 m ρ c)
    (A9 m ρ c) (A10 m ρ c) (A11 m ρ c) (A12 m ρ c) (A13 m ρ c) (A14 m ρ c) (A15 m ρ c) (A16 m ρ c)
    (k_h1 m ρ c hr) (e_12 m ρ c) (src_12 m ρ c) (dst_12 m ρ c) hr
    (a9_15 m ρ c) (a10_15 m ρ c) (a11_15 m ρ c) (a12_15 m ρ c) (a13_17 m ρ c) (a14_17 m ρ c) (a15_17 m ρ c) (a16_17 m ρ c)
theorem k_h3 : (W26 m ρ c (Proc.devRef .tc main_v137) : Mat 50000 128)
    = Net.H3 (A0 m ρ c) (A1 m ρ c) (A3 m ρ c) (A4 m ρ c) (A5 m ρ c) (A6 m ρ c) (A9 m ρ c) (A10 m ρ c) (A11 m ρ c) (A12 m ρ c)
        (A13 m ρ c) (A14 m ρ c) (A15 m ρ c) (A16 m ρ c) (A23 m ρ c) := by
  unfold Net.H3 Net.layer Net.msg
  exact layer2_out m ρ c (Net.H2 (A0 m ρ c) (A1 m ρ c) (A3 m ρ c) (A4 m ρ c) (A5 m ρ c) (A6 m ρ c) (A9 m ρ c) (A10 m ρ c) (A11 m ρ c) (A12 m ρ c)
        (A13 m ρ c) (A14 m ρ c) (A15 m ρ c) (A16 m ρ c) (A23 m ρ c)) (Net.E (A1 m ρ c) (A5 m ρ c) (A6 m ρ c)) (A23 m ρ c)
    (A9 m ρ c) (A10 m ρ c) (A11 m ρ c) (A12 m ρ c) (A13 m ρ c) (A14 m ρ c) (A15 m ρ c) (A16 m ρ c)
    (k_h2 m ρ c hr) (e_19 m ρ c) (src_19 m ρ c) (dst_19 m ρ c) hr
    (a9_22 m ρ c) (a10_22 m ρ c) (a11_22 m ρ c) (a12_22 m ρ c) (a13_24 m ρ c) (a14_24 m ρ c) (a15_24 m ρ c) (a16_24 m ρ c)
theorem k_out : W31 m ρ c (Proc.devRef .tc main_v164)
    = Cert.Tail.tailF (Net.H3 (A0 m ρ c) (A1 m ρ c) (A3 m ρ c) (A4 m ρ c) (A5 m ρ c) (A6 m ρ c) (A9 m ρ c) (A10 m ρ c) (A11 m ρ c) (A12 m ρ c)
        (A13 m ρ c) (A14 m ρ c) (A15 m ρ c) (A16 m ρ c) (A23 m ρ c))
        (Gf m ρ c) (A24 m ρ c) (A17 m ρ c) (A18 m ρ c) (A19 m ρ c) (A20 m ρ c) (A21 m ρ c) (A22 m ρ c) := by
  refine (Cert.Tail.ktail (W26 m ρ c)).trans ?_
  rw [k_h3 m ρ c hr, KKeep.keep_main_v7_5_26 m ρ c, k5_g m ρ c, KKeep.keep_main_arg24_0_26 m ρ c,
    KKeep.keep_main_arg17_0_26 m ρ c, KKeep.keep_main_arg18_0_26 m ρ c, KKeep.keep_main_arg19_0_26 m ρ c,
    KKeep.keep_main_arg20_0_26 m ρ c, KKeep.keep_main_arg21_0_26 m ρ c, KKeep.keep_main_arg22_0_26 m ρ c]
end
end Cert.KChain
end
-- ==== Proof.RLin.lean ====
import proofs.«418781_j85873576116382_1_alg».proof.Proof.RReadP
import proofs.«418781_j85873576116382_1_alg».proof.Proof.Net
import Idealize.ShloMosaic.Lib.ValueIdx
import Idealize.ShloMosaic.PureOps.Ideal.Laws
noncomputable section
open scoped BigOperators
namespace Cert.RVal
open Idealize.ShloMosaic Idealize.ShloMosaic.TcCoe Idealize.SL.Sem Idealize.ShloMosaic.StableHlo
open Idealize.ShloMosaic.ValueIdx Idealize.ShloMosaic.SageSpec
open Cert.ReferenceIdeal Cert.ReferenceIdeal.Read
theorem ref_h0 (x0 : (⟨S50000x32, .f32⟩ : BufTy).Contents (Elt Ideal))
    (x3 : (⟨S32x128, .f32⟩ : BufTy).Contents (Elt Ideal)) (x4 : (⟨S128, .f32⟩ : BufTy).Contents (Elt Ideal)) :
    (fun i => val_main_v3 (F := Ideal) x0 x3 x4 i) = Net.H0 (fun i => x0 i) (fun i => x3 i) (fun i => x4 i) := by
  funext i
  obtain ⟨p, q, rfl⟩ : ∃ (p : Fin 50000) (q : Fin 128), i = ix2 p q := ⟨i 0, i 1, eq_ix2 i⟩
  have el : ∀ k : Fin 32, lidx_main_v0 (ix2 p q) k = ix2 p k := fun k => funext fun a => by
    match a with
    | ⟨0, _⟩ => rfl
    | ⟨1, _⟩ => rfl
  have er : ∀ k : Fin 32, ridx_main_v0 (ix2 p q) k = ix2 k q := fun k => funext fun a => by
    match a with
    | ⟨0, _⟩ => rfl
    | ⟨1, _⟩ => rfl
  have eb : idx_main_v1 (idx_main_v2 (ix2 p q)) = ix1 q := funext fun a => by
    match a with
    | ⟨0, _⟩ => rfl
  show val_main_v3 (F := Ideal) x0 x3 x4 (ix2 p q)
    = (∑ j : Fin 32, x0 (ix2 p j) * x3 (ix2 j q)) + x4 (ix1 q)
  rw [val_main_v3_apply, val_main_v0_apply, val_main_v2_apply, val_main_v1_apply, eb]
  show (∑ k : Fin 32, x0 (lidx_main_v0 (ix2 p q) k) * x3 (ridx_main_v0 (ix2 p q) k)) + x4 (ix1 q) = _
  refine congrArg (· + x4 (ix1 q)) (Finset.sum_congr rfl fun k _ => ?_)
  rw [el k, er k]
theorem ref_h0_at (x0 : (⟨S50000x32, .f32⟩ : BufTy).Contents (Elt Ideal))
    (x3 : (⟨S32x128, .f32⟩ : BufTy).Contents (Elt Ideal)) (x4 : (⟨S128, .f32⟩ : BufTy).Contents (Elt Ideal))
    (i : S50000x128.Idx) :
    val_main_v3 (F := Ideal) x0 x3 x4 i = Net.H0 (fun i => x0 i) (fun i => x3 i) (fun i => x4 i) i :=
  congrFun (ref_h0 x0 x3 x4) i
theorem ref_e (x1 : (⟨S400000x16, .f32⟩ : BufTy).Contents (Elt Ideal))
    (x5 : (⟨S16x128, .f32⟩ : BufTy).Contents (Elt Ideal)) (x6 : (⟨S128, .f32⟩ : BufTy).Contents (Elt Ideal)) :
    (fun i => val_main_v7 (F := Ideal) x1 x5 x6 i) = Net.E (fun i => x1 i) (fun i => x5 i) (fun i => x6 i) := by
  funext i
  obtain ⟨p, q, rfl⟩ : ∃ (p : Fin 400000) (q : Fin 128), i = ix2 p q := ⟨i 0, i 1, eq_ix2 i⟩
  have el : ∀ k : Fin 16, lidx_main_v4 (ix2 p q) k = ix2 p k := fun k => funext fun a => by
    match a with
    | ⟨0, _⟩ => rfl
    | ⟨1, _⟩ => rfl
  have er : ∀ k : Fin 16, ridx_main_v4 (ix2 p q) k = ix2 k q := fun k => funext fun a => by
    match a with
    | ⟨0, _⟩ => rfl
    | ⟨1, _⟩ => rfl
  have eb : idx_main_v5 (idx_main_v6 (ix2 p q)) = ix1 q := funext fun a => by
    match a with
    | ⟨0, _⟩ => rfl
  show val_main_v7 (F := Ideal) x1 x5 x6 (ix2 p q)
    = (∑ j : Fin 16, x1 (ix2 p j) * x5 (ix2 j q)) + x6 (ix1 q)
  rw [val_main_v7_apply, val_main_v4_apply, val_main_v6_apply, val_main_v5_apply, eb]
  show (∑ k : Fin 16, x1 (lidx_main_v4 (ix2 p q) k) * x5 (ridx_main_v4 (ix2 p q) k)) + x6 (ix1 q) = _
  refine congrArg (· + x6 (ix1 q)) (Finset.sum_congr rfl fun k _ => ?_)
  rw [el k, er k]
theorem ref_e_at (x1 : (⟨S400000x16, .f32⟩ : BufTy).Contents (Elt Ideal))
    (x5 : (⟨S16x128, .f32⟩ : BufTy).Contents (Elt Ideal)) (x6 : (⟨S128, .f32⟩ : BufTy).Contents (Elt Ideal))
    (i : S400000x128.Idx) :
    val_main_v7 (F := Ideal) x1 x5 x6 i = Net.E (fun i => x1 i) (fun i => x5 i) (fun i => x6 i) i :=
  congrFun (ref_e x1 x5 x6) i
end Cert.RVal
end
-- ==== Proof.REdgeGen.lean ====
import proofs.«418781_j85873576116382_1_alg».proof.ReferenceIdeal
import proofs.«418781_j85873576116382_1_alg».proof.Proof.Net
import proofs.«418781_j85873576116382_1_alg».proof.Proof.LibRowGatherScatter
import Idealize.ShloMosaic.Lib.Pipeline.Value
import Idealize.ShloMosaic.Lib.ValueIdx
import Idealize.ShloMosaic.PureOps.Ideal.Laws
noncomputable section
open scoped BigOperators
namespace Cert.RVal
open Idealize.ShloMosaic Idealize.ShloMosaic.ValueIdx Idealize.ShloMosaic.SageSpec
open Cert.ReferenceIdeal Cert.Spec Cert.Net Cert.LibRows
variable [Facts₀]
theorem plainDot384 : PlainDot dot_S400000x384_S384x128_S400000x128_1_0_0_1_n_n where
  rank := rfl
  size := fun _ => rfl
  l0 := fun i q => by
    unfold DotDims.lhsIdx
    rw [dif_neg (show ¬(0 : Fin S400000x384.rank) ∈ dot_S400000x384_S384x128_S400000x128_1_0_0_1_n_n.lhsBatch from List.not_mem_nil),
      dif_pos (show (0 : Fin S400000x384.rank) ∈ dot_S400000x384_S384x128_S400000x128_1_0_0_1_n_n.lhsNonContracting from List.mem_singleton.mpr rfl)]
    rfl
  l1 := fun i q _ => dot_S400000x384_S384x128_S400000x128_1_0_0_1_n_n.lhsIdx_val_of_single rfl i q
  r0 := fun i q _ => dot_S400000x384_S384x128_S400000x128_1_0_0_1_n_n.rhsIdx_val_of_single rfl i q
  r1 := fun i q => by
    unfold DotDims.rhsIdx
    rw [dif_neg (show ¬(1 : Fin S384x128.rank) ∈ dot_S400000x384_S384x128_S400000x128_1_0_0_1_n_n.rhsBatch from List.not_mem_nil),
      dif_pos (show (1 : Fin S384x128.rank) ∈ dot_S400000x384_S384x128_S400000x128_1_0_0_1_n_n.rhsNonContracting from List.mem_singleton.mpr rfl)]
    rfl
theorem plainDot128 : PlainDot dot_S400000x128_S128x128_S400000x128_1_0_0_1_n_n where
  rank := rfl
  size := fun _ => rfl
  l0 := fun i q => by
    unfold DotDims.lhsIdx
    rw [dif_neg (show ¬(0 : Fin S400000x128.rank) ∈ dot_S400000x128_S128x128_S400000x128_1_0_0_1_n_n.lhsBatch from List.not_mem_nil),
      dif_pos (show (0 : Fin S400000x128.rank) ∈ dot_S400000x128_S128x128_S400000x128_1_0_0_1_n_n.lhsNonContracting from List.mem_singleton.mpr rfl)]
    rfl
  l1 := fun i q _ => dot_S400000x128_S128x128_S400000x128_1_0_0_1_n_n.lhsIdx_val_of_single rfl i q
  r0 := fun i q _ => dot_S400000x128_S128x128_S400000x128_1_0_0_1_n_n.rhsIdx_val_of_single rfl i q
  r1 := fun i q => by
    unfold DotDims.rhsIdx
    rw [dif_neg (show ¬(1 : Fin S128x128.rank) ∈ dot_S400000x128_S128x128_S400000x128_1_0_0_1_n_n.rhsBatch from List.not_mem_nil),
      dif_pos (show (1 : Fin S128x128.rank) ∈ dot_S400000x128_S128x128_S400000x128_1_0_0_1_n_n.rhsNonContracting from List.mem_singleton.mpr rfl)]
    rfl
theorem gather_rowsAt (H : FVec Ideal S50000x128 .f32) (Hm : Mat 50000 128) (iW : IVec S400000x1 32)
    (idx : Fin 400000 → BitVec 32) (hH : ∀ i, H i = Hm i)
    (hW : ∀ e : Fin 400000, iW (ix2 e (0 : Fin 1)) = TakeFill.wrapIdx 50000#32 (idx e)) (e : Fin 400000) (j : Fin 128) :
    Host.gather gather_S50000x128_S400000x1_S400000x128_1_0_n_n_0_1_1128 H iW (ix2 e j) = rowsAt Hm idx (ix2 e j) := by
  have hg : gather_S50000x128_S400000x1_S400000x128_1_0_n_n_0_1_1128
      = rowGather 50000 400000 128 Facts₀.gather_S50000x128_S400000x1_S400000x128_1_0_n_n_0_1_1128_wf := rfl
  rw [hg, gather_rows_apply (by decide) _ H iW e j, hH]
  refine congrArg Hm (funext fun a => Fin.ext ?_)
  match a with
  | ⟨0, _⟩ =>
    show min (iW (ix2 e (0 : Fin 1))).toInt.toNat (50000 - 1) = min (TakeFill.wrapIdx 50000#32 (idx e)).toInt.toNat 49999
    rw [hW e]
  | ⟨1, _⟩ => rfl
section Joined
variable (A0 A1 A2 : FVec Ideal S400000x128 .f32) (e : Fin 400000) (c : Fin 128)
theorem joined0 :
    concatenate S400000x384 1 [⟨S400000x128, A0⟩, ⟨S400000x128, A1⟩, ⟨S400000x128, A2⟩]
        Facts₀.concatenates_S400000x128_S400000x128_S400000x128_S400000x384_d1 (ix2 e ⟨0 + c.val, by omega⟩) = A0 (ix2 e c) :=
  concatenate_apply_piece (t := S400000x384) 1 [⟨S400000x128, A0⟩, ⟨S400000x128, A1⟩, ⟨S400000x128, A2⟩]
    Facts₀.concatenates_S400000x128_S400000x128_S400000x128_S400000x384_d1 (ix2 e ⟨0 + c.val, by omega⟩) 0
    (by show 0 < 3; omega) S400000x128 A0 rfl rfl 0 rfl (ix2 e c)
    (fun b hb => match b, hb with
      | ⟨0, _⟩, _ => rfl
      | ⟨1, _⟩, hb => absurd rfl hb) rfl
theorem joined1 :
    concatenate S400000x384 1 [⟨S400000x128, A0⟩, ⟨S400000x128, A1⟩, ⟨S400000x128, A2⟩]
        Facts₀.concatenates_S400000x128_S400000x128_S400000x128_S400000x384_d1 (ix2 e ⟨128 + c.val, by omega⟩) = A1 (ix2 e c) :=
  concatenate_apply_piece (t := S400000x384) 1 [⟨S400000x128, A0⟩, ⟨S400000x128, A1⟩, ⟨S400000x128, A2⟩]
    Facts₀.concatenates_S400000x128_S400000x128_S400000x128_S400000x384_d1 (ix2 e ⟨128 + c.val, by omega⟩) 1
    (by show 1 < 3; omega) S400000x128 A1 rfl rfl 128 rfl (ix2 e c)
    (fun b hb => match b, hb with
      | ⟨0, _⟩, _ => rfl
      | ⟨1, _⟩, hb => absurd rfl hb) rfl
theorem joined2 :
    concatenate S400000x384 1 [⟨S400000x128, A0⟩, ⟨S400000x128, A1⟩, ⟨S400000x128, A2⟩]
        Facts₀.concatenates_S400000x128_S400000x128_S400000x128_S400000x384_d1 (ix2 e ⟨256 + c.val, by omega⟩) = A2 (ix2 e c) :=
  concatenate_apply_piece (t := S400000x384) 1 [⟨S400000x128, A0⟩, ⟨S400000x128, A1⟩, ⟨S400000x128, A2⟩]
    Facts₀.concatenates_S400000x128_S400000x128_S400000x128_S400000x384_d1 (ix2 e ⟨256 + c.val, by omega⟩) 2
    (by show 2 < 3; omega) S400000x128 A2 rfl rfl 256 rfl (ix2 e c)
    (fun b hb => match b, hb with
      | ⟨0, _⟩, _ => rfl
      | ⟨1, _⟩, hb => absurd rfl hb) rfl
end Joined
theorem sum_split3 (f : Fin 384 → EReal) :
    ∑ k : Fin 384, f k = ∑ c : Fin 128, f ⟨0 + c.val, by omega⟩ + ∑ c : Fin 128, f ⟨128 + c.val, by omega⟩
      + ∑ c : Fin 128, f ⟨256 + c.val, by omega⟩ := by
  have h1 : ∑ k : Fin (128 + 128 + 128), f k
      = ∑ i : Fin (128 + 128), f (Fin.castAdd 128 i) + ∑ i : Fin 128, f (Fin.natAdd (128 + 128) i) :=
    Fin.sum_univ_add (fun k : Fin (128 + 128 + 128) => f k)
  have h2 : ∑ i : Fin (128 + 128), f (Fin.castAdd 128 i)
      = ∑ i : Fin 128, f (Fin.castAdd 128 (Fin.castAdd 128 i)) + ∑ i : Fin 128, f (Fin.castAdd 128 (Fin.natAdd 128 i)) :=
    Fin.sum_univ_add (fun i : Fin (128 + 128) => f (Fin.castAdd 128 i))
  refine (h1.trans (congrArg (· + ∑ i : Fin 128, f (Fin.natAdd (128 + 128) i)) h2)).trans ?_
  refine congrArg₂ (· + ·) (congrArg₂ (· + ·) ?_ ?_) ?_
  · exact Finset.sum_congr rfl fun c _ => congrArg f (Fin.ext (Nat.zero_add _).symm)
  · exact Finset.sum_congr rfl fun c _ => congrArg f (Fin.ext rfl)
  · exact Finset.sum_congr rfl fun c _ => congrArg f (Fin.ext rfl)
theorem slab_at {r : Nat} (W : Stk 3 r 128) (l : Fin 3) (o : Nat) (ho : o + 128 ≤ r) (c q : Fin 128) :
    slab W l o ho (ix2 c q) = W (ix3 l ⟨o + c.val, by omega⟩ q) := rfl
theorem stretch_sum (C : S400000x384.Idx → EReal) (W1 : S384x128.Idx → EReal) (A : Mat 400000 128)
    (mW1 : Stk 3 384 128) (l : Fin 3) (o : Nat) (ho : o + 128 ≤ 384) (e : Fin 400000) (j : Fin 128)
    (hC : ∀ c : Fin 128, C (ix2 e ⟨o + c.val, by omega⟩) = A (ix2 e c))
    (hW1 : ∀ (r : Fin 384) (q : Fin 128), W1 (ix2 r q) = mW1 (ix3 l r q)) :
    ∑ c : Fin 128, C (ix2 e ⟨o + c.val, by omega⟩) * W1 (ix2 ⟨o + c.val, by omega⟩ j) = rowDot A (slab mW1 l o ho) e j := by
  unfold rowDot
  refine Finset.sum_congr rfl fun c _ => ?_
  rw [hC c, hW1]
  rfl
section Msg
variable (ea : Mat 400000 16) (We : Mat 16 128) (be : Vct 128)
  (mW1 : Stk 3 384 128) (mb1 : Mat 3 128) (mW2 : Stk 3 128 128) (mb2 : Mat 3 128)
  (ei : IVec ⟨2, ![2, 400000]⟩ 32) (l : Fin 3) (Hm : Mat 50000 128)
theorem msg_at (H : FVec Ideal S50000x128 .f32) (Ee : FVec Ideal S400000x128 .f32) (iD iS : IVec S400000x1 32)
    (W1 : FVec Ideal S384x128 .f32) (B1 Z : FVec Ideal S400000x128 .f32) (W2 : FVec Ideal S128x128 .f32)
    (B2 : FVec Ideal S400000x128 .f32)
    (hH : ∀ i, H i = Hm i) (hE : ∀ i, Ee i = E ea We be i)
    (hD : ∀ e : Fin 400000, iD (ix2 e (0 : Fin 1)) = TakeFill.wrapIdx 50000#32 (dstV ei e))
    (hS : ∀ e : Fin 400000, iS (ix2 e (0 : Fin 1)) = TakeFill.wrapIdx 50000#32 (srcV ei e))
    (hW1 : ∀ (r : Fin 384) (q : Fin 128), W1 (ix2 r q) = mW1 (ix3 l r q))
    (hB1 : ∀ (e : Fin 400000) (q : Fin 128), B1 (ix2 e q) = mb1 (ix2 l q))
    (hZ : ∀ i, Z i = 0)
    (hW2 : ∀ (r : Fin 128) (q : Fin 128), W2 (ix2 r q) = mW2 (ix3 l r q))
    (hB2 : ∀ (e : Fin 400000) (q : Fin 128), B2 (ix2 e q) = mb2 (ix2 l q)) :
    (fun i => addf (Host.dotGeneral dot_S400000x128_S128x128_S400000x128_1_0_0_1_n_n none
        (maximumf (addf (Host.dotGeneral dot_S400000x384_S384x128_S400000x128_1_0_0_1_n_n none
          (concatenate S400000x384 1
            [⟨S400000x128, Host.gather gather_S50000x128_S400000x1_S400000x128_1_0_n_n_0_1_1128 H iD⟩,
             ⟨S400000x128, Host.gather gather_S50000x128_S400000x1_S400000x128_1_0_n_n_0_1_1128 H iS⟩,
             ⟨S400000x128, Ee⟩]
            Facts₀.concatenates_S400000x128_S400000x128_S400000x128_S400000x384_d1) W1) B1) Z) W2) B2 i)
      = msg ea We be mW1 mb1 mW2 mb2 ei l Hm := by
  funext i
  obtain ⟨e, q, rfl⟩ : ∃ (e : Fin 400000) (q : Fin 128), i = ix2 e q := ⟨i 0, i 1, eq_ix2 i⟩
  rw [addf_apply, dotGeneral_at plainDot128 none _ _ (ix2 e q), hB2 e q]
  show _ = rowDot (edgeHid (rowsAt Hm (dstV ei)) (rowsAt Hm (srcV ei)) (E ea We be) (slab mW1 l 0 (by omega))
      (slab mW1 l 128 (by omega)) (slab mW1 l 256 (by omega)) (rowAt mb1 l)) (slab mW2 l 0 (by omega)) e q + rowAt mb2 l q
  refine congrArg (· + rowAt mb2 l q) ?_
  unfold rowDot
  refine Finset.sum_congr rfl fun j _ => ?_
  have hw2 : W2 (ix2 j q) = slab mW2 l 0 (by omega) (ix2 j q) := by
    rw [hW2, slab_at]
    exact congrArg mW2 (funext fun a => Fin.ext (match a with
      | ⟨0, _⟩ => rfl
      | ⟨1, _⟩ => (Nat.zero_add _).symm
      | ⟨2, _⟩ => rfl))
  refine congrArg₂ (· * ·) ?_ hw2
  show maximumf (addf (Host.dotGeneral dot_S400000x384_S384x128_S400000x128_1_0_0_1_n_n none _ W1) B1) Z (ix2 e j) = _
  rw [maximumf_apply, addf_apply, hZ, hB1 e j, dotGeneral_at plainDot384 none _ _ (ix2 e j)]
  show max (rowDot _ _ e j + mb1 (ix2 l j)) 0
    = max (rowDot (rowsAt Hm (dstV ei)) (slab mW1 l 0 (by omega)) e j + rowDot (rowsAt Hm (srcV ei)) (slab mW1 l 128 (by omega)) e j
      + rowDot (E ea We be) (slab mW1 l 256 (by omega)) e j + rowAt mb1 l j) 0
  refine congrArg (fun s => max (s + mb1 (ix2 l j)) 0) ?_
  rw [← stretch_sum _ (fun i => W1 i) (rowsAt Hm (dstV ei)) mW1 l 0 (by omega) e j
      (fun c => (joined0 _ _ _ e c).trans (gather_rowsAt H Hm iD (dstV ei) hH hD e c)) hW1,
    ← stretch_sum _ (fun i => W1 i) (rowsAt Hm (srcV ei)) mW1 l 128 (by omega) e j
      (fun c => (joined1 _ _ _ e c).trans (gather_rowsAt H Hm iS (srcV ei) hH hS e c)) hW1,
    ← stretch_sum _ (fun i => W1 i) (E ea We be) mW1 l 256 (by omega) e j
      (fun c => (joined2 _ _ _ e c).trans (hE _)) hW1]
  unfold rowDot
  exact sum_split3 _
end Msg
end Cert.RVal
end
-- ==== Proof.REdge0.lean ====
import proofs.«418781_j85873576116382_1_alg».proof.Proof.RReadP
import proofs.«418781_j85873576116382_1_alg».proof.Proof.REdgeGen
import proofs.«418781_j85873576116382_1_alg».proof.Proof.RLin
noncomputable section
open scoped BigOperators
namespace Cert.RVal
open Idealize.ShloMosaic Idealize.ShloMosaic.ValueIdx Idealize.ShloMosaic.SageSpec
open Cert.ReferenceIdeal Cert.ReferenceIdeal.Gen Cert.ReferenceIdeal.Read Cert.Spec Cert.Net
section Words
variable (x23 : (⟨S2x400000, .i32⟩ : BufTy).Contents (Elt Ideal))
theorem dst_word (e : Fin 400000) : val_main_v15 (F := Ideal) x23 (ix1 e) = dstV (fun i => x23 i) e := by
  rw [val_main_v15_apply, val_main_v14_apply]
  have he := e.isLt
  exact congrArg x23 (funext fun a => Fin.ext (match a with
    | ⟨0, _⟩ => rfl
    | ⟨1, _⟩ => by show e.val % 400000 = e.val; omega))
theorem src_word (e : Fin 400000) : val_main_v13 (F := Ideal) x23 (ix1 e) = srcV (fun i => x23 i) e := by
  rw [val_main_v13_apply, val_main_v12_apply]
  have he := e.isLt
  exact congrArg x23 (funext fun a => Fin.ext (match a with
    | ⟨0, _⟩ => rfl
    | ⟨1, _⟩ => by show e.val % 400000 = e.val; omega))
end Words
section Words0
variable (x23 : (⟨S2x400000, .i32⟩ : BufTy).Contents (Elt Ideal))
theorem dst_wrapped0 (e : Fin 400000) :
    val_main_v21 (F := Ideal) x23 (ix2 e (0 : Fin 1)) = TakeFill.wrapIdx 50000#32 (dstV (fun i => x23 i) e) := by
  rw [val_main_v21_apply]
  have hi : idx_main_v21 (ix2 e (0 : Fin 1)) = ix1 e := funext fun a => match a with | ⟨0, _⟩ => rfl
  rw [hi, val_main_v20_apply, val_main_v17_apply, val_main_v19_apply, val_main_v16_apply, val_main_v18_apply, val_main_c_apply, val_main_c_0_apply,
    dst_word]
  rfl
theorem src_wrapped0 (e : Fin 400000) :
    val_main_v28 (F := Ideal) x23 (ix2 e (0 : Fin 1)) = TakeFill.wrapIdx 50000#32 (srcV (fun i => x23 i) e) := by
  rw [val_main_v28_apply]
  have hi : idx_main_v28 (ix2 e (0 : Fin 1)) = ix1 e := funext fun a => match a with | ⟨0, _⟩ => rfl
  rw [hi, val_main_v27_apply, val_main_v24_apply, val_main_v26_apply, val_main_v23_apply, val_main_v25_apply, val_main_c_1_apply, val_main_c_2_apply,
    src_word]
  rfl
end Words0
theorem w1_0 (x9 : (⟨S3x384x128, .f32⟩ : BufTy).Contents (Elt Ideal)) (r : Fin 384) (q : Fin 128) :
    val_main_v32 (F := Ideal) x9 (ix2 r q) = x9 (ix3 (0 : Fin 3) r q) := by
  rw [val_main_v32_apply, val_main_v31_apply]
  have hr := r.isLt
  have hq := q.isLt
  exact congrArg x9 (funext fun a => Fin.ext (match a with
    | ⟨0, _⟩ => rfl
    | ⟨1, _⟩ => by show (r.val * 128 + q.val) / 128 % 384 = r.val; omega
    | ⟨2, _⟩ => by show (r.val * 128 + q.val) % 128 = q.val; omega))
theorem w2_0 (x11 : (⟨S3x128x128, .f32⟩ : BufTy).Contents (Elt Ideal)) (r : Fin 128) (q : Fin 128) :
    val_main_v41 (F := Ideal) x11 (ix2 r q) = x11 (ix3 (0 : Fin 3) r q) := by
  rw [val_main_v41_apply, val_main_v40_apply]
  have hr := r.isLt
  have hq := q.isLt
  exact congrArg x11 (funext fun a => Fin.ext (match a with
    | ⟨0, _⟩ => rfl
    | ⟨1, _⟩ => by show (r.val * 128 + q.val) / 128 % 128 = r.val; omega
    | ⟨2, _⟩ => by show (r.val * 128 + q.val) % 128 = q.val; omega))
theorem b1_0 (x10 : (⟨S3x128, .f32⟩ : BufTy).Contents (Elt Ideal)) (e : Fin 400000) (q : Fin 128) :
    val_main_v37 (F := Ideal) x10 (ix2 e q) = x10 (ix2 (0 : Fin 3) q) := by
  rw [val_main_v37_apply, val_main_v36_apply, val_main_v35_apply, val_main_v34_apply]
  have hq := q.isLt
  exact congrArg x10 (funext fun a => Fin.ext (match a with
    | ⟨0, _⟩ => rfl
    | ⟨1, _⟩ => by show q.val % 128 = q.val; omega))
theorem b2_0 (x12 : (⟨S3x128, .f32⟩ : BufTy).Contents (Elt Ideal)) (e : Fin 400000) (q : Fin 128) :
    val_main_v46 (F := Ideal) x12 (ix2 e q) = x12 (ix2 (0 : Fin 3) q) := by
  rw [val_main_v46_apply, val_main_v45_apply, val_main_v44_apply, val_main_v43_apply]
  have hq := q.isLt
  exact congrArg x12 (funext fun a => Fin.ext (match a with
    | ⟨0, _⟩ => rfl
    | ⟨1, _⟩ => by show q.val % 128 = q.val; omega))
theorem z_0 (i : S400000x128.Idx) : val_main_call0_v0 (F := Ideal) i = 0 := by
  rw [val_main_call0_v0_apply, val_main_call0_cst_apply]
  exact Ideal.ofBits_zero_f32
theorem ref_msg0 (x0 : (⟨S50000x32, .f32⟩ : BufTy).Contents (Elt Ideal)) (x1 : (⟨S400000x16, .f32⟩ : BufTy).Contents (Elt Ideal))
    (x3 : (⟨S32x128, .f32⟩ : BufTy).Contents (Elt Ideal)) (x4 : (⟨S128, .f32⟩ : BufTy).Contents (Elt Ideal))
    (x5 : (⟨S16x128, .f32⟩ : BufTy).Contents (Elt Ideal)) (x6 : (⟨S128, .f32⟩ : BufTy).Contents (Elt Ideal))
    (x9 : (⟨S3x384x128, .f32⟩ : BufTy).Contents (Elt Ideal)) (x10 : (⟨S3x128, .f32⟩ : BufTy).Contents (Elt Ideal))
    (x11 : (⟨S3x128x128, .f32⟩ : BufTy).Contents (Elt Ideal)) (x12 : (⟨S3x128, .f32⟩ : BufTy).Contents (Elt Ideal))
    (x23 : (⟨S2x400000, .i32⟩ : BufTy).Contents (Elt Ideal)) :
    (fun i => val_main_v47 (F := Ideal) x0 x1 x3 x4 x5 x6 x9 x10 x11 x12 x23 i)
      = msg (fun i => x1 i) (fun i => x5 i) (fun i => x6 i) (fun i => x9 i) (fun i => x10 i) (fun i => x11 i) (fun i => x12 i)
          (fun i => x23 i) 0 (fun i => val_main_v3 (F := Ideal) x0 x3 x4 i) := by
  unfold val_main_v47 val_main_v42 val_main_v39 val_main_v38 val_main_v33 val_main_v30 val_main_v22 val_main_v29
  exact msg_at (fun i => x1 i) (fun i => x5 i) (fun i => x6 i) (fun i => x9 i) (fun i => x10 i) (fun i => x11 i) (fun i => x12 i)
    (fun i => x23 i) 0 (fun i => val_main_v3 (F := Ideal) x0 x3 x4 i)
    (val_main_v3 (F := Ideal) x0 x3 x4) (val_main_v7 (F := Ideal) x1 x5 x6) (val_main_v21 (F := Ideal) x23) (val_main_v28 (F := Ideal) x23)
    (val_main_v32 (F := Ideal) x9) (val_main_v37 (F := Ideal) x10) (val_main_call0_v0 (F := Ideal)) (val_main_v41 (F := Ideal) x11) (val_main_v46 (F := Ideal) x12)
    (fun _ => rfl) (ref_e_at x1 x5 x6) (dst_wrapped0 x23) (src_wrapped0 x23) (w1_0 x9) (b1_0 x10) z_0 (w2_0 x11) (b2_0 x12)
end Cert.RVal
end
-- ==== Proof.REdge1.lean ====
import proofs.«418781_j85873576116382_1_alg».proof.Proof.RReadP
import proofs.«418781_j85873576116382_1_alg».proof.Proof.REdge0
noncomputable section
open scoped BigOperators
namespace Cert.RVal
open Idealize.ShloMosaic Idealize.ShloMosaic.ValueIdx Idealize.ShloMosaic.SageSpec
open Cert.ReferenceIdeal Cert.ReferenceIdeal.Gen Cert.ReferenceIdeal.Read Cert.Spec Cert.Net
section Words1
variable (x23 : (⟨S2x400000, .i32⟩ : BufTy).Contents (Elt Ideal))
theorem dst_wrapped1 (e : Fin 400000) :
    val_main_v75 (F := Ideal) x23 (ix2 e (0 : Fin 1)) = TakeFill.wrapIdx 50000#32 (dstV (fun i => x23 i) e) := by
  rw [val_main_v75_apply]
  have hi : idx_main_v75 (ix2 e (0 : Fin 1)) = ix1 e := funext fun a => match a with | ⟨0, _⟩ => rfl
  rw [hi, val_main_v74_apply, val_main_v71_apply, val_main_v73_apply, val_main_v70_apply, val_main_v72_apply, val_main_c_3_apply, val_main_c_4_apply,
    dst_word]
  rfl
theorem src_wrapped1 (e : Fin 400000) :
    val_main_v82 (F := Ideal) x23 (ix2 e (0 : Fin 1)) = TakeFill.wrapIdx 50000#32 (srcV (fun i => x23 i) e) := by
  rw [val_main_v82_apply]
  have hi : idx_main_v82 (ix2 e (0 : Fin 1)) = ix1 e := funext fun a => match a with | ⟨0, _⟩ => rfl
  rw [hi, val_main_v81_apply, val_main_v78_apply, val_main_v80_apply, val_main_v77_apply, val_main_v79_apply, val_main_c_5_apply, val_main_c_6_apply,
    src_word]
  rfl
end Words1
theorem w1_1 (x9 : (⟨S3x384x128, .f32⟩ : BufTy).Contents (Elt Ideal)) (r : Fin 384) (q : Fin 128) :
    val_main_v86 (F := Ideal) x9 (ix2 r q) = x9 (ix3 (1 : Fin 3) r q) := by
  rw [val_main_v86_apply, val_main_v85_apply]
  have hr := r.isLt
  have hq := q.isLt
  exact congrArg x9 (funext fun a => Fin.ext (match a with
    | ⟨0, _⟩ => rfl
    | ⟨1, _⟩ => by show (r.val * 128 + q.val) / 128 % 384 = r.val; omega
    | ⟨2, _⟩ => by show (r.val * 128 + q.val) % 128 = q.val; omega))
theorem w2_1 (x11 : (⟨S3x128x128, .f32⟩ : BufTy).Contents (Elt Ideal)) (r : Fin 128) (q : Fin 128) :
    val_main_v95 (F := Ideal) x11 (ix2 r q) = x11 (ix3 (1 : Fin 3) r q) := by
  rw [val_main_v95_apply, val_main_v94_apply]
  have hr := r.isLt
  have hq := q.isLt
  exact congrArg x11 (funext fun a => Fin.ext (match a with
    | ⟨0, _⟩ => rfl
    | ⟨1, _⟩ => by show (r.val * 128 + q.val) / 128 % 128 = r.val; omega
    | ⟨2, _⟩ => by show (r.val * 128 + q.val) % 128 = q.val; omega))
theorem b1_1 (x10 : (⟨S3x128, .f32⟩ : BufTy).Contents (Elt Ideal)) (e : Fin 400000) (q : Fin 128) :
    val_main_v91 (F := Ideal) x10 (ix2 e q) = x10 (ix2 (1 : Fin 3) q) := by
  rw [val_main_v91_apply, val_main_v90_apply, val_main_v89_apply, val_main_v88_apply]
  have hq := q.isLt
  exact congrArg x10 (funext fun a => Fin.ext (match a with
    | ⟨0, _⟩ => rfl
    | ⟨1, _⟩ => by show q.val % 128 = q.val; omega))
theorem b2_1 (x12 : (⟨S3x128, .f32⟩ : BufTy).Contents (Elt Ideal)) (e : Fin 400000) (q : Fin 128) :
    val_main_v100 (F := Ideal) x12 (ix2 e q) = x12 (ix2 (1 : Fin 3) q) := by
  rw [val_main_v100_apply, val_main_v99_apply, val_main_v98_apply, val_main_v97_apply]
  have hq := q.isLt
  exact congrArg x12 (funext fun a => Fin.ext (match a with
    | ⟨0, _⟩ => rfl
    | ⟨1, _⟩ => by show q.val % 128 = q.val; omega))
theorem z_1 (i : S400000x128.Idx) : val_main_call2_v0 (F := Ideal) i = 0 := by
  rw [val_main_call2_v0_apply, val_main_call2_cst_apply]
  exact Ideal.ofBits_zero_f32
theorem ref_msg1 (x0 : (⟨S50000x32, .f32⟩ : BufTy).Contents (Elt Ideal)) (x1 : (⟨S400000x16, .f32⟩ : BufTy).Contents (Elt Ideal))
    (x3 : (⟨S32x128, .f32⟩ : BufTy).Contents (Elt Ideal)) (x4 : (⟨S128, .f32⟩ : BufTy).Contents (Elt Ideal))
    (x5 : (⟨S16x128, .f32⟩ : BufTy).Contents (Elt Ideal)) (x6 : (⟨S128, .f32⟩ : BufTy).Contents (Elt Ideal))
    (x9 : (⟨S3x384x128, .f32⟩ : BufTy).Contents (Elt Ideal)) (x10 : (⟨S3x128, .f32⟩ : BufTy).Contents (Elt Ideal))
    (x11 : (⟨S3x128x128, .f32⟩ : BufTy).Contents (Elt Ideal)) (x12 : (⟨S3x128, .f32⟩ : BufTy).Contents (Elt Ideal))
    (x13 : (⟨S3x256x128, .f32⟩ : BufTy).Contents (Elt Ideal)) (x14 : (⟨S3x128, .f32⟩ : BufTy).Contents (Elt Ideal))
    (x15 : (⟨S3x128x128, .f32⟩ : BufTy).Contents (Elt Ideal)) (x16 : (⟨S3x128, .f32⟩ : BufTy).Contents (Elt Ideal))
    (x23 : (⟨S2x400000, .i32⟩ : BufTy).Contents (Elt Ideal)) :
    (fun i => val_main_v101 (F := Ideal) x0 x1 x3 x4 x5 x6 x9 x10 x11 x12 x13 x14 x15 x16 x23 i)
      = msg (fun i => x1 i) (fun i => x5 i) (fun i => x6 i) (fun i => x9 i) (fun i => x10 i) (fun i => x11 i) (fun i => x12 i)
          (fun i => x23 i) 1 (fun i => val_main_v69 (F := Ideal) x0 x1 x3 x4 x5 x6 x9 x10 x11 x12 x13 x14 x15 x16 x23 i) := by
  unfold val_main_v101 val_main_v96 val_main_v93 val_main_v92 val_main_v87 val_main_v84 val_main_v76 val_main_v83
  exact msg_at (fun i => x1 i) (fun i => x5 i) (fun i => x6 i) (fun i => x9 i) (fun i => x10 i) (fun i => x11 i) (fun i => x12 i)
    (fun i => x23 i) 1 (fun i => val_main_v69 (F := Ideal) x0 x1 x3 x4 x5 x6 x9 x10 x11 x12 x13 x14 x15 x16 x23 i)
    (val_main_v69 (F := Ideal) x0 x1 x3 x4 x5 x6 x9 x10 x11 x12 x13 x14 x15 x16 x23) (val_main_v7 (F := Ideal) x1 x5 x6) (val_main_v75 (F := Ideal) x23) (val_main_v82 (F := Ideal) x23)
    (val_main_v86 (F := Ideal) x9) (val_main_v91 (F := Ideal) x10) (val_main_call2_v0 (F := Ideal)) (val_main_v95 (F := Ideal) x11) (val_main_v100 (F := Ideal) x12)
    (fun _ => rfl) (ref_e_at x1 x5 x6) (dst_wrapped1 x23) (src_wrapped1 x23) (w1_1 x9) (b1_1 x10) z_1 (w2_1 x11) (b2_1 x12)
end Cert.RVal
end
-- ==== Proof.REdge2.lean ====
import proofs.«418781_j85873576116382_1_alg».proof.Proof.RReadP
import proofs.«418781_j85873576116382_1_alg».proof.Proof.REdge0
noncomputable section
open scoped BigOperators
namespace Cert.RVal
open Idealize.ShloMosaic Idealize.ShloMosaic.ValueIdx Idealize.ShloMosaic.SageSpec
open Cert.ReferenceIdeal Cert.ReferenceIdeal.Gen Cert.ReferenceIdeal.Read Cert.Spec Cert.Net
section Words2
variable (x23 : (⟨S2x400000, .i32⟩ : BufTy).Contents (Elt Ideal))
theorem dst_wrapped2 (e : Fin 400000) :
    val_main_v129 (F := Ideal) x23 (ix2 e (0 : Fin 1)) = TakeFill.wrapIdx 50000#32 (dstV (fun i => x23 i) e) := by
  rw [val_main_v129_apply]
  have hi : idx_main_v129 (ix2 e (0 : Fin 1)) = ix1 e := funext fun a => match a with | ⟨0, _⟩ => rfl
  rw [hi, val_main_v128_apply, val_main_v125_apply, val_main_v127_apply, val_main_v124_apply, val_main_v126_apply, val_main_c_8_apply, val_main_c_9_apply,
    dst_word]
  rfl
theorem src_wrapped2 (e : Fin 400000) :
    val_main_v136 (F := Ideal) x23 (ix2 e (0 : Fin 1)) = TakeFill.wrapIdx 50000#32 (srcV (fun i => x23 i) e) := by
  rw [val_main_v136_apply]
  have hi : idx_main_v136 (ix2 e (0 : Fin 1)) = ix1 e := funext fun a => match a with | ⟨0, _⟩ => rfl
  rw [hi, val_main_v135_apply, val_main_v132_apply, val_main_v134_apply, val_main_v131_apply, val_main_v133_apply, val_main_c_10_apply, val_main_c_11_apply,
    src_word]
  rfl
end Words2
theorem w1_2 (x9 : (⟨S3x384x128, .f32⟩ : BufTy).Contents (Elt Ideal)) (r : Fin 384) (q : Fin 128) :
    val_main_v140 (F := Ideal) x9 (ix2 r q) = x9 (ix3 (2 : Fin 3) r q) := by
  rw [val_main_v140_apply, val_main_v139_apply]
  have hr := r.isLt
  have hq := q.isLt
  exact congrArg x9 (funext fun a => Fin.ext (match a with
    | ⟨0, _⟩ => rfl
    | ⟨1, _⟩ => by show (r.val * 128 + q.val) / 128 % 384 = r.val; omega
    | ⟨2, _⟩ => by show (r.val * 128 + q.val) % 128 = q.val; omega))
theorem w2_2 (x11 : (⟨S3x128x128, .f32⟩ : BufTy).Contents (Elt Ideal)) (r : Fin 128) (q : Fin 128) :
    val_main_v149 (F := Ideal) x11 (ix2 r q) = x11 (ix3 (2 : Fin 3) r q) := by
  rw [val_main_v149_apply, val_main_v148_apply]
  have hr := r.isLt
  have hq := q.isLt
  exact congrArg x11 (funext fun a => Fin.ext (match a with
    | ⟨0, _⟩ => rfl
    | ⟨1, _⟩ => by show (r.val * 128 + q.val) / 128 % 128 = r.val; omega
    | ⟨2, _⟩ => by show (r.val * 128 + q.val) % 128 = q.val; omega))
theorem b1_2 (x10 : (⟨S3x128, .f32⟩ : BufTy).Contents (Elt Ideal)) (e : Fin 400000) (q : Fin 128) :
    val_main_v145 (F := Ideal) x10 (ix2 e q) = x10 (ix2 (2 : Fin 3) q) := by
  rw [val_main_v145_apply, val_main_v144_apply, val_main_v143_apply, val_main_v142_apply]
  have hq := q.isLt
  exact congrArg x10 (funext fun a => Fin.ext (match a with
    | ⟨0, _⟩ => rfl
    | ⟨1, _⟩ => by show q.val % 128 = q.val; omega))
theorem b2_2 (x12 : (⟨S3x128, .f32⟩ : BufTy).Contents (Elt Ideal)) (e : Fin 400000) (q : Fin 128) :
    val_main_v154 (F := Ideal) x12 (ix2 e q) = x12 (ix2 (2 : Fin 3) q) := by
  rw [val_main_v154_apply, val_main_v153_apply, val_main_v152_apply, val_main_v151_apply]
  have hq := q.isLt
  exact congrArg x12 (funext fun a => Fin.ext (match a with
    | ⟨0, _⟩ => rfl
    | ⟨1, _⟩ => by show q.val % 128 = q.val; omega))
theorem z_2 (i : S400000x128.Idx) : val_main_call4_v0 (F := Ideal) i = 0 := by
  rw [val_main_call4_v0_apply, val_main_call4_cst_apply]
  exact Ideal.ofBits_zero_f32
theorem ref_msg2 (x0 : (⟨S50000x32, .f32⟩ : BufTy).Contents (Elt Ideal)) (x1 : (⟨S400000x16, .f32⟩ : BufTy).Contents (Elt Ideal))
    (x3 : (⟨S32x128, .f32⟩ : BufTy).Contents (Elt Ideal)) (x4 : (⟨S128, .f32⟩ : BufTy).Contents (Elt Ideal))
    (x5 : (⟨S16x128, .f32⟩ : BufTy).Contents (Elt Ideal)) (x6 : (⟨S128, .f32⟩ : BufTy).Contents (Elt Ideal))
    (x9 : (⟨S3x384x128, .f32⟩ : BufTy).Contents (Elt Ideal)) (x10 : (⟨S3x128, .f32⟩ : BufTy).Contents (Elt Ideal))
    (x11 : (⟨S3x128x128, .f32⟩ : BufTy).Contents (Elt Ideal)) (x12 : (⟨S3x128, .f32⟩ : BufTy).Contents (Elt Ideal))
    (x13 : (⟨S3x256x128, .f32⟩ : BufTy).Contents (Elt Ideal)) (x14 : (⟨S3x128, .f32⟩ : BufTy).Contents (Elt Ideal))
    (x15 : (⟨S3x128x128, .f32⟩ : BufTy).Contents (Elt Ideal)) (x16 : (⟨S3x128, .f32⟩ : BufTy).Contents (Elt Ideal))
    (x23 : (⟨S2x400000, .i32⟩ : BufTy).Contents (Elt Ideal)) :
    (fun i => val_main_v155 (F := Ideal) x0 x1 x3 x4 x5 x6 x9 x10 x11 x12 x13 x14 x15 x16 x23 i)
      = msg (fun i => x1 i) (fun i => x5 i) (fun i => x6 i) (fun i => x9 i) (fun i => x10 i) (fun i => x11 i) (fun i => x12 i)
          (fun i => x23 i) 2 (fun i => val_main_v123 (F := Ideal) x0 x1 x3 x4 x5 x6 x9 x10 x11 x12 x13 x14 x15 x16 x23 i) := by
  unfold val_main_v155 val_main_v150 val_main_v147 val_main_v146 val_main_v141 val_main_v138 val_main_v130 val_main_v137
  exact msg_at (fun i => x1 i) (fun i => x5 i) (fun i => x6 i) (fun i => x9 i) (fun i => x10 i) (fun i => x11 i) (fun i => x12 i)
    (fun i => x23 i) 2 (fun i => val_main_v123 (F := Ideal) x0 x1 x3 x4 x5 x6 x9 x10 x11 x12 x13 x14 x15 x16 x23 i)
    (val_main_v123 (F := Ideal) x0 x1 x3 x4 x5 x6 x9 x10 x11 x12 x13 x14 x15 x16 x23) (val_main_v7 (F := Ideal) x1 x5 x6) (val_main_v129 (F := Ideal) x23) (val_main_v136 (F := Ideal) x23)
    (val_main_v140 (F := Ideal) x9) (val_main_v145 (F := Ideal) x10) (val_main_call4_v0 (F := Ideal)) (val_main_v149 (F := Ideal) x11) (val_main_v154 (F := Ideal) x12)
    (fun _ => rfl) (ref_e_at x1 x5 x6) (dst_wrapped2 x23) (src_wrapped2 x23) (w1_2 x9) (b1_2 x10) z_2 (w2_2 x11) (b2_2 x12)
end Cert.RVal
end
-- ==== Proof.RNodeLib.lean ====
import proofs.«418781_j85873576116382_1_alg».proof.Proof.Net
import proofs.«418781_j85873576116382_1_alg».proof.Proof.LibRowGatherScatter
import Idealize.ShloMosaic.Lib.Pipeline.Value
import Idealize.ShloMosaic.Lib.ValueIdx
import Idealize.ShloMosaic.PureOps.Ideal.Laws
noncomputable section
open scoped BigOperators
namespace Cert.RVal.Node
open Idealize.ShloMosaic Idealize.ShloMosaic.ValueIdx Idealize.ShloMosaic.SageSpec Cert.Spec Cert.Net
theorem zeros_apply {t : Shape} (hb : (⟨0, ![]⟩ : Shape).BroadcastsInDim t (![] : Fin 0 → Fin t.rank)) (i : t.Idx) :
    broadcastInDim t ![] hb (constant (F := Ideal) ⟨0, ![]⟩ .f32 0x00000000#32) i = (0 : EReal) :=
  (broadcastInDim_apply _ hb _ i (fun a => a.elim0) (fun a => a.elim0)).trans Ideal.ofBits_zero_f32
theorem wordcol_apply (r : Nat) (hr : r < 2) (ei : IVec ⟨2, ![2, 400000]⟩ 32)
    (hs : (⟨2, ![2, 400000]⟩ : Shape).Slices ![r, 0] ⟨2, ![1, 400000]⟩)
    (hc : (⟨2, ![1, 400000]⟩ : Shape).ShapeCasts ⟨1, ![400000]⟩)
    (hb : (⟨1, ![400000]⟩ : Shape).BroadcastsInDim ⟨2, ![400000, 1]⟩ (![0] : Fin 1 → Fin 2)) (e : Fin 400000) :
    broadcastInDim ⟨2, ![400000, 1]⟩ ![0] hb
        (shapeCast ⟨1, ![400000]⟩ (extractStridedSlice ⟨2, ![1, 400000]⟩ ![r, 0] ei hs) hc) (ix2 e (0 : Fin 1))
      = ei (ix2 ⟨r, hr⟩ e) := by
  refine (broadcastInDim_apply _ hb _ (ix2 e (0 : Fin 1)) (ix1 e) (fun a => ?_)).trans ?_
  · match a with
    | ⟨0, _⟩ => show e.val = if (400000 : Nat) = 1 then 0 else e.val; rw [if_neg (by decide)]
  refine (shapeCast_apply _ hc (ix1 e) (ix2 (0 : Fin 1) e) ?_).trans ?_
  · rw [Shape.rowMajor_val_two, Shape.rowMajor_val_one]
    show 0 * 400000 + e.val = e.val
    omega
  refine extractStridedSlice_apply _ ei hs (ix2 (0 : Fin 1) e) (ix2 ⟨r, hr⟩ e) (fun a => ?_)
  match a with
  | ⟨0, _⟩ => show r = r + 0; omega
  | ⟨1, _⟩ => show e.val = 0 + e.val; omega
theorem slab_read {r : Nat} (l : Nat) (hl : l < 3) (o : Nat) (ho : o + 128 ≤ r)
    (W : FVec Ideal ⟨3, ![3, r, 128]⟩ .f32)
    (hs : (⟨3, ![3, r, 128]⟩ : Shape).Slices ![l, 0, 0] ⟨3, ![1, r, 128]⟩)
    (hc : (⟨3, ![1, r, 128]⟩ : Shape).ShapeCasts ⟨2, ![r, 128]⟩) (k q : Fin 128) :
    shapeCast ⟨2, ![r, 128]⟩ (extractStridedSlice ⟨3, ![1, r, 128]⟩ ![l, 0, 0] W hs) hc (ix2 ⟨o + k.val, by omega⟩ q)
      = slab (fun i => W i) ⟨l, hl⟩ o ho (ix2 k q) := by
  refine (shapeCast_apply _ hc (ix2 ⟨o + k.val, by omega⟩ q) (ix3 (0 : Fin 1) ⟨o + k.val, by omega⟩ q) ?_).trans ?_
  · rw [Shape.rowMajor_val_three, Shape.rowMajor_val_two]
    show (0 * r + (o + k.val)) * 128 + q.val = (o + k.val) * 128 + q.val
    rw [Nat.zero_mul, Nat.zero_add]
  refine (extractStridedSlice_apply _ W hs (ix3 (0 : Fin 1) ⟨o + k.val, by omega⟩ q)
    (ix3 ⟨l, hl⟩ ⟨o + k.val, by omega⟩ q) (fun a => ?_)).trans rfl
  match a with
  | ⟨0, _⟩ => show l = l + 0; omega
  | ⟨1, _⟩ => show o + k.val = 0 + (o + k.val); omega
  | ⟨2, _⟩ => show q.val = 0 + q.val; omega
theorem bias_read {n : Nat} (l : Nat) (hl : l < 3) (b : FVec Ideal ⟨2, ![3, 128]⟩ .f32)
    (hs : (⟨2, ![3, 128]⟩ : Shape).Slices ![l, 0] ⟨2, ![1, 128]⟩)
    (hc : (⟨2, ![1, 128]⟩ : Shape).ShapeCasts ⟨1, ![128]⟩)
    (hb1 : (⟨1, ![128]⟩ : Shape).BroadcastsInDim ⟨2, ![1, 128]⟩ (![1] : Fin 1 → Fin 2))
    (hb2 : (⟨2, ![1, 128]⟩ : Shape).BroadcastsInDim ⟨2, ![n, 128]⟩ (![0, 1] : Fin 2 → Fin 2))
    (p : Fin n) (q : Fin 128) :
    broadcastInDim ⟨2, ![n, 128]⟩ ![0, 1] hb2 (broadcastInDim ⟨2, ![1, 128]⟩ ![1] hb1
        (shapeCast ⟨1, ![128]⟩ (extractStridedSlice ⟨2, ![1, 128]⟩ ![l, 0] b hs) hc)) (ix2 p q)
      = rowAt (fun i => b i) ⟨l, hl⟩ q := by
  refine (broadcastInDim_apply _ hb2 _ (ix2 p q) (ix2 (0 : Fin 1) q) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
  refine (broadcastInDim_apply _ hb1 _ (ix2 (0 : Fin 1) q) (ix1 q) (fun a => ?_)).trans ?_
  · match a with
    | ⟨0, _⟩ => show q.val = if (128 : Nat) = 1 then 0 else q.val; rw [if_neg (by decide)]
  refine (shapeCast_apply _ hc (ix1 q) (ix2 (0 : Fin 1) q) ?_).trans ?_
  · rw [Shape.rowMajor_val_two, Shape.rowMajor_val_one]
    show 0 * 128 + q.val = q.val
    omega
  refine (extractStridedSlice_apply _ b hs (ix2 (0 : Fin 1) q) (ix2 ⟨l, hl⟩ q) (fun a => ?_)).trans rfl
  match a with
  | ⟨0, _⟩ => show l = l + 0; omega
  | ⟨1, _⟩ => show q.val = 0 + q.val; omega
theorem scatter_zero_apply
    (wf : ScatterDims.WF ⟨2, ![50000, 128]⟩ ⟨2, ![400000, 1]⟩ ⟨2, ![400000, 128]⟩ [1] [0] [0] 1)
    (z : FVec Ideal ⟨2, ![50000, 128]⟩ .f32) (hz : ∀ i, z i = (0 : EReal))
    (idx : IVec ⟨2, ![400000, 1]⟩ 32) (dst : Fin 400000 → BitVec 32)
    (hidx : ∀ e : Fin 400000, idx (ix2 e (0 : Fin 1)) = dst e)
    (M : FVec Ideal ⟨2, ![400000, 128]⟩ .f32) (n : Fin 50000) (j : Fin 128) :
    Host.scatterAdd (F := Ideal) (LibRows.rowScatter 50000 400000 128 wf) z idx M (ix2 n j)
      = aggF dst (fun i => M i) (ix2 n j) := by
  rw [LibRows.host_scatterAdd_rows_apply wf z idx M n j, hz]
  show (0 : EReal) + ∑ e ∈ Finset.univ.filter (fun e : Fin 400000 => (idx (ix2 e (0 : Fin 1))).toInt = (n.val : ℤ)), M (ix2 e j)
    = (0 : EReal) + ∑ e ∈ Finset.univ.filter (fun e : Fin 400000 => (dst e).toInt = (n.val : ℤ)), M (ix2 e j)
  simp only [hidx]
theorem concat2_left {α : Type} {n : Nat}
    (h : Shape.Concatenates [(⟨2, ![n, 128]⟩ : Shape), ⟨2, ![n, 128]⟩] ⟨2, ![n, 256]⟩ 1)
    (x₁ x₂ : (⟨2, ![n, 128]⟩ : Shape).Idx → α) (p : Fin n) (k : Fin 128) :
    concatenate ⟨2, ![n, 256]⟩ 1 [⟨⟨2, ![n, 128]⟩, x₁⟩, ⟨⟨2, ![n, 128]⟩, x₂⟩] h (ix2 p ⟨k.val, by omega⟩)
      = x₁ (ix2 p k) :=
  concatenate_pair_apply_left 1 x₁ x₂ h (ix2 p ⟨k.val, by omega⟩) rfl (ix2 p k) (fun b => by
    match b with
    | ⟨0, _⟩ => rfl
    | ⟨1, _⟩ => rfl)
theorem concat2_right {α : Type} {n : Nat}
    (h : Shape.Concatenates [(⟨2, ![n, 128]⟩ : Shape), ⟨2, ![n, 128]⟩] ⟨2, ![n, 256]⟩ 1)
    (x₁ x₂ : (⟨2, ![n, 128]⟩ : Shape).Idx → α) (p : Fin n) (k : Fin 128) :
    concatenate ⟨2, ![n, 256]⟩ 1 [⟨⟨2, ![n, 128]⟩, x₁⟩, ⟨⟨2, ![n, 128]⟩, x₂⟩] h (ix2 p ⟨128 + k.val, by omega⟩)
      = x₂ (ix2 p k) :=
  concatenate_pair_apply_right 1 x₁ x₂ h (ix2 p ⟨128 + k.val, by omega⟩) rfl rfl (ix2 p k) (fun b hb => by
    match b, hb with
    | ⟨0, _⟩, _ => rfl
    | ⟨1, _⟩, hb => exact absurd rfl hb) (by show k.val + 128 = 128 + k.val; omega)
theorem sum256_split (f : Fin 256 → EReal) :
    ∑ k : Fin 256, f k = ∑ k : Fin 128, f ⟨k.val, by omega⟩ + ∑ k : Fin 128, f ⟨128 + k.val, by omega⟩ :=
  Fin.sum_univ_add (a := 128) (b := 128) (fun k : Fin (128 + 128) => f k)
theorem nodeF_of_reads {n : Nat} (h a : Mat n 128) (A B C : Mat 128 128) (b1 b2 : Fin 128 → EReal)
    (cat : Mat n 256) (W1 : Mat 256 128) (W2 : Mat 128 128) (hid out : Mat n 128)
    (hcl : ∀ (p : Fin n) (k : Fin 128), cat (ix2 p ⟨k.val, by omega⟩) = h (ix2 p k))
    (hcr : ∀ (p : Fin n) (k : Fin 128), cat (ix2 p ⟨128 + k.val, by omega⟩) = a (ix2 p k))
    (hA : ∀ k q : Fin 128, W1 (ix2 ⟨k.val, by omega⟩ q) = A (ix2 k q))
    (hB : ∀ k q : Fin 128, W1 (ix2 ⟨128 + k.val, by omega⟩ q) = B (ix2 k q))
    (hC : ∀ k q : Fin 128, W2 (ix2 k q) = C (ix2 k q))
    (hhid : ∀ (p : Fin n) (k : Fin 128), hid (ix2 p k) = max (rowDot cat W1 p k + b1 k) 0)
    (hout : ∀ (p : Fin n) (q : Fin 128), out (ix2 p q) = h (ix2 p q) + (rowDot hid W2 p q + b2 q)) :
    out = nodeF h a A B b1 C b2 := by
  funext i
  obtain ⟨p, q, rfl⟩ : ∃ (p : Fin n) (q : Fin 128), i = ix2 p q := ⟨i 0, i 1, eq_ix2 i⟩
  rw [hout p q]
  show h (ix2 p q) + (rowDot hid W2 p q + b2 q) = h (ix2 p q) + (rowDot (nodeHid h a A B b1) C p q + b2 q)
  have e : rowDot hid W2 p q = rowDot (nodeHid h a A B b1) C p q := by
    unfold rowDot
    refine Finset.sum_congr rfl fun k _ => ?_
    rw [hC k q, hhid p k]
    show max (rowDot cat W1 p k + b1 k) 0 * C (ix2 k q)
      = max (rowDot h A p k + rowDot a B p k + b1 k) 0 * C (ix2 k q)
    have e1 : rowDot cat W1 p k = rowDot h A p k + rowDot a B p k := by
      unfold rowDot
      rw [sum256_split]
      congr 1
      · exact Finset.sum_congr rfl fun j _ => by rw [hcl p j, hA j k]
      · exact Finset.sum_congr rfl fun j _ => by rw [hcr p j, hB j k]
    rw [e1]
  rw [e]
theorem node_ops
    (sd : ScatterDims ⟨2, ![50000, 128]⟩ ⟨2, ![400000, 1]⟩ ⟨2, ![400000, 128]⟩)
    (wf : ScatterDims.WF ⟨2, ![50000, 128]⟩ ⟨2, ![400000, 1]⟩ ⟨2, ![400000, 128]⟩ [1] [0] [0] 1)
    (hsd : sd = LibRows.rowScatter 50000 400000 128 wf)
    (d1 : DotDims ⟨2, ![50000, 256]⟩ ⟨2, ![256, 128]⟩ ⟨2, ![50000, 128]⟩) (hd1 : PlainDot d1)
    (d2 : DotDims ⟨2, ![50000, 128]⟩ ⟨2, ![128, 128]⟩ ⟨2, ![50000, 128]⟩) (hd2 : PlainDot d2)
    (hc : Shape.Concatenates [(⟨2, ![50000, 128]⟩ : Shape), ⟨2, ![50000, 128]⟩] ⟨2, ![50000, 256]⟩ 1)
    (H : FVec Ideal ⟨2, ![50000, 128]⟩ .f32)
    (z : FVec Ideal ⟨2, ![50000, 128]⟩ .f32) (hz : ∀ i, z i = (0 : EReal))
    (idx : IVec ⟨2, ![400000, 1]⟩ 32) (dst : Fin 400000 → BitVec 32)
    (hidx : ∀ e : Fin 400000, idx (ix2 e (0 : Fin 1)) = dst e)
    (M : FVec Ideal ⟨2, ![400000, 128]⟩ .f32)
    (W1 : FVec Ideal ⟨2, ![256, 128]⟩ .f32) (A B : Mat 128 128)
    (hA : ∀ k q : Fin 128, W1 (ix2 ⟨0 + k.val, by omega⟩ q) = A (ix2 k q))
    (hB : ∀ k q : Fin 128, W1 (ix2 ⟨128 + k.val, by omega⟩ q) = B (ix2 k q))
    (B1 : FVec Ideal ⟨2, ![50000, 128]⟩ .f32) (b1 : Fin 128 → EReal)
    (hB1 : ∀ (p : Fin 50000) (q : Fin 128), B1 (ix2 p q) = b1 q)
    (Z : FVec Ideal ⟨2, ![50000, 128]⟩ .f32) (hZ : ∀ i, Z i = (0 : EReal))
    (W2 : FVec Ideal ⟨2, ![128, 128]⟩ .f32) (C : Mat 128 128)
    (hC : ∀ k q : Fin 128, W2 (ix2 ⟨0 + k.val, by omega⟩ q) = C (ix2 k q))
    (B2 : FVec Ideal ⟨2, ![50000, 128]⟩ .f32) (b2 : Fin 128 → EReal)
    (hB2 : ∀ (p : Fin 50000) (q : Fin 128), B2 (ix2 p q) = b2 q) :
    (fun i => addf H (addf (Host.dotGeneral d2 none
        (maximumf (addf (Host.dotGeneral d1 none
          (concatenate ⟨2, ![50000, 256]⟩ 1
            [⟨⟨2, ![50000, 128]⟩, H⟩, ⟨⟨2, ![50000, 128]⟩, Host.scatterAdd sd z idx M⟩] hc) W1) B1) Z) W2) B2) i)
      = nodeF (fun i => H i) (aggF dst (fun i => M i)) A B b1 C b2 := by
  subst hsd
  have hagg : ∀ (p : Fin 50000) (k : Fin 128),
      Host.scatterAdd (F := Ideal) (LibRows.rowScatter 50000 400000 128 wf) z idx M (ix2 p k)
        = aggF dst (fun i => M i) (ix2 p k) := scatter_zero_apply wf z hz idx dst hidx M
  generalize Host.scatterAdd (F := Ideal) (LibRows.rowScatter 50000 400000 128 wf) z idx M = S at hagg ⊢
  have hcl : ∀ (p : Fin 50000) (k : Fin 128), concatenate ⟨2, ![50000, 256]⟩ 1
      [⟨⟨2, ![50000, 128]⟩, H⟩, ⟨⟨2, ![50000, 128]⟩, S⟩] hc (ix2 p ⟨k.val, by omega⟩) = H (ix2 p k) :=
    fun p k => concat2_left hc H S p k
  have hcr : ∀ (p : Fin 50000) (k : Fin 128), concatenate ⟨2, ![50000, 256]⟩ 1
      [⟨⟨2, ![50000, 128]⟩, H⟩, ⟨⟨2, ![50000, 128]⟩, S⟩] hc (ix2 p ⟨128 + k.val, by omega⟩)
        = aggF dst (fun i => M i) (ix2 p k) :=
    fun p k => (concat2_right hc H S p k).trans (hagg p k)
  generalize concatenate ⟨2, ![50000, 256]⟩ 1 [⟨⟨2, ![50000, 128]⟩, H⟩, ⟨⟨2, ![50000, 128]⟩, S⟩] hc = cat at hcl hcr ⊢
  have hhid : ∀ (p : Fin 50000) (k : Fin 128),
      maximumf (addf (Host.dotGeneral d1 none cat W1) B1) Z (ix2 p k)
        = max (rowDot (fun i => cat i) (fun i => W1 i) p k + b1 k) 0 := fun p k => by
    rw [maximumf_apply, addf_apply, hZ, hB1 p k, dotGeneral_at hd1 none cat W1 (ix2 p k)]
  generalize maximumf (addf (Host.dotGeneral d1 none cat W1) B1) Z = HID at hhid ⊢
  have hout : ∀ (p : Fin 50000) (q : Fin 128),
      addf H (addf (Host.dotGeneral d2 none HID W2) B2) (ix2 p q)
        = H (ix2 p q) + (rowDot (fun i => HID i) (fun i => W2 i) p q + b2 q) := fun p q => by
    rw [addf_apply, addf_apply, hB2 p q, dotGeneral_at hd2 none HID W2 (ix2 p q)]
  refine nodeF_of_reads (fun i => H i) (aggF dst (fun i => M i)) A B C b1 b2 (fun i => cat i) (fun i => W1 i)
    (fun i => W2 i) (fun i => HID i) _ hcl hcr (fun k q => ?_) hB (fun k q => ?_) hhid hout
  · have e : (⟨k.val, by omega⟩ : Fin 256) = ⟨0 + k.val, by omega⟩ := Fin.ext (Nat.zero_add _).symm
    show W1 (ix2 ⟨k.val, by omega⟩ q) = A (ix2 k q)
    rw [e]
    exact hA k q
  · have e : k = (⟨0 + k.val, by omega⟩ : Fin 128) := Fin.ext (Nat.zero_add _).symm
    show W2 (ix2 k q) = C (ix2 k q)
    rw [← hC k q, ← e]
end Cert.RVal.Node
end
-- ==== Proof.RNodeDims.lean ====
import proofs.«418781_j85873576116382_1_alg».proof.Proof.RReadP
import proofs.«418781_j85873576116382_1_alg».proof.Proof.LibSageSpec
noncomputable section
namespace Cert.RVal
open Cert.ReferenceIdeal Cert.ReferenceIdeal.Gen Cert.ReferenceIdeal.Read Idealize.ShloMosaic Idealize.ShloMosaic.SageSpec
namespace Node
theorem plain256 : PlainDot dot_S50000x256_S256x128_S50000x128_1_0_0_1_n_n where
  rank := rfl
  size := fun _ => rfl
  l0 := lhs_main_v54_0
  l1 := fun i q _ => lhs_main_v54_1 i q
  r0 := fun i q _ => rhs_main_v54_0 i q
  r1 := rhs_main_v54_1
theorem plain128 : PlainDot dot_S50000x128_S128x128_S50000x128_1_0_0_1_n_n where
  rank := rfl
  size := fun _ => rfl
  l0 := lhs_main_v63_0
  l1 := fun i q _ => lhs_main_v63_1 i q
  r0 := fun i q _ => rhs_main_v63_0 i q
  r1 := rhs_main_v63_1
end Node
end Cert.RVal
end
-- ==== Proof.RNode0.lean ====
import proofs.«418781_j85873576116382_1_alg».proof.Proof.RReadP
import proofs.«418781_j85873576116382_1_alg».proof.Proof.RNodeLib
import proofs.«418781_j85873576116382_1_alg».proof.Proof.RNodeDims
noncomputable section
namespace Cert.RVal
open Cert.ReferenceIdeal Cert.ReferenceIdeal.Gen Cert.ReferenceIdeal.Read Idealize.ShloMosaic Idealize.ShloMosaic.ValueIdx
  Idealize.ShloMosaic.SageSpec Cert.Spec Cert.Net
section
variable (x0 : (⟨S50000x32, .f32⟩ : BufTy).Contents (Elt Ideal)) (x1 : (⟨S400000x16, .f32⟩ : BufTy).Contents (Elt Ideal))
  (x3 : (⟨S32x128, .f32⟩ : BufTy).Contents (Elt Ideal)) (x4 : (⟨S128, .f32⟩ : BufTy).Contents (Elt Ideal))
  (x5 : (⟨S16x128, .f32⟩ : BufTy).Contents (Elt Ideal)) (x6 : (⟨S128, .f32⟩ : BufTy).Contents (Elt Ideal))
  (x9 : (⟨S3x384x128, .f32⟩ : BufTy).Contents (Elt Ideal)) (x10 : (⟨S3x128, .f32⟩ : BufTy).Contents (Elt Ideal))
  (x11 : (⟨S3x128x128, .f32⟩ : BufTy).Contents (Elt Ideal)) (x12 : (⟨S3x128, .f32⟩ : BufTy).Contents (Elt Ideal))
  (x13 : (⟨S3x256x128, .f32⟩ : BufTy).Contents (Elt Ideal)) (x14 : (⟨S3x128, .f32⟩ : BufTy).Contents (Elt Ideal))
  (x15 : (⟨S3x128x128, .f32⟩ : BufTy).Contents (Elt Ideal)) (x16 : (⟨S3x128, .f32⟩ : BufTy).Contents (Elt Ideal))
  (x23 : (⟨S2x400000, .i32⟩ : BufTy).Contents (Elt Ideal))
theorem ref_h1 (M : Mat 400000 128)
    (hmsg : (fun i => val_main_v47 (F := Ideal) x0 x1 x3 x4 x5 x6 x9 x10 x11 x12 x23 i) = M) :
    (fun i => val_main_v69 (F := Ideal) x0 x1 x3 x4 x5 x6 x9 x10 x11 x12 x13 x14 x15 x16 x23 i)
      = nodeF (fun i => val_main_v3 (F := Ideal) x0 x3 x4 i) (aggF (dstV (fun i => x23 i)) M)
          (slab (fun i => x13 i) 0 0 (by omega)) (slab (fun i => x13 i) 0 128 (by omega)) (rowAt (fun i => x14 i) 0)
          (slab (fun i => x15 i) 0 0 (by omega)) (rowAt (fun i => x16 i) 0) := by
  subst hmsg
  unfold val_main_v69 val_main_v68 val_main_v63 val_main_v60 val_main_v59 val_main_v54 val_main_v51 val_main_v50
  exact Node.node_ops scatter_S50000x128_S400000x1_S400000x128_1_0_0_1 _ rfl
    dot_S50000x256_S256x128_S50000x128_1_0_0_1_n_n Node.plain256
    dot_S50000x128_S128x128_S50000x128_1_0_0_1_n_n Node.plain128
    concatenates_S50000x128_S50000x128_S50000x256_d1
    (val_main_v3 (F := Ideal) x0 x3 x4)
    (val_main_v48 (F := Ideal)) (fun i => Node.zeros_apply bcast_S_S50000x128 i)
    (val_main_v49 (F := Ideal) x23) (dstV (fun i => x23 i))
    (fun e => Node.wordcol_apply 1 (by omega) x23 slices_S2x400000_S1x400000_1_0 shapeCasts_S1x400000_S400000
      bcast_S400000_S400000x1_0 e)
    (val_main_v47 (F := Ideal) x0 x1 x3 x4 x5 x6 x9 x10 x11 x12 x23)
    (val_main_v53 (F := Ideal) x13) (slab (fun i => x13 i) 0 0 (by omega)) (slab (fun i => x13 i) 0 128 (by omega))
    (fun k q => Node.slab_read 0 (by omega) 0 (by omega) x13 slices_S3x256x128_S1x256x128_0_0_0
      shapeCasts_S1x256x128_S256x128 k q)
    (fun k q => Node.slab_read 0 (by omega) 128 (by omega) x13 slices_S3x256x128_S1x256x128_0_0_0
      shapeCasts_S1x256x128_S256x128 k q)
    (val_main_v58 (F := Ideal) x14) (rowAt (fun i => x14 i) 0)
    (fun p q => Node.bias_read 0 (by omega) x14 slices_S3x128_S1x128_0_0 shapeCasts_S1x128_S128 bcast_S128_S1x128_1
      bcast_S1x128_S50000x128_0_1 p q)
    (val_main_call1_v0 (F := Ideal)) (fun i => Node.zeros_apply bcast_S_S50000x128 i)
    (val_main_v62 (F := Ideal) x15) (slab (fun i => x15 i) 0 0 (by omega))
    (fun k q => Node.slab_read 0 (by omega) 0 (by omega) x15 slices_S3x128x128_S1x128x128_0_0_0
      shapeCasts_S1x128x128_S128x128 k q)
    (val_main_v67 (F := Ideal) x16) (rowAt (fun i => x16 i) 0)
    (fun p q => Node.bias_read 0 (by omega) x16 slices_S3x128_S1x128_0_0 shapeCasts_S1x128_S128 bcast_S128_S1x128_1
      bcast_S1x128_S50000x128_0_1 p q)
end
end Cert.RVal
end
-- ==== Proof.RNode1.lean ====
import proofs.«418781_j85873576116382_1_alg».proof.Proof.RReadP
import proofs.«418781_j85873576116382_1_alg».proof.Proof.RNodeLib
import proofs.«418781_j85873576116382_1_alg».proof.Proof.RNodeDims
noncomputable section
namespace Cert.RVal
open Cert.ReferenceIdeal Cert.ReferenceIdeal.Gen Cert.ReferenceIdeal.Read Idealize.ShloMosaic Idealize.ShloMosaic.ValueIdx
  Idealize.ShloMosaic.SageSpec Cert.Spec Cert.Net
section
variable (x0 : (⟨S50000x32, .f32⟩ : BufTy).Contents (Elt Ideal)) (x1 : (⟨S400000x16, .f32⟩ : BufTy).Contents (Elt Ideal))
  (x3 : (⟨S32x128, .f32⟩ : BufTy).Contents (Elt Ideal)) (x4 : (⟨S128, .f32⟩ : BufTy).Contents (Elt Ideal))
  (x5 : (⟨S16x128, .f32⟩ : BufTy).Contents (Elt Ideal)) (x6 : (⟨S128, .f32⟩ : BufTy).Contents (Elt Ideal))
  (x9 : (⟨S3x384x128, .f32⟩ : BufTy).Contents (Elt Ideal)) (x10 : (⟨S3x128, .f32⟩ : BufTy).Contents (Elt Ideal))
  (x11 : (⟨S3x128x128, .f32⟩ : BufTy).Contents (Elt Ideal)) (x12 : (⟨S3x128, .f32⟩ : BufTy).Contents (Elt Ideal))
  (x13 : (⟨S3x256x128, .f32⟩ : BufTy).Contents (Elt Ideal)) (x14 : (⟨S3x128, .f32⟩ : BufTy).Contents (Elt Ideal))
  (x15 : (⟨S3x128x128, .f32⟩ : BufTy).Contents (Elt Ideal)) (x16 : (⟨S3x128, .f32⟩ : BufTy).Contents (Elt Ideal))
  (x23 : (⟨S2x400000, .i32⟩ : BufTy).Contents (Elt Ideal))
theorem ref_h2 (M : Mat 400000 128)
    (hmsg : (fun i => val_main_v101 (F := Ideal) x0 x1 x3 x4 x5 x6 x9 x10 x11 x12 x13 x14 x15 x16 x23 i) = M) :
    (fun i => val_main_v123 (F := Ideal) x0 x1 x3 x4 x5 x6 x9 x10 x11 x12 x13 x14 x15 x16 x23 i)
      = nodeF (fun i => val_main_v69 (F := Ideal) x0 x1 x3 x4 x5 x6 x9 x10 x11 x12 x13 x14 x15 x16 x23 i) (aggF (dstV (fun i => x23 i)) M)
          (slab (fun i => x13 i) 1 0 (by omega)) (slab (fun i => x13 i) 1 128 (by omega)) (rowAt (fun i => x14 i) 1)
          (slab (fun i => x15 i) 1 0 (by omega)) (rowAt (fun i => x16 i) 1) := by
  subst hmsg
  unfold val_main_v123 val_main_v122 val_main_v117 val_main_v114 val_main_v113 val_main_v108 val_main_v105 val_main_v104
  exact Node.node_ops scatter_S50000x128_S400000x1_S400000x128_1_0_0_1 _ rfl
    dot_S50000x256_S256x128_S50000x128_1_0_0_1_n_n Node.plain256
    dot_S50000x128_S128x128_S50000x128_1_0_0_1_n_n Node.plain128
    concatenates_S50000x128_S50000x128_S50000x256_d1
    (val_main_v69 (F := Ideal) x0 x1 x3 x4 x5 x6 x9 x10 x11 x12 x13 x14 x15 x16 x23)
    (val_main_v102 (F := Ideal)) (fun i => Node.zeros_apply bcast_S_S50000x128 i)
    (val_main_v103 (F := Ideal) x23) (dstV (fun i => x23 i))
    (fun e => Node.wordcol_apply 1 (by omega) x23 slices_S2x400000_S1x400000_1_0 shapeCasts_S1x400000_S400000
      bcast_S400000_S400000x1_0 e)
    (val_main_v101 (F := Ideal) x0 x1 x3 x4 x5 x6 x9 x10 x11 x12 x13 x14 x15 x16 x23)
    (val_main_v107 (F := Ideal) x13) (slab (fun i => x13 i) 1 0 (by omega)) (slab (fun i => x13 i) 1 128 (by omega))
    (fun k q => Node.slab_read 1 (by omega) 0 (by omega) x13 slices_S3x256x128_S1x256x128_1_0_0
      shapeCasts_S1x256x128_S256x128 k q)
    (fun k q => Node.slab_read 1 (by omega) 128 (by omega) x13 slices_S3x256x128_S1x256x128_1_0_0
      shapeCasts_S1x256x128_S256x128 k q)
    (val_main_v112 (F := Ideal) x14) (rowAt (fun i => x14 i) 1)
    (fun p q => Node.bias_read 1 (by omega) x14 slices_S3x128_S1x128_1_0 shapeCasts_S1x128_S128 bcast_S128_S1x128_1
      bcast_S1x128_S50000x128_0_1 p q)
    (val_main_call3_v0 (F := Ideal)) (fun i => Node.zeros_apply bcast_S_S50000x128 i)
    (val_main_v116 (F := Ideal) x15) (slab (fun i => x15 i) 1 0 (by omega))
    (fun k q => Node.slab_read 1 (by omega) 0 (by omega) x15 slices_S3x128x128_S1x128x128_1_0_0
      shapeCasts_S1x128x128_S128x128 k q)
    (val_main_v121 (F := Ideal) x16) (rowAt (fun i => x16 i) 1)
    (fun p q => Node.bias_read 1 (by omega) x16 slices_S3x128_S1x128_1_0 shapeCasts_S1x128_S128 bcast_S128_S1x128_1
      bcast_S1x128_S50000x128_0_1 p q)
end
end Cert.RVal
end
-- ==== Proof.RNode2.lean ====
import proofs.«418781_j85873576116382_1_alg».proof.Proof.RReadP
import proofs.«418781_j85873576116382_1_alg».proof.Proof.RNodeLib
import proofs.«418781_j85873576116382_1_alg».proof.Proof.RNodeDims
noncomputable section
namespace Cert.RVal
open Cert.ReferenceIdeal Cert.ReferenceIdeal.Gen Cert.ReferenceIdeal.Read Idealize.ShloMosaic Idealize.ShloMosaic.ValueIdx
  Idealize.ShloMosaic.SageSpec Cert.Spec Cert.Net
section
variable (x0 : (⟨S50000x32, .f32⟩ : BufTy).Contents (Elt Ideal)) (x1 : (⟨S400000x16, .f32⟩ : BufTy).Contents (Elt Ideal))
  (x3 : (⟨S32x128, .f32⟩ : BufTy).Contents (Elt Ideal)) (x4 : (⟨S128, .f32⟩ : BufTy).Contents (Elt Ideal))
  (x5 : (⟨S16x128, .f32⟩ : BufTy).Contents (Elt Ideal)) (x6 : (⟨S128, .f32⟩ : BufTy).Contents (Elt Ideal))
  (x9 : (⟨S3x384x128, .f32⟩ : BufTy).Contents (Elt Ideal)) (x10 : (⟨S3x128, .f32⟩ : BufTy).Contents (Elt Ideal))
  (x11 : (⟨S3x128x128, .f32⟩ : BufTy).Contents (Elt Ideal)) (x12 : (⟨S3x128, .f32⟩ : BufTy).Contents (Elt Ideal))
  (x13 : (⟨S3x256x128, .f32⟩ : BufTy).Contents (Elt Ideal)) (x14 : (⟨S3x128, .f32⟩ : BufTy).Contents (Elt Ideal))
  (x15 : (⟨S3x128x128, .f32⟩ : BufTy).Contents (Elt Ideal)) (x16 : (⟨S3x128, .f32⟩ : BufTy).Contents (Elt Ideal))
  (x23 : (⟨S2x400000, .i32⟩ : BufTy).Contents (Elt Ideal))
theorem ref_h3 (M : Mat 400000 128)
    (hmsg : (fun i => val_main_v155 (F := Ideal) x0 x1 x3 x4 x5 x6 x9 x10 x11 x12 x13 x14 x15 x16 x23 i) = M) :
    (fun i => val_main_v177 (F := Ideal) x0 x1 x3 x4 x5 x6 x9 x10 x11 x12 x13 x14 x15 x16 x23 i)
      = nodeF (fun i => val_main_v123 (F := Ideal) x0 x1 x3 x4 x5 x6 x9 x10 x11 x12 x13 x14 x15 x16 x23 i) (aggF (dstV (fun i => x23 i)) M)
          (slab (fun i => x13 i) 2 0 (by omega)) (slab (fun i => x13 i) 2 128 (by omega)) (rowAt (fun i => x14 i) 2)
          (slab (fun i => x15 i) 2 0 (by omega)) (rowAt (fun i => x16 i) 2) := by
  subst hmsg
  unfold val_main_v177 val_main_v176 val_main_v171 val_main_v168 val_main_v167 val_main_v162 val_main_v159 val_main_v158
  exact Node.node_ops scatter_S50000x128_S400000x1_S400000x128_1_0_0_1 _ rfl
    dot_S50000x256_S256x128_S50000x128_1_0_0_1_n_n Node.plain256
    dot_S50000x128_S128x128_S50000x128_1_0_0_1_n_n Node.plain128
    concatenates_S50000x128_S50000x128_S50000x256_d1
    (val_main_v123 (F := Ideal) x0 x1 x3 x4 x5 x6 x9 x10 x11 x12 x13 x14 x15 x16 x23)
    (val_main_v156 (F := Ideal)) (fun i => Node.zeros_apply bcast_S_S50000x128 i)
    (val_main_v157 (F := Ideal) x23) (dstV (fun i => x23 i))
    (fun e => Node.wordcol_apply 1 (by omega) x23 slices_S2x400000_S1x400000_1_0 shapeCasts_S1x400000_S400000
      bcast_S400000_S400000x1_0 e)
    (val_main_v155 (F := Ideal) x0 x1 x3 x4 x5 x6 x9 x10 x11 x12 x13 x14 x15 x16 x23)
    (val_main_v161 (F := Ideal) x13) (slab (fun i => x13 i) 2 0 (by omega)) (slab (fun i => x13 i) 2 128 (by omega))
    (fun k q => Node.slab_read 2 (by omega) 0 (by omega) x13 slices_S3x256x128_S1x256x128_2_0_0
      shapeCasts_S1x256x128_S256x128 k q)
    (fun k q => Node.slab_read 2 (by omega) 128 (by omega) x13 slices_S3x256x128_S1x256x128_2_0_0
      shapeCasts_S1x256x128_S256x128 k q)
    (val_main_v166 (F := Ideal) x14) (rowAt (fun i => x14 i) 2)
    (fun p q => Node.bias_read 2 (by omega) x14 slices_S3x128_S1x128_2_0 shapeCasts_S1x128_S128 bcast_S128_S1x128_1
      bcast_S1x128_S50000x128_0_1 p q)
    (val_main_call5_v0 (F := Ideal)) (fun i => Node.zeros_apply bcast_S_S50000x128 i)
    (val_main_v170 (F := Ideal) x15) (slab (fun i => x15 i) 2 0 (by omega))
    (fun k q => Node.slab_read 2 (by omega) 0 (by omega) x15 slices_S3x128x128_S1x128x128_2_0_0
      shapeCasts_S1x128x128_S128x128 k q)
    (val_main_v175 (F := Ideal) x16) (rowAt (fun i => x16 i) 2)
    (fun p q => Node.bias_read 2 (by omega) x16 slices_S3x128_S1x128_2_0 shapeCasts_S1x128_S128 bcast_S128_S1x128_1
      bcast_S1x128_S50000x128_0_1 p q)
end
end Cert.RVal
end
-- ==== Proof.RChain.lean ====
import proofs.«418781_j85873576116382_1_alg».proof.Proof.RReadP
import proofs.«418781_j85873576116382_1_alg».proof.Proof.Net
import proofs.«418781_j85873576116382_1_alg».proof.Proof.RLin
import proofs.«418781_j85873576116382_1_alg».proof.Proof.REdge0
import proofs.«418781_j85873576116382_1_alg».proof.Proof.REdge1
import proofs.«418781_j85873576116382_1_alg».proof.Proof.REdge2
import proofs.«418781_j85873576116382_1_alg».proof.Proof.RNode0
import proofs.«418781_j85873576116382_1_alg».proof.Proof.RNode1
import proofs.«418781_j85873576116382_1_alg».proof.Proof.RNode2
import proofs.«418781_j85873576116382_1_alg».proof.Proof.Tail
noncomputable section
namespace Cert.RChain
open Idealize.ShloMosaic Idealize.ShloMosaic.TcCoe Idealize.SL.Sem Idealize.ShloMosaic.StableHlo
open Idealize.ShloMosaic.ValueIdx Idealize.ShloMosaic.SageSpec
open Cert.ReferenceIdeal Cert.ReferenceIdeal.Read Cert.Spec
theorem layer_of {ea : Mat 400000 16} {We : Mat 16 128} {be : Net.Vct 128} {mW1 : Net.Stk 3 384 128} {mb1 : Mat 3 128}
    {mW2 : Net.Stk 3 128 128} {mb2 : Mat 3 128} {uW1 : Net.Stk 3 256 128} {ub1 : Mat 3 128}
    {uW2 : Net.Stk 3 128 128} {ub2 : Mat 3 128} {ei : IVec ⟨2, ![2, 400000]⟩ 32} (l : Fin 3)
    {Hv H : Mat 50000 128} {Mv : Mat 400000 128} {Nv : Mat 50000 128} (hH : Hv = H)
    (hM : Mv = Net.msg ea We be mW1 mb1 mW2 mb2 ei l Hv)
    (hN : Nv = nodeF Hv (Net.aggF (Net.dstV ei) Mv) (Net.slab uW1 l 0 (by omega)) (Net.slab uW1 l 128 (by omega))
      (Net.rowAt ub1 l) (Net.slab uW2 l 0 (by omega)) (Net.rowAt ub2 l)) :
    Nv = Net.layer ea We be mW1 mb1 mW2 mb2 uW1 ub1 uW2 ub2 ei l H := by
  subst hH
  subst hM
  exact hN
section
variable (x0 : (⟨S50000x32, .f32⟩ : BufTy).Contents (Elt Ideal)) (x1 : (⟨S400000x16, .f32⟩ : BufTy).Contents (Elt Ideal))
  (x2 : (⟨S8x1, .f32⟩ : BufTy).Contents (Elt Ideal))
  (x3 : (⟨S32x128, .f32⟩ : BufTy).Contents (Elt Ideal)) (x4 : (⟨S128, .f32⟩ : BufTy).Contents (Elt Ideal))
  (x5 : (⟨S16x128, .f32⟩ : BufTy).Contents (Elt Ideal)) (x6 : (⟨S128, .f32⟩ : BufTy).Contents (Elt Ideal))
  (x7 : (⟨S1x128, .f32⟩ : BufTy).Contents (Elt Ideal)) (x8 : (⟨S128, .f32⟩ : BufTy).Contents (Elt Ideal))
  (x9 : (⟨S3x384x128, .f32⟩ : BufTy).Contents (Elt Ideal)) (x10 : (⟨S3x128, .f32⟩ : BufTy).Contents (Elt Ideal))
  (x11 : (⟨S3x128x128, .f32⟩ : BufTy).Contents (Elt Ideal)) (x12 : (⟨S3x128, .f32⟩ : BufTy).Contents (Elt Ideal))
  (x13 : (⟨S3x256x128, .f32⟩ : BufTy).Contents (Elt Ideal)) (x14 : (⟨S3x128, .f32⟩ : BufTy).Contents (Elt Ideal))
  (x15 : (⟨S3x128x128, .f32⟩ : BufTy).Contents (Elt Ideal)) (x16 : (⟨S3x128, .f32⟩ : BufTy).Contents (Elt Ideal))
  (x17 : (⟨S256x128, .f32⟩ : BufTy).Contents (Elt Ideal)) (x18 : (⟨S128, .f32⟩ : BufTy).Contents (Elt Ideal))
  (x19 : (⟨S128x64, .f32⟩ : BufTy).Contents (Elt Ideal)) (x20 : (⟨S64, .f32⟩ : BufTy).Contents (Elt Ideal))
  (x21 : (⟨S64x1, .f32⟩ : BufTy).Contents (Elt Ideal)) (x22 : (⟨S1, .f32⟩ : BufTy).Contents (Elt Ideal))
  (x23 : (⟨S2x400000, .i32⟩ : BufTy).Contents (Elt Ideal)) (x24 : (⟨S50000, .i32⟩ : BufTy).Contents (Elt Ideal))
theorem r_h1 : (fun i => val_main_v69 (F := Ideal) x0 x1 x3 x4 x5 x6 x9 x10 x11 x12 x13 x14 x15 x16 x23 i)
    = Net.H1 (fun i => x0 i) (fun i => x1 i) (fun i => x3 i) (fun i => x4 i) (fun i => x5 i) (fun i => x6 i)
        (fun i => x9 i) (fun i => x10 i) (fun i => x11 i) (fun i => x12 i) (fun i => x13 i) (fun i => x14 i)
        (fun i => x15 i) (fun i => x16 i) (fun i => x23 i) :=
  layer_of 0 (RVal.ref_h0 x0 x3 x4)
    (RVal.ref_msg0 x0 x1 x3 x4 x5 x6 x9 x10 x11 x12 x23)
    (RVal.ref_h1 x0 x1 x3 x4 x5 x6 x9 x10 x11 x12 x13 x14 x15 x16 x23 _ rfl)
theorem r_h2 : (fun i => val_main_v123 (F := Ideal) x0 x1 x3 x4 x5 x6 x9 x10 x11 x12 x13 x14 x15 x16 x23 i)
    = Net.H2 (fun i => x0 i) (fun i => x1 i) (fun i => x3 i) (fun i => x4 i) (fun i => x5 i) (fun i => x6 i)
        (fun i => x9 i) (fun i => x10 i) (fun i => x11 i) (fun i => x12 i) (fun i => x13 i) (fun i => x14 i)
        (fun i => x15 i) (fun i => x16 i) (fun i => x23 i) :=
  layer_of 1 (r_h1 x0 x1 x3 x4 x5 x6 x9 x10 x11 x12 x13 x14 x15 x16 x23)
    (RVal.ref_msg1 x0 x1 x3 x4 x5 x6 x9 x10 x11 x12 x13 x14 x15 x16 x23)
    (RVal.ref_h2 x0 x1 x3 x4 x5 x6 x9 x10 x11 x12 x13 x14 x15 x16 x23 _ rfl)
theorem r_h3 : (fun i => val_main_v177 (F := Ideal) x0 x1 x3 x4 x5 x6 x9 x10 x11 x12 x13 x14 x15 x16 x23 i)
    = Net.H3 (fun i => x0 i) (fun i => x1 i) (fun i => x3 i) (fun i => x4 i) (fun i => x5 i) (fun i => x6 i)
        (fun i => x9 i) (fun i => x10 i) (fun i => x11 i) (fun i => x12 i) (fun i => x13 i) (fun i => x14 i)
        (fun i => x15 i) (fun i => x16 i) (fun i => x23 i) :=
  layer_of 2 (r_h2 x0 x1 x3 x4 x5 x6 x9 x10 x11 x12 x13 x14 x15 x16 x23)
    (RVal.ref_msg2 x0 x1 x3 x4 x5 x6 x9 x10 x11 x12 x13 x14 x15 x16 x23)
    (RVal.ref_h3 x0 x1 x3 x4 x5 x6 x9 x10 x11 x12 x13 x14 x15 x16 x23 _ rfl)
theorem r_out : val_main_v204 (F := Ideal) x0 x1 x2 x3 x4 x5 x6 x7 x8 x9 x10 x11 x12 x13 x14 x15 x16 x17 x18 x19 x20 x21 x22 x23 x24
    = Cert.Tail.tailF (Net.H3 (fun i => x0 i) (fun i => x1 i) (fun i => x3 i) (fun i => x4 i) (fun i => x5 i) (fun i => x6 i)
        (fun i => x9 i) (fun i => x10 i) (fun i => x11 i) (fun i => x12 i) (fun i => x13 i) (fun i => x14 i)
        (fun i => x15 i) (fun i => x16 i) (fun i => x23 i))
        (addf (F := Ideal) (Host.dotGeneral (F := Ideal) (φ₁ := .f32) (φ₂ := .f32)
            Cert.KernelIdeal.dot_S8x1_S1x128_S8x128_1_0_0_1_n_n none x2 x7)
          (broadcastInDim Cert.KernelIdeal.S8x128 ![0, 1] Cert.KernelIdeal.Gen.bcast_S1x128_S8x128_0_1
            (broadcastInDim Cert.KernelIdeal.S1x128 ![1] Cert.KernelIdeal.Gen.bcast_S128_S1x128_1 x8)))
        x24 x17 x18 x19 x20 x21 x22 :=
  (Cert.Tail.rtail x0 x1 x2 x3 x4 x5 x6 x7 x8 x9 x10 x11 x12 x13 x14 x15 x16 x17 x18 x19 x20 x21 x22 x23 x24).trans
    (congrArg₂ (fun H g => Cert.Tail.tailF H g x24 x17 x18 x19 x20 x21 x22)
      (r_h3 x0 x1 x3 x4 x5 x6 x9 x10 x11 x12 x13 x14 x15 x16 x23) (Cert.Tail.rg x2 x7 x8))
end
end Cert.RChain
end
-- ==== Proof.PreRange.lean ====
import proofs.«418781_j85873576116382_1_alg».proof.Defs
import Idealize.ShloMosaic.Lib.StableHlo.Predicate
import Idealize.ShloMosaic.Lib.ReduceAll
import Idealize.ShloMosaic.Lib.ValueIdx
set_option maxRecDepth 16384
noncomputable section
namespace Cert.PreRange
open Idealize.ShloMosaic Idealize.SL.Sem
open Cert.Pre_finite_inputs
instance : Subsingleton S_.Idx := ⟨fun a b => funext fun d => d.elim0⟩
def InRange (a : IVec S2x400000 32) : Prop :=
  ∀ i : S2x400000.Idx, -50000 ≤ (a i).toInt ∧ (a i).toInt < 50000
theorem lo_toInt : (4294917296#32 : BitVec 32).toInt = -50000 := by decide
theorem hi_toInt : (50000#32 : BitVec 32).toInt = 50000 := by decide
theorem word_in_range (w : BitVec 32)
    (h : IntOp.andi (IntOp.cmpi .sge w (4294917296#32)) (IntOp.cmpi .slt w (50000#32)) = 1#1) :
    -50000 ≤ w.toInt ∧ w.toInt < 50000 := by
  obtain ⟨hge, hlt⟩ := IntOp.andi_eq_one.1 h
  have h1 := IntOp.cmpi_sge.1 hge
  have h2 := IntOp.cmpi_slt.1 hlt
  rw [lo_toInt] at h1
  rw [hi_toInt] at h2
  exact ⟨h1, h2⟩
section Chain
variable [Facts] {F : FTy → Type} [FloatOps F]
theorem of_part7 {v113 : IVec S_ 1} {v118 : IVec S2x400000 1} {c46 : IVec S_ 1}
    (h : fn_part7 (F := F) v113 v118 c46 ValueIdx.ix0 = 1#1) (i : S2x400000.Idx) : v118 i = 1#1 := by
  unfold fn_part7 at h
  have h' : IntOp.andi (v113 ValueIdx.ix0)
      (Host.reduce IntOp.andi v118 c46 Facts.reducesTo_S2x400000_S_d0_1 Facts.h_S_ ValueIdx.ix0) = 1#1 := h
  exact Host.reduce_andi_all v118 c46 Facts.reducesTo_S2x400000_S_d0_1 Facts.h_S_ ValueIdx.ix0
    (IntOp.andi_eq_one.1 h').2 i
theorem of_part6 {a21 : FVec F S64x1 .f32} {a22 : FVec F S1 .f32} {a23 : IVec S2x400000 32} {v98 : IVec S_ 1} {v101 : IVec S64 1} {c39 : IVec S_ 1}
    (h : fn_part6 (F := F) a21 a22 a23 v98 v101 c39 ValueIdx.ix0 = 1#1) : InRange a23 := by
  intro i
  unfold fn_part6 at h
  have hb := of_part7 h i
  exact word_in_range (a23 i) hb
theorem of_part5 {a18 : FVec F S128 .f32} {a19 : FVec F S128x64 .f32} {a20 : FVec F S64 .f32} {a21 : FVec F S64x1 .f32} {a22 : FVec F S1 .f32} {a23 : IVec S2x400000 32} {v83 : IVec S_ 1} {v84 : FVec F S256x128 .f32} {cst32 : FVec F S_ .f32}
    (h : fn_part5 (F := F) a18 a19 a20 a21 a22 a23 v83 v84 cst32 ValueIdx.ix0 = 1#1) : InRange a23 := by
  unfold fn_part5 at h
  exact of_part6 h
theorem of_part4 {a14 : FVec F S3x128 .f32} {a15 : FVec F S3x128x128 .f32} {a16 : FVec F S3x128 .f32} {a17 : FVec F S256x128 .f32} {a18 : FVec F S128 .f32} {a19 : FVec F S128x64 .f32} {a20 : FVec F S64 .f32} {a21 : FVec F S64x1 .f32} {a22 : FVec F S1 .f32} {a23 : IVec S2x400000 32} {v63 : IVec S_ 1} {v67 : IVec S_ 1}
    (h : fn_part4 (F := F) a14 a15 a16 a17 a18 a19 a20 a21 a22 a23 v63 v67 ValueIdx.ix0 = 1#1) : InRange a23 := by
  unfold fn_part4 at h
  exact of_part5 h
theorem of_part3 {a11 : FVec F S3x128x128 .f32} {a12 : FVec F S3x128 .f32} {a13 : FVec F S3x256x128 .f32} {a14 : FVec F S3x128 .f32} {a15 : FVec F S3x128x128 .f32} {a16 : FVec F S3x128 .f32} {a17 : FVec F S256x128 .f32} {a18 : FVec F S128 .f32} {a19 : FVec F S128x64 .f32} {a20 : FVec F S64 .f32} {a21 : FVec F S64x1 .f32} {a22 : FVec F S1 .f32} {a23 : IVec S2x400000 32} {v48 : IVec S_ 1} {v49 : FVec F S3x128 .f32} {v50 : FVec F S3x128 .f32}
    (h : fn_part3 (F := F) a11 a12 a13 a14 a15 a16 a17 a18 a19 a20 a21 a22 a23 v48 v49 v50 ValueIdx.ix0 = 1#1) : InRange a23 := by
  unfold fn_part3 at h
  exact of_part4 h
theorem of_part2 {a7 : FVec F S1x128 .f32} {a8 : FVec F S128 .f32} {a9 : FVec F S3x384x128 .f32} {a10 : FVec F S3x128 .f32} {a11 : FVec F S3x128x128 .f32} {a12 : FVec F S3x128 .f32} {a13 : FVec F S3x256x128 .f32} {a14 : FVec F S3x128 .f32} {a15 : FVec F S3x128x128 .f32} {a16 : FVec F S3x128 .f32} {a17 : FVec F S256x128 .f32} {a18 : FVec F S128 .f32} {a19 : FVec F S128x64 .f32} {a20 : FVec F S64 .f32} {a21 : FVec F S64x1 .f32} {a22 : FVec F S1 .f32} {a23 : IVec S2x400000 32} {v33 : IVec S_ 1}
    (h : fn_part2 (F := F) a7 a8 a9 a10 a11 a12 a13 a14 a15 a16 a17 a18 a19 a20 a21 a22 a23 v33 ValueIdx.ix0 = 1#1) : InRange a23 := by
  unfold fn_part2 at h
  exact of_part3 h
theorem of_part1 {a4 : FVec F S128 .f32} {a5 : FVec F S16x128 .f32} {a6 : FVec F S128 .f32} {a7 : FVec F S1x128 .f32} {a8 : FVec F S128 .f32} {a9 : FVec F S3x384x128 .f32} {a10 : FVec F S3x128 .f32} {a11 : FVec F S3x128x128 .f32} {a12 : FVec F S3x128 .f32} {a13 : FVec F S3x256x128 .f32} {a14 : FVec F S3x128 .f32} {a15 : FVec F S3x128x128 .f32} {a16 : FVec F S3x128 .f32} {a17 : FVec F S256x128 .f32} {a18 : FVec F S128 .f32} {a19 : FVec F S128x64 .f32} {a20 : FVec F S64 .f32} {a21 : FVec F S64x1 .f32} {a22 : FVec F S1 .f32} {a23 : IVec S2x400000 32} {v13 : IVec S_ 1} {v16 : IVec S32x128 1}
    (h : fn_part1 (F := F) a4 a5 a6 a7 a8 a9 a10 a11 a12 a13 a14 a15 a16 a17 a18 a19 a20 a21 a22 a23 v13 v16 ValueIdx.ix0 = 1#1) : InRange a23 := by
  unfold fn_part1 at h
  exact of_part2 h
theorem of_fn {a0 : FVec F S50000x32 .f32} {a1 : FVec F S400000x16 .f32} {a2 : FVec F S8x1 .f32} {a3 : FVec F S32x128 .f32} {a4 : FVec F S128 .f32} {a5 : FVec F S16x128 .f32} {a6 : FVec F S128 .f32} {a7 : FVec F S1x128 .f32} {a8 : FVec F S128 .f32} {a9 : FVec F S3x384x128 .f32} {a10 : FVec F S3x128 .f32} {a11 : FVec F S3x128x128 .f32} {a12 : FVec F S3x128 .f32} {a13 : FVec F S3x256x128 .f32} {a14 : FVec F S3x128 .f32} {a15 : FVec F S3x128x128 .f32} {a16 : FVec F S3x128 .f32} {a17 : FVec F S256x128 .f32} {a18 : FVec F S128 .f32} {a19 : FVec F S128x64 .f32} {a20 : FVec F S64 .f32} {a21 : FVec F S64x1 .f32} {a22 : FVec F S1 .f32} {a23 : IVec S2x400000 32} {a24 : IVec S50000 32}
    (h : fn (F := F) a0 a1 a2 a3 a4 a5 a6 a7 a8 a9 a10 a11 a12 a13 a14 a15 a16 a17 a18 a19 a20 a21 a22 a23 a24 ValueIdx.ix0 = 1#1) : InRange a23 := by
  unfold fn at h
  exact of_part1 h
end Chain
theorem range_of_pre [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S2x400000.Idx) :
    -50000 ≤ ((m ((c.tc : Thread Cert.KernelIdeal.nD Cert.KernelIdeal.τ).loc Cert.KernelIdeal.main_arg23) : IVec Cert.KernelIdeal.S2x400000 32) i).toInt
      ∧ ((m ((c.tc : Thread Cert.KernelIdeal.nD Cert.KernelIdeal.τ).loc Cert.KernelIdeal.main_arg23) : IVec Cert.KernelIdeal.S2x400000 32) i).toInt < 50000 := by
  have e : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) ValueIdx.ix0 = 1#1 :=
    congrFun (h c) ValueIdx.ix0
  exact of_fn e i
end Cert.PreRange
end
-- ==== Proof.lean ====
import proofs.«418781_j85873576116382_1_alg».proof.Defs
import proofs.«418781_j85873576116382_1_alg».proof.Proof.Gen.Kernel
import proofs.«418781_j85873576116382_1_alg».proof.Proof.Gen.Kernel.Frame
import proofs.«418781_j85873576116382_1_alg».proof.Proof.Gen.KernelIdeal
import proofs.«418781_j85873576116382_1_alg».proof.Proof.Gen.KernelIdeal.Frame
import proofs.«418781_j85873576116382_1_alg».proof.Proof.Gen.ReferenceIdeal
import proofs.«418781_j85873576116382_1_alg».proof.Proof.RRunAsm
import proofs.«418781_j85873576116382_1_alg».proof.Proof.Gen.Pre_finite_inputs
import proofs.«418781_j85873576116382_1_alg».proof.Proof.KRun
import proofs.«418781_j85873576116382_1_alg».proof.Proof.KFinal
import proofs.«418781_j85873576116382_1_alg».proof.Proof.RChain
import proofs.«418781_j85873576116382_1_alg».proof.Proof.PreRange
import Idealize.ShloMosaic.Adequacy
import Idealize.ShloMosaic.Init
noncomputable section
namespace Cert.Proof
open Idealize.ShloMosaic Idealize.ShloMosaic.TcCoe Idealize.SL.Sem
theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RRun.run m ρ)
theorem algebraic : Cert.algebraic_KernelIdeal_ReferenceIdeal := by
  intro m ρ m' ρ' hpre hagree
  refine ⟨fun c => Cert.KernelIdeal.Gen.W31 m ρ c (Proc.devRef .tc Cert.KernelIdeal.main_v164),
    Cert.KernelIdeal.GenRun.run_result (F := Ideal) m ρ, ?_⟩
  refine (θ_run Cert.ReferenceIdeal.defs _ _).mono (fun _ h c => ⟨(h c).1.trans ?_, (h c).2⟩)
    (Cert.RRun.run m' ρ')
  obtain ⟨a0, a1, a2, a3, a4, a5, a6, a7, a8, a9, a10, a11, a12, a13, a14, a15, a16, a17, a18, a19, a20, a21, a22, a23, a24⟩ := hagree c
  rw [a0, a1, a2, a3, a4, a5, a6, a7, a8, a9, a10, a11, a12, a13, a14, a15, a16, a17, a18, a19, a20, a21, a22, a23, a24]
  exact (Cert.RChain.r_out _ _ _ _ _ _ _ _ _ _ _ _ _ _ _ _ _ _ _ _ _ _ _ _ _).trans
    (Cert.KChain.k_out m ρ c (Cert.PreRange.range_of_pre m hpre c)).symm
theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩
end Cert.Proof
end
